-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x160000 : Shape := ⟨2, ![2, 160000]⟩
abbrev S128 : Shape := ⟨1, ![128]⟩
abbrev S384x128 : Shape := ⟨2, ![384, 128]⟩
abbrev S384 : Shape := ⟨1, ![384]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S2x160000 : S_.BroadcastsInDim S2x160000 (![] : Fin 0 → Fin S2x160000.rank)
  reducesTo_S2x160000_S_d0_1 : S2x160000.ReducesTo [0, 1] S_

variable [Facts]

def fn_part3 {F : FTy → Type} [FloatOps F] (main_arg1 : IVec S2x160000 32) (main_arg5 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_c_20 : IVec S_ 32 := constantI S_ 32 0#32
  let main_v54 : IVec S2x160000 32 := broadcastInDim S2x160000 ![] bcast_S_S2x160000 main_c_20
  let main_v55 : IVec S2x160000 1 := cmpi .sge main_arg1 main_v54
  let main_c_21 : IVec S_ 32 := constantI S_ 32 9999#32
  let main_v56 : IVec S2x160000 32 := broadcastInDim S2x160000 ![] bcast_S_S2x160000 main_c_21
  let main_v57 : IVec S2x160000 1 := cmpi .sle main_arg1 main_v56
  let main_v58 : IVec S2x160000 1 := andi main_v55 main_v57
  let main_c_22 : IVec S_ 1 := constantI S_ 1 1#1
  let main_v59 : IVec S_ 1 := (fun x v => Host.reduce IntOp.andi x v reducesTo_S2x160000_S_d0_1 h_S_) main_v58 main_c_22
  let main_v60 : IVec S_ 1 := andi main_v53 main_v59
  let main_cst_23 : FVec F S_ .f32 := constant S_ .f32 0x00000000#32
  let main_v61 : FVec F S128 .f32 := broadcastInDim S128 ![] bcast_S_S128 main_cst_23
  let main_v62 : IVec S128 1 := cmpf .oge main_arg5 main_v61
  let main_c_24 : IVec S_ 1 := constantI S_ 1 1#1
  let main_v63 : IVec S_ 1 := (fun x v => Host.reduce IntOp.andi x v reducesTo_S128_S_d0 h_S_) main_v62 main_c_24
  let main_v64 : IVec S_ 1 := andi main_v60 main_v63
  main_v64

def fn_part2 {F : FTy → Type} [FloatOps F] (main_arg1 : IVec S2x160000 32) (main_arg5 : FVec F S128 .f32) (main_arg8 : FVec F S384 .f32) (main_arg9 : FVec F S384 .f32) (main_arg10 : FVec F S128x128 .f32) (main_arg11 : FVec F S128x128 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S384 .f32 := Host.absf main_arg9
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg5 main_v48 main_v49 main_v50

def fn_part1 {F : FTy → Type} [FloatOps F] (main_arg1 : IVec S2x160000 32) (main_arg5 : FVec F S128 .f32) (main_arg6 : FVec F S384x128 .f32) (main_arg7 : FVec F S384x128 .f32) (main_arg8 : FVec F S384 .f32) (main_arg9 : FVec F S384 .f32) (main_arg10 : FVec F S128x128 .f32) (main_arg11 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x128 .f32 := Host.absf main_arg6
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384x128 .f32 := Host.absf main_arg7
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg1 main_arg5 main_arg8 main_arg9 main_arg10 main_arg11 main_v33

def fn {F : FTy → Type} [FloatOps F] (main_arg0 : FVec F S10000x128 .f32) (main_arg1 : IVec S2x160000 32) (main_arg2 : FVec F S128 .f32) (main_arg3 : FVec F S128 .f32) (main_arg4 : FVec F S128 .f32) (main_arg5 : FVec F S128 .f32) (main_arg6 : FVec F S384x128 .f32) (main_arg7 : FVec F S384x128 .f32) (main_arg8 : FVec F S384 .f32) (main_arg9 : FVec F S384 .f32) (main_arg10 : FVec F S128x128 .f32) (main_arg11 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_v13 main_v16
-- ==== Kernel.lean ====
abbrev S10000x128 : Shape := ⟨2, ![10000, 128]⟩
abbrev S2x160000 : Shape := ⟨2, ![2, 160000]⟩
abbrev S128 : Shape := ⟨1, ![128]⟩
abbrev S384x128 : Shape := ⟨2, ![384, 128]⟩
abbrev S384 : Shape := ⟨1, ![384]⟩
abbrev S128x128 : Shape := ⟨2, ![128, 128]⟩
abbrev S_ : Shape := ⟨0, ![]⟩
abbrev S128x1 : Shape := ⟨2, ![128, 1]⟩
abbrev S128x384 : Shape := ⟨2, ![128, 384]⟩
abbrev S1x384 : Shape := ⟨2, ![1, 384]⟩
abbrev S1x128 : Shape := ⟨2, ![1, 128]⟩
abbrev S1x160000 : Shape := ⟨2, ![1, 160000]⟩
abbrev S160000 : Shape := ⟨1, ![160000]⟩
abbrev S10000x16 : Shape := ⟨2, ![10000, 16]⟩
abbrev S16x10000 : Shape := ⟨2, ![16, 10000]⟩
abbrev S16x10240 : Shape := ⟨2, ![16, 10240]⟩
abbrev S1280x128 : Shape := ⟨2, ![1280, 128]⟩
abbrev S1320x128 : Shape := ⟨2, ![1320, 128]⟩
abbrev S163840x128 : Shape := ⟨2, ![163840, 128]⟩
abbrev S40x128 : Shape := ⟨2, ![40, 128]⟩
abbrev S16x10240x128 : Shape := ⟨3, ![16, 10240, 128]⟩
abbrev S16x400x128 : Shape := ⟨3, ![16, 400, 128]⟩
abbrev S400x128 : Shape := ⟨2, ![400, 128]⟩
abbrev S6400x128 : Shape := ⟨2, ![6400, 128]⟩
abbrev S6400x384 : Shape := ⟨2, ![6400, 384]⟩
abbrev S400x384 : Shape := ⟨2, ![400, 384]⟩

abbrev nBuf : Table → Nat
  | .hbm => 51
  | .local .tc .vmem => 13
  | .local .scVector .vmem => 6
  | _ => 0

abbrev bufTy : (tb : Table) → Fin (nBuf tb) → BufTy
  | .hbm, ⟨0, _⟩ => ⟨S10000x128, .f32⟩
  | .hbm, ⟨1, _⟩ => ⟨S2x160000, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S384x128, .f32⟩
  | .hbm, ⟨7, _⟩ => ⟨S384x128, .f32⟩
  | .hbm, ⟨8, _⟩ => ⟨S384, .f32⟩
  | .hbm, ⟨9, _⟩ => ⟨S384, .f32⟩
  | .hbm, ⟨10, _⟩ => ⟨S128x128, .f32⟩
  | .hbm, ⟨11, _⟩ => ⟨S128x128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128x1, .f32⟩
  | .hbm, ⟨20, _⟩ => ⟨S128x384, .f32⟩
  | .hbm, ⟨21, _⟩ => ⟨S128x384, .f32⟩
  | .hbm, ⟨22, _⟩ => ⟨S128x384, .f32⟩
  | .hbm, ⟨23, _⟩ => ⟨S128x384, .f32⟩
  | .hbm, ⟨24, _⟩ => ⟨S384, .f32⟩
  | .hbm, ⟨25, _⟩ => ⟨S384, .f32⟩
  | .hbm, ⟨26, _⟩ => ⟨S1x384, .f32⟩
  | .hbm, ⟨27, _⟩ => ⟨S128x384, .f32⟩
  | .hbm, ⟨28, _⟩ => ⟨S1x384, .f32⟩
  | .hbm, ⟨29, _⟩ => ⟨S128x1, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128, .f32⟩
  | .hbm, ⟨35, _⟩ => ⟨S1x128, .f32⟩
  | .hbm, ⟨36, _⟩ => ⟨S128x128, .f32⟩
  | .hbm, ⟨37, _⟩ => ⟨S1x160000, .i32⟩
  | .hbm, ⟨38, _⟩ => ⟨S160000, .i32⟩
  | .hbm, ⟨39, _⟩ => ⟨S10000x16, .i32⟩
  | .hbm, ⟨40, _⟩ => ⟨S16x10000, .i32⟩
  | .hbm, ⟨41, _⟩ => ⟨S_, .i32⟩
  | .hbm, ⟨42, _⟩ => ⟨S_, .i32⟩
  | .hbm, ⟨43, _⟩ => ⟨S16x10240, .i32⟩
  | .hbm, ⟨44, _⟩ => ⟨S1280x128, .i32⟩
  | .hbm, ⟨45, _⟩ => ⟨S_, .i32⟩
  | .hbm, ⟨46, _⟩ => ⟨S_, .i32⟩
  | .hbm, ⟨47, _⟩ => ⟨S1320x128, .i32⟩
  | .hbm, ⟨48, _⟩ => ⟨S163840x128, .f32⟩
  | .hbm, ⟨49, _⟩ => ⟨S16x10240x128, .f32⟩
  | .hbm, ⟨50, _⟩ => ⟨S10000x128, .f32⟩
  | .local .tc .vmem, ⟨0, _⟩ => ⟨S16x400x128, .f32⟩
  | .local .tc .vmem, ⟨1, _⟩ => ⟨S16x400x128, .f32⟩
  | .local .tc .vmem, ⟨2, _⟩ => ⟨S400x128, .f32⟩
  | .local .tc .vmem, ⟨3, _⟩ => ⟨S400x128, .f32⟩
  | .local .tc .vmem, ⟨4, _⟩ => ⟨S128x384, .f32⟩
  | .local .tc .vmem, ⟨5, _⟩ => ⟨S128x384, .f32⟩
  | .local .tc .vmem, ⟨6, _⟩ => ⟨S1x384, .f32⟩
  | .local .tc .vmem, ⟨7, _⟩ => ⟨S1x384, .f32⟩
  | .local .tc .vmem, ⟨8, _⟩ => ⟨S128x128, .f32⟩
  | .local .tc .vmem, ⟨9, _⟩ => ⟨S128x128, .f32⟩
  | .local .tc .vmem, ⟨10, _⟩ => ⟨S1x128, .f32⟩
  | .local .tc .vmem, ⟨11, _⟩ => ⟨S400x128, .f32⟩
  | .local .tc .vmem, ⟨12, _⟩ => ⟨S400x128, .f32⟩
  | .local .scVector .vmem, ⟨0, _⟩ => ⟨S40x128, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_call0_v0 : Ref sig .tc := ⟨.hbm, 42, rfl⟩
abbrev main_v28 : Ref sig .tc := ⟨.hbm, 43, rfl⟩
abbrev main_v29 : Ref sig .tc := ⟨.hbm, 44, rfl⟩
abbrev main_c_0 : Ref sig .tc := ⟨.hbm, 45, rfl⟩
abbrev main_call1_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_arg0_scv : Ref sig .scVector := ⟨.hbm, 0, rfl⟩
abbrev main_v30_scv : Ref sig .scVector := ⟨.hbm, 47, rfl⟩
abbrev main_v31_scv : Ref sig .scVector := ⟨.hbm, 48, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg9_1 : Ref sig .tc := ⟨.vmem, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let c0_i32_1 : BitVec 32 := 0#32
  let v2 : BitVec 1 := Scalar.cmpi .eq arg0 c0_i32_1
  let arg1 : BitVec 32 := BitVec.ofNat 32 (i 1).val
  let c40_i32_2 : BitVec 32 := 40#32
  let v3 : BitVec 32 := Scalar.muli arg1 c40_i32_2
  let c640_i32 : BitVec 32 := 640#32
  let c40_i32_3 : BitVec 32 := 40#32
  let v4 : BitVec 32 := Scalar.muli arg1 c40_i32_3
  let v5 : BitVec 32 := Scalar.addi c640_i32 v4
  let v6 : BitVec 32 := Scalar.select v2 v3 v5
  let c0_i32_82_r0 : BitVec 32 := 0#32
  ![v6.toNat, 0]
@[reducible] def k0_t1_loop (i : grid0.Coords) : Scf.Loop 32 :=
  let c0_i32_28 : BitVec 32 := 0#32
  let arg0 : BitVec 32 := BitVec.ofNat 32 (i 0).val
  let c0_i32 : BitVec 32 := 0#32
  let v0 : BitVec 1 := Scalar.cmpi .eq arg0 c0_i32
  let c40_i32 : BitVec 32 := 40#32
  let c40_i32_0 : BitVec 32 := 40#32
  let v1 : BitVec 32 := Scalar.select v0 c40_i32 c40_i32_0
  let c0_i32_20 : BitVec 32 := 0#32
  let v24 : BitVec 1 := Scalar.cmpi .sgt v1 c0_i32_20
  let v25 : BitVec 32 := Scalar.extui v24
  let c0_i32_21 : BitVec 32 := 0#32
  let v26 : BitVec 1 := Scalar.cmpi .slt v1 c0_i32_21
  let v27 : BitVec 32 := Scalar.extui v26
  let v28 : BitVec 32 := Scalar.subi v25 v27
  let c5_i32 : BitVec 32 := 5#32
  let c0_i32_22 : BitVec 32 := 0#32
  let v29 : BitVec 1 := Scalar.cmpi .sgt c5_i32 c0_i32_22
  let v30 : BitVec 32 := Scalar.extui v29
  let c0_i32_23 : BitVec 32 := 0#32
  let v31 : BitVec 1 := Scalar.cmpi .slt c5_i32 c0_i32_23
  let v32 : BitVec 32 := Scalar.extui v31
  let v33 : BitVec 32 := Scalar.subi v30 v32
  let v34 : BitVec 1 := Scalar.cmpi .ne v28 v33
  let v35 : BitVec 32 := Scalar.remsi v1 c5_i32
  let c0_i32_24 : BitVec 32 := 0#32
  let v36 : BitVec 1 := Scalar.cmpi .ne v35 c0_i32_24
  let v37 : BitVec 1 := Scalar.andi v34 v36
  let v23 : BitVec 32 := Scalar.divsi v1 c5_i32
  let c1_i32_25 : BitVec 32 := 1#32
  let v38 : BitVec 32 := Scalar.subi v23 c1_i32_25
  let v39 : BitVec 32 := Scalar.select v37 v38 v23
  let c1_i32_26 : BitVec 32 := 1#32
  let v40 : BitVec 32 := Scalar.subi v39 c1_i32_26
  let v41 : BitVec 32 := Scalar.subi v40 c0_i32_28
  let c1_i32_29 : BitVec 32 := 1#32
  let v43 : BitVec 32 := Scalar.divsi v41 c1_i32_29
  let v44 : BitVec 32 := Scalar.muli v43 c1_i32_29
  let v45 : BitVec 32 := Scalar.addi c0_i32_28 v44
  let c1_i32_30 : BitVec 32 := 1#32
  ⟨c0_i32_28, v45, c1_i32_30⟩
def k0_off2 (i : grid0.Coords) (k0_t1 : Fin (k0_t1_loop i).trips) (c0_i32_83 : BitVec 32) : Fin 2 → Nat :=
  let c0_i32_28 : BitVec 32 := 0#32
  let c1_i32_30 : BitVec 32 := 1#32
  let arg21 : BitVec 32 := Scf.iv c0_i32_28 c1_i32_30 k0_t1
  let c5_i32_82 : BitVec 32 := 5#32
  let v101 : BitVec 32 := Scalar.muli arg21 c5_i32_82
  let v102 : BitVec 32 := Scalar.addi v101 c0_i32_83
  let c0_i32_84 : BitVec 32 := 0#32
  ![v102.toNat, 0]
def k0_off3 (i : grid0.Coords) (k0_t1 : Fin (k0_t1_loop i).trips) (c0_i32_83 : BitVec 32) : Fin 2 → Nat :=
  let arg0 : BitVec 32 := BitVec.ofNat 32 (i 0).val
  let c0_i32_1 : BitVec 32 := 0#32
  let v2 : BitVec 1 := Scalar.cmpi .eq arg0 c0_i32_1
  let arg1 : BitVec 32 := BitVec.ofNat 32 (i 1).val
  let c40_i32_2 : BitVec 32 := 40#32
  let v3 : BitVec 32 := Scalar.muli arg1 c40_i32_2
  let c640_i32 : BitVec 32 := 640#32
  let c40_i32_3 : BitVec 32 := 40#32
  let v4 : BitVec 32 := Scalar.muli arg1 c40_i32_3
  let v5 : BitVec 32 := Scalar.addi c640_i32 v4
  let v6 : BitVec 32 := Scalar.select v2 v3 v5
  let c128_i32 : BitVec 32 := 128#32
  let v7 : BitVec 32 := Scalar.muli v6 c128_i32
  let c0_i32_28 : BitVec 32 := 0#32
  let c1_i32_30 : BitVec 32 := 1#32
  let arg21 : BitVec 32 := Scf.iv c0_i32_28 c1_i32_30 k0_t1
  let c5_i32_82 : BitVec 32 := 5#32
  let v101 : BitVec 32 := Scalar.muli arg21 c5_i32_82
  let v102 : BitVec 32 := Scalar.addi v101 c0_i32_83
  let c128_i32_87 : BitVec 32 := 128#32
  let v106 : BitVec 32 := Scalar.muli v102 c128_i32_87
  let v107 : BitVec 32 := Scalar.addi v7 v106
  let c0_i32_88 : BitVec 32 := 0#32
  ![v107.toNat, 0]
def k0_off4 (i : grid0.Coords) (k0_t1 : Fin (k0_t1_loop i).trips) (c0_i32_83 : BitVec 32) : Fin 2 → Nat :=
  let c0_i32_28 : BitVec 32 := 0#32
  let c1_i32_30 : BitVec 32 := 1#32
  let arg21 : BitVec 32 := Scf.iv c0_i32_28 c1_i32_30 k0_t1
  let c5_i32_82 : BitVec 32 := 5#32
  let v101 : BitVec 32 := Scalar.muli arg21 c5_i32_82
  let v102 : BitVec 32 := Scalar.addi v101 c0_i32_83
  let c5_i32_92 : BitVec 32 := 5#32
  let v112 : BitVec 32 := Scalar.addi v102 c5_i32_92
  let c0_i32_93 : BitVec 32 := 0#32
  ![v112.toNat, 0]
@[reducible] def k0_t2_loop (i : grid0.Coords) : Scf.Loop 32 :=
  let c0_i32_28 : BitVec 32 := 0#32
  let arg0 : BitVec 32 := BitVec.ofNat 32 (i 0).val
  let c0_i32 : BitVec 32 := 0#32
  let v0 : BitVec 1 := Scalar.cmpi .eq arg0 c0_i32
  let c40_i32 : BitVec 32 := 40#32
  let c40_i32_0 : BitVec 32 := 40#32
  let v1 : BitVec 32 := Scalar.select v0 c40_i32 c40_i32_0
  let c0_i32_20 : BitVec 32 := 0#32
  let v24 : BitVec 1 := Scalar.cmpi .sgt v1 c0_i32_20
  let v25 : BitVec 32 := Scalar.extui v24
  let c0_i32_21 : BitVec 32 := 0#32
  let v26 : BitVec 1 := Scalar.cmpi .slt v1 c0_i32_21
  let v27 : BitVec 32 := Scalar.extui v26
  let v28 : BitVec 32 := Scalar.subi v25 v27
  let c5_i32 : BitVec 32 := 5#32
  let c0_i32_22 : BitVec 32 := 0#32
  let v29 : BitVec 1 := Scalar.cmpi .sgt c5_i32 c0_i32_22
  let v30 : BitVec 32 := Scalar.extui v29
  let c0_i32_23 : BitVec 32 := 0#32
  let v31 : BitVec 1 := Scalar.cmpi .slt c5_i32 c0_i32_23
  let v32 : BitVec 32 := Scalar.extui v31
  let v33 : BitVec 32 := Scalar.subi v30 v32
  let v34 : BitVec 1 := Scalar.cmpi .ne v28 v33
  let v35 : BitVec 32 := Scalar.remsi v1 c5_i32
  let c0_i32_24 : BitVec 32 := 0#32
  let v36 : BitVec 1 := Scalar.cmpi .ne v35 c0_i32_24
  let v37 : BitVec 1 := Scalar.andi v34 v36
  let v23 : BitVec 32 := Scalar.divsi v1 c5_i32
  let c1_i32_25 : BitVec 32 := 1#32
  let v38 : BitVec 32 := Scalar.subi v23 c1_i32_25
  let v39 : BitVec 32 := Scalar.select v37 v38 v23
  let c1_i32_26 : BitVec 32 := 1#32
  let v40 : BitVec 32 := Scalar.subi v39 c1_i32_26
  let v41 : BitVec 32 := Scalar.subi v40 c0_i32_28
  let c1_i32_29 : BitVec 32 := 1#32
  let v43 : BitVec 32 := Scalar.divsi v41 c1_i32_29
  let v44 : BitVec 32 := Scalar.muli v43 c1_i32_29
  let v45 : BitVec 32 := Scalar.addi c0_i32_28 v44
  let v42 : BitVec 32 := Scalar.addi c0_i32_28 v41
  let c1_i32_31 : BitVec 32 := 1#32
  ⟨v45, v42, c1_i32_31⟩
def k0_off5 (i : grid0.Coords) (k0_t2 : Fin (k0_t2_loop i).trips) (c0_i32_83 : BitVec 32) : Fin 2 → Nat :=
  let c0_i32_28 : BitVec 32 := 0#32
  let arg0 : BitVec 32 := BitVec.ofNat 32 (i 0).val
  let c0_i32 : BitVec 32 := 0#32
  let v0 : BitVec 1 := Scalar.cmpi .eq arg0 c0_i32
  let c40_i32 : BitVec 32 := 40#32
  let c40_i32_0 : BitVec 32 := 40#32
  let v1 : BitVec 32 := Scalar.select v0 c40_i32 c40_i32_0
  let c0_i32_20 : BitVec 32 := 0#32
  let v24 : BitVec 1 := Scalar.cmpi .sgt v1 c0_i32_20
  let v25 : BitVec 32 := Scalar.extui v24
  let c0_i32_21 : BitVec 32 := 0#32
  let v26 : BitVec 1 := Scalar.cmpi .slt v1 c0_i32_21
  let v27 : BitVec 32 := Scalar.extui v26
  let v28 : BitVec 32 := Scalar.subi v25 v27
  let c5_i32 : BitVec 32 := 5#32
  let c0_i32_22 : BitVec 32 := 0#32
  let v29 : BitVec 1 := Scalar.cmpi .sgt c5_i32 c0_i32_22
  let v30 : BitVec 32 := Scalar.extui v29
  let c0_i32_23 : BitVec 32 := 0#32
  let v31 : BitVec 1 := Scalar.cmpi .slt c5_i32 c0_i32_23
  let v32 : BitVec 32 := Scalar.extui v31
  let v33 : BitVec 32 := Scalar.subi v30 v32
  let v34 : BitVec 1 := Scalar.cmpi .ne v28 v33
  let v35 : BitVec 32 := Scalar.remsi v1 c5_i32
  let c0_i32_24 : BitVec 32 := 0#32
  let v36 : BitVec 1 := Scalar.cmpi .ne v35 c0_i32_24
  let v37 : BitVec 1 := Scalar.andi v34 v36
  let v23 : BitVec 32 := Scalar.divsi v1 c5_i32
  let c1_i32_25 : BitVec 32 := 1#32
  let v38 : BitVec 32 := Scalar.subi v23 c1_i32_25
  let v39 : BitVec 32 := Scalar.select v37 v38 v23
  let c1_i32_26 : BitVec 32 := 1#32
  let v40 : BitVec 32 := Scalar.subi v39 c1_i32_26
  let v41 : BitVec 32 := Scalar.subi v40 c0_i32_28
  let c1_i32_29 : BitVec 32 := 1#32
  let v43 : BitVec 32 := Scalar.divsi v41 c1_i32_29
  let v44 : BitVec 32 := Scalar.muli v43 c1_i32_29
  let v45 : BitVec 32 := Scalar.addi c0_i32_28 v44
  let c1_i32_31 : BitVec 32 := 1#32
  let arg21 : BitVec 32 := Scf.iv v45 c1_i32_31 k0_t2
  let c5_i32_82 : BitVec 32 := 5#32
  let v101 : BitVec 32 := Scalar.muli arg21 c5_i32_82
  let v102 : BitVec 32 := Scalar.addi v101 c0_i32_83
  let c0_i32_84 : BitVec 32 := 0#32
  ![v102.toNat, 0]
def k0_off6 (i : grid0.Coords) (k0_t2 : Fin (k0_t2_loop i).trips) (c0_i32_83 : BitVec 32) : Fin 2 → Nat :=
  let arg0 : BitVec 32 := BitVec.ofNat 32 (i 0).val
  let c0_i32_1 : BitVec 32 := 0#32
  let v2 : BitVec 1 := Scalar.cmpi .eq arg0 c0_i32_1
  let arg1 : BitVec 32 := BitVec.ofNat 32 (i 1).val
  let c40_i32_2 : BitVec 32 := 40#32
  let v3 : BitVec 32 := Scalar.muli arg1 c40_i32_2
  let c640_i32 : BitVec 32 := 640#32
  let c40_i32_3 : BitVec 32 := 40#32
  let v4 : BitVec 32 := Scalar.muli arg1 c40_i32_3
  let v5 : BitVec 32 := Scalar.addi c640_i32 v4
  let v6 : BitVec 32 := Scalar.select v2 v3 v5
  let c128_i32 : BitVec 32 := 128#32
  let v7 : BitVec 32 := Scalar.muli v6 c128_i32
  let c0_i32_28 : BitVec 32 := 0#32
  let c0_i32 : BitVec 32 := 0#32
  let v0 : BitVec 1 := Scalar.cmpi .eq arg0 c0_i32
  let c40_i32 : BitVec 32 := 40#32
  let c40_i32_0 : BitVec 32 := 40#32
  let v1 : BitVec 32 := Scalar.select v0 c40_i32 c40_i32_0
  let c0_i32_20 : BitVec 32 := 0#32
  let v24 : BitVec 1 := Scalar.cmpi .sgt v1 c0_i32_20
  let v25 : BitVec 32 := Scalar.extui v24
  let c0_i32_21 : BitVec 32 := 0#32
  let v26 : BitVec 1 := Scalar.cmpi .slt v1 c0_i32_21
  let v27 : BitVec 32 := Scalar.extui v26
  let v28 : BitVec 32 := Scalar.subi v25 v27
  let c5_i32 : BitVec 32 := 5#32
  let c0_i32_22 : BitVec 32 := 0#32
  let v29 : BitVec 1 := Scalar.cmpi .sgt c5_i32 c0_i32_22
  let v30 : BitVec 32 := Scalar.extui v29
  let c0_i32_23 : BitVec 32 := 0#32
  let v31 : BitVec 1 := Scalar.cmpi .slt c5_i32 c0_i32_23
  let v32 : BitVec 32 := Scalar.extui v31
  let v33 : BitVec 32 := Scalar.subi v30 v32
  let v34 : BitVec 1 := Scalar.cmpi .ne v28 v33
  let v35 : BitVec 32 := Scalar.remsi v1 c5_i32
  let c0_i32_24 : BitVec 32 := 0#32
  let v36 : BitVec 1 := Scalar.cmpi .ne v35 c0_i32_24
  let v37 : BitVec 1 := Scalar.andi v34 v36
  let v23 : BitVec 32 := Scalar.divsi v1 c5_i32
  let c1_i32_25 : BitVec 32 := 1#32
  let v38 : BitVec 32 := Scalar.subi v23 c1_i32_25
  let v39 : BitVec 32 := Scalar.select v37 v38 v23
  let c1_i32_26 : BitVec 32 := 1#32
  let v40 : BitVec 32 := Scalar.subi v39 c1_i32_26
  let v41 : BitVec 32 := Scalar.subi v40 c0_i32_28
  let c1_i32_29 : BitVec 32 := 1#32
  let v43 : BitVec 32 := Scalar.divsi v41 c1_i32_29
  let v44 : BitVec 32 := Scalar.muli v43 c1_i32_29
  let v45 : BitVec 32 := Scalar.addi c0_i32_28 v44
  let c1_i32_31 : BitVec 32 := 1#32
  let arg21 : BitVec 32 := Scf.iv v45 c1_i32_31 k0_t2
  let c5_i32_82 : BitVec 32 := 5#32
  let v101 : BitVec 32 := Scalar.muli arg21 c5_i32_82
  let v102 : BitVec 32 := Scalar.addi v101 c0_i32_83
  let c128_i32_87 : BitVec 32 := 128#32
  let v106 : BitVec 32 := Scalar.muli v102 c128_i32_87
  let v107 : BitVec 32 := Scalar.addi v7 v106
  let c0_i32_88 : BitVec 32 := 0#32
  ![v107.toNat, 0]
def k0_off7 (i : grid0.Coords) (k0_t2 : Fin (k0_t2_loop i).trips) (c0_i32_83 : BitVec 32) : Fin 2 → Nat :=
  let c0_i32_28 : BitVec 32 := 0#32
  let arg0 : BitVec 32 := BitVec.ofNat 32 (i 0).val
  let c0_i32 : BitVec 32 := 0#32
  let v0 : BitVec 1 := Scalar.cmpi .eq arg0 c0_i32
  let c40_i32 : BitVec 32 := 40#32
  let c40_i32_0 : BitVec 32 := 40#32
  let v1 : BitVec 32 := Scalar.select v0 c40_i32 c40_i32_0
  let c0_i32_20 : BitVec 32 := 0#32
  let v24 : BitVec 1 := Scalar.cmpi .sgt v1 c0_i32_20
  let v25 : BitVec 32 := Scalar.extui v24
  let c0_i32_21 : BitVec 32 := 0#32
  let v26 : BitVec 1 := Scalar.cmpi .slt v1 c0_i32_21
  let v27 : BitVec 32 := Scalar.extui v26
  let v28 : BitVec 32 := Scalar.subi v25 v27
  let c5_i32 : BitVec 32 := 5#32
  let c0_i32_22 : BitVec 32 := 0#32
  let v29 : BitVec 1 := Scalar.cmpi .sgt c5_i32 c0_i32_22
  let v30 : BitVec 32 := Scalar.extui v29
  let c0_i32_23 : BitVec 32 := 0#32
  let v31 : BitVec 1 := Scalar.cmpi .slt c5_i32 c0_i32_23
  let v32 : BitVec 32 := Scalar.extui v31
  let v33 : BitVec 32 := Scalar.subi v30 v32
  let v34 : BitVec 1 := Scalar.cmpi .ne v28 v33
  let v35 : BitVec 32 := Scalar.remsi v1 c5_i32
  let c0_i32_24 : BitVec 32 := 0#32
  let v36 : BitVec 1 := Scalar.cmpi .ne v35 c0_i32_24
  let v37 : BitVec 1 := Scalar.andi v34 v36
  let v23 : BitVec 32 := Scalar.divsi v1 c5_i32
  let c1_i32_25 : BitVec 32 := 1#32
  let v38 : BitVec 32 := Scalar.subi v23 c1_i32_25
  let v39 : BitVec 32 := Scalar.select v37 v38 v23
  let c1_i32_26 : BitVec 32 := 1#32
  let v40 : BitVec 32 := Scalar.subi v39 c1_i32_26
  let v41 : BitVec 32 := Scalar.subi v40 c0_i32_28
  let c1_i32_29 : BitVec 32 := 1#32
  let v43 : BitVec 32 := Scalar.divsi v41 c1_i32_29
  let v44 : BitVec 32 := Scalar.muli v43 c1_i32_29
  let v45 : BitVec 32 := Scalar.addi c0_i32_28 v44
  let c1_i32_31 : BitVec 32 := 1#32
  let arg21 : BitVec 32 := Scf.iv v45 c1_i32_31 k0_t2
  let c5_i32_82 : BitVec 32 := 5#32
  let v101 : BitVec 32 := Scalar.muli arg21 c5_i32_82
  let v102 : BitVec 32 := Scalar.addi v101 c0_i32_83
  let c5_i32_92 : BitVec 32 := 5#32
  let v112 : BitVec 32 := Scalar.addi v102 c5_i32_92
  let c0_i32_93 : BitVec 32 := 0#32
  ![v112.toNat, 0]
def k0_off8 (i : grid0.Coords) (c0_i32_33 : BitVec 32) : Fin 2 → Nat :=
  let arg0 : BitVec 32 := BitVec.ofNat 32 (i 0).val
  let c0_i32 : BitVec 32 := 0#32
  let v0 : BitVec 1 := Scalar.cmpi .eq arg0 c0_i32
  let c40_i32 : BitVec 32 := 40#32
  let c40_i32_0 : BitVec 32 := 40#32
  let v1 : BitVec 32 := Scalar.select v0 c40_i32 c40_i32_0
  let c0_i32_20 : BitVec 32 := 0#32
  let v24 : BitVec 1 := Scalar.cmpi .sgt v1 c0_i32_20
  let v25 : BitVec 32 := Scalar.extui v24
  let c0_i32_21 : BitVec 32 := 0#32
  let v26 : BitVec 1 := Scalar.cmpi .slt v1 c0_i32_21
  let v27 : BitVec 32 := Scalar.extui v26
  let v28 : BitVec 32 := Scalar.subi v25 v27
  let c5_i32 : BitVec 32 := 5#32
  let c0_i32_22 : BitVec 32 := 0#32
  let v29 : BitVec 1 := Scalar.cmpi .sgt c5_i32 c0_i32_22
  let v30 : BitVec 32 := Scalar.extui v29
  let c0_i32_23 : BitVec 32 := 0#32
  let v31 : BitVec 1 := Scalar.cmpi .slt c5_i32 c0_i32_23
  let v32 : BitVec 32 := Scalar.extui v31
  let v33 : BitVec 32 := Scalar.subi v30 v32
  let v34 : BitVec 1 := Scalar.cmpi .ne v28 v33
  let v35 : BitVec 32 := Scalar.remsi v1 c5_i32
  let c0_i32_24 : BitVec 32 := 0#32
  let v36 : BitVec 1 := Scalar.cmpi .ne v35 c0_i32_24
  let v37 : BitVec 1 := Scalar.andi v34 v36
  let v23 : BitVec 32 := Scalar.divsi v1 c5_i32
  let c1_i32_25 : BitVec 32 := 1#32
  let v38 : BitVec 32 := Scalar.subi v23 c1_i32_25
  let v39 : BitVec 32 := Scalar.select v37 v38 v23
  let c1_i32_26 : BitVec 32 := 1#32
  let v40 : BitVec 32 := Scalar.subi v39 c1_i32_26
  let c5_i32_32 : BitVec 32 := 5#32
  let v46 : BitVec 32 := Scalar.muli v40 c5_i32_32
  let v47 : BitVec 32 := Scalar.addi v46 c0_i32_33
  let c0_i32_34 : BitVec 32 := 0#32
  ![v47.toNat, 0]
def k0_off9 (i : grid0.Coords) (c0_i32_33 : BitVec 32) : Fin 2 → Nat :=
  let arg0 : BitVec 32 := BitVec.ofNat 32 (i 0).val
  let c0_i32_1 : BitVec 32 := 0#32
  let v2 : BitVec 1 := Scalar.cmpi .eq arg0 c0_i32_1
  let arg1 : BitVec 32 := BitVec.ofNat 32 (i 1).val
  let c40_i32_2 : BitVec 32 := 40#32
  let v3 : BitVec 32 := Scalar.muli arg1 c40_i32_2
  let c640_i32 : BitVec 32 := 640#32
  let c40_i32_3 : BitVec 32 := 40#32
  let v4 : BitVec 32 := Scalar.muli arg1 c40_i32_3
  let v5 : BitVec 32 := Scalar.addi c640_i32 v4
  let v6 : BitVec 32 := Scalar.select v2 v3 v5
  let c128_i32 : BitVec 32 := 128#32
  let v7 : BitVec 32 := Scalar.muli v6 c128_i32
  let c0_i32 : BitVec 32 := 0#32
  let v0 : BitVec 1 := Scalar.cmpi .eq arg0 c0_i32
  let c40_i32 : BitVec 32 := 40#32
  let c40_i32_0 : BitVec 32 := 40#32
  let v1 : BitVec 32 := Scalar.select v0 c40_i32 c40_i32_0
  let c0_i32_20 : BitVec 32 := 0#32
  let v24 : BitVec 1 := Scalar.cmpi .sgt v1 c0_i32_20
  let v25 : BitVec 32 := Scalar.extui v24
  let c0_i32_21 : BitVec 32 := 0#32
  let v26 : BitVec 1 := Scalar.cmpi .slt v1 c0_i32_21
  let v27 : BitVec 32 := Scalar.extui v26
  let v28 : BitVec 32 := Scalar.subi v25 v27
  let c5_i32 : BitVec 32 := 5#32
  let c0_i32_22 : BitVec 32 := 0#32
  let v29 : BitVec 1 := Scalar.cmpi .sgt c5_i32 c0_i32_22
  let v30 : BitVec 32 := Scalar.extui v29
  let c0_i32_23 : BitVec 32 := 0#32
  let v31 : BitVec 1 := Scalar.cmpi .slt c5_i32 c0_i32_23
  let v32 : BitVec 32 := Scalar.extui v31
  let v33 : BitVec 32 := Scalar.subi v30 v32
  let v34 : BitVec 1 := Scalar.cmpi .ne v28 v33
  let v35 : BitVec 32 := Scalar.remsi v1 c5_i32
  let c0_i32_24 : BitVec 32 := 0#32
  let v36 : BitVec 1 := Scalar.cmpi .ne v35 c0_i32_24
  let v37 : BitVec 1 := Scalar.andi v34 v36
  let v23 : BitVec 32 := Scalar.divsi v1 c5_i32
  let c1_i32_25 : BitVec 32 := 1#32
  let v38 : BitVec 32 := Scalar.subi v23 c1_i32_25
  let v39 : BitVec 32 := Scalar.select v37 v38 v23
  let c1_i32_26 : BitVec 32 := 1#32
  let v40 : BitVec 32 := Scalar.subi v39 c1_i32_26
  let c5_i32_32 : BitVec 32 := 5#32
  let v46 : BitVec 32 := Scalar.muli v40 c5_i32_32
  let v47 : BitVec 32 := Scalar.addi v46 c0_i32_33
  let c128_i32_37 : BitVec 32 := 128#32
  let v51 : BitVec 32 := Scalar.muli v47 c128_i32_37
  let v52 : BitVec 32 := Scalar.addi v7 v51
  let c0_i32_38 : BitVec 32 := 0#32
  ![v52.toNat, 0]
abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S400x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S128 : S_.BroadcastsInDim S128 (![] : Fin 0 → Fin S128.rank)
  bcast_S128_S128x1_0 : S128.BroadcastsInDim S128x1 (![0] : Fin 1 → Fin S128x1.rank)
  transposes_S384x128_S128x384_1_0 : S384x128.Transposes [1, 0] S128x384
  bcast_S128x1_S128x384_0_1 : S128x1.BroadcastsInDim S128x384 (![0, 1] : Fin 2 → Fin S128x384.rank)
  bcast_S384_S1x384_1 : S384.BroadcastsInDim S1x384 (![1] : Fin 1 → Fin S1x384.rank)
  transposes_S128x128_S128x128_1_0 : S128x128.Transposes [1, 0] S128x128
  bcast_S128x1_S128x128_0_1 : S128x1.BroadcastsInDim S128x128 (![0, 1] : Fin 2 → Fin S128x128.rank)
  bcast_S128_S1x128_1 : S128.BroadcastsInDim S1x128 (![1] : Fin 1 → Fin S1x128.rank)
  slices_S2x160000_S1x160000_0_0 : S2x160000.Slices ![0, 0] S1x160000
  shapeCasts_S1x160000_S160000 : S1x160000.ShapeCasts S160000
  shapeCasts_S160000_S10000x16 : S160000.ShapeCasts S10000x16
  transposes_S10000x16_S16x10000_1_0 : S10000x16.Transposes [1, 0] S16x10000
  pads_S16x10000_S16x10240_000_02400 : S16x10000.Pads (![0, 0] : Fin 2 → Nat) ![0, 240] ![0, 0] S16x10240
  h_S_ : 0 < S_.numel
  shapeCasts_S16x10240_S1280x128 : S16x10240.ShapeCasts S1280x128
  pads_S1280x128_S1320x128_0400_000 : S1280x128.Pads (![0, 0] : Fin 2 → Nat) ![40, 0] ![0, 0] S1320x128
  inb_S40x128_S1x128_0_0 : ∀ a, (![0, 0] : Fin 2 → Nat) a + S1x128.size a ≤ S40x128.size a
  squeezes_S1x128_S128 : S1x128.Squeezes S128
  inb_S10000x128_S10000x128_0_0 : ∀ a, (![0, 0] : Fin 2 → Nat) a + S10000x128.size a ≤ S10000x128.size a
  gathers_S10000x128_S128x128 : S10000x128.Gathers 0 S128x128
  inb_S40x128_S1x128_1_0 : ∀ a, (![1, 0] : Fin 2 → Nat) a + S1x128.size a ≤ S40x128.size a
  inb_S40x128_S1x128_2_0 : ∀ a, (![2, 0] : Fin 2 → Nat) a + S1x128.size a ≤ S40x128.size a
  inb_S40x128_S1x128_3_0 : ∀ a, (![3, 0] : Fin 2 → Nat) a + S1x128.size a ≤ S40x128.size a
  inb_S40x128_S1x128_4_0 : ∀ a, (![4, 0] : Fin 2 → Nat) a + S1x128.size a ≤ S40x128.size a
  shapeCasts_S163840x128_S16x10240x128 : S163840x128.ShapeCasts S16x10240x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  inb_S16x400x128_S16x400x128_0_0_0 : ∀ a, (![0, 0, 0] : Fin 3 → Nat) a + S16x400x128.size a ≤ S16x400x128.size a
  h_S16x400x128 : 0 < S16x400x128.numel
  shapeCasts_S16x400x128_S16x400x128 : S16x400x128.ShapeCasts S16x400x128
  shapeCasts_S16x400x128_S6400x128 : S16x400x128.ShapeCasts S6400x128
  broadcasts_S1x384_S6400x384 : S1x384.Broadcasts S6400x384
  slices_S6400x384_o0_0_S400x384 : S6400x384.Slices ![0, 0] S400x384
  slices_S400x384_o0_0_S400x128 : S400x384.Slices ![0, 0] S400x128
  slices_S1x384_o0_0_S1x128 : S1x384.Slices ![0, 0] S1x128
  broadcasts_S1x128_S400x128 : S1x128.Broadcasts S400x128
  slices_S400x384_o0_128_S400x128 : S400x384.Slices ![0, 128] S400x128
  slices_S1x384_o0_128_S1x128 : S1x384.Slices ![0, 128] S1x128
  slices_S400x384_o0_256_S400x128 : S400x384.Slices ![0, 256] S400x128
  slices_S1x384_o0_256_S1x128 : S1x384.Slices ![0, 256] S1x128
  slices_S6400x384_o400_0_S400x384 : S6400x384.Slices ![400, 0] S400x384
  broadcasts_S1x384_S400x384 : S1x384.Broadcasts S400x384
  slices_S6400x384_o800_0_S400x384 : S6400x384.Slices ![800, 0] S400x384
  slices_S6400x384_o1200_0_S400x384 : S6400x384.Slices ![1200, 0] S400x384
  slices_S6400x384_o1600_0_S400x384 : S6400x384.Slices ![1600, 0] S400x384
  slices_S6400x384_o2000_0_S400x384 : S6400x384.Slices ![2000, 0] S400x384
  slices_S6400x384_o2400_0_S400x384 : S6400x384.Slices ![2400, 0] S400x384
  slices_S6400x384_o2800_0_S400x384 : S6400x384.Slices ![2800, 0] S400x384
  slices_S6400x384_o3200_0_S400x384 : S6400x384.Slices ![3200, 0] S400x384
  slices_S6400x384_o3600_0_S400x384 : S6400x384.Slices ![3600, 0] S400x384
  slices_S6400x384_o4000_0_S400x384 : S6400x384.Slices ![4000, 0] S400x384
  slices_S6400x384_o4400_0_S400x384 : S6400x384.Slices ![4400, 0] S400x384
  slices_S6400x384_o4800_0_S400x384 : S6400x384.Slices ![4800, 0] S400x384
  slices_S6400x384_o5200_0_S400x384 : S6400x384.Slices ![5200, 0] S400x384
  slices_S6400x384_o5600_0_S400x384 : S6400x384.Slices ![5600, 0] S400x384
  slices_S6400x384_o6000_0_S400x384 : S6400x384.Slices ![6000, 0] S400x384
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  dot_S128_S128x384_S384_0_0_n_1_n_n_wf : DotDims.WF S128 S128x384 S384 [0] [0] [] [1] [] []
  dot_S128_S128x128_S128_0_0_n_1_n_n_wf : DotDims.WF S128 S128x128 S128 [0] [0] [] [1] [] []
  dot_S6400x128_S128x384_S6400x384_1_0_0_1_n_n_wf : DotDims.WF S6400x128 S128x384 S6400x384 [1] [0] [0] [1] [] []
  dot_S400x128_S128x384_S400x384_1_0_0_1_n_n_wf : DotDims.WF S400x128 S128x384 S400x384 [1] [0] [0] [1] [] []
  dot_S400x128_S128x128_S400x128_1_0_0_1_n_n_wf : DotDims.WF S400x128 S128x128 S400x128 [1] [0] [0] [1] [] []
  hcc0_scratch6 : 0 + S_.numel ≤ 24
  hcc0_scratch7 : 1 + S_.numel ≤ 24
  hcc0_scratch8 : 2 + S_.numel ≤ 24
  hcc0_scratch9 : 3 + S_.numel ≤ 24
  hcc0_scratch10 : 4 + S_.numel ≤ 24
  hcc0_scratch11 : 5 + S_.numel ≤ 24
  hcc0_scratch12 : 6 + S_.numel ≤ 24
  hcc0_scratch13 : 7 + S_.numel ≤ 24
  hcc0_scratch14 : 8 + S_.numel ≤ 24
  hcc0_scratch15 : 9 + S_.numel ≤ 24
  hcc0_scoped0 : 10 + S_.numel ≤ 24
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S40x128.size a ≤ S1320x128.size a
  k0_t1_ok : ∀ i : grid0.Coords, (k0_t1_loop i).OK
  k0_off2_inb : ∀ (i : grid0.Coords) (k0_t1 : Fin (k0_t1_loop i).trips), ∀ (r : Fin 5), ∀ a, (k0_off2 i k0_t1 (BitVec.ofNat 32 r.val)) a + S1x128.size a ≤ S40x128.size a
  k0_off3_inb : ∀ (i : grid0.Coords) (k0_t1 : Fin (k0_t1_loop i).trips), ∀ (r : Fin 5), ∀ a, (k0_off3 i k0_t1 (BitVec.ofNat 32 r.val)) a + S128x128.size a ≤ S163840x128.size a
  k0_off4_inb : ∀ (i : grid0.Coords) (k0_t1 : Fin (k0_t1_loop i).trips), ∀ (r : Fin 5), ∀ a, (k0_off4 i k0_t1 (BitVec.ofNat 32 r.val)) a + S1x128.size a ≤ S40x128.size a
  k0_t2_ok : ∀ i : grid0.Coords, (k0_t2_loop i).OK
  k0_off5_inb : ∀ (i : grid0.Coords) (k0_t2 : Fin (k0_t2_loop i).trips), ∀ (r : Fin 5), ∀ a, (k0_off5 i k0_t2 (BitVec.ofNat 32 r.val)) a + S1x128.size a ≤ S40x128.size a
  k0_off6_inb : ∀ (i : grid0.Coords) (k0_t2 : Fin (k0_t2_loop i).trips), ∀ (r : Fin 5), ∀ a, (k0_off6 i k0_t2 (BitVec.ofNat 32 r.val)) a + S128x128.size a ≤ S163840x128.size a
  k0_off7_inb : ∀ (i : grid0.Coords) (k0_t2 : Fin (k0_t2_loop i).trips), ∀ (r : Fin 5), ∀ a, (k0_off7 i k0_t2 (BitVec.ofNat 32 r.val)) a + S1x128.size a ≤ S40x128.size a
  k0_off8_inb : ∀ i : grid0.Coords, ∀ (r : Fin 5), ∀ a, (k0_off8 i (BitVec.ofNat 32 r.val)) a + S1x128.size a ≤ S40x128.size a
  k0_off9_inb : ∀ i : grid0.Coords, ∀ (r : Fin 5), ∀ a, (k0_off9 i (BitVec.ofNat 32 r.val)) a + S128x128.size a ≤ S163840x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S16x400x128.size a < S16x10240x128.size a
  hwx1_0 : ∀ i : grid1.Coords, EltTy.bits .f32 = 32 ∨ (Rect.unit (s := S16x10240x128) (fun a => cc1_transform_0 i a * S16x400x128.size a) (fun a => (Pipeline.Clip.of (cc1_transform_0 i a) (S16x400x128.size a) (S16x10240x128.size a)).extent (S16x400x128.size a)) fun a => Pipeline.Clip.inb (Pipeline.Clip.ok_of (hstart1_0 i a))).WholeWords (EltTy.packing .f32)
  hwxs1_0 : ∀ i : grid1.Coords, EltTy.bits .f32 = 32 ∨ (Rect.unit (s := S16x400x128) (fun _ => 0) (fun a => (Pipeline.Clip.of (cc1_transform_0 i a) (S16x400x128.size a) (S16x10240x128.size a)).extent (S16x400x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x128.size a ≤ S10000x128.size a
  hwx1_1 : ∀ i : grid1.Coords, EltTy.bits .f32 = 32 ∨ (Rect.block (s := S10000x128) S400x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S400x128.size a ≤ S10000x128.size a
  hwx1_9 : ∀ i : grid1.Coords, EltTy.bits .f32 = 32 ∨ (Rect.block (s := S10000x128) S400x128.size (cc1_transform_9 i) (hinb1_9 i)).WholeWords (EltTy.packing .f32)

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11
abbrev cc0_scratch12 : DmaSems sig S_ := SemArray.consecutive 6 S_ hcc0_scratch12
abbrev cc0_scratch13 : DmaSems sig S_ := SemArray.consecutive 7 S_ hcc0_scratch13
abbrev cc0_scratch14 : DmaSems sig S_ := SemArray.consecutive 8 S_ hcc0_scratch14
abbrev cc0_scratch15 : DmaSems sig S_ := SemArray.consecutive 9 S_ hcc0_scratch15
abbrev cc0_scoped0 : DmaSems sig S_ := SemArray.consecutive 10 S_ hcc0_scoped0
def dot_S128_S128x384_S384_0_0_n_1_n_n : DotDims S128 S128x384 S384 where
  lhsContracting := [0]
  rhsContracting := [0]
  lhsNonContracting := []
  rhsNonContracting := [1]
  lhsBatch := []
  rhsBatch := []
  wf := dot_S128_S128x384_S384_0_0_n_1_n_n_wf
def dot_S128_S128x128_S128_0_0_n_1_n_n : DotDims S128 S128x128 S128 where
  lhsContracting := [0]
  rhsContracting := [0]
  lhsNonContracting := []
  rhsNonContracting := [1]
  lhsBatch := []
  rhsBatch := []
  wf := dot_S128_S128x128_S128_0_0_n_1_n_n_wf
def dot_S6400x128_S128x384_S6400x384_1_0_0_1_n_n : DotDims S6400x128 S128x384 S6400x384 where
  lhsContracting := [1]
  rhsContracting := [0]
  lhsNonContracting := [0]
  rhsNonContracting := [1]
  lhsBatch := []
  rhsBatch := []
  wf := dot_S6400x128_S128x384_S6400x384_1_0_0_1_n_n_wf
def dot_S400x128_S128x384_S400x384_1_0_0_1_n_n : DotDims S400x128 S128x384 S400x384 where
  lhsContracting := [1]
  rhsContracting := [0]
  lhsNonContracting := [0]
  rhsNonContracting := [1]
  lhsBatch := []
  rhsBatch := []
  wf := dot_S400x128_S128x384_S400x384_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win1_0 : Pipeline.Window sig grid1 :=
  Pipeline.Window.ofSpecClip (Memref.whole main_v32) S16x400x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_arg0) S400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v22) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S400x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x160000 : Shape := ⟨2, ![2, 160000]⟩
abbrev S128 : Shape := ⟨1, ![128]⟩
abbrev S384x128 : Shape := ⟨2, ![384, 128]⟩
abbrev S384 : Shape := ⟨1, ![384]⟩
abbrev S128x128 : Shape := ⟨2, ![128, 128]⟩
abbrev S1x128 : Shape := ⟨2, ![1, 128]⟩
abbrev S_ : Shape := ⟨0, ![]⟩
abbrev S1x160000 : Shape := ⟨2, ![1, 160000]⟩
abbrev S160000 : Shape := ⟨1, ![160000]⟩
abbrev S160000x1 : Shape := ⟨2, ![160000, 1]⟩
abbrev S1 : Shape := ⟨1, ![1]⟩
abbrev S1x1 : Shape := ⟨2, ![1, 1]⟩
abbrev S160000x128 : Shape := ⟨2, ![160000, 128]⟩
abbrev S10000x16x128 : Shape := ⟨3, ![10000, 16, 128]⟩
abbrev S16x10000x128 : Shape := ⟨3, ![16, 10000, 128]⟩
abbrev S1x10000x128 : Shape := ⟨3, ![1, 10000, 128]⟩
abbrev S128x384 : Shape := ⟨2, ![128, 384]⟩
abbrev S10000x384 : Shape := ⟨2, ![10000, 384]⟩
abbrev S1x384 : Shape := ⟨2, ![1, 384]⟩

abbrev nBuf : Space → Nat
  | .hbm => 121
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x160000, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S384x128, .f32⟩
  | .hbm, ⟨7, _⟩ => ⟨S384x128, .f32⟩
  | .hbm, ⟨8, _⟩ => ⟨S384, .f32⟩
  | .hbm, ⟨9, _⟩ => ⟨S384, .f32⟩
  | .hbm, ⟨10, _⟩ => ⟨S128x128, .f32⟩
  | .hbm, ⟨11, _⟩ => ⟨S128x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S1x128, .f32⟩
  | .hbm, ⟨20, _⟩ => ⟨S10000x128, .f32⟩
  | .hbm, ⟨21, _⟩ => ⟨S10000x128, .f32⟩
  | .hbm, ⟨22, _⟩ => ⟨S1x128, .f32⟩
  | .hbm, ⟨23, _⟩ => ⟨S10000x128, .f32⟩
  | .hbm, ⟨24, _⟩ => ⟨S10000x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S1x160000, .i32⟩
  | .hbm, ⟨29, _⟩ => ⟨S160000, .i32⟩
  | .hbm, ⟨30, _⟩ => ⟨S_, .i32⟩
  | .hbm, ⟨31, _⟩ => ⟨S160000, .i32⟩
  | .hbm, ⟨32, _⟩ => ⟨S160000, .i1⟩
  | .hbm, ⟨33, _⟩ => ⟨S_, .i32⟩
  | .hbm, ⟨34, _⟩ => ⟨S160000, .i32⟩
  | .hbm, ⟨35, _⟩ => ⟨S160000, .i32⟩
  | .hbm, ⟨36, _⟩ => ⟨S160000, .i32⟩
  | .hbm, ⟨37, _⟩ => ⟨S160000x1, .i32⟩
  | .hbm, ⟨38, _⟩ => ⟨S1, .i32⟩
  | .hbm, ⟨39, _⟩ => ⟨S_, .i32⟩
  | .hbm, ⟨40, _⟩ => ⟨S160000x1, .i32⟩
  | .hbm, ⟨41, _⟩ => ⟨S160000x1, .i1⟩
  | .hbm, ⟨42, _⟩ => ⟨S1x1, .i32⟩
  | .hbm, ⟨43, _⟩ => ⟨S160000x1, .i32⟩
  | .hbm, ⟨44, _⟩ => ⟨S160000x1, .i1⟩
  | .hbm, ⟨45, _⟩ => ⟨S160000x1, .i1⟩
  | .hbm, ⟨46, _⟩ => ⟨S_, .i1⟩
  | .hbm, ⟨47, _⟩ => ⟨S160000, .i1⟩
  | .hbm, ⟨48, _⟩ => ⟨S160000x128, .f32⟩
  | .hbm, ⟨49, _⟩ => ⟨S160000x128, .i1⟩
  | .hbm, ⟨50, _⟩ => ⟨S_, .f32⟩
  | .hbm, ⟨51, _⟩ => ⟨S160000x128, .f32⟩
  | .hbm, ⟨52, _⟩ => ⟨S160000x128, .f32⟩
  | .hbm, ⟨53, _⟩ => ⟨S10000x16x128, .f32⟩
  | .hbm, ⟨54, _⟩ => ⟨S16x10000x128, .f32⟩
  | .hbm, ⟨55, _⟩ => ⟨S_, .f32⟩
  | .hbm, ⟨56, _⟩ => ⟨S10000x128, .f32⟩
  | .hbm, ⟨57, _⟩ => ⟨S_, .i32⟩
  | .hbm, ⟨58, _⟩ => ⟨S16x10000x128, .f32⟩
  | .hbm, ⟨59, _⟩ => ⟨S384x128, .f32⟩
  | .hbm, ⟨60, _⟩ => ⟨S384, .f32⟩
  | .hbm, ⟨61, _⟩ => ⟨S384x128, .f32⟩
  | .hbm, ⟨62, _⟩ => ⟨S384, .f32⟩
  | .hbm, ⟨63, _⟩ => ⟨S_, .i32⟩
  | .hbm, ⟨64, _⟩ => ⟨S10000x128, .f32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S1x10000x128, .f32⟩
  | .hbm, ⟨70, _⟩ => ⟨S10000x128, .f32⟩
  | .hbm, ⟨71, _⟩ => ⟨S128x384, .f32⟩
  | .hbm, ⟨72, _⟩ => ⟨S10000x384, .f32⟩
  | .hbm, ⟨73, _⟩ => ⟨S1x384, .f32⟩
  | .hbm, ⟨74, _⟩ => ⟨S10000x384, .f32⟩
  | .hbm, ⟨75, _⟩ => ⟨S10000x384, .f32⟩
  | .hbm, ⟨76, _⟩ => ⟨S128x384, .f32⟩
  | .hbm, ⟨77, _⟩ => ⟨S10000x384, .f32⟩
  | .hbm, ⟨78, _⟩ => ⟨S1x384, .f32⟩
  | .hbm, ⟨79, _⟩ => ⟨S10000x384, .f32⟩
  | .hbm, ⟨80, _⟩ => ⟨S10000x384, .f32⟩
  | .hbm, ⟨81, _⟩ => ⟨S10000x128, .f32⟩
  | .hbm, ⟨82, _⟩ => ⟨S10000x128, .f32⟩
  | .hbm, ⟨83, _⟩ => ⟨S10000x128, .f32⟩
  | .hbm, ⟨84, _⟩ => ⟨S10000x128, .f32⟩
  | .hbm, ⟨85, _⟩ => ⟨S10000x128, .f32⟩
  | .hbm, ⟨86, _⟩ => ⟨S10000x128, .f32⟩
  | .hbm, ⟨87, _⟩ => ⟨S10000x128, .f32⟩
  | .hbm, ⟨88, _⟩ => ⟨S10000x128, .f32⟩
  | .hbm, ⟨89, _⟩ => ⟨S10000x128, .f32⟩
  | .hbm, ⟨90, _⟩ => ⟨S_, .f32⟩
  | .hbm, ⟨91, _⟩ => ⟨S10000x128, .f32⟩
  | .hbm, ⟨92, _⟩ => ⟨S10000x128, .f32⟩
  | .hbm, ⟨93, _⟩ => ⟨S_, .f32⟩
  | .hbm, ⟨94, _⟩ => ⟨S10000x128, .f32⟩
  | .hbm, ⟨95, _⟩ => ⟨S10000x128, .f32⟩
  | .hbm, ⟨96, _⟩ => ⟨S10000x128, .f32⟩
  | .hbm, ⟨97, _⟩ => ⟨S10000x128, .f32⟩
  | .hbm, ⟨98, _⟩ => ⟨S10000x128, .f32⟩
  | .hbm, ⟨99, _⟩ => ⟨S_, .f32⟩
  | .hbm, ⟨100, _⟩ => ⟨S10000x128, .f32⟩
  | .hbm, ⟨101, _⟩ => ⟨S10000x128, .f32⟩
  | .hbm, ⟨102, _⟩ => ⟨S_, .f32⟩
  | .hbm, ⟨103, _⟩ => ⟨S10000x128, .f32⟩
  | .hbm, ⟨104, _⟩ => ⟨S10000x128, .f32⟩
  | .hbm, ⟨105, _⟩ => ⟨S10000x128, .f32⟩
  | .hbm, ⟨106, _⟩ => ⟨S10000x128, .f32⟩
  | .hbm, ⟨107, _⟩ => ⟨S10000x128, .f32⟩
  | .hbm, ⟨108, _⟩ => ⟨S_, .f32⟩
  | .hbm, ⟨109, _⟩ => ⟨S10000x128, .f32⟩
  | .hbm, ⟨110, _⟩ => ⟨S10000x128, .f32⟩
  | .hbm, ⟨111, _⟩ => ⟨S10000x128, .f32⟩
  | .hbm, ⟨112, _⟩ => ⟨S10000x128, .f32⟩
  | .hbm, ⟨113, _⟩ => ⟨S10000x128, .f32⟩
  | .hbm, ⟨114, _⟩ => ⟨S_, .i32⟩
  | .hbm, ⟨115, _⟩ => ⟨S_, .i32⟩
  | .hbm, ⟨116, _⟩ => ⟨S128x128, .f32⟩
  | .hbm, ⟨117, _⟩ => ⟨S10000x128, .f32⟩
  | .hbm, ⟨118, _⟩ => ⟨S128x128, .f32⟩
  | .hbm, ⟨119, _⟩ => ⟨S10000x128, .f32⟩
  | .hbm, ⟨120, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_0 : Ref sig .tc := ⟨.hbm, 55, rfl⟩
abbrev main_v20 : Ref sig .tc := ⟨.hbm, 56, rfl⟩
abbrev main_c : Ref sig .tc := ⟨.hbm, 57, rfl⟩
abbrev main_v21_0 : Ref sig .tc := ⟨.hbm, 58, rfl⟩
abbrev main_v21_1 : Ref sig .tc := ⟨.hbm, 59, rfl⟩
abbrev main_v21_2 : Ref sig .tc := ⟨.hbm, 60, rfl⟩
abbrev main_v21_3 : Ref sig .tc := ⟨.hbm, 61, rfl⟩
abbrev main_v21_4 : Ref sig .tc := ⟨.hbm, 62, rfl⟩
abbrev main_v21_5 : Ref sig .tc := ⟨.hbm, 63, rfl⟩
abbrev main_v21_6 : Ref sig .tc := ⟨.hbm, 64, rfl⟩
abbrev main_while0c_c_7 : Ref sig .tc := ⟨.hbm, 65, rfl⟩
abbrev main_while0c_v27 : Ref sig .tc := ⟨.hbm, 66, rfl⟩
abbrev main_while0b_call1_c : Ref sig .tc := ⟨.hbm, 67, rfl⟩
abbrev main_while0b_call1_c_0 : Ref sig .tc := ⟨.hbm, 68, rfl⟩
abbrev main_while0b_call1_v0 : Ref sig .tc := ⟨.hbm, 69, rfl⟩
abbrev main_while0b_v27 : Ref sig .tc := ⟨.hbm, 70, rfl⟩
abbrev main_while0b_call2_v0 : Ref sig .tc := ⟨.hbm, 71, rfl⟩
abbrev main_while0b_call2_v1 : Ref sig .tc := ⟨.hbm, 72, rfl⟩
abbrev main_while0b_call2_v2 : Ref sig .tc := ⟨.hbm, 73, rfl⟩
abbrev main_while0b_call2_v3 : Ref sig .tc := ⟨.hbm, 74, rfl⟩
abbrev main_while0b_call2_v4 : Ref sig .tc := ⟨.hbm, 75, rfl⟩
abbrev main_while0b_call2_v5 : Ref sig .tc := ⟨.hbm, 76, rfl⟩
abbrev main_while0b_call2_v6 : Ref sig .tc := ⟨.hbm, 77, rfl⟩
abbrev main_while0b_call2_v7 : Ref sig .tc := ⟨.hbm, 78, rfl⟩
abbrev main_while0b_call2_v8 : Ref sig .tc := ⟨.hbm, 79, rfl⟩
abbrev main_while0b_call2_v9 : Ref sig .tc := ⟨.hbm, 80, rfl⟩
abbrev main_while0b_call2_v10 : Ref sig .tc := ⟨.hbm, 81, rfl⟩
abbrev main_while0b_call2_v11 : Ref sig .tc := ⟨.hbm, 82, rfl⟩
abbrev main_while0b_call2_v12 : Ref sig .tc := ⟨.hbm, 83, rfl⟩
abbrev main_while0b_call2_v13 : Ref sig .tc := ⟨.hbm, 84, rfl⟩
abbrev main_while0b_call2_v14 : Ref sig .tc := ⟨.hbm, 85, rfl⟩
abbrev main_while0b_call2_v15 : Ref sig .tc := ⟨.hbm, 86, rfl⟩
abbrev main_while0b_call2_v16 : Ref sig .tc := ⟨.hbm, 87, rfl⟩
abbrev main_while0b_call2_v17 : Ref sig .tc := ⟨.hbm, 88, rfl⟩
abbrev main_while0b_call2_v18 : Ref sig .tc := ⟨.hbm, 89, rfl⟩
abbrev main_while0b_call2_cst : Ref sig .tc := ⟨.hbm, 90, rfl⟩
abbrev main_while0b_call2_v19 : Ref sig .tc := ⟨.hbm, 91, rfl⟩
abbrev main_while0b_call2_v20 : Ref sig .tc := ⟨.hbm, 92, rfl⟩
abbrev main_while0b_call2_cst_0 : Ref sig .tc := ⟨.hbm, 93, rfl⟩
abbrev main_while0b_call2_v21 : Ref sig .tc := ⟨.hbm, 94, rfl⟩
abbrev main_while0b_call2_v22 : Ref sig .tc := ⟨.hbm, 95, rfl⟩
abbrev main_while0b_call2_v23 : Ref sig .tc := ⟨.hbm, 96, rfl⟩
abbrev main_while0b_call2_v24 : Ref sig .tc := ⟨.hbm, 97, rfl⟩
abbrev main_while0b_call2_v25 : Ref sig .tc := ⟨.hbm, 98, rfl⟩
abbrev main_while0b_call2_cst_1 : Ref sig .tc := ⟨.hbm, 99, rfl⟩
abbrev main_while0b_call2_v26 : Ref sig .tc := ⟨.hbm, 100, rfl⟩
abbrev main_while0b_call2_v27 : Ref sig .tc := ⟨.hbm, 101, rfl⟩
abbrev main_while0b_call2_cst_2 : Ref sig .tc := ⟨.hbm, 102, rfl⟩
abbrev main_while0b_call2_v28 : Ref sig .tc := ⟨.hbm, 103, rfl⟩
abbrev main_while0b_call2_v29 : Ref sig .tc := ⟨.hbm, 104, rfl⟩
abbrev main_while0b_call2_v30 : Ref sig .tc := ⟨.hbm, 105, rfl⟩
abbrev main_while0b_call2_v31 : Ref sig .tc := ⟨.hbm, 106, rfl⟩
abbrev main_while0b_call2_v32 : Ref sig .tc := ⟨.hbm, 107, rfl⟩
abbrev main_while0b_call2_cst_3 : Ref sig .tc := ⟨.hbm, 108, rfl⟩
abbrev main_while0b_call2_v33 : Ref sig .tc := ⟨.hbm, 109, rfl⟩
abbrev main_while0b_call2_v34 : Ref sig .tc := ⟨.hbm, 110, rfl⟩
abbrev main_while0b_call2_v35 : Ref sig .tc := ⟨.hbm, 111, rfl⟩
abbrev main_while0b_call2_v36 : Ref sig .tc := ⟨.hbm, 112, rfl⟩
abbrev main_while0b_v28 : Ref sig .tc := ⟨.hbm, 113, rfl⟩
abbrev main_while0b_c_7 : Ref sig .tc := ⟨.hbm, 114, rfl⟩
abbrev main_while0b_v29 : Ref sig .tc := ⟨.hbm, 115, rfl⟩
abbrev main_v22 : Ref sig .tc := ⟨.hbm, 116, rfl⟩
abbrev main_v23 : Ref sig .tc := ⟨.hbm, 117, rfl⟩
abbrev main_v24 : Ref sig .tc := ⟨.hbm, 118, rfl⟩
abbrev main_v25 : Ref sig .tc := ⟨.hbm, 119, rfl⟩
abbrev main_v26 : Ref sig .tc := ⟨.hbm, 120, rfl⟩

abbrev nD : Nat := 1
abbrev τ : Topo := Topo.v7x

variable {F : FTy → Type} [FloatOps F]

abbrev main_while0_count : Scf.Loop 32 := ⟨0#32, 16#32, 1#32⟩

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S128 : S_.BroadcastsInDim S128 (![] : Fin 0 → Fin S128.rank)
  slices_S2x160000_S1x160000_0_0 : S2x160000.Slices ![0, 0] S1x160000
  shapeCasts_S1x160000_S160000 : S1x160000.ShapeCasts S160000
  bcast_S_S160000 : S_.BroadcastsInDim S160000 (![] : Fin 0 → Fin S160000.rank)
  bcast_S160000_S160000x1_0 : S160000.BroadcastsInDim S160000x1 (![0] : Fin 1 → Fin S160000x1.rank)
  bcast_S_S160000x1 : S_.BroadcastsInDim S160000x1 (![] : Fin 0 → Fin S160000x1.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  reducesTo_S160000x1_S160000_d1 : S160000x1.ReducesTo [1] S160000
  h_S_ : 0 < S_.numel
  bcast_S160000_S160000x128_0 : S160000.BroadcastsInDim S160000x128 (![0] : Fin 1 → Fin S160000x128.rank)
  bcast_S_S160000x128 : S_.BroadcastsInDim S160000x128 (![] : Fin 0 → Fin S160000x128.rank)
  shapeCasts_S160000x128_S10000x16x128 : S160000x128.ShapeCasts S10000x16x128
  transposes_S10000x16x128_S16x10000x128_1_0_2 : S10000x16x128.Transposes [1, 0, 2] S16x10000x128
  bcast_S_S10000x128 : S_.BroadcastsInDim S10000x128 (![] : Fin 0 → Fin S10000x128.rank)
  sliceFits_S16x10000x128_S1x10000x128 : S16x10000x128.Slices (fun _ => 0) S1x10000x128
  shapeCasts_S1x10000x128_S10000x128 : S1x10000x128.ShapeCasts S10000x128
  transposes_S384x128_S128x384_1_0 : S384x128.Transposes [1, 0] S128x384
  bcast_S384_S1x384_1 : S384.BroadcastsInDim S1x384 (![1] : Fin 1 → Fin S1x384.rank)
  bcast_S1x384_S10000x384_0_1 : S1x384.BroadcastsInDim S10000x384 (![0, 1] : Fin 2 → Fin S10000x384.rank)
  slices_S10000x384_S10000x128_0_0 : S10000x384.Slices ![0, 0] S10000x128
  slices_S10000x384_S10000x128_0_128 : S10000x384.Slices ![0, 128] S10000x128
  slices_S10000x384_S10000x128_0_256 : S10000x384.Slices ![0, 256] S10000x128
  transposes_S128x128_S128x128_1_0 : S128x128.Transposes [1, 0] S128x128
  gather_S10000x128_S160000x1_S160000x128_1_0_n_n_0_1_1128_wf : GatherDims.WF S10000x128 S160000x1 S160000x128 [1] [0] [] [0] [] 1 ![1, 128]
  dot_S10000x128_S128x384_S10000x384_1_0_0_1_n_n_wf : DotDims.WF S10000x128 S128x384 S10000x384 [1] [0] [0] [1] [] []
  dot_S10000x128_S128x128_S10000x128_1_0_0_1_n_n_wf : DotDims.WF S10000x128 S128x128 S10000x128 [1] [0] [0] [1] [] []
  main_while0_ok : main_while0_count.OK

variable [Facts₀]

def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def dot_S10000x128_S128x384_S10000x384_1_0_0_1_n_n : DotDims S10000x128 S128x384 S10000x384 where
  lhsContracting := [1]
  rhsContracting := [0]
  lhsNonContracting := [0]
  rhsNonContracting := [1]
  lhsBatch := []
  rhsBatch := []
  wf := dot_S10000x128_S128x384_S10000x384_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Spec.lean ====
import Idealize.ShloMosaic.PureOps.Ideal
import Idealize.ShloMosaic.PureOps.Ideal.Laws

noncomputable section

namespace Cert.Spec

open Idealize.ShloMosaic

abbrev Mat (a b : Nat) : Type := Fin a → Fin b → EReal
abbrev Vc (a : Nat) : Type := Fin a → EReal

def colR (j : Fin 128) : Fin 384 := ⟨j.val, by omega⟩
def colZ (j : Fin 128) : Fin 384 := ⟨128 + j.val, by omega⟩
def colN (j : Fin 128) : Fin 384 := ⟨256 + j.val, by omega⟩

def eps : EReal := Ideal.ofBits .f32 0x3727C5AC#32
def one : EReal := Ideal.ofBits .f32 0x3F800000#32

structure Params where
  feat : Mat 10000 128
  src : Fin 160000 → Fin 10000
  gamma : Vc 128
  beta : Vc 128
  mean : Vc 128
  var : Vc 128
  Wih : Mat 384 128
  Whh : Mat 384 128
  bih : Vc 384
  bhh : Vc 384
  Wself : Mat 128 128
  Wneigh : Mat 128 128

def edge (t : Nat) (n : Fin 10000) : Fin 160000 := ⟨(16 * n.val + t) % 160000, Nat.mod_lt _ (by decide)⟩

def lin (W : Mat 384 128) (b : Vc 384) (v : Vc 128) : Vc 384 := fun c => (∑ k, v k * W c k) + b c

def cell (gi gh : Vc 384) (h : Vc 128) : Vc 128 := fun j =>
  (one - Ideal.logistic (gi (colZ j) + gh (colZ j)))
      * Ideal.tanh (gi (colN j) + Ideal.logistic (gi (colR j) + gh (colR j)) * gh (colN j))
    + Ideal.logistic (gi (colZ j) + gh (colZ j)) * h j

variable (p : Params)

def xn (r : Fin 10000) : Vc 128 := fun k =>
  Ideal.div (p.feat r k - p.mean k) (Ideal.sqrt (p.var k + eps)) * p.gamma k + p.beta k

def hRef (n : Fin 10000) : Nat → Vc 128
  | 0 => fun _ => 0
  | t + 1 => cell (lin p.Wih p.bih (xn p (p.src (edge t n)))) (lin p.Whh p.bhh (hRef n t)) (hRef n t)

def outRef (n : Fin 10000) (j : Fin 128) : EReal :=
  (∑ k, xn p n k * p.Wself j k) + ∑ k, hRef p n 16 k * p.Wneigh j k

def scale : Vc 128 := fun k => p.gamma k * Ideal.rsqrt (p.var k + eps)
def shift : Vc 128 := fun k => p.beta k - p.mean k * scale p k

def wih (k : Fin 128) (c : Fin 384) : EReal := scale p k * p.Wih c k
def bihK : Vc 384 := fun c => (∑ k, shift p k * p.Wih c k) + p.bih c
def wself (k j : Fin 128) : EReal := scale p k * p.Wself j k
def bself : Vc 128 := fun j => ∑ k, shift p k * p.Wself j k

def giK (n : Fin 10000) (t : Nat) : Vc 384 := fun c => (∑ k, p.feat (p.src (edge t n)) k * wih p k c) + bihK p c

def hKer (n : Fin 10000) : Nat → Vc 128
  | 0 => fun _ => 0
  | t + 1 => cell (giK p n t) (if t = 0 then p.bhh else lin p.Whh p.bhh (hKer n t)) (hKer n t)

def outKer (n : Fin 10000) (j : Fin 128) : EReal :=
  ((∑ k, p.feat n k * wself p k j) + bself p j) + ∑ k, hKer p n 16 k * p.Wneigh j k

structure Params.Real : Prop where
  feat : ∀ r k, ∃ x : ℝ, p.feat r k = (x : EReal)
  gamma : ∀ k, ∃ x : ℝ, p.gamma k = (x : EReal)
  beta : ∀ k, ∃ x : ℝ, p.beta k = (x : EReal)
  mean : ∀ k, ∃ x : ℝ, p.mean k = (x : EReal)
  var : ∀ k, ∃ x : ℝ, p.var k = (x : EReal)
  Wih : ∀ c k, ∃ x : ℝ, p.Wih c k = (x : EReal)
  Whh : ∀ c k, ∃ x : ℝ, p.Whh c k = (x : EReal)
  bih : ∀ c, ∃ x : ℝ, p.bih c = (x : EReal)
  bhh : ∀ c, ∃ x : ℝ, p.bhh c = (x : EReal)
  Wself : ∀ j k, ∃ x : ℝ, p.Wself j k = (x : EReal)
  Wneigh : ∀ j k, ∃ x : ℝ, p.Wneigh j k = (x : EReal)
  var_nonneg : ∀ k, 0 ≤ p.var k

end Cert.Spec

end
-- ==== Proof.Bridge.lean ====
import proofs.«207044_g16655883174581_fold_wed_m_811_16_alg».proof.Proof.Spec

noncomputable section

namespace Cert.Spec

open Idealize.ShloMosaic

theorem one_eq : one = ((1 : ℝ) : EReal) := by
  simp [one, Ideal.ofBits, Ideal.ieee, -EReal.coe_mul]; norm_num

theorem eps_eq : ∃ e : ℝ, 0 < e ∧ eps = ((e : ℝ) : EReal) := by
  refine ⟨(10995116 : ℝ) * (2 : ℝ) ^ (-40 : Int), by positivity, ?_⟩
  simp [eps, Ideal.ofBits, Ideal.ieee, -EReal.coe_mul]

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fold_sum (x sc sf w : Fin 128 → ℝ) :
    (∑ k, ((x k * sc k + sf k : ℝ) : EReal) * (w k : EReal))
      = (∑ k, (x k : EReal) * ((sc k : EReal) * (w k : EReal))) + ∑ k, (sf k : EReal) * (w k : EReal) := by
  simp only [← EReal.coe_mul, ← coe_sum, ← EReal.coe_add]
  congr 1
  rw [← Finset.sum_add_distrib]
  exact Finset.sum_congr rfl fun k _ => by ring

variable (p : Params)

theorem fold_real (h : p.Real) (k : Fin 128) :
    ∃ sc sf : ℝ, scale p k = (sc : EReal) ∧ shift p k = (sf : EReal) ∧
      ∀ r, ∃ x : ℝ, p.feat r k = (x : EReal) ∧ xn p r k = ((x * sc + sf : ℝ) : EReal) := by
  obtain ⟨e, he, heps⟩ := eps_eq
  obtain ⟨g, hg⟩ := h.gamma k
  obtain ⟨b, hb⟩ := h.beta k
  obtain ⟨m, hm⟩ := h.mean k
  obtain ⟨v, hv⟩ := h.var k
  have hv0 : 0 ≤ v := by
    have := h.var_nonneg k
    rw [hv] at this
    exact_mod_cast this
  have hpos : 0 < v + e := by linarith
  have hs : 0 < Real.sqrt (v + e) := Real.sqrt_pos.mpr hpos
  have hsc : scale p k = ((g * (Real.sqrt (v + e))⁻¹ : ℝ) : EReal) := by
    rw [scale, hg, hv, heps, ← EReal.coe_add, Ideal.rsqrt_coe, if_neg (not_lt.mpr hpos.le), if_neg hpos.ne',
      ← EReal.coe_mul]
  refine ⟨g * (Real.sqrt (v + e))⁻¹, b - m * (g * (Real.sqrt (v + e))⁻¹), hsc, ?_, ?_⟩
  · rw [shift, hsc, hb, hm, ← EReal.coe_mul, ← EReal.coe_sub]
  · intro r
    obtain ⟨x, hx⟩ := h.feat r k
    refine ⟨x, hx, ?_⟩
    rw [xn, hx, hm, hv, heps, hg, hb, ← EReal.coe_add, Ideal.sqrt_coe, if_neg (not_lt.mpr hpos.le),
      Ideal.div_coe hs.ne', ← EReal.coe_sub, ← EReal.coe_mul, ← EReal.coe_mul, ← EReal.coe_add]
    congr 1
    rw [one_div]
    ring

theorem sum_xn (h : p.Real) (r : Fin 10000) (w : Fin 128 → EReal) (hw : ∀ k, ∃ y : ℝ, w k = (y : EReal)) :
    (∑ k, xn p r k * w k) = (∑ k, p.feat r k * (scale p k * w k)) + ∑ k, shift p k * w k := by
  choose sc sf hsc hsf hx using fold_real p h
  choose x hx hxn using hx
  choose wr hwr using hw
  simp only [hxn, hsc, hsf, hx, hwr]
  exact fold_sum (fun k => x k r) sc sf wr

theorem giK_eq (h : p.Real) (n : Fin 10000) (t : Nat) :
    giK p n t = lin p.Wih p.bih (xn p (p.src (edge t n))) := by
  funext c
  show (∑ k, p.feat (p.src (edge t n)) k * (scale p k * p.Wih c k)) + ((∑ k, shift p k * p.Wih c k) + p.bih c)
    = (∑ k, xn p (p.src (edge t n)) k * p.Wih c k) + p.bih c
  rw [sum_xn p h _ _ (h.Wih c), add_assoc]

theorem lin_zero (W : Mat 384 128) (b : Vc 384) : lin W b (fun _ => 0) = b := by
  funext c
  simp [lin]

theorem hKer_eq_hRef (h : p.Real) (n : Fin 10000) : ∀ t, hKer p n t = hRef p n t
  | 0 => rfl
  | t + 1 => by
    have ih := hKer_eq_hRef h n t
    show cell (giK p n t) (if t = 0 then p.bhh else lin p.Whh p.bhh (hKer p n t)) (hKer p n t)
      = cell (lin p.Wih p.bih (xn p (p.src (edge t n)))) (lin p.Whh p.bhh (hRef p n t)) (hRef p n t)
    rw [giK_eq p h, ih]
    by_cases ht : t = 0
    · subst ht
      rw [if_pos rfl]
      show _ = cell _ (lin p.Whh p.bhh (fun _ => 0)) (fun _ => 0)
      rw [lin_zero]
      rfl
    · rw [if_neg ht]

theorem outKer_eq_outRef (p : Params) (h : p.Real) : outKer p = outRef p := by
  funext n j
  show ((∑ k, p.feat n k * (scale p k * p.Wself j k)) + ∑ k, shift p k * p.Wself j k)
      + ∑ k, hKer p n 16 k * p.Wneigh j k
    = (∑ k, xn p n k * p.Wself j k) + ∑ k, hRef p n 16 k * p.Wneigh j k
  rw [sum_xn p h n _ (h.Wself j), hKer_eq_hRef p h n 16]

end Cert.Spec

end
-- ==== Proof.Args.lean ====
import proofs.«207044_g16655883174581_fold_wed_m_811_16_alg».proof.Proof.Spec
import Idealize.ShloMosaic.Lib.ValueIdx

noncomputable section

namespace Cert.Args

open Idealize.ShloMosaic Idealize.ShloMosaic.ValueIdx Cert.Spec

abbrev A1 (a : Nat) : Shape := ⟨1, ![a]⟩
abbrev A2 (a b : Nat) : Shape := ⟨2, ![a, b]⟩

structure Arrays where
  feat : FVec Ideal (A2 10000 128) .f32
  edge : IVec (A2 2 160000) 32
  gamma : FVec Ideal (A1 128) .f32
  beta : FVec Ideal (A1 128) .f32
  mean : FVec Ideal (A1 128) .f32
  var : FVec Ideal (A1 128) .f32
  Wih : FVec Ideal (A2 384 128) .f32
  Whh : FVec Ideal (A2 384 128) .f32
  bih : FVec Ideal (A1 384) .f32
  bhh : FVec Ideal (A1 384) .f32
  Wself : FVec Ideal (A2 128 128) .f32
  Wneigh : FVec Ideal (A2 128 128) .f32

def srcOf (edge : IVec (A2 2 160000) 32) (e : Fin 160000) : Fin 10000 :=
  ⟨(edge (ix2 (0 : Fin 2) e)).toNat % 10000, Nat.mod_lt _ (by decide)⟩

def SrcInRange (edge : IVec (A2 2 160000) 32) : Prop :=
  ∀ e : Fin 160000, (edge (ix2 (0 : Fin 2) e)).toNat < 10000

def params (A : Arrays) : Params where
  feat := fun r k => A.feat (ix2 r k)
  src := srcOf A.edge
  gamma := fun k => A.gamma (ix1 k)
  beta := fun k => A.beta (ix1 k)
  mean := fun k => A.mean (ix1 k)
  var := fun k => A.var (ix1 k)
  Wih := fun c k => A.Wih (ix2 c k)
  Whh := fun c k => A.Whh (ix2 c k)
  bih := fun c => A.bih (ix1 c)
  bhh := fun c => A.bhh (ix1 c)
  Wself := fun j k => A.Wself (ix2 j k)
  Wneigh := fun j k => A.Wneigh (ix2 j k)

def ofMat (M : Mat 10000 128) : FVec Ideal (A2 10000 128) .f32 :=
  fun i => M ⟨(i 0).val, idx2_lt0 i⟩ ⟨(i 1).val, idx2_lt1 i⟩

theorem ofMat_ix2 (M : Mat 10000 128) (n : Fin 10000) (j : Fin 128) : ofMat M (ix2 n j) = M n j := rfl

end Cert.Args

end
-- ==== Proof.PreDecode.lean ====
import proofs.«207044_g16655883174581_fold_wed_m_811_16_alg».proof.Pre_input_domain
import proofs.«207044_g16655883174581_fold_wed_m_811_16_alg».proof.Proof.Gen.Pre_input_domain
import proofs.«207044_g16655883174581_fold_wed_m_811_16_alg».proof.Proof.Args
import Idealize.ShloMosaic.Lib.ReduceAll

noncomputable section

namespace Cert.PreDecode

open Idealize.ShloMosaic Idealize.ShloMosaic.ValueIdx Cert.Args Cert.Pre_input_domain

instance : Subsingleton S_.Idx := ⟨fun a b => funext fun d => d.elim0⟩

section AnyInstance
variable {F : FTy → Type} [FloatOps F]

def AllFinite {s : Shape} (x : FVec F s .f32) : Prop :=
  ∀ i, FloatOps.cmpf .olt (FloatOps.hostAbsf (x i)) (FloatOps.ofBits (F := F) .f32 0x7F800000#32) = 1#1

theorem allFinite_of_reduce {s : Shape} {axes : List (Fin s.rank)} (hb : S_.BroadcastsInDim s (![] : Fin 0 → Fin s.rank))
    (hr : s.ReducesTo axes S_) (h0 : 0 < S_.numel) (x : FVec F s .f32)
    (e : Host.reduce IntOp.andi (cmpf .olt (Host.absf x) (broadcastInDim s ![] hb (constant S_ .f32 0x7F800000#32)))
      (constantI S_ 1 1#1) hr h0 ix0 = 1#1) : AllFinite x :=
  fun i => Host.reduce_andi_all _ _ hr h0 ix0 e i

def AllNonneg {s : Shape} (x : FVec F s .f32) : Prop :=
  ∀ i, FloatOps.cmpf .oge (x i) (FloatOps.ofBits (F := F) .f32 0x00000000#32) = 1#1

theorem allNonneg_of_reduce {s : Shape} {axes : List (Fin s.rank)} (hb : S_.BroadcastsInDim s (![] : Fin 0 → Fin s.rank))
    (hr : s.ReducesTo axes S_) (h0 : 0 < S_.numel) (x : FVec F s .f32)
    (e : Host.reduce IntOp.andi (cmpf .oge x (broadcastInDim s ![] hb (constant S_ .f32 0x00000000#32)))
      (constantI S_ 1 1#1) hr h0 ix0 = 1#1) : AllNonneg x :=
  fun i => Host.reduce_andi_all _ _ hr h0 ix0 e i

end AnyInstance

theorem toNat_lt_of_signed_range (w : BitVec 32) (h0 : IntOp.cmpi .sge w 0#32 = 1#1) (h1 : IntOp.cmpi .sle w 9999#32 = 1#1) :
    w.toNat < 10000 := by
  rw [IntOp.cmpi_sge, show (0#32 : BitVec 32).toInt = 0 from by decide] at h0
  rw [IntOp.cmpi_sle, show (9999#32 : BitVec 32).toInt = 9999 from by decide] at h1
  have hw := w.isLt
  rw [BitVec.toInt_eq_toNat_cond] at h0 h1
  split at h0 <;> omega

theorem range_of_reduce {s : Shape} {axes : List (Fin s.rank)} (hb : S_.BroadcastsInDim s (![] : Fin 0 → Fin s.rank))
    (hr : s.ReducesTo axes S_) (h0 : 0 < S_.numel) (x : IVec s 32)
    (e : Host.reduce IntOp.andi (andi (cmpi .sge x (broadcastInDim s ![] hb (constantI S_ 32 0#32)))
        (cmpi .sle x (broadcastInDim s ![] hb (constantI S_ 32 9999#32))))
      (constantI S_ 1 1#1) hr h0 ix0 = 1#1) (i : s.Idx) : (x i).toNat < 10000 := by
  obtain ⟨h1, h2⟩ := IntOp.andi_eq_one.1 (Host.reduce_andi_all _ _ hr h0 ix0 e i)
  exact toNat_lt_of_signed_range _ h1 h2

theorem ofBits_inf : Ideal.ofBits .f32 0x7F800000#32 = ⊤ := by simp [Ideal.ofBits, Ideal.ieee]

theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

theorem real_of_allFinite {s : Shape} {x : FVec Ideal s .f32} (h : AllFinite x) (i : s.Idx) : ∃ r : ℝ, x i = (r : EReal) := by
  have e := h i
  rw [Ideal.cmpf_def, Ideal.hostAbsf_def, Ideal.absf_def, Ideal.ofBits_def, ofBits_inf] at e
  exact real_of_abs_lt_top _ e

theorem nonneg_of_allNonneg {s : Shape} {x : FVec Ideal s .f32} (h : AllNonneg x) (i : s.Idx) : 0 ≤ x i := by
  have e := h i
  rw [Ideal.cmpf_def, Ideal.ofBits_def, Ideal.ofBits_zero_f32] at e
  by_contra hn
  simp [Ideal.cmp, hn] at e

section Conjuncts
variable {F : FTy → Type} [FloatOps F] [Cert.Pre_input_domain.Facts]
  (a0 : FVec F (A2 10000 128) .f32) (a1 : IVec (A2 2 160000) 32) (a2 a3 a4 a5 : FVec F (A1 128) .f32)
  (a6 a7 : FVec F (A2 384 128) .f32) (a8 a9 : FVec F (A1 384) .f32) (a10 a11 : FVec F (A2 128 128) .f32)
  (h : Cert.Pre_input_domain.fn (F := F) a0 a1 a2 a3 a4 a5 a6 a7 a8 a9 a10 a11 = fun _ => 1#1)
include h

-- A conjunction of bits is 1 only if each bit is, and a reduction by "and" is 1 only if every element is.
theorem conjuncts :
    AllFinite a0 ∧ AllFinite a2 ∧ AllFinite a3 ∧ AllFinite a4 ∧ AllFinite a5 ∧ AllFinite a6 ∧ AllFinite a7 ∧ AllFinite a8
      ∧ AllFinite a9 ∧ AllFinite a10 ∧ AllFinite a11 ∧ (∀ i, (a1 i).toNat < 10000) ∧ AllNonneg a5 := by
  have e := congrFun h ix0
  dsimp only [Cert.Pre_input_domain.fn, fn_part1, fn_part2, fn_part3] at e
  obtain ⟨e, c63⟩ := IntOp.andi_eq_one.1 e
  obtain ⟨e, c59⟩ := IntOp.andi_eq_one.1 e
  obtain ⟨e, c52⟩ := IntOp.andi_eq_one.1 e
  obtain ⟨e, c47⟩ := IntOp.andi_eq_one.1 e
  obtain ⟨e, c42⟩ := IntOp.andi_eq_one.1 e
  obtain ⟨e, c37⟩ := IntOp.andi_eq_one.1 e
  obtain ⟨e, c32⟩ := IntOp.andi_eq_one.1 e
  obtain ⟨e, c27⟩ := IntOp.andi_eq_one.1 e
  obtain ⟨e, c22⟩ := IntOp.andi_eq_one.1 e
  obtain ⟨e, c17⟩ := IntOp.andi_eq_one.1 e
  obtain ⟨e, c12⟩ := IntOp.andi_eq_one.1 e
  obtain ⟨c3, c7⟩ := IntOp.andi_eq_one.1 e
  exact ⟨allFinite_of_reduce _ _ _ a0 c3, allFinite_of_reduce _ _ _ a2 c7, allFinite_of_reduce _ _ _ a3 c12,
    allFinite_of_reduce _ _ _ a4 c17, allFinite_of_reduce _ _ _ a5 c22, allFinite_of_reduce _ _ _ a6 c27,
    allFinite_of_reduce _ _ _ a7 c32, allFinite_of_reduce _ _ _ a8 c37, allFinite_of_reduce _ _ _ a9 c42,
    allFinite_of_reduce _ _ _ a10 c47, allFinite_of_reduce _ _ _ a11 c52, range_of_reduce _ _ _ a1 c59,
    allNonneg_of_reduce _ _ _ a5 c63⟩

theorem src_of_pre : SrcInRange a1 :=
  fun e => (conjuncts a0 a1 a2 a3 a4 a5 a6 a7 a8 a9 a10 a11 h).2.2.2.2.2.2.2.2.2.2.2.1 (ix2 (0 : Fin 2) e)

end Conjuncts

theorem real_of_pre [Cert.Pre_input_domain.Facts] (A : Arrays)
    (h : Cert.Pre_input_domain.fn (F := Ideal) A.feat A.edge A.gamma A.beta A.mean A.var A.Wih A.Whh A.bih A.bhh A.Wself A.Wneigh
      = fun _ => 1#1) :
    (params A).Real := by
  obtain ⟨f0, f2, f3, f4, f5, f6, f7, f8, f9, f10, f11, -, n5⟩ :=
    conjuncts A.feat A.edge A.gamma A.beta A.mean A.var A.Wih A.Whh A.bih A.bhh A.Wself A.Wneigh h
  exact {
    feat := fun r k => real_of_allFinite f0 (ix2 r k)
    gamma := fun k => real_of_allFinite f2 (ix1 k)
    beta := fun k => real_of_allFinite f3 (ix1 k)
    mean := fun k => real_of_allFinite f4 (ix1 k)
    var := fun k => real_of_allFinite f5 (ix1 k)
    Wih := fun c k => real_of_allFinite f6 (ix2 c k)
    Whh := fun c k => real_of_allFinite f7 (ix2 c k)
    bih := fun c => real_of_allFinite f8 (ix1 c)
    bhh := fun c => real_of_allFinite f9 (ix1 c)
    Wself := fun j k => real_of_allFinite f10 (ix2 j k)
    Wneigh := fun j k => real_of_allFinite f11 (ix2 j k)
    var_nonneg := fun k => nonneg_of_allNonneg n5 (ix1 k) }

end Cert.PreDecode

end
-- ==== Proof.RefRun.lean ====
import proofs.«207044_g16655883174581_fold_wed_m_811_16_alg».proof.ReferenceIdeal
import proofs.«207044_g16655883174581_fold_wed_m_811_16_alg».proof.Proof.Gen.ReferenceIdeal
import proofs.«207044_g16655883174581_fold_wed_m_811_16_alg».proof.Proof.Gen.ReferenceIdeal.Run
import proofs.«207044_g16655883174581_fold_wed_m_811_16_alg».proof.Proof.Args
import Idealize.ShloMosaic.Lib.StableHlo.Run
import Idealize.ShloMosaic.Lib.ValueLayout
import Idealize.ShloMosaic.Lib.IdealHost
import Idealize.ShloMosaic.Lib.StackMember
import Idealize.ShloMosaic.PureOps.Ideal.Laws

noncomputable section

namespace Cert.RefRun

open Idealize.ShloMosaic Idealize.SL.Sem Cert.ReferenceIdeal Cert.Args
open Idealize.ShloMosaic.ValueIdx Idealize.ShloMosaic.StableHlo Cert.ReferenceIdeal.Gen Cert.ReferenceIdeal.Value Cert.Spec
open Idealize.ShloMosaic.StackMember

def arrays (m : (ℓ : Loc nD τ sig) → Buf (Elt Ideal) ℓ) (c : Dev nD) : Arrays where
  feat := m ((c.tc : Thread nD τ).loc main_arg0)
  edge := m ((c.tc : Thread nD τ).loc main_arg1)
  gamma := m ((c.tc : Thread nD τ).loc main_arg2)
  beta := m ((c.tc : Thread nD τ).loc main_arg3)
  mean := m ((c.tc : Thread nD τ).loc main_arg4)
  var := m ((c.tc : Thread nD τ).loc main_arg5)
  Wih := m ((c.tc : Thread nD τ).loc main_arg6)
  Whh := m ((c.tc : Thread nD τ).loc main_arg7)
  bih := m ((c.tc : Thread nD τ).loc main_arg8)
  bhh := m ((c.tc : Thread nD τ).loc main_arg9)
  Wself := m ((c.tc : Thread nD τ).loc main_arg10)
  Wneigh := m ((c.tc : Thread nD τ).loc main_arg11)

section Pure
variable {α : Type}

-- A vector laid along every row of a matrix reads, at (r, k), the vector at k.
theorem bcastRow_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α) (r : Fin m) (k : Fin n) :
    broadcastInDim ⟨2, ![m, n]⟩ ![0, 1] h2 (broadcastInDim ⟨2, ![1, n]⟩ ![1] h1 v) (ix2 r k) = v (ix1 k) := by
  have hk : k.val = if n = 1 then 0 else k.val := by have := k.isLt; split <;> omega
  refine (broadcastInDim_apply _ _ _ (ix2 r k) (ix2 (0 : Fin 1) k) fun a => ?_).trans
    (broadcastInDim_apply _ _ _ (ix2 (0 : Fin 1) k) (ix1 k) fun a => ?_)
  · match a with
    | ⟨0, _⟩ => rfl
    | ⟨1, _⟩ => exact hk
  · match a with
    | ⟨0, _⟩ => exact hk

theorem hostSqrt_apply {s : Shape} (a : FVec Ideal s .f32) (i : s.Idx) : Host.sqrt a i = Ideal.sqrt (a i) := rfl
theorem hostExp_apply {s : Shape} (a : FVec Ideal s .f32) (i : s.Idx) : Host.exp a i = Ideal.exp (a i) := rfl
theorem hostTanh_apply {s : Shape} (a : FVec Ideal s .f32) (i : s.Idx) : Host.tanh a i = Ideal.tanh (a i) := rfl
theorem hostNegf_apply {s : Shape} (a : FVec Ideal s .f32) (i : s.Idx) : Host.negf a i = -(a i) := rfl

theorem transposeBox_apply (X : S10000x16x128.Idx → α) (t : Fin 16) (n : Fin 10000) (k : Fin 128) :
    transpose S16x10000x128 [1, 0, 2] X transposes_S10000x16x128_S16x10000x128_1_0_2 (ix3 t n k) = X (ix3 n t k) :=
  transpose_apply _ X _ _ _ fun c => match c with | ⟨0, _⟩ => rfl | ⟨1, _⟩ => rfl | ⟨2, _⟩ => rfl
theorem reshapeBox_apply (Y : S160000x128.Idx → α) (n : Fin 10000) (t : Fin 16) (k : Fin 128) (e : Fin 160000)
    (he : e.val = 16 * n.val + t.val) :
    shapeCast S10000x16x128 Y shapeCasts_S160000x128_S10000x16x128 (ix3 n t k) = Y (ix2 e k) :=
  shapeCast_apply Y _ _ _ (by
    rw [Shape.rowMajor_val_three, Shape.rowMajor_val_two]
    show e.val * 128 + k.val = (n.val * 16 + t.val) * 128 + k.val
    rw [he, Nat.mul_comm 16 n.val])
theorem srcRow_apply (E : S2x160000.Idx → α) (e : Fin 160000) :
    shapeCast S160000 (extractStridedSlice S1x160000 ![0, 0] E slices_S2x160000_S1x160000_0_0) shapeCasts_S1x160000_S160000 (ix1 e)
      = E (ix2 (0 : Fin 2) e) := by
  refine (shapeCast_1a_a_apply _ _ e).trans ?_
  exact slice2_axis0_apply 0 E _ (0 : Fin 1) e (0 : Fin 2) rfl
theorem dynSlice_apply (X : S16x10000x128.Idx → α) (st : Fin 3 → Int) (t : Fin 16) (h0 : st 0 = (t.val : Int))
    (h1 : st 1 = 0) (h2 : st 2 = 0) (n : Fin 10000) (k : Fin 128) :
    Host.dynamicSlice S1x10000x128 X st sliceFits_S16x10000x128_S1x10000x128 (ix3 (0 : Fin 1) n k) = X (ix3 t n k) := by
  unfold Host.dynamicSlice
  refine extractStridedSlice_apply _ X _ _ _ fun a => ?_
  match a with
  | ⟨0, _⟩ =>
    show t.val = (min (max (st 0) 0) ((16 - 1 : Nat) : Int)).toNat + 0
    rw [h0]; have := t.isLt; omega
  | ⟨1, _⟩ =>
    show n.val = (min (max (st 1) 0) ((10000 - 10000 : Nat) : Int)).toNat + n.val
    rw [h1]; omega
  | ⟨2, _⟩ =>
    show k.val = (min (max (st 2) 0) ((128 - 128 : Nat) : Int)).toNat + k.val
    rw [h2]; omega

end Pure

section Take
variable {α : Type}

theorem gatherRow_apply (x : S10000x128.Idx → α) (idx : IVec S160000x1 32) (e : Fin 160000) (k : Fin 128) :
    Host.gather gather_S10000x128_S160000x1_S160000x128_1_0_n_n_0_1_1128 x idx (ix2 e k)
      = x (ix2 (⟨min (idx (ix2 e (0 : Fin 1))).toInt.toNat 9999, by omega⟩ : Fin 10000) k) := by
  unfold Host.gather
  congr 1
  funext a
  refine Fin.ext ?_
  match a with
  | ⟨0, _⟩ =>
    show gather_S10000x128_S160000x1_S160000x128_1_0_n_n_0_1_1128.start (ix2 e k) idx 0
        + gather_S10000x128_S160000x1_S160000x128_1_0_n_n_0_1_1128.batchCoord (ix2 e k) 0
        + gather_S10000x128_S160000x1_S160000x128_1_0_n_n_0_1_1128.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S10000x128.rank) ∈ gather_S10000x128_S160000x1_S160000x128_1_0_n_n_0_1_1128.startIndexMap
      from List.mem_singleton.mpr rfl)]
    have hsi : gather_S10000x128_S160000x1_S160000x128_1_0_n_n_0_1_1128.siIdx (ix2 e k)
        ⟨List.idxOf (0 : Fin S10000x128.rank) gather_S10000x128_S160000x1_S160000x128_1_0_n_n_0_1_1128.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S10000x128_S160000x1_S160000x128_1_0_n_n_0_1_1128.start (ix2 e k) idx 1
        + gather_S10000x128_S160000x1_S160000x128_1_0_n_n_0_1_1128.batchCoord (ix2 e k) 1
        + gather_S10000x128_S160000x1_S160000x128_1_0_n_n_0_1_1128.offCoord (ix2 e k) 1 = k.val
    rw [GatherDims.batchCoord_eq_zero _ _ _ List.not_mem_nil]
    unfold GatherDims.start
    rw [dif_neg (show ¬(1 : Fin S10000x128.rank) ∈ gather_S10000x128_S160000x1_S160000x128_1_0_n_n_0_1_1128.startIndexMap by decide)]
    unfold GatherDims.offCoord
    rw [dif_pos (show (1 : Fin S10000x128.rank) ∈ gather_S10000x128_S160000x1_S160000x128_1_0_n_n_0_1_1128.sKept by decide)]
    simp only [Nat.zero_add]
    rfl

theorem foldl_andi_one {ι : Type} (f : ι → BitVec 1) (hf : ∀ n, f n = 1#1) :
    ∀ (l : List ι) (r : BitVec 1), r = 1#1 → l.foldl (fun r n => IntOp.andi r (f n)) r = 1#1
  | [], _, hr => hr
  | n :: l, r, hr => by
    rw [List.foldl_cons]
    exact foldl_andi_one f hf l _ (by rw [hr, hf n]; rfl)

theorem reduceAnd_one (x : IVec S160000x1 1) (hx : ∀ i, x i = 1#1) (init : IVec S_ 1) (hi : ∀ i, init i = 1#1) (j : S160000.Idx) :
    Host.reduce IntOp.andi x init reducesTo_S160000x1_S160000_d1 h_S_ j = 1#1 := by
  unfold Host.reduce
  exact foldl_andi_one (fun n => x (S160000x1.rowMajor.symm n)) (fun n => hx _) _ _ (hi _)

end Take

section TakeRows

theorem word_in_range {w : BitVec 32} (h : w.toNat < 10000) :
    IntOp.cmpi .slt w 0#32 = 0#1 ∧ IntOp.cmpi .sge w 0#32 = 1#1 ∧ IntOp.cmpi .sle w 9999#32 = 1#1 ∧ w.toInt.toNat = w.toNat := by
  have hi : w.toInt = (w.toNat : Int) := BitVec.toInt_eq_toNat_of_lt (by omega)
  have h0 : (0#32 : BitVec 32).toInt = 0 := by decide
  have h9 : (9999#32 : BitVec 32).toInt = 9999 := by decide
  refine ⟨?_, ?_, ?_, ?_⟩
  · show BitVec.ofBool (decide (w.toInt < (0#32 : BitVec 32).toInt)) = 0#1
    rw [hi, h0, decide_eq_false (by omega)]; rfl
  · show BitVec.ofBool (decide ((0#32 : BitVec 32).toInt ≤ w.toInt)) = 1#1
    rw [hi, h0, decide_eq_true (by omega)]; rfl
  · show BitVec.ofBool (decide (w.toInt ≤ (9999#32 : BitVec 32).toInt)) = 1#1
    rw [hi, h9, decide_eq_true (by omega)]; rfl
  · rw [hi]; rfl

def idxV (s : IVec S160000 32) : IVec S160000x1 32 :=
  broadcastInDim S160000x1 ![0] bcast_S160000_S160000x1_0
    (select (cmpi .slt s (broadcastInDim S160000 ![] bcast_S_S160000 (constantI S_ 32 0#32)))
      (addi s (broadcastInDim S160000 ![] bcast_S_S160000 (constantI S_ 32 10000#32))) s)

def maskV (i5 : IVec S160000x1 32) : IVec S160000 1 :=
  Host.reduce IntOp.andi
    (andi (cmpi .sge i5 (broadcastInDim S160000x1 ![] bcast_S_S160000x1 (constantI S_ 32 0#32)))
      (cmpi .sle i5 (broadcastInDim S160000x1 ![0, 1] bcast_S1x1_S160000x1_0_1
        (broadcastInDim S1x1 ![1] bcast_S1_S1x1_1 (constantI S1 32 9999#32)))))
    (constantI S_ 1 1#1) reducesTo_S160000x1_S160000_d1 h_S_

def takeV (x : FVec Ideal S10000x128 .f32) (s : IVec S160000 32) : FVec Ideal S160000x128 .f32 :=
  select (broadcastInDim S160000x128 ![0] bcast_S160000_S160000x128_0 (maskV (idxV s)))
    (Host.gather gather_S10000x128_S160000x1_S160000x128_1_0_n_n_0_1_1128 x (idxV s))
    (broadcastInDim S160000x128 ![] bcast_S_S160000x128 (constant S_ .f32 0x7FC00000#32))

variable (s : IVec S160000 32) (hs : ∀ e : Fin 160000, (s (ix1 e)).toNat < 10000)
include hs

theorem idxV_apply (e : Fin 160000) (u : Fin 1) : idxV s (ix2 e u) = s (ix1 e) := by
  unfold idxV
  refine (broadcastInDim_apply _ _ _ (ix2 e u) (ix1 e) fun a => ?_).trans ?_
  · match a with
    | ⟨0, _⟩ => rfl
  · show Scalar.select (IntOp.cmpi .slt (s (ix1 e)) 0#32) (IntOp.addi (s (ix1 e)) 10000#32) (s (ix1 e)) = s (ix1 e)
    rw [(word_in_range (hs e)).1, select_zero]

theorem maskV_apply (j : S160000.Idx) : maskV (idxV s) j = 1#1 := by
  unfold maskV
  refine reduceAnd_one _ (fun i => ?_) _ (fun _ => rfl) j
  show IntOp.andi (IntOp.cmpi .sge (idxV s i) 0#32) (IntOp.cmpi .sle (idxV s i) 9999#32) = 1#1
  obtain ⟨e, u, rfl⟩ : ∃ (e : Fin 160000) (u : Fin 1), i = ix2 e u := ⟨i 0, i 1, eq_ix2 i⟩
  rw [idxV_apply s hs, (word_in_range (hs e)).2.1, (word_in_range (hs e)).2.2.1]
  rfl

theorem takeV_apply (x : FVec Ideal S10000x128 .f32) (e : Fin 160000) (k : Fin 128) :
    takeV x s (ix2 e k) = x (ix2 (⟨(s (ix1 e)).toNat, hs e⟩ : Fin 10000) k) := by
  unfold takeV
  rw [select_apply]
  have hm : broadcastInDim S160000x128 ![0] bcast_S160000_S160000x128_0 (maskV (idxV s)) (ix2 e k) = 1#1 :=
    (broadcastInDim_apply _ _ _ (ix2 e k) (ix1 e) fun a => by
      match a with
      | ⟨0, _⟩ => rfl).trans (maskV_apply s hs _)
  rw [hm, select_one, gatherRow_apply]
  refine congrArg x (congrArg (fun a : Fin 10000 => ix2 a k) (Fin.ext ?_))
  show min (idxV s (ix2 e (0 : Fin 1))).toInt.toNat 9999 = (s (ix1 e)).toNat
  rw [idxV_apply s hs, (word_in_range (hs e)).2.2.2]
  have := hs e
  omega

end TakeRows

section Features

def xnV (feat : FVec Ideal S10000x128 .f32) (gamma beta mean var : FVec Ideal S128 .f32) : FVec Ideal S10000x128 .f32 :=
  addf (mulf (Host.divf
        (subf feat (broadcastInDim S10000x128 ![0, 1] bcast_S1x128_S10000x128_0_1 (broadcastInDim S1x128 ![1] bcast_S128_S1x128_1 mean)))
        (broadcastInDim S10000x128 ![0, 1] bcast_S1x128_S10000x128_0_1 (broadcastInDim S1x128 ![1] bcast_S128_S1x128_1
          (Host.sqrt (addf var (broadcastInDim S128 ![] bcast_S_S128 (constant S_ .f32 0x3727C5AC#32)))))))
      (broadcastInDim S10000x128 ![0, 1] bcast_S1x128_S10000x128_0_1 (broadcastInDim S1x128 ![1] bcast_S128_S1x128_1 gamma)))
    (broadcastInDim S10000x128 ![0, 1] bcast_S1x128_S10000x128_0_1 (broadcastInDim S1x128 ![1] bcast_S128_S1x128_1 beta))

abbrev xnA (A : Arrays) : FVec Ideal S10000x128 .f32 := xnV A.feat A.gamma A.beta A.mean A.var

theorem xnV_apply (A : Arrays) (r : Fin 10000) (k : Fin 128) : xnA A (ix2 r k) = xn (params A) r k := by
  unfold xnA xnV
  rw [addf_apply, mulf_apply, hostDivf_apply, subf_apply, bcastRow_apply, bcastRow_apply, bcastRow_apply,
    bcastRow_apply, hostSqrt_apply, addf_apply, broadcastInDim_scalar_apply]
  rfl

def srcV (edge : IVec S2x160000 32) : IVec S160000 32 :=
  shapeCast S160000 (extractStridedSlice S1x160000 ![0, 0] edge slices_S2x160000_S1x160000_0_0) shapeCasts_S1x160000_S160000

def xsV (x : FVec Ideal S10000x128 .f32) (s : IVec S160000 32) : FVec Ideal S16x10000x128 .f32 :=
  transpose S16x10000x128 [1, 0, 2] (shapeCast S10000x16x128 (takeV x s) shapeCasts_S160000x128_S10000x16x128)
    transposes_S10000x16x128_S16x10000x128_1_0_2

theorem xsV_apply (A : Arrays) (hsrc : SrcInRange A.edge) (t : Fin 16) (n : Fin 10000) (k : Fin 128) :
    xsV (xnA A) (srcV A.edge) (ix3 t n k)
      = xn (params A) ((params A).src (Spec.edge t.val n)) k := by
  have hs : ∀ e : Fin 160000, (srcV A.edge (ix1 e)).toNat < 10000 := fun e => by
    unfold srcV; rw [srcRow_apply]; exact hsrc e
  have hlt : 16 * n.val + t.val < 160000 := by have := n.isLt; have := t.isLt; omega
  unfold xsV
  rw [transposeBox_apply, reshapeBox_apply _ n t k ⟨16 * n.val + t.val, hlt⟩ rfl, takeV_apply _ hs, xnV_apply]
  refine congrArg (fun r : Fin 10000 => xn (params A) r k) (Fin.ext ?_)
  show (srcV A.edge (ix1 ⟨16 * n.val + t.val, hlt⟩)).toNat
    = (A.edge (ix2 (0 : Fin 2) ⟨(16 * n.val + t.val) % 160000, _⟩)).toNat % 10000
  have he : (⟨(16 * n.val + t.val) % 160000, Nat.mod_lt _ (by decide)⟩ : Fin 160000) = ⟨16 * n.val + t.val, hlt⟩ :=
    Fin.ext (Nat.mod_eq_of_lt hlt)
  rw [he]
  unfold srcV
  rw [srcRow_apply, Nat.mod_eq_of_lt (hsrc _)]

end Features

theorem dot384_apply (l : FVec Ideal S10000x128 .f32) (r : FVec Ideal S128x384 .f32) (n : Fin 10000) (c : Fin 384) :
    Host.dotGeneral dot_S10000x128_S128x384_S10000x384_1_0_0_1_n_n none l r (ix2 n c) = ∑ k : Fin 128, l (ix2 n k) * r (ix2 k c) :=
  dotGeneral_plain_apply none l r n c
theorem dot128_apply (l : FVec Ideal S10000x128 .f32) (r : FVec Ideal S128x128 .f32) (n : Fin 10000) (j : Fin 128) :
    Host.dotGeneral dot_S10000x128_S128x128_S10000x128_1_0_0_1_n_n none l r (ix2 n j) = ∑ k : Fin 128, l (ix2 n k) * r (ix2 k j) :=
  dotGeneral_plain_apply none l r n j

section Trip

theorem one_eq : Ideal.ofBits .f32 0x3F800000#32 = (1 : EReal) := Ideal.ofBits_one_f32

variable (V0 : Valuation τ sig (Elt Ideal)) (t : Fin 16)
  (XS : FVec Ideal S16x10000x128 .f32) (Wih Whh : FVec Ideal S384x128 .f32) (bih bhh : FVec Ideal S384 .f32)
  (H : FVec Ideal S10000x128 .f32) (w : BitVec 32)

-- One trip is one step of the cell on the two gate inputs and the state before.
theorem step_apply (h0 : V0 (Proc.devRef .tc main_v21_0) = XS) (h1 : V0 (Proc.devRef .tc main_v21_1) = Wih)
    (h2 : V0 (Proc.devRef .tc main_v21_2) = bih) (h3 : V0 (Proc.devRef .tc main_v21_3) = Whh)
    (h4 : V0 (Proc.devRef .tc main_v21_4) = bhh) (h5 : V0 (Proc.devRef .tc main_v21_5) = fun _ => w)
    (hw : w.toInt = (t.val : Int)) (h6 : V0 (Proc.devRef .tc main_v21_6) = H) (n : Fin 10000) (j : Fin 128) :
    step_main_v21_6 V0 (ix2 n j)
      = cell (lin (fun c k => Wih (ix2 c k)) (fun c => bih (ix1 c)) (fun k => XS (ix3 t n k)))
          (lin (fun c k => Whh (ix2 c k)) (fun c => bhh (ix1 c)) (fun k => H (ix2 n k))) (fun k => H (ix2 n k)) j := by
  have gi : ∀ c, res_main_while0b_call2_v4 V0 (ix2 n c)
      = lin (fun c k => Wih (ix2 c k)) (fun c => bih (ix1 c)) (fun k => XS (ix3 t n k)) c := fun c => by
    unfold res_main_while0b_call2_v4
    rw [h0, h1, h2, h5, addf_apply, dot384_apply, bcastRow_apply]
    unfold lin
    refine congrArg (· + bih (ix1 c)) (Finset.sum_congr rfl fun k _ => ?_)
    refine congrArg₂ (· * ·) ((shapeCast_1ab_ab_apply _ _ n k).trans (dynSlice_apply _ _ t ?_ ?_ ?_ n k)) (transpose_ix2_apply _ _ k c)
    exacts [hw, rfl, rfl]
  have gh : ∀ c, res_main_while0b_call2_v9 V0 (ix2 n c)
      = lin (fun c k => Whh (ix2 c k)) (fun c => bhh (ix1 c)) (fun k => H (ix2 n k)) c := fun c => by
    unfold res_main_while0b_call2_v9
    rw [h3, h4, h6, addf_apply, dot384_apply, bcastRow_apply]
    unfold lin
    refine congrArg (· + bhh (ix1 c)) (Finset.sum_congr rfl fun k _ => ?_)
    rw [transpose_ix2_apply]
  unfold step_main_v21_6 res_main_while0b_call2_v29
  simp only [id_eq, addf_apply, mulf_apply, subf_apply, hostTanh_apply, hostDivf_apply, hostExp_apply, hostNegf_apply,
    slice2_axis1_apply 0 _ _ n j (colR j) (Nat.zero_add _).symm,
    slice2_axis1_apply 128 _ _ n j (colZ j) rfl, slice2_axis1_apply 256 _ _ n j (colN j) rfl, gi, gh, h6]
  rw [broadcastInDim_scalar_apply, constant_apply]
  unfold cell Spec.one Ideal.logistic
  rw [one_eq]

end Trip

section Writes

abbrev hostOps0_W : List (Ref sig .tc) := [main_v0, main_v1, main_v2, main_cst, main_v3, main_v4, main_v5, main_v6, main_v7,
  main_v8, main_v9, main_v10, main_v11, main_v12, main_v13, main_v14, main_v15, main_v16]
abbrev hostOps0_1_W : List (Ref sig .tc) := [main_call0_c, main_call0_v0, main_call0_v1, main_call0_c_0, main_call0_v2,
  main_call0_v3, main_call0_v4, main_call0_v5, main_call0_c_1, main_call0_c_2, main_call0_v6, main_call0_v7, main_call0_v8,
  main_call0_v9, main_call0_v10, main_call0_v11, main_call0_c_3, main_call0_v12, main_call0_v13, main_call0_v14,
  main_call0_cst, main_call0_v15, main_v17]
abbrev hostOps0_2_W : List (Ref sig .tc) := [main_v18, main_v19, main_cst_0, main_v20, main_c, main_v21_0, main_v21_1,
  main_v21_2, main_v21_3, main_v21_4, main_v21_5, main_v21_6]
abbrev hostOps0_3_W : List (Ref sig .tc) := [main_v22, main_v23, main_v24, main_v25, main_v26]
abbrev while0Ops0_2_W : List (Ref sig .tc) := [main_while0b_c_7, main_while0b_v29, main_v21_5, main_v21_6]
abbrev condOps_W : List (Ref sig .tc) := [main_while0c_c_7, main_while0c_v27]

abbrev Wr (ops : List (HloOp τ sig (Elt Ideal))) (W : List (Ref sig .tc)) : Prop :=
  ops.Forall fun op => op.writes ⊆ (W.map (Proc.devRef (τ := τ) .tc)).toFinset

theorem writes_sub : Wr hostOps0 hostOps0_W ∧ Wr hostOps0_1 hostOps0_1_W ∧ Wr hostOps0_2 hostOps0_2_W
    ∧ Wr hostOps0_3 hostOps0_3_W ∧ Wr while0Ops0_2 while0Ops0_2_W ∧ Wr condOps condOps_W := by
  refine ⟨?_, ?_, ?_, ?_, ?_, ?_⟩ <;>
    (simp only [Wr, List.Forall, nullary_writes, unary_writes, binary_writes, ternary_writes, reshape_writes, unaryIndexed_writes,
      Finset.singleton_subset_iff, List.mem_toFinset]
     repeat' apply And.intro
     all_goals exact List.mem_map_of_mem (by decide))

abbrev Kept (r : Ref sig .tc) : Prop :=
  r ∉ condOps_W ∧ r ∉ trip_w0_W ∧ r ∉ trip_w1_W ∧ r ∉ trip_w2_W ∧ r ∉ trip_w3_W ∧ r ∉ while0Ops0_2_W

theorem trip_keep (X : Valuation τ sig (Elt Ideal)) (r : Ref sig .tc) (hl : Kept r) :
    afterL bodyI (after condOps X) (Proc.devRef .tc r) = X (Proc.devRef .tc r) := by
  obtain ⟨hc, h0, h1, h2, h3, hb⟩ := hl
  simp only [bodyI, afterL_cons, afterL_nil, trip_windows]
  rw [after_of_writes_sub while0Ops0_2 _ writes_sub.2.2.2.2.1 hb, val4_keep _ r h3, val3_keep _ r h2, val2_keep _ r h1,
    val1_keep _ r h0]
  exact after_of_writes_sub condOps _ writes_sub.2.2.2.2.2 hc

variable (m : (ℓ : Loc nD τ sig) → Buf (Elt Ideal) ℓ) (c : Dev nD)

theorem atK_keep (r : Ref sig .tc) (hl : Kept r) :
    ∀ k, atK m k c (Proc.devRef .tc r) = entryContents preI m c (Proc.devRef .tc r)
  | 0 => rfl
  | k + 1 => by
    show afterL bodyI (after condOps (atK m k c)) (Proc.devRef .tc r) = _
    rw [trip_keep _ r hl, atK_keep r hl k]

theorem end_keep {r : Ref sig .tc} (hl : Kept r) :
    after condOps (atK m 16 c) (Proc.devRef .tc r) = entryContents preI m c (Proc.devRef .tc r) :=
  (after_of_writes_sub condOps _ writes_sub.2.2.2.2.2 hl.1).trans (atK_keep m c r hl 16)

theorem entry_eq :
    entryContents preI m c = after hostOps0_2 (after hostOps0_1 (after hostOps0 (launchContents m c))) := rfl

theorem pre_arg (r : Ref sig .tc) (h0 : r ∉ hostOps0_W) (h1 : r ∉ hostOps0_1_W) :
    after hostOps0_1 (after hostOps0 (launchContents m c)) (Proc.devRef .tc r) = m ((c.tc : Thread nD τ).loc r) := by
  rw [after_of_writes_sub hostOps0_1 _ writes_sub.2.1 h1, after_of_writes_sub hostOps0 _ writes_sub.1 h0]

theorem entry_arg (r : Ref sig .tc) (h0 : r ∉ hostOps0_W) (h1 : r ∉ hostOps0_1_W) (h2 : r ∉ hostOps0_2_W) :
    entryContents preI m c (Proc.devRef .tc r) = m ((c.tc : Thread nD τ).loc r) := by
  rw [entry_eq, after_of_writes_sub hostOps0_2 _ writes_sub.2.2.1 h2, pre_arg m c r h0 h1]

-- A buffer no operation writes ends holding what it held at the start.
theorem final_keep (r : Ref sig .tc) (hp : r ∉ hostOps0_W ∧ r ∉ hostOps0_1_W ∧ r ∉ hostOps0_2_W ∧ r ∉ hostOps0_3_W)
    (hl : Kept r) : finalContents condOps preI bodyI postI 16 m c (Proc.devRef .tc r) = m ((c.tc : Thread nD τ).loc r) := by
  show after hostOps0_3 (after condOps (atK m 16 c)) (Proc.devRef .tc r) = _
  rw [after_of_writes_sub hostOps0_3 _ writes_sub.2.2.2.1 hp.2.2.2, end_keep m c hl, entry_arg m c r hp.1 hp.2.1 hp.2.2.1]

end Writes

section Stages

variable (V : Valuation τ sig (Elt Ideal))

theorem pre0_v14 : after hostOps0 V (Proc.devRef .tc main_v14)
    = xnV (V (Proc.devRef .tc main_arg0)) (V (Proc.devRef .tc main_arg2)) (V (Proc.devRef .tc main_arg3))
        (V (Proc.devRef .tc main_arg4)) (V (Proc.devRef .tc main_arg5)) := by
  after_results
  rfl
theorem pre0_v16 : after hostOps0 V (Proc.devRef .tc main_v16) = srcV (V (Proc.devRef .tc main_arg1)) := by
  after_results
  rfl
theorem pre1_v17 : after hostOps0_1 V (Proc.devRef .tc main_v17)
    = takeV (V (Proc.devRef .tc main_v14)) (V (Proc.devRef .tc main_v16)) := by
  after_results_simp
  simp only [TRef.toBuf, TRef.ofBuf, cast_eq]
  unfold takeV maskV idxV
  rfl
theorem pre2_v21_0 : after hostOps0_2 V (Proc.devRef .tc main_v21_0)
    = transpose S16x10000x128 [1, 0, 2] (shapeCast S10000x16x128 (V (Proc.devRef .tc main_v17)) shapeCasts_S160000x128_S10000x16x128)
        transposes_S10000x16x128_S16x10000x128_1_0_2 := by
  after_results
  rfl
theorem pre2_w : after hostOps0_2 V (Proc.devRef .tc main_v21_1) = V (Proc.devRef .tc main_arg6)
    ∧ after hostOps0_2 V (Proc.devRef .tc main_v21_2) = V (Proc.devRef .tc main_arg8)
    ∧ after hostOps0_2 V (Proc.devRef .tc main_v21_3) = V (Proc.devRef .tc main_arg7)
    ∧ after hostOps0_2 V (Proc.devRef .tc main_v21_4) = V (Proc.devRef .tc main_arg9) := by
  refine ⟨?_, ?_, ?_, ?_⟩ <;> (after_results; rfl)
theorem pre2_v21_6 : after hostOps0_2 V (Proc.devRef .tc main_v21_6)
    = (broadcastInDim S10000x128 ![] bcast_S_S10000x128 (constant (F := Ideal) S_ .f32 0x00000000#32) : FVec Ideal S10000x128 .f32) := by
  after_results
  rfl
theorem post_v26 : after hostOps0_3 V (Proc.devRef .tc main_v26)
    = (addf (Host.dotGeneral (F := Ideal) (φ₁ := .f32) (φ₂ := .f32) dot_S10000x128_S128x128_S10000x128_1_0_0_1_n_n none
          (V (Proc.devRef .tc main_v14) : FVec Ideal S10000x128 .f32)
          (transpose S128x128 [1, 0] (V (Proc.devRef .tc main_arg10) : FVec Ideal S128x128 .f32) transposes_S128x128_S128x128_1_0))
        (Host.dotGeneral (F := Ideal) (φ₁ := .f32) (φ₂ := .f32) dot_S10000x128_S128x128_S10000x128_1_0_0_1_n_n none
          (V (Proc.devRef .tc main_v21_6) : FVec Ideal S10000x128 .f32)
          (transpose S128x128 [1, 0] (V (Proc.devRef .tc main_arg11) : FVec Ideal S128x128 .f32) transposes_S128x128_S128x128_1_0))
        : FVec Ideal S10000x128 .f32) := by
  after_results
  all_goals rfl

end Stages

section Loop

variable (m : (ℓ : Loc nD τ sig) → Buf (Elt Ideal) ℓ) (c : Dev nD)

theorem entry_v14 : entryContents preI m c (Proc.devRef .tc main_v14)
    = xnA (arrays m c) := by
  rw [entry_eq, after_of_writes_sub hostOps0_2 _ writes_sub.2.2.1 (by decide),
    after_of_writes_sub hostOps0_1 _ writes_sub.2.1 (by decide), pre0_v14]
  rfl
theorem entry_v21_0 : entryContents preI m c (Proc.devRef .tc main_v21_0)
    = xsV (xnA (arrays m c)) (srcV (arrays m c).edge) := by
  rw [entry_eq, pre2_v21_0, pre1_v17, pre0_v14, pre0_v16]
  rfl

-- A buffer one step leaves alone holds after any number of steps what it held before them.
theorem iter_keep {b : DevRef τ sig} (h : ∀ X : Valuation τ sig (Elt Ideal), STEP X b = X b) (X : Valuation τ sig (Elt Ideal)) :
    ∀ k, (STEP^[k] X) b = X b
  | 0 => rfl
  | k + 1 => by rw [Function.iterate_succ_apply', h, iter_keep h X k]

theorem iter_v21_5 (k : ℕ) : (STEP^[k] (entryContents preI m c)) (Proc.devRef .tc main_v21_5) = fun _ => Scf.iv 0#32 1#32 k :=
  ((atK_agree m c k) main_v21_5 (by decide)).symm.trans (atK_ctr m c k)

theorem iv_toInt : ∀ k, k < 16 → (Scf.iv 0#32 1#32 k).toInt = (k : Int) := by decide

variable (hsrc : SrcInRange (arrays m c).edge)
include hsrc

-- After k trips the carried state is the specification's hidden state after k messages.
theorem iter_v21_6 : ∀ k, k ≤ 16 → ∀ (n : Fin 10000) (j : Fin 128),
    (STEP^[k] (entryContents preI m c)) (Proc.devRef .tc main_v21_6) (ix2 n j) = hRef (params (arrays m c)) n k j
  | 0, _, n, j => by
    show entryContents preI m c (Proc.devRef .tc main_v21_6) (ix2 n j) = (0 : EReal)
    rw [entry_eq, pre2_v21_6, broadcastInDim_scalar_apply, constant_apply, Ideal.ofBits_zero_f32]
  | k + 1, hk, n, j => by
    obtain ⟨w1, w2, w3, w4⟩ := pre2_w (after hostOps0_1 (after hostOps0 (launchContents m c)))
    rw [Function.iterate_succ_apply', STEP_main_v21_6]
    refine (step_apply (STEP^[k] (entryContents preI m c)) ⟨k, by omega⟩ _ _ _ _ _ _ _
      ((iter_keep STEP_main_v21_0 _ k).trans (entry_v21_0 m c))
      ((iter_keep STEP_main_v21_1 _ k).trans (w1.trans (pre_arg m c _ (by decide) (by decide))))
      ((iter_keep STEP_main_v21_2 _ k).trans (w2.trans (pre_arg m c _ (by decide) (by decide))))
      ((iter_keep STEP_main_v21_3 _ k).trans (w3.trans (pre_arg m c _ (by decide) (by decide))))
      ((iter_keep STEP_main_v21_4 _ k).trans (w4.trans (pre_arg m c _ (by decide) (by decide))))
      (iter_v21_5 m c k) (iv_toInt k (by omega)) rfl n j).trans ?_
    rw [funext fun k' => xsV_apply (arrays m c) hsrc ⟨k, by omega⟩ n k', funext fun k' => iter_v21_6 k (by omega) n k']
    rfl

theorem final_v26 : finalContents condOps preI bodyI postI 16 m c (Proc.devRef .tc main_v26)
    = ofMat (outRef (params (arrays m c))) := by
  refine funext fun (i : S10000x128.Idx) => ?_
  obtain ⟨n, j, rfl⟩ : ∃ (n : Fin 10000) (j : Fin 128), i = ix2 n j := ⟨i 0, i 1, eq_ix2 i⟩
  rw [ofMat_ix2]
  show after hostOps0_3 (after condOps (atK m 16 c)) (Proc.devRef .tc main_v26) (ix2 n j) = _
  rw [post_v26, addf_apply, dot128_apply, dot128_apply, (end_keep m c (by decide)).trans (entry_v14 m c),
    (end_keep m c (by decide)).trans (entry_arg m c main_arg10 (by decide) (by decide) (by decide)),
    (end_keep m c (by decide)).trans (entry_arg m c main_arg11 (by decide) (by decide) (by decide)),
    ((cond_keeps (atK m 16 c)) main_v21_6 (by decide)).trans ((atK_agree m c 16) main_v21_6 (by decide))]
  unfold outRef
  refine congrArg₂ (· + ·) (Finset.sum_congr rfl fun k _ => ?_) (Finset.sum_congr rfl fun k _ => ?_)
  · rw [xnV_apply, transpose_ix2_apply]; rfl
  · rw [iter_v21_6 m c hsrc 16 (le_refl _) n k, transpose_ix2_apply]; rfl

end Loop

theorem run [Cert.ReferenceIdeal.Facts] (m : (ℓ : Loc nD τ sig) → Buf (Elt Ideal) ℓ) (ρ : Dev nD → PrngReg)
    (hsrc : ∀ c : Dev nD, SrcInRange (arrays m c).edge) :
    θ_run (Cert.ReferenceIdeal.defs (F := Ideal)) (onTc (τ := τ) (main (F := Ideal))) ⟨m, fun _ => 0, ρ⟩ (fun r => ∀ c : Dev nD,
      r.2.mem ((c.tc : Thread nD τ).loc main_v26) = ofMat (Spec.outRef (params (arrays m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run (Cert.ReferenceIdeal.defs (F := Ideal)) _ _).mono (fun r h c => ?_) (run_fold (F := Ideal) m ρ)
  refine ⟨(h c main_v26 rfl).trans (final_v26 m c (hsrc c)), ?_⟩
  repeat' apply And.intro
  all_goals exact (h c _ rfl).trans (final_keep m c _ (by decide) (by decide))

end Cert.RefRun

end
-- ==== Proof.HostOps.lean ====
import proofs.«207044_g16655883174581_fold_wed_m_811_16_alg».proof.Proof.Gen.KernelIdeal
import Idealize.ShloMosaic.Lib.StableHlo.Run

noncomputable section

namespace Cert.KernelIdeal.Hand

open Cert.KernelIdeal Cert.KernelIdeal.Gen Idealize.ShloMosaic Idealize.ShloMosaic.TcCoe Idealize.SL.Sem

variable {F : FTy → Type} [FloatOps F]

abbrev hostOpsA : List (HloOp τ sig (Elt F)) :=
  [ StableHlo.nullary main_cst (constant S_ .f32 0x3727C5AC#32),
    StableHlo.unary main_cst main_v0 (broadcastInDim S128 ![] bcast_S_S128 : (⟨S_, .f32⟩ : BufTy).Contents (Elt F) → (⟨S128, .f32⟩ : BufTy).Contents (Elt F)),
    StableHlo.binary main_arg5 main_v0 main_v1 (addf : (⟨S128, .f32⟩ : BufTy).Contents (Elt F) → (⟨S128, .f32⟩ : BufTy).Contents (Elt F) → (⟨S128, .f32⟩ : BufTy).Contents (Elt F)),
    StableHlo.unary main_v1 main_v2 (Host.rsqrt : (⟨S128, .f32⟩ : BufTy).Contents (Elt F) → (⟨S128, .f32⟩ : BufTy).Contents (Elt F)),
    StableHlo.binary main_arg2 main_v2 main_v3 (mulf : (⟨S128, .f32⟩ : BufTy).Contents (Elt F) → (⟨S128, .f32⟩ : BufTy).Contents (Elt F) → (⟨S128, .f32⟩ : BufTy).Contents (Elt F)),
    StableHlo.binary main_arg4 main_v3 main_v4 (mulf : (⟨S128, .f32⟩ : BufTy).Contents (Elt F) → (⟨S128, .f32⟩ : BufTy).Contents (Elt F) → (⟨S128, .f32⟩ : BufTy).Contents (Elt F)),
    StableHlo.binary main_arg3 main_v4 main_v5 (subf : (⟨S128, .f32⟩ : BufTy).Contents (Elt F) → (⟨S128, .f32⟩ : BufTy).Contents (Elt F) → (⟨S128, .f32⟩ : BufTy).Contents (Elt F)),
    StableHlo.unary main_v3 main_v6 (broadcastInDim S128x1 ![0] bcast_S128_S128x1_0 : (⟨S128, .f32⟩ : BufTy).Contents (Elt F) → (⟨S128x1, .f32⟩ : BufTy).Contents (Elt F)),
    StableHlo.unary main_arg6 main_v7 ((transpose S128x384 [1, 0] · transposes_S384x128_S128x384_1_0) : (⟨S384x128, .f32⟩ : BufTy).Contents (Elt F) → (⟨S128x384, .f32⟩ : BufTy).Contents (Elt F)),
    StableHlo.unary main_v6 main_v8 (broadcastInDim S128x384 ![0, 1] bcast_S128x1_S128x384_0_1 : (⟨S128x1, .f32⟩ : BufTy).Contents (Elt F) → (⟨S128x384, .f32⟩ : BufTy).Contents (Elt F)),
    StableHlo.binary main_v8 main_v7 main_v9 (mulf : (⟨S128x384, .f32⟩ : BufTy).Contents (Elt F) → (⟨S128x384, .f32⟩ : BufTy).Contents (Elt F) → (⟨S128x384, .f32⟩ : BufTy).Contents (Elt F)),
    StableHlo.unary main_arg6 main_v10 ((transpose S128x384 [1, 0] · transposes_S384x128_S128x384_1_0) : (⟨S384x128, .f32⟩ : BufTy).Contents (Elt F) → (⟨S128x384, .f32⟩ : BufTy).Contents (Elt F)),
    StableHlo.binary main_v5 main_v10 main_v11 ((fun l r => Host.dotGeneral dot_S128_S128x384_S384_0_0_n_1_n_n none l r) : (⟨S128, .f32⟩ : BufTy).Contents (Elt F) → (⟨S128x384, .f32⟩ : BufTy).Contents (Elt F) → (⟨S384, .f32⟩ : BufTy).Contents (Elt F)),
    StableHlo.binary main_v11 main_arg8 main_v12 (addf : (⟨S384, .f32⟩ : BufTy).Contents (Elt F) → (⟨S384, .f32⟩ : BufTy).Contents (Elt F) → (⟨S384, .f32⟩ : BufTy).Contents (Elt F)),
    StableHlo.unary main_v12 main_v13 (broadcastInDim S1x384 ![1] bcast_S384_S1x384_1 : (⟨S384, .f32⟩ : BufTy).Contents (Elt F) → (⟨S1x384, .f32⟩ : BufTy).Contents (Elt F)),
    StableHlo.unary main_arg7 main_v14 ((transpose S128x384 [1, 0] · transposes_S384x128_S128x384_1_0) : (⟨S384x128, .f32⟩ : BufTy).Contents (Elt F) → (⟨S128x384, .f32⟩ : BufTy).Contents (Elt F)),
    StableHlo.unary main_arg9 main_v15 (broadcastInDim S1x384 ![1] bcast_S384_S1x384_1 : (⟨S384, .f32⟩ : BufTy).Contents (Elt F) → (⟨S1x384, .f32⟩ : BufTy).Contents (Elt F)),
    StableHlo.unary main_v3 main_v16 (broadcastInDim S128x1 ![0] bcast_S128_S128x1_0 : (⟨S128, .f32⟩ : BufTy).Contents (Elt F) → (⟨S128x1, .f32⟩ : BufTy).Contents (Elt F)),
    StableHlo.unary main_arg10 main_v17 ((transpose S128x128 [1, 0] · transposes_S128x128_S128x128_1_0) : (⟨S128x128, .f32⟩ : BufTy).Contents (Elt F) → (⟨S128x128, .f32⟩ : BufTy).Contents (Elt F)),
    StableHlo.unary main_v16 main_v18 (broadcastInDim S128x128 ![0, 1] bcast_S128x1_S128x128_0_1 : (⟨S128x1, .f32⟩ : BufTy).Contents (Elt F) → (⟨S128x128, .f32⟩ : BufTy).Contents (Elt F)),
    StableHlo.binary main_v18 main_v17 main_v19 (mulf : (⟨S128x128, .f32⟩ : BufTy).Contents (Elt F) → (⟨S128x128, .f32⟩ : BufTy).Contents (Elt F) → (⟨S128x128, .f32⟩ : BufTy).Contents (Elt F)),
    StableHlo.unary main_arg10 main_v20 ((transpose S128x128 [1, 0] · transposes_S128x128_S128x128_1_0) : (⟨S128x128, .f32⟩ : BufTy).Contents (Elt F) → (⟨S128x128, .f32⟩ : BufTy).Contents (Elt F)),
    StableHlo.binary main_v5 main_v20 main_v21 ((fun l r => Host.dotGeneral dot_S128_S128x128_S128_0_0_n_1_n_n none l r) : (⟨S128, .f32⟩ : BufTy).Contents (Elt F) → (⟨S128x128, .f32⟩ : BufTy).Contents (Elt F) → (⟨S128, .f32⟩ : BufTy).Contents (Elt F)),
    StableHlo.unary main_v21 main_v22 (broadcastInDim S1x128 ![1] bcast_S128_S1x128_1 : (⟨S128, .f32⟩ : BufTy).Contents (Elt F) → (⟨S1x128, .f32⟩ : BufTy).Contents (Elt F)),
    StableHlo.unary main_arg11 main_v23 ((transpose S128x128 [1, 0] · transposes_S128x128_S128x128_1_0) : (⟨S128x128, .f32⟩ : BufTy).Contents (Elt F) → (⟨S128x128, .f32⟩ : BufTy).Contents (Elt F)),
    StableHlo.unary main_arg1 main_v24 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v24 main_v25 rfl shapeCasts_S1x160000_S160000,
    StableHlo.reshape main_v25 main_v26 rfl shapeCasts_S160000_S10000x16,
    StableHlo.unary main_v26 main_v27 ((transpose S16x10000 [1, 0] · transposes_S10000x16_S16x10000_1_0) : (⟨S10000x16, .i32⟩ : BufTy).Contents (Elt F) → (⟨S16x10000, .i32⟩ : BufTy).Contents (Elt F)),
    StableHlo.nullary main_c (constantI S_ 32 0#32),
    StableHlo.TRef.unary (.of main_c : StableHlo.TRef sig ⟨S_, .i32⟩) main_call0.v0 id,
    StableHlo.TRef.binary (.of main_v27 : StableHlo.TRef sig ⟨S16x10000, .i32⟩) main_call0.v0 main_call0.v1 (fun x v => pad S16x10240 ![0, 0] ![0, 240] ![0, 0] x v pads_S16x10000_S16x10240_000_02400 h_S_),
    StableHlo.reshape main_v28 main_v29 rfl shapeCasts_S16x10240_S1280x128,
    StableHlo.nullary main_c_0 (constantI S_ 32 0#32),
    StableHlo.TRef.unary (.of main_c_0 : StableHlo.TRef sig ⟨S_, .i32⟩) main_call1.v0 id,
    StableHlo.TRef.binary (.of main_v29 : StableHlo.TRef sig ⟨S1280x128, .i32⟩) main_call1.v0 main_call1.v1 (fun x v => pad S1320x128 ![0, 0] ![40, 0] ![0, 0] x v pads_S1280x128_S1320x128_0400_000 h_S_) ]

abbrev hostOpsB : List (HloOp τ sig (Elt F)) :=
  [ StableHlo.reshape main_v31 main_v32 rfl shapeCasts_S163840x128_S16x10240x128 ]

set_option maxRecDepth 2048 in

theorem main_eq (d : Dev nD) :
    main (F := F) d = (StableHlo.seq hostOpsA >>= fun _ => sc.run d 0 >>= fun _ => StableHlo.seq hostOpsB >>= fun _ =>
      Prog.lift (.customCall (SparseCore.inner (Pipeline.entry 0)) ()) >>= fun _ => pure ⟨⟩) := by
  simp only [main, fn_pad.body, fn_pad_0.body, StableHlo.seq, bind_assoc, pure_bind]

theorem hostOpsA_sub : (hostOpsA : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.reshape_bufs_sub .., StableHlo.reshape_bufs_sub .., StableHlo.unary_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub ..⟩

theorem hostOpsB_sub : (hostOpsB : List (HloOp τ sig (Elt F))).Forall fun op => op.bufs ⊆ StableHlo.tcRefs τ sig :=
  StableHlo.reshape_bufs_sub ..

theorem hostOpsA_fresh : (hostOpsA : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem hostOpsB_fresh : (hostOpsB : List (HloOp τ sig (Elt F))).Forall fun op => op.fresh = ∅ := by
  simp only [List.Forall]; rfl

end Cert.KernelIdeal.Hand

end
-- ==== Proof.Common.lean ====
import proofs.«207044_g16655883174581_fold_wed_m_811_16_alg».proof.KernelIdeal
import proofs.«207044_g16655883174581_fold_wed_m_811_16_alg».proof.Proof.Gen.KernelIdeal
import proofs.«207044_g16655883174581_fold_wed_m_811_16_alg».proof.Proof.Gen.KernelIdeal.Launch
import Idealize.ShloMosaic.Lib.SparseCore.Launch
import Idealize.ShloMosaic.Lib.Pipeline.Kit
import Idealize.ShloMosaic.Lib.Transfers

noncomputable section

namespace Cert.KernelIdeal.Hand

open Cert.KernelIdeal Cert.KernelIdeal.Gen

open Idealize.ShloMosaic
open Idealize.ShloMosaic.SparseCore.Cfg (HIx)
open Idealize.SL Idealize.SL.RA Idealize.SL.BI
open Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ

abbrev EH : Emb UH (MM F) := embL

def EP : Emb UP (MM F) := (Emb.inl : Emb UP (UP × Counters)).trans embR

instance EP_landsIn : (EP : Emb UP (MM F)).LandsIn (upEmb : UEmb _ (MM F)) := by unfold EP embR; infer_instance

example : CountersIn UU := inferInstance

end Cert.KernelIdeal.Hand

end
-- ==== Proof.ScDefs.lean ====
import proofs.«207044_g16655883174581_fold_wed_m_811_16_alg».proof.Proof.Common
import Idealize.ShloMosaic.Lib.ValueIdx

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.Sem

variable {F : FTy → Type}

local notation "𝕄" => MM F

def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

def coreShare (c : Fin 2) : PosShare TreeShare := leaf 1 fullShare c
def tileShare (c : Fin 2) (i : Fin 16) : PosShare TreeShare := leaf 4 (coreShare c) i

abbrev featLoc (d : Dev nD) : Loc nD τ sig := (SparseCore.T d).loc main_arg0
abbrev idxLoc (d : Dev nD) : Loc nD τ sig := (SparseCore.T d).loc main_v30
abbrev outLoc (d : Dev nD) : Loc nD τ sig := (SparseCore.T d).loc main_v31

theorem outDiv : 32 ∣ S163840x128.size 0 := ⟨5120, rfl⟩

def tileNo (c : Fin 2) (i : Fin 16) : Fin 32 := ⟨16 * c.val + i.val, by omega⟩
abbrev tileRect (c : Fin 2) (i : Fin 16) : Rect S163840x128 := Rect.part (s := S163840x128) (a₀ := 0) outDiv (tileNo c i)
abbrev tileSet (c : Fin 2) (i : Fin 16) : Finset S163840x128.Idx := (tileRect c i).set

variable (m : (ℓ : Loc nD τ sig) → Buf (Elt F) ℓ)

variable (tbl : (d : Dev nD) → Buf (Elt F) (idxLoc d))

def gathered (d : Dev nD) : Buf (Elt F) (outLoc d) := fun y =>
  m (featLoc d) (ValueIdx.ix2
    (⟨(tbl d (ValueIdx.ix2 (⟨(y 0).val / 128, by have h : (y 0).val < 163840 := (y 0).isLt; omega⟩ : Fin 1320) (⟨(y 0).val % 128, Nat.mod_lt _ (by decide)⟩ : Fin 128))).toNat % 10000,
      Nat.mod_lt _ (by decide)⟩ : Fin 10000) (⟨(y 1).val, (y 1).isLt⟩ : Fin 128))

variable [FloatOps F]

abbrev featAt (d : Dev nD) (q : PosShare TreeShare) : sProp 𝕄 := featLoc d ↦{q} m (featLoc d)
abbrev idxAt (d : Dev nD) (q : PosShare TreeShare) : sProp 𝕄 := idxLoc d ↦{q} tbl d
abbrev outRows (d : Dev nD) (c : Fin 2) (i : Fin 16) (f : Buf (Elt F) (outLoc d)) : sProp 𝕄 := outLoc d ↦[tileSet c i]{fullShare} f

def coreIn (d : Dev nD) (c : Fin 2) : sProp 𝕄 :=
  iprop(featAt m d (coreShare c) ∗ idxAt tbl d (coreShare c) ∗ bigSep Finset.univ fun i : Fin 16 => iprop(∃ f, outRows d c i f))
def coreOut (d : Dev nD) (c : Fin 2) : sProp 𝕄 :=
  iprop(featAt m d (coreShare c) ∗ idxAt tbl d (coreShare c) ∗ bigSep Finset.univ fun i : Fin 16 => outRows d c i (gathered m tbl d))

def tileIn (d : Dev nD) (c : Fin 2) (i : Fin 16) : sProp 𝕄 :=
  iprop(featAt m d (tileShare c i) ∗ idxAt tbl d (tileShare c i) ∗ ∃ f, outRows d c i f)
def tileOut (d : Dev nD) (c : Fin 2) (i : Fin 16) : sProp 𝕄 :=
  iprop(featAt m d (tileShare c i) ∗ idxAt tbl d (tileShare c i) ∗ outRows d c i (gathered m tbl d))

def P : (K (F := F)).Pay (nD := nD) (Val := Elt F) (Name := ℕ) (U := UU) where
  st := fun q d c => match q with | 0 => coreIn m tbl d (Fin.cast nCore_zero c)
  dn := fun q d c => match q with | 0 => coreOut m tbl d (Fin.cast nCore_zero c)
  go := fun q d c i => match q with | 0 => tileIn m tbl d (Fin.cast nCore_zero c) (Fin.cast nSub_zero i)
  td := fun q d c i => match q with | 0 => tileOut m tbl d (Fin.cast nCore_zero c) (Fin.cast nSub_zero i)
  x := fun _ _ => iprop(emp)

instance P_storable : (P (F := F) m tbl).IsStorable where
  st q d c := match q with | 0 => by unfold P coreIn; dsimp only; infer_instance
  dn q d c := match q with | 0 => by unfold P coreOut; dsimp only; infer_instance
  go q d c i := match q with | 0 => by unfold P tileIn; dsimp only; infer_instance
  td q d c i := match q with | 0 => by unfold P tileOut; dsimp only; infer_instance

end Cert.KernelIdeal.Hand

end
-- ==== Proof.Vals.lean ====
import proofs.«207044_g16655883174581_fold_wed_m_811_16_alg».proof.Proof.HostOps
import proofs.«207044_g16655883174581_fold_wed_m_811_16_alg».proof.Proof.ScDefs

noncomputable section

namespace Cert.KernelIdeal.Hand

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ)

def V0 (d : Dev nD) : Valuation τ sig (Elt F) := fun b => m (d, b)

def VA (d : Dev nD) : Valuation τ sig (Elt F) := StableHlo.after hostOpsA (V0 m d)

def tblOf (d : Dev nD) : Buf (Elt F) (idxLoc d) := VA m d (Proc.devRef .tc main_v30)

def VB (d : Dev nD) : Valuation τ sig (Elt F) := Function.update (VA m d) (Proc.devRef .tc main_v31) (gathered m (tblOf m) d)

def VC (d : Dev nD) : Valuation τ sig (Elt F) := StableHlo.after hostOpsB (VB m d)

def Vreg (d : Dev nD) (b : Ref sig .tc) : Buf (Elt F) ((d : Thread nD τ).loc b) := VC m d (Proc.devRef .tc b)

end Cert.KernelIdeal.Hand

end
-- ==== Proof.HostVals.lean ====
import proofs.«207044_g16655883174581_fold_wed_m_811_16_alg».proof.Proof.HostOps
import proofs.«207044_g16655883174581_fold_wed_m_811_16_alg».proof.Proof.Args
import Idealize.ShloMosaic.Lib.ValueLayout
import Idealize.ShloMosaic.Lib.KernelVsHost

noncomputable section

namespace Cert.KernelIdeal.Hand

open Cert.KernelIdeal Cert.KernelIdeal.Gen Idealize.ShloMosaic Idealize.ShloMosaic.TcCoe Idealize.SL.Sem

variable {F : FTy → Type} [FloatOps F]

def srcT (edge : IVec S2x160000 32) : IVec S16x10000 32 :=
  transpose S16x10000 [1, 0]
    (shapeCast S10000x16 (shapeCast S160000 (extractStridedSlice S1x160000 ![0, 0] edge slices_S2x160000_S1x160000_0_0)
      shapeCasts_S1x160000_S160000) shapeCasts_S160000_S10000x16)
    transposes_S10000x16_S16x10000_1_0

def tableT (edge : IVec S2x160000 32) : IVec S1320x128 32 :=
  pad S1320x128 ![0, 0] ![40, 0] ![0, 0]
    (shapeCast S1280x128 (pad S16x10240 ![0, 0] ![0, 240] ![0, 0] (srcT edge) (constantI S_ 32 0#32)
      pads_S16x10000_S16x10240_000_02400 h_S_) shapeCasts_S16x10240_S1280x128)
    (constantI S_ 32 0#32) pads_S1280x128_S1320x128_0400_000 h_S_

section After
open StableHlo

theorem after_v30 (V : Valuation τ sig (Elt F)) : after hostOpsA V (Proc.devRef .tc main_v30) = tableT (V (Proc.devRef .tc main_arg1)) := by
  after_results_simp; rfl

def writtenA : List (Ref sig .tc) :=
  [main_cst, main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_c, main_call0_v0, main_v28, main_v29, main_c_0, main_call1_v0, main_v30]

private theorem single_sub_written {y : Ref sig .tc} (hy : y ∈ writtenA) :
    ({Proc.devRef (τ := τ) .tc y} : Finset (DevRef τ sig)) ⊆ (writtenA.map (Proc.devRef (τ := τ) .tc)).toFinset :=
  Finset.singleton_subset_iff.2 (List.mem_toFinset.2 (List.mem_map.2 ⟨y, hy, rfl⟩))

theorem hostOpsA_writes : (hostOpsA : List (HloOp τ sig (Elt F))).Forall fun op =>
    op.writes ⊆ (writtenA.map (Proc.devRef (τ := τ) .tc)).toFinset := by
  simp only [List.Forall]
  repeat' apply And.intro
  all_goals exact single_sub_written (by decide)

theorem after_of_not_written (V : Valuation τ sig (Elt F)) {r : Ref sig .tc} (hr : r ∉ writtenA) :
    after hostOpsA V (Proc.devRef .tc r) = V (Proc.devRef .tc r) :=
  after_of_writes_sub hostOpsA V hostOpsA_writes hr

theorem after_arg0 (V : Valuation τ sig (Elt F)) : after hostOpsA V (Proc.devRef .tc main_arg0) = V (Proc.devRef .tc main_arg0) :=
  after_of_not_written V (by decide)

end After

section TableAtIndex
open ValueIdx

theorem srcT_apply (e : IVec S2x160000 32) (t : Fin 16) (n : Fin 10000) :
    srcT e (ix2 t n) = e (ix2 (0 : Fin 2) (⟨16 * n.val + t.val, by omega⟩ : Fin 160000)) := by
  unfold srcT
  refine (transpose_ix2_apply _ _ t n).trans ?_
  refine (shapeCast_apply _ _ _ (ix1 (⟨16 * n.val + t.val, by omega⟩ : Fin 160000)) ?_).trans ?_
  · rw [Shape.rowMajor_val_one, Shape.rowMajor_val_two]
    show 16 * n.val + t.val = n.val * 16 + t.val
    omega
  refine (shapeCast_apply _ _ _ (ix2 (0 : Fin 1) (⟨16 * n.val + t.val, by omega⟩ : Fin 160000)) ?_).trans ?_
  · rw [Shape.rowMajor_val_two, Shape.rowMajor_val_one]
    show 0 * 160000 + (16 * n.val + t.val) = 16 * n.val + t.val
    omega
  exact extractStridedSlice_apply _ _ _ _ (ix2 (0 : Fin 2) (⟨16 * n.val + t.val, by omega⟩ : Fin 160000)) fun a =>
    match a with
    | ⟨0, _⟩ => rfl
    | ⟨1, _⟩ => by show 16 * n.val + t.val = 0 + (16 * n.val + t.val); omega

theorem tableT_apply_node (e : IVec S2x160000 32) (ch : Fin 1320) (l : Fin 128) (t : Fin 16) (n : Fin 10000)
    (h : 128 * ch.val + l.val = 10240 * t.val + n.val) :
    tableT e (ix2 ch l) = e (ix2 (0 : Fin 2) (⟨16 * n.val + t.val, by omega⟩ : Fin 160000)) := by
  unfold tableT
  refine (pad_apply_of_inside _ _ _ _ _ _ _ _ (ix2 (⟨ch.val, by omega⟩ : Fin 1280) l) ?_).trans ?_
  · intro a
    match a with
    | ⟨0, _⟩ => show ch.val = 0 + ch.val * (0 + 1); omega
    | ⟨1, _⟩ => show l.val = 0 + l.val * (0 + 1); omega
  refine (shapeCast_apply _ _ _ (ix2 t (⟨n.val, by omega⟩ : Fin 10240)) ?_).trans ?_
  · rw [Shape.rowMajor_val_two, Shape.rowMajor_val_two]
    show t.val * 10240 + n.val = ch.val * 128 + l.val
    omega
  refine (pad_apply_of_inside _ _ _ _ _ _ _ _ (ix2 t n) ?_).trans (srcT_apply e t n)
  intro a
  match a with
  | ⟨0, _⟩ => show t.val = 0 + t.val * (0 + 1); omega
  | ⟨1, _⟩ => show n.val = 0 + n.val * (0 + 1); omega

theorem tableT_apply_gap (e : IVec S2x160000 32) (ch : Fin 1320) (l : Fin 128) (t : Fin 16) (n : Nat) (hn : 10000 ≤ n)
    (hn' : n < 10240) (h : 128 * ch.val + l.val = 10240 * t.val + n) : tableT e (ix2 ch l) = 0#32 := by
  unfold tableT
  refine (pad_apply_of_inside _ _ _ _ _ _ _ _ (ix2 (⟨ch.val, by omega⟩ : Fin 1280) l) ?_).trans ?_
  · intro a
    match a with
    | ⟨0, _⟩ => show ch.val = 0 + ch.val * (0 + 1); omega
    | ⟨1, _⟩ => show l.val = 0 + l.val * (0 + 1); omega
  refine (shapeCast_apply _ _ _ (ix2 t (⟨n, hn'⟩ : Fin 10240)) ?_).trans ?_
  · rw [Shape.rowMajor_val_two, Shape.rowMajor_val_two]
    show t.val * 10240 + n = ch.val * 128 + l.val
    omega
  refine (pad_apply_of_not_inside _ _ _ _ _ _ _ _ (1 : Fin 2) ?_).trans rfl
  show ¬(0 ≤ n ∧ (n - 0) % (0 + 1) = 0 ∧ (n - 0) / (0 + 1) < 10000)
  omega

theorem tableT_apply_tail (e : IVec S2x160000 32) (ch : Fin 1320) (l : Fin 128) (hch : 1280 ≤ ch.val) :
    tableT e (ix2 ch l) = 0#32 := by
  unfold tableT
  refine (pad_apply_of_not_inside _ _ _ _ _ _ _ _ (0 : Fin 2) ?_).trans rfl
  show ¬(0 ≤ ch.val ∧ (ch.val - 0) % (0 + 1) = 0 ∧ (ch.val - 0) / (0 + 1) < 1280)
  omega

theorem tableT_apply (e : IVec S2x160000 32) (ch : Fin 1320) (l : Fin 128) (hch : ch.val < 1280) :
    tableT e (ix2 ch l)
      = if h : (128 * ch.val + l.val) % 10240 < 10000 then
          e (ix2 (0 : Fin 2) (⟨16 * ((128 * ch.val + l.val) % 10240) + (128 * ch.val + l.val) / 10240, by omega⟩ : Fin 160000))
        else 0#32 := by
  split
  · rename_i h
    exact tableT_apply_node e ch l (⟨(128 * ch.val + l.val) / 10240, by omega⟩ : Fin 16)
      (⟨(128 * ch.val + l.val) % 10240, h⟩ : Fin 10000) (by show _ = 10240 * ((128 * ch.val + l.val) / 10240) + (128 * ch.val + l.val) % 10240; omega)
  · rename_i h
    exact tableT_apply_gap e ch l (⟨(128 * ch.val + l.val) / 10240, by omega⟩ : Fin 16) ((128 * ch.val + l.val) % 10240)
      (by omega) (by omega) (by show _ = 10240 * ((128 * ch.val + l.val) / 10240) + (128 * ch.val + l.val) % 10240; omega)

theorem tableT_lt (e : IVec S2x160000 32) (he : Cert.Args.SrcInRange e) (i : S1320x128.Idx) : (tableT e i).toNat < 10000 := by
  obtain ⟨ch, l, rfl⟩ : ∃ (ch : Fin 1320) (l : Fin 128), i = ix2 ch l := ⟨i 0, i 1, eq_ix2 i⟩
  by_cases hch : ch.val < 1280
  · rw [tableT_apply e ch l hch]
    split
    · exact he _
    · decide
  · rw [tableT_apply_tail e ch l (by omega)]
    decide

end TableAtIndex

open StableHlo in
theorem after_v30_lt (V : Valuation τ sig (Elt F)) (he : Cert.Args.SrcInRange (V (Proc.devRef .tc main_arg1)))
    (i : S1320x128.Idx) : ((after hostOpsA V (Proc.devRef .tc main_v30) : IVec S1320x128 32) i).toNat < 10000 := by
  rw [after_v30]
  exact tableT_lt _ he i

end Cert.KernelIdeal.Hand

end
-- ==== Proof.HostFold.lean ====
import proofs.«207044_g16655883174581_fold_wed_m_811_16_alg».proof.Proof.HostVals
import Idealize.ShloMosaic.Lib.ValueLayout
import Idealize.ShloMosaic.Lib.KernelVsHost

noncomputable section

namespace Cert.KernelIdeal.Hand

open Cert.KernelIdeal Cert.KernelIdeal.Gen Idealize.ShloMosaic Idealize.ShloMosaic.TcCoe Idealize.SL.Sem

variable {F : FTy → Type} [FloatOps F]

def scaleT (gamma var : FVec F S128 .f32) : FVec F S128 .f32 :=
  mulf gamma (Host.rsqrt (addf var (broadcastInDim S128 ![] bcast_S_S128 (constant S_ .f32 0x3727C5AC#32))))

def shiftT (gamma beta mean var : FVec F S128 .f32) : FVec F S128 .f32 := subf beta (mulf mean (scaleT gamma var))

def colT (v : FVec F S128 .f32) : FVec F S128x1 .f32 := broadcastInDim S128x1 ![0] bcast_S128_S128x1_0 v

def wihT (gamma var : FVec F S128 .f32) (Wih : FVec F S384x128 .f32) : FVec F S128x384 .f32 :=
  mulf (broadcastInDim S128x384 ![0, 1] bcast_S128x1_S128x384_0_1 (colT (scaleT gamma var)))
    (transpose S128x384 [1, 0] Wih transposes_S384x128_S128x384_1_0)

def bihT (gamma beta mean var : FVec F S128 .f32) (Wih : FVec F S384x128 .f32) (bih : FVec F S384 .f32) : FVec F S1x384 .f32 :=
  broadcastInDim S1x384 ![1] bcast_S384_S1x384_1
    (addf (Host.dotGeneral dot_S128_S128x384_S384_0_0_n_1_n_n none (shiftT gamma beta mean var)
      (transpose S128x384 [1, 0] Wih transposes_S384x128_S128x384_1_0)) bih)

def whhT (Whh : FVec F S384x128 .f32) : FVec F S128x384 .f32 := transpose S128x384 [1, 0] Whh transposes_S384x128_S128x384_1_0

def bhhT (bhh : FVec F S384 .f32) : FVec F S1x384 .f32 := broadcastInDim S1x384 ![1] bcast_S384_S1x384_1 bhh

def wselfT (gamma var : FVec F S128 .f32) (Wself : FVec F S128x128 .f32) : FVec F S128x128 .f32 :=
  mulf (broadcastInDim S128x128 ![0, 1] bcast_S128x1_S128x128_0_1 (colT (scaleT gamma var)))
    (transpose S128x128 [1, 0] Wself transposes_S128x128_S128x128_1_0)

def bselfT (gamma beta mean var : FVec F S128 .f32) (Wself : FVec F S128x128 .f32) : FVec F S1x128 .f32 :=
  broadcastInDim S1x128 ![1] bcast_S128_S1x128_1
    (Host.dotGeneral dot_S128_S128x128_S128_0_0_n_1_n_n none (shiftT gamma beta mean var)
      (transpose S128x128 [1, 0] Wself transposes_S128x128_S128x128_1_0))

def wneighT (Wneigh : FVec F S128x128 .f32) : FVec F S128x128 .f32 := transpose S128x128 [1, 0] Wneigh transposes_S128x128_S128x128_1_0

section After
open StableHlo
variable (V : Valuation τ sig (Elt F))

theorem after_v9 : after hostOpsA V (Proc.devRef .tc main_v9) = wihT (V (Proc.devRef .tc main_arg2)) (V (Proc.devRef .tc main_arg5)) (V (Proc.devRef .tc main_arg6)) := by
  after_results_simp; rfl
theorem after_v13 : after hostOpsA V (Proc.devRef .tc main_v13) = bihT (V (Proc.devRef .tc main_arg2)) (V (Proc.devRef .tc main_arg3)) (V (Proc.devRef .tc main_arg4)) (V (Proc.devRef .tc main_arg5)) (V (Proc.devRef .tc main_arg6)) (V (Proc.devRef .tc main_arg8)) := by
  after_results_simp; rfl
theorem after_v14 : after hostOpsA V (Proc.devRef .tc main_v14) = whhT (V (Proc.devRef .tc main_arg7)) := by
  after_results_simp; rfl
theorem after_v15 : after hostOpsA V (Proc.devRef .tc main_v15) = bhhT (V (Proc.devRef .tc main_arg9)) := by
  after_results_simp; rfl
theorem after_v19 : after hostOpsA V (Proc.devRef .tc main_v19) = wselfT (V (Proc.devRef .tc main_arg2)) (V (Proc.devRef .tc main_arg5)) (V (Proc.devRef .tc main_arg10)) := by
  after_results_simp; rfl
theorem after_v22 : after hostOpsA V (Proc.devRef .tc main_v22) = bselfT (V (Proc.devRef .tc main_arg2)) (V (Proc.devRef .tc main_arg3)) (V (Proc.devRef .tc main_arg4)) (V (Proc.devRef .tc main_arg5)) (V (Proc.devRef .tc main_arg10)) := by
  after_results_simp; rfl
theorem after_v23 : after hostOpsA V (Proc.devRef .tc main_v23) = wneighT (V (Proc.devRef .tc main_arg11)) := by
  after_results_simp; rfl

end After

section FloatAtIndex
open ValueIdx
open scoped BigOperators

theorem dotGeneral_vecMat_apply {K N : Nat} {φ₁ φ₂ : FTy}
    (w : DotDims.WF ⟨1, ![K]⟩ ⟨2, ![K, N]⟩ ⟨1, ![N]⟩ [0] [0] [] [1] [] []) (prec : Option ContractPrecision)
    (v : FVec Ideal ⟨1, ![K]⟩ φ₁) (M : FVec Ideal ⟨2, ![K, N]⟩ φ₂) (c : Fin N) :
    Host.dotGeneral (⟨[0], [0], [], [1], [], [], w⟩ : DotDims _ _ _) prec v M (ix1 c) = ∑ k : Fin K, v (ix1 k) * M (ix2 k c) := by
  show FloatOps.dotGeneral _ prec _ v M (ix1 c) = _
  rw [Ideal.dotGeneral_apply, ← Equiv.sum_comp (contrEquiv1 (⟨[0], [0], [], [1], [], [], w⟩ : DotDims _ _ _) K rfl rfl).symm]
  refine Finset.sum_congr rfl fun k _ => ?_
  have hk := contrEquiv1_symm_val (⟨[0], [0], [], [1], [], [], w⟩ : DotDims _ _ _) K rfl rfl k
  have hl : (⟨[0], [0], [], [1], [], [], w⟩ : DotDims _ _ _).lhsIdx (ix1 c) ((contrEquiv1 _ K rfl rfl).symm k) = ix1 k := by
    funext ax; apply Fin.ext
    match ax with
    | ⟨0, _⟩ => simp [DotDims.lhsIdx]; exact hk
  have hr : (⟨[0], [0], [], [1], [], [], w⟩ : DotDims _ _ _).rhsIdx (ix1 c) ((contrEquiv1 _ K rfl rfl).symm k) = ix2 k c := by
    funext ax; apply Fin.ext
    match ax with
    | ⟨0, _⟩ => simp [DotDims.rhsIdx]; exact hk
    | ⟨1, _⟩ => simp [DotDims.rhsIdx]; rfl
  rw [hl, hr]

variable (A : Cert.Args.Arrays)

theorem rowScale_apply {n : Nat} (hb : S128x1.BroadcastsInDim (⟨2, ![128, n]⟩ : Shape) ![0, 1]) (k : Fin 128) (c : Fin n) :
    broadcastInDim (⟨2, ![128, n]⟩ : Shape) ![0, 1] hb (colT (scaleT A.gamma A.var)) (ix2 k c) = Cert.Spec.scale (Cert.Args.params A) k := by
  refine (broadcastInDim_apply _ _ _ (ix2 k c) (ix2 k (0 : Fin 1)) fun a => match a with | ⟨0, _⟩ => rfl | ⟨1, _⟩ => rfl).trans ?_
  exact (broadcastInDim_apply _ _ _ (ix2 k (0 : Fin 1)) (ix1 k) fun a => match a with | ⟨0, _⟩ => rfl).trans rfl

theorem wihT_apply (k : Fin 128) (c : Fin 384) : wihT A.gamma A.var A.Wih (ix2 k c) = Cert.Spec.wih (Cert.Args.params A) k c := by
  unfold wihT
  rw [mulf_apply, transpose_ix2_apply, rowScale_apply]
  rfl

theorem bihT_apply (c : Fin 384) :
    bihT A.gamma A.beta A.mean A.var A.Wih A.bih (ix2 (0 : Fin 1) c) = Cert.Spec.bihK (Cert.Args.params A) c := by
  unfold bihT
  refine (broadcastInDim_apply _ _ _ (ix2 (0 : Fin 1) c) (ix1 c) fun a => match a with | ⟨0, _⟩ => rfl).trans ?_
  rw [addf_apply]
  show Host.dotGeneral (⟨[0], [0], [], [1], [], [], _⟩ : DotDims S128 S128x384 S384) none _ _ (ix1 c) + A.bih (ix1 c) = _
  rw [dotGeneral_vecMat_apply]
  show _ = (∑ k, Cert.Spec.shift (Cert.Args.params A) k * A.Wih (ix2 c k)) + A.bih (ix1 c)
  congr 1
  exact Finset.sum_congr rfl fun k _ => by rw [transpose_ix2_apply]; rfl

theorem whhT_apply (k : Fin 128) (c : Fin 384) : whhT A.Whh (ix2 k c) = (Cert.Args.params A).Whh c k := by
  unfold whhT
  rw [transpose_ix2_apply]
  rfl

theorem bhhT_apply (c : Fin 384) : bhhT A.bhh (ix2 (0 : Fin 1) c) = (Cert.Args.params A).bhh c := by
  unfold bhhT
  exact (broadcastInDim_apply _ _ _ (ix2 (0 : Fin 1) c) (ix1 c) fun a => match a with | ⟨0, _⟩ => rfl).trans rfl

theorem wselfT_apply (k j : Fin 128) : wselfT A.gamma A.var A.Wself (ix2 k j) = Cert.Spec.wself (Cert.Args.params A) k j := by
  unfold wselfT
  rw [mulf_apply, transpose_ix2_apply, rowScale_apply]
  rfl

theorem bselfT_apply (j : Fin 128) :
    bselfT A.gamma A.beta A.mean A.var A.Wself (ix2 (0 : Fin 1) j) = Cert.Spec.bself (Cert.Args.params A) j := by
  unfold bselfT
  refine (broadcastInDim_apply _ _ _ (ix2 (0 : Fin 1) j) (ix1 j) fun a => match a with | ⟨0, _⟩ => rfl).trans ?_
  show Host.dotGeneral (⟨[0], [0], [], [1], [], [], _⟩ : DotDims S128 S128x128 S128) none _ _ (ix1 j) = _
  rw [dotGeneral_vecMat_apply]
  show _ = ∑ k, Cert.Spec.shift (Cert.Args.params A) k * A.Wself (ix2 j k)
  exact Finset.sum_congr rfl fun k _ => by rw [transpose_ix2_apply]; rfl

theorem wneighT_apply (k j : Fin 128) : wneighT A.Wneigh (ix2 k j) = (Cert.Args.params A).Wneigh j k := by
  unfold wneighT
  rw [transpose_ix2_apply]
  rfl

end FloatAtIndex

section AtValuation
open StableHlo ValueIdx

def arraysOf (V : Valuation τ sig (Elt Ideal)) : Cert.Args.Arrays where
  feat := V (Proc.devRef .tc main_arg0)
  edge := V (Proc.devRef .tc main_arg1)
  gamma := V (Proc.devRef .tc main_arg2)
  beta := V (Proc.devRef .tc main_arg3)
  mean := V (Proc.devRef .tc main_arg4)
  var := V (Proc.devRef .tc main_arg5)
  Wih := V (Proc.devRef .tc main_arg6)
  Whh := V (Proc.devRef .tc main_arg7)
  bih := V (Proc.devRef .tc main_arg8)
  bhh := V (Proc.devRef .tc main_arg9)
  Wself := V (Proc.devRef .tc main_arg10)
  Wneigh := V (Proc.devRef .tc main_arg11)

variable (V : Valuation τ sig (Elt Ideal))

theorem after_v9_apply (k : Fin 128) (c : Fin 384) :
    (after hostOpsA V (Proc.devRef .tc main_v9) : FVec Ideal S128x384 .f32) (ix2 k c) = Cert.Spec.wih (Cert.Args.params (arraysOf V)) k c := by
  rw [after_v9]; exact wihT_apply (arraysOf V) k c
theorem after_v13_apply (c : Fin 384) :
    (after hostOpsA V (Proc.devRef .tc main_v13) : FVec Ideal S1x384 .f32) (ix2 (0 : Fin 1) c) = Cert.Spec.bihK (Cert.Args.params (arraysOf V)) c := by
  rw [after_v13]; exact bihT_apply (arraysOf V) c
theorem after_v14_apply (k : Fin 128) (c : Fin 384) :
    (after hostOpsA V (Proc.devRef .tc main_v14) : FVec Ideal S128x384 .f32) (ix2 k c) = (Cert.Args.params (arraysOf V)).Whh c k := by
  rw [after_v14]; exact whhT_apply (arraysOf V) k c
theorem after_v15_apply (c : Fin 384) :
    (after hostOpsA V (Proc.devRef .tc main_v15) : FVec Ideal S1x384 .f32) (ix2 (0 : Fin 1) c) = (Cert.Args.params (arraysOf V)).bhh c := by
  rw [after_v15]; exact bhhT_apply (arraysOf V) c
theorem after_v19_apply (k j : Fin 128) :
    (after hostOpsA V (Proc.devRef .tc main_v19) : FVec Ideal S128x128 .f32) (ix2 k j) = Cert.Spec.wself (Cert.Args.params (arraysOf V)) k j := by
  rw [after_v19]; exact wselfT_apply (arraysOf V) k j
theorem after_v22_apply (j : Fin 128) :
    (after hostOpsA V (Proc.devRef .tc main_v22) : FVec Ideal S1x128 .f32) (ix2 (0 : Fin 1) j) = Cert.Spec.bself (Cert.Args.params (arraysOf V)) j := by
  rw [after_v22]; exact bselfT_apply (arraysOf V) j
theorem after_v23_apply (k j : Fin 128) :
    (after hostOpsA V (Proc.devRef .tc main_v23) : FVec Ideal S128x128 .f32) (ix2 k j) = (Cert.Args.params (arraysOf V)).Wneigh j k := by
  rw [after_v23]; exact wneighT_apply (arraysOf V) k j

end AtValuation

end Cert.KernelIdeal.Hand

end
-- ==== Proof.TcDefs.lean ====
import proofs.«207044_g16655883174581_fold_wed_m_811_16_alg».proof.Proof.Gen.KernelIdeal.Skeleton

noncomputable section

namespace Cert.KernelIdeal.Hand

open Idealize.ShloMosaic Cert.KernelIdeal Cert.KernelIdeal.Gen

variable {F : FTy → Type} [FloatOps F]

def hidden16 (xs : Vec F S16x400x128 .f32) (wih whh : Vec F S128x384 .f32) (bih bhh : Vec F S1x384 .f32) : FVec F S400x128 .f32 :=
  let v3 := k1_pay2 whh
  let v7 := k1_pay3 bhh
  let v13 := k1_pay4 wih bih xs
  let v99 := k1_pay10 v3 v7 v13 (k1_pay5 wih bih bhh xs) (k1_pay6 wih bih xs) (k1_pay7 wih whh bih bhh xs)
    (k1_pay8 wih whh bih bhh xs) (k1_pay9 wih whh bih bhh xs)
  let v209 := k1_pay16 v3 v7 v13 (k1_pay11 v3 v7 v13 v99) (k1_pay12 v13) (k1_pay13 v3 v7 v13 v99) (k1_pay14 v3 v7 v13 v99) (k1_pay15 v3 v7 v13 v99)
  let v319 := k1_pay22 v3 v7 v13 (k1_pay17 v3 v7 v13 v209) (k1_pay18 v13) (k1_pay19 v3 v7 v13 v209) (k1_pay20 v3 v7 v13 v209) (k1_pay21 v3 v7 v13 v209)
  k1_pay23 v3 v7 v13 v319

def bodyOut (xs : Vec F S16x400x128 .f32) (ft : Vec F S400x128 .f32) (wih whh : Vec F S128x384 .f32) (bih bhh : Vec F S1x384 .f32)
    (wself wneigh : Vec F S128x128 .f32) (bself : Vec F S1x128 .f32) : FVec F S400x128 .f32 :=
  k1_pay1 (hidden16 xs wih whh bih bhh) (k1_pay24 ft wself) bself wneigh

end Cert.KernelIdeal.Hand

end
-- ==== Proof.TcBody.lean ====
import proofs.«207044_g16655883174581_fold_wed_m_811_16_alg».proof.Proof.Common
import proofs.«207044_g16655883174581_fold_wed_m_811_16_alg».proof.Proof.TcDefs
import proofs.«207044_g16655883174581_fold_wed_m_811_16_alg».proof.Proof.Gen.KernelIdeal.Points
import proofs.«207044_g16655883174581_fold_wed_m_811_16_alg».proof.Proof.Gen.KernelIdeal.Skeleton
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : (c : Dev nD) → (b : Ref sig .tc) → Buf (Elt F) ((c : Thread nD τ).loc b))

abbrev rXs : Rect S16x400x128 := Rect.unit (s := S16x400x128) ![0, 0, 0] S16x400x128.size inb_S16x400x128_S16x400x128_0_0_0
abbrev rRows : Rect S400x128 := Rect.unit (s := S400x128) ![0, 0] S400x128.size inb_S400x128_S400x128_0_0
abbrev rGate : Rect S128x384 := Rect.unit (s := S128x384) ![0, 0] S128x384.size inb_S128x384_S128x384_0_0
abbrev rGateB : Rect S1x384 := Rect.unit (s := S1x384) ![0, 0] S1x384.size inb_S1x384_S1x384_0_0
abbrev rSq : Rect S128x128 := Rect.unit (s := S128x128) ![0, 0] S128x128.size inb_S128x128_S128x128_0_0
abbrev rSqB : Rect S1x128 := Rect.unit (s := S1x128) ![0, 0] S1x128.size inb_S1x128_S1x128_0_0

/-- A rectangle of the full size at offset zero is the identity on indices. -/
theorem out_eq (x0 : Vec F S16x400x128 .f32) (x1 : Vec F S400x128 .f32) (x2 x3 : Vec F S128x384 .f32) (x4 x5 : Vec F S1x384 .f32)
    (x6 x7 : Vec F S128x128 .f32) (x8 : Vec F S1x128 .f32) :
    (View.canon [⟨rRows, bodyOut (View.ld x0 rXs) (View.ld x1 rRows) (View.ld x2 rGate) (View.ld x3 rGate) (View.ld x4 rGateB) (View.ld x5 rGateB)
      (View.ld x6 rSq) (View.ld x7 rSq) (View.ld x8 rSqB)⟩] : Vec F S400x128 .f32) = bodyOut x0 x1 x2 x3 x4 x5 x6 x7 x8 := by
  simp (disch := exact funext (by decide)) only [View.canon_unit_zero, View.ld_unit_zero]

set_option maxHeartbeats 4000000 in
theorem sound_kernel (c : Dev nD) {E : Set ℕ} {i : grid1.Coords}
    {arg1 : Memref sig .tc .vmem S16x400x128 .f32} {harg1 : arg1.IsWhole} {arg2 : Memref sig .tc .vmem S400x128 .f32} {harg2 : arg2.IsWhole}
    {arg3 : Memref sig .tc .vmem S128x384 .f32} {harg3 : arg3.IsWhole} {arg4 : Memref sig .tc .vmem S128x384 .f32} {harg4 : arg4.IsWhole}
    {arg5 : Memref sig .tc .vmem S1x384 .f32} {harg5 : arg5.IsWhole} {arg6 : Memref sig .tc .vmem S1x384 .f32} {harg6 : arg6.IsWhole}
    {arg7 : Memref sig .tc .vmem S128x128 .f32} {harg7 : arg7.IsWhole} {arg8 : Memref sig .tc .vmem S128x128 .f32} {harg8 : arg8.IsWhole}
    {arg9 : Memref sig .tc .vmem S1x128 .f32} {harg9 : arg9.IsWhole} {arg10 : Memref sig .tc .vmem S400x128 .f32} {harg10 : arg10.IsWhole}
    {x0 : Vec F S16x400x128 .f32} {x1 : Vec F S400x128 .f32} {x2 x3 : Vec F S128x384 .f32} {x4 x5 : Vec F S1x384 .f32}
    {x6 x7 : Vec F S128x128 .f32} {x8 : Vec F S1x128 .f32} {K : PUnit → sProp 𝕄} {I : sProp 𝕄}
    (hI : I = iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8)) :
    iprop(I ∗ (∃ d, owns (c : Thread nD τ) arg10 fullShare d)
        ∗ (iprop(I ∗ owns (c : Thread nD τ) arg10 fullShare (bodyOut x0 x1 x2 x3 x4 x5 x6 x7 x8)) -∗ K ⟨⟩))
      ⊢ wp frame (wpE (defs₀ (F := F)) Variants.none c none) E
          (cc1__gru_body i arg1 harg1 arg2 harg2 arg3 harg3 arg4 harg4 arg5 harg5 arg6 harg6 arg7 harg7 arg8 harg8 arg9 harg9 arg10 harg10) K := by
  subst hI
  simp only [cc1__gru_body_eq_skeleton]; unfold cc1__gru_body_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, Hk⟩
  subst hf0 hf1 hf2 hf3 hf4 hf5 hf6 hf7 hf8
  sl_exec
  sl_step
  iapply Hk
  isplitr [H9]
  swap
  · iexists _; isplitr
    swap; · iexact H9
    ipureintro
    exact (View.read_writes_eq_canon _ _ _ (View.cover_of_tiled _ S400x128.size (by rfl))).trans (out_eq _ _ _ _ _ _ _ _ _)
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists f8; isplitr; · ipureintro; rfl
  iexact H8

def ΦTc (c : Dev nD) : sProp 𝕄 :=
  iprop(Pipeline.scopedRest (Ix := HIx 1) (Name := ℕ) (U := UU) (Lvl := ℕ) (Val := Elt F) spec1 c ∗ ∃ r, prngReg c r)

def xsAt (c : Dev nD) (i : Fin 25) : Vec F S16x400x128 .f32 := fun y =>
  (V c main_v32 : S16x10240x128.Idx → Elt F .f32) (ix3 (y 0) ⟨400 * i.val + (y 1).val, by have h : (y 1).val < 400 := (y 1).isLt; have := i.isLt; show _ < 10240; omega⟩ (y 2))

def ftAt (c : Dev nD) (i : Fin 25) : Vec F S400x128 .f32 := fun y =>
  (V c main_arg0 : S10000x128.Idx → Elt F .f32) (ix2 ⟨400 * i.val + (y 0).val, by have h : (y 0).val < 400 := (y 0).isLt; have := i.isLt; show _ < 10000; omega⟩ (y 1))

def outAt (c : Dev nD) (i : Fin 25) : Vec F S400x128 .f32 :=
  bodyOut (xsAt V c i) (ftAt V c i) (V c main_v9 : S128x384.Idx → Elt F .f32) (V c main_v14 : S128x384.Idx → Elt F .f32)
    (V c main_v13 : S1x384.Idx → Elt F .f32) (V c main_v15 : S1x384.Idx → Elt F .f32) (V c main_v19 : S128x128.Idx → Elt F .f32)
    (V c main_v23 : S128x128.Idx → Elt F .f32) (V c main_v22 : S1x128.Idx → Elt F .f32)

def rowBlk (k : S10000x128.Idx) : Fin 25 :=
  ⟨(k 0).val / 400, by have h : (k 0).val < 10000 := (k 0).isLt; omega⟩

abbrev blkNo (t : Fin cfg1.N) : Fin 25 := ⟨t.val, N_1 ▸ t.isLt⟩

def dats (p : Fin 1) (c : Dev nD) : Pipeline.Dat τ (Elt F) (HIx 1) ℕ UU ℕ (cfgs p) c where
  A w := V c (Pipeline.arrRef spec1 w)
  after w t := match w with
    | ⟨0, _⟩ => xsAt V c (blkNo t)
    | ⟨1, _⟩ => ftAt V c (blkNo t)
    | ⟨2, _⟩ => V c main_v9
    | ⟨3, _⟩ => V c main_v14
    | ⟨4, _⟩ => V c main_v13
    | ⟨5, _⟩ => V c main_v15
    | ⟨6, _⟩ => V c main_v19
    | ⟨7, _⟩ => V c main_v23
    | ⟨8, _⟩ => V c main_v22
    | ⟨9, _⟩ => outAt V c (blkNo t)
  Φ _ := ΦTc c
  q _ := fullShare
  owed _ := 0

theorem A_eq (c : Dev nD) (w : Fin cfg1.W) : (dats V 0 c).A w = V c (Pipeline.arrRef spec1 w) := rfl

theorem clip_none : ∀ (w : Fin cfg1.W) (t : Fin cfg1.N) a, (cfg1.win w).clip (cfg1.grid.coords t) a = none := by decide +kernel

theorem idx_facts : ∀ t : Fin cfg1.N,
    (win1_0.index t (0 : Fin 3) = 0 ∧ win1_0.index t (1 : Fin 3) = t.val ∧ win1_0.index t (2 : Fin 3) = 0)
    ∧ (win1_1.index t (0 : Fin 2) = t.val ∧ win1_1.index t (1 : Fin 2) = 0)
    ∧ (win1_9.index t (0 : Fin 2) = t.val ∧ win1_9.index t (1 : Fin 2) = 0) :=
  (by decide +kernel : ∀ t : Fin grid1.N, _)

theorem off0 : ∀ w : Fin cfg1.W, (2 ≤ w.val && w.val ≤ 8) = true → ∀ (t : Fin cfg1.N) a, (cfg1.win w).index t a * (cfg1.win w).size a = 0 := by
  decide +kernel

/-- Block `t` of a tiling by 400 rows starts at row `400 t`; a block of the full size at offset zero is the whole array. -/
theorem keep (c : Dev nD) (t : Fin cfg1.N) : ∀ w : Fin cfg1.W, (cfg1.win w).isOut = false →
    (cfg1.win w).cut (cfg1.grid.coords t) ((dats V 0 c).after w t) = (dats V 0 c).blockOf w t
  | ⟨0, _⟩, _ => by
    obtain ⟨⟨e0, e1, e2⟩, -⟩ := idx_facts t
    funext y
    show V c main_v32 _ = V c main_v32 _
    congr 1; funext a; apply Fin.ext
    match a with
    | ⟨0, _⟩ => show (y 0).val = win1_0.index t (0 : Fin 3) * 16 + 1 * (y 0).val; rw [e0]; omega
    | ⟨1, _⟩ => show 400 * t.val + (y 1).val = win1_0.index t (1 : Fin 3) * 400 + 1 * (y 1).val; rw [e1]; omega
    | ⟨2, _⟩ => show (y 2).val = win1_0.index t (2 : Fin 3) * 128 + 1 * (y 2).val; rw [e2]; omega
  | ⟨1, _⟩, _ => by
    obtain ⟨-, ⟨e0, e1⟩, -⟩ := idx_facts t
    funext y
    show V c main_arg0 _ = V c main_arg0 _
    congr 1; funext a; apply Fin.ext
    match a with
    | ⟨0, _⟩ => show 400 * t.val + (y 0).val = win1_1.index t (0 : Fin 2) * 400 + 1 * (y 0).val; rw [e0]; omega
    | ⟨1, _⟩ => show (y 1).val = win1_1.index t (1 : Fin 2) * 128 + 1 * (y 1).val; rw [e1]; omega
  | ⟨2, _⟩, _ | ⟨3, _⟩, _ | ⟨4, _⟩, _ | ⟨5, _⟩, _ | ⟨6, _⟩, _ | ⟨7, _⟩, _ | ⟨8, _⟩, _ =>
    (View.ld_unit_zero (funext (off0 _ rfl t)) _ _).symm
  | ⟨9, _⟩, h => Bool.noConfusion h

theorem before_eq (c : Dev nD) (w : Fin cfg1.W) (hw : (cfg1.win w).isOut = false) (t : Fin cfg1.N) (d) :
    (dats V 0 c).before w t d = (dats V 0 c).after w t := by
  rw [(dats V 0 c).before_in_eq_fetched w hw (fun _ => rfl) (fun t t' _ => funext fun a => (clip_none w t a).trans (clip_none w t' a).symm)
      (fun t => keep V c t w hw),
    (dats V 0 c).fetched_of_clip_none w t (clip_none w t) d ((dats V 0 c).after w t)]
  unfold Dat.fetched
  rw [← keep V c t w hw, Window.fill_cut]

theorem body_obligation (c : Dev nD) (ι : HIx 1) : BodyObligation (dats (F := F) V 0 c) (defs₀ (F := F)) 𝒱₀ ι Set.univ := fun t => by
  rw [bigSep_W1, bigSep_W1]
  simp only [before_eq V c 0 rfl, before_eq V c 1 rfl, before_eq V c 2 rfl, before_eq V c 3 rfl, before_eq V c 4 rfl, before_eq V c 5 rfl,
    before_eq V c 6 rfl, before_eq V c 7 rfl, before_eq V c 8 rfl]
  rw [show (dats V 0 c).Φ t.succ = (dats V 0 c).Φ t.castSucc from rfl, show (dats V 0 c).owesAt ι t.succ = (dats V 0 c).owesAt ι t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply sound_kernel c rfl
  iframe H0 H1 H2 H3 H4 H5 H6 H7 H8
  isplitl [H9]; · iexists _; iexact H9
  iintro ⟨⟨H0, H1, H2, H3, H4, H5, H6, H7, H8⟩, H9⟩
  isplitl [HΦ]; · iexact HΦ
  isplitl [Ho]; · iexact Ho
  iframe H0 H1 H2 H3 H4 H5 H6 H7 H8
  iexact H9

def rowIn (k : S10000x128.Idx) : S400x128.Idx := ix2 ⟨(k 0).val % 400, Nat.mod_lt _ (by decide)⟩ (k 1)

def G9 (c : Dev nD) : S10000x128.Idx → Elt F .f32 := fun k => outAt V c (rowBlk k) (rowIn k)

theorem flushed9_eq (c : Dev nD) (t : Fin cfg1.N) :
    (dats V 0 c).flushed 9 t = ((cfg1.win 9).blk t).view.read (Elt F) (G9 V c) := by
  obtain ⟨-, -, ⟨e0, e1⟩⟩ := idx_facts t
  funext j
  rw [View.read_apply]
  show outAt V c (blkNo t) ((cfg1.win 9).xinj (grid1.coords t) j) = G9 V c (((cfg1.win 9).blk t).view.emb j)
  have hj0 : (j 0).val < 400 := (j 0).isLt
  have hk0 : ((((cfg1.win 9).blk t).view.emb j) 0).val = t.val * 400 + (j 0).val := by
    show win1_9.index t (0 : Fin 2) * 400 + 1 * (j 0).val = _; rw [e0]; omega
  have hk1 : ((((cfg1.win 9).blk t).view.emb j) 1).val = (j 1).val := by
    show win1_9.index t (1 : Fin 2) * 128 + 1 * (j 1).val = _; rw [e1]; omega
  have h1 : rowBlk (((cfg1.win 9).blk t).view.emb j) = blkNo t := Fin.ext (by show _ / 400 = t.val; rw [hk0]; omega)
  have h2 : rowIn (((cfg1.win 9).blk t).view.emb j) = (cfg1.win 9).xinj (grid1.coords t) j := funext fun a => Fin.ext (by
    match a with
    | ⟨0, _⟩ => show _ % 400 = (j 0).val; rw [hk0]; omega
    | ⟨1, _⟩ => exact hk1)
  unfold G9
  rw [h1, h2]

theorem cover9 (k : S10000x128.Idx) : ∃ t : Fin cfg1.N, (cfg1.win 9).flush t = true ∧ k ∈ ((cfg1.win 9).blk t).view.set := by
  have hk0 : (k 0).val < 10000 := (k 0).isLt
  have hk1 : (k 1).val < 128 := (k 1).isLt
  let t : Fin cfg1.N := ⟨(k 0).val / 400, by rw [show cfg1.N = 25 from N_1]; omega⟩
  obtain ⟨-, -, ⟨e0, e1⟩⟩ := idx_facts t
  have ht : t.val = (k 0).val / 400 := rfl
  refine ⟨t, flush1_9 t, ?_⟩
  show k ∈ ((View.whole main_v33).slice (win1_9.rect t)).set
  rw [View.set_slice_whole, Rect.mem_set_unit]
  intro a
  match a with
  | ⟨0, _⟩ => show win1_9.index t (0 : Fin 2) * 400 ≤ (k 0).val ∧ (k 0).val < win1_9.index t (0 : Fin 2) * 400 + 400; rw [e0, ht]; omega
  | ⟨1, _⟩ => show win1_9.index t (1 : Fin 2) * 128 ≤ (k 1).val ∧ (k 1).val < win1_9.index t (1 : Fin 2) * 128 + 128; rw [e1]; omega

theorem final9_apply (c : Dev nD) (k : S10000x128.Idx) :
    ((dats V 0 c).arrAt 9 cfg1.N : S10000x128.Idx → Elt F .f32) k
      = bodyOut (xsAt V c (rowBlk k)) (ftAt V c (rowBlk k)) (V c main_v9 : S128x384.Idx → Elt F .f32) (V c main_v14 : S128x384.Idx → Elt F .f32)
          (V c main_v13 : S1x384.Idx → Elt F .f32) (V c main_v15 : S1x384.Idx → Elt F .f32) (V c main_v19 : S128x128.Idx → Elt F .f32)
          (V c main_v23 : S128x128.Idx → Elt F .f32) (V c main_v22 : S1x128.Idx → Elt F .f32) (ix2 ⟨(k 0).val % 400, Nat.mod_lt _ (by decide)⟩ (k 1)) :=
  congrFun ((dats V 0 c).arrAt_eq_of_cover 9 (G9 V c) (fun t _ => flushed9_eq V c t) cover9) k

end Cert.KernelIdeal.Hand

end
-- ==== Proof.BlockSpec.lean ====
import proofs.«207044_g16655883174581_fold_wed_m_811_16_alg».proof.Proof.Spec

noncomputable section

namespace Cert.Spec

structure BlockIn where
  xs : Fin 16 → Fin 400 → Vc 128
  ft : Fin 400 → Vc 128
  wih : Fin 128 → Fin 384 → EReal
  whh : Fin 128 → Fin 384 → EReal
  bih : Vc 384
  bhh : Vc 384
  wself : Fin 128 → Fin 128 → EReal
  wneigh : Fin 128 → Fin 128 → EReal
  bself : Vc 128

def linT (W : Fin 128 → Fin 384 → EReal) (b : Vc 384) (v : Vc 128) : Vc 384 := fun c => (∑ k, v k * W k c) + b c

def msg (t : Nat) : Fin 16 := ⟨t % 16, Nat.mod_lt _ (by decide)⟩

variable (B : BlockIn)

def hBlk (r : Fin 400) : Nat → Vc 128
  | 0 => fun _ => 0
  | t + 1 => cell (linT B.wih B.bih (B.xs (msg t) r)) (if t = 0 then B.bhh else linT B.whh B.bhh (hBlk r t)) (hBlk r t)

def blockOut (r : Fin 400) (j : Fin 128) : EReal :=
  ((∑ k, B.ft r k * B.wself k j) + B.bself j) + ∑ k, hBlk B r 16 k * B.wneigh k j

def node (i : Fin 25) (r : Fin 400) : Fin 10000 := ⟨400 * i.val + r.val, by omega⟩

def blockIn (p : Params) (i : Fin 25) : BlockIn where
  xs := fun t r => p.feat (p.src (edge t.val (node i r)))
  ft := fun r => p.feat (node i r)
  wih := wih p
  whh := fun k c => p.Whh c k
  bih := bihK p
  bhh := p.bhh
  wself := wself p
  wneigh := fun k j => p.Wneigh j k
  bself := bself p

theorem msg_val {t : Nat} (ht : t < 16) : (msg t).val = t := Nat.mod_eq_of_lt ht

theorem hBlk_eq_hKer (p : Params) (i : Fin 25) (r : Fin 400) :
    ∀ t, t ≤ 16 → hBlk (blockIn p i) r t = hKer p (node i r) t
  | 0, _ => rfl
  | t + 1, ht => by
    have ih := hBlk_eq_hKer p i r t (by omega)
    have hm : (msg t).val = t := msg_val (by omega)
    show cell (linT (wih p) (bihK p) (p.feat (p.src (edge (msg t).val (node i r)))))
        (if t = 0 then p.bhh else linT (fun k c => p.Whh c k) p.bhh (hBlk (blockIn p i) r t)) (hBlk (blockIn p i) r t)
      = cell (giK p (node i r) t) (if t = 0 then p.bhh else lin p.Whh p.bhh (hKer p (node i r) t)) (hKer p (node i r) t)
    rw [hm, ih]
    rfl

theorem outKer_of_block (p : Params) (i : Fin 25) (r : Fin 400) (j : Fin 128) :
    blockOut (blockIn p i) r j = outKer p (node i r) j := by
  show ((∑ k, p.feat (node i r) k * wself p k j) + bself p j) + ∑ k, hBlk (blockIn p i) r 16 k * p.Wneigh j k
    = ((∑ k, p.feat (node i r) k * wself p k j) + bself p j) + ∑ k, hKer p (node i r) 16 k * p.Wneigh j k
  rw [hBlk_eq_hKer p i r 16 le_rfl]

end Cert.Spec

end
-- ==== Proof.TcValue.lean ====
import proofs.«207044_g16655883174581_fold_wed_m_811_16_alg».proof.Proof.TcDefs
import proofs.«207044_g16655883174581_fold_wed_m_811_16_alg».proof.Proof.BlockSpec
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.KernelIdeal.Hand

open Idealize.ShloMosaic Idealize.ShloMosaic.ValueIdx Cert.KernelIdeal Cert.KernelIdeal.Gen Cert.Spec
open Idealize.ShloMosaic.StackMember

def blkOf (xs : Vec Ideal S16x400x128 .f32) (ft : Vec Ideal S400x128 .f32) (wih whh : Vec Ideal S128x384 .f32)
    (bih bhh : Vec Ideal S1x384 .f32) (wself wneigh : Vec Ideal S128x128 .f32) (bself : Vec Ideal S1x128 .f32) : BlockIn where
  xs := fun t r k => xs (ix3 t r k)
  ft := fun r k => ft (ix2 r k)
  wih := fun k c => wih (ix2 k c)
  whh := fun k c => whh (ix2 k c)
  bih := fun c => bih (ix2 (0 : Fin 1) c)
  bhh := fun c => bhh (ix2 (0 : Fin 1) c)
  wself := fun k j => wself (ix2 k j)
  wneigh := fun k j => wneigh (ix2 k j)
  bself := fun j => bself (ix2 (0 : Fin 1) j)

-- A matrix product added to zero reads, at (r, c), the sum over the shared axis.
theorem matmul0_apply {m k n : ℕ} {d : DotDims ⟨2, ![m, k]⟩ ⟨2, ![k, n]⟩ ⟨2, ![m, n]⟩} (hd : d = DotDims.plain m k n)
    (a : FVec Ideal ⟨2, ![m, k]⟩ .f32) (w : FVec Ideal ⟨2, ![k, n]⟩ .f32) (r : Fin m) (c : Fin n) :
    matmul (F := Ideal) d none a w (constant (F := Ideal) ⟨2, ![m, n]⟩ .f32 0x00000000#32) (ix2 r c)
      = ∑ q : Fin k, a (ix2 r q) * w (ix2 q c) := by
  subst hd
  rw [matmul_zero_eq_dotGeneral, dotGeneral_plain_apply]

def ghV (v3 : FVec Ideal S128x384 .f32) (v7 : FVec Ideal S1x384 .f32) (h : FVec Ideal S400x128 .f32) : FVec Ideal S400x384 .f32 :=
  addf (matmul (F := Ideal) dot_S400x128_S128x384_S400x384_1_0_0_1_n_n none h v3 (constant (F := Ideal) S400x384 .f32 0x00000000#32))
    (broadcastTo S400x384 v7 broadcasts_S1x384_S400x384)

def stepV (v3 : FVec Ideal S128x384 .f32) (v7 : FVec Ideal S1x384 .f32) (gi : FVec Ideal S400x384 .f32)
    (h : FVec Ideal S400x128 .f32) : FVec Ideal S400x128 .f32 :=
  addf
    (mulf
      (subf (broadcast S400x128 (Scalar.ofBits (F := Ideal) .f32 0x3F800000#32))
        (logistic (addf (extractStridedSlice S400x128 ![0, 128] gi slices_S400x384_o0_128_S400x128)
          (extractStridedSlice S400x128 ![0, 128] (ghV v3 v7 h) slices_S400x384_o0_128_S400x128))))
      (tanh (addf (extractStridedSlice S400x128 ![0, 256] gi slices_S400x384_o0_256_S400x128)
        (mulf
          (logistic (addf (extractStridedSlice S400x128 ![0, 0] gi slices_S400x384_o0_0_S400x128)
            (extractStridedSlice S400x128 ![0, 0] (ghV v3 v7 h) slices_S400x384_o0_0_S400x128)))
          (extractStridedSlice S400x128 ![0, 256] (ghV v3 v7 h) slices_S400x384_o0_256_S400x128)))))
    (mulf
      (logistic (addf (extractStridedSlice S400x128 ![0, 128] gi slices_S400x384_o0_128_S400x128)
        (extractStridedSlice S400x128 ![0, 128] (ghV v3 v7 h) slices_S400x384_o0_128_S400x128)))
      h)

theorem ghV_apply (v3 : FVec Ideal S128x384 .f32) (v7 : FVec Ideal S1x384 .f32) (h : FVec Ideal S400x128 .f32)
    (r : Fin 400) (c : Fin 384) :
    ghV v3 v7 h (ix2 r c)
      = linT (fun k c => v3 (ix2 k c)) (fun c => v7 (ix2 (0 : Fin 1) c)) (fun k => h (ix2 r k)) c := by
  unfold ghV
  rw [addf_apply, matmul0_apply (d := dot_S400x128_S128x384_S400x384_1_0_0_1_n_n) rfl, broadcastTo_1b_ab_apply]
  rfl

section Thirds
variable {α : Type} {m : ℕ} (x : (⟨2, ![m, 384]⟩ : Shape).Idx → α) (r : Fin m) (j : Fin 128)

theorem third0_apply (h : (⟨2, ![m, 384]⟩ : Shape).Slices ![0, 0] ⟨2, ![m, 128]⟩) :
    extractStridedSlice ⟨2, ![m, 128]⟩ ![0, 0] x h (ix2 r j) = x (ix2 r (colR j)) :=
  slice2_axis1_apply 0 x h r j _ (Nat.zero_add _).symm
theorem third1_apply (h : (⟨2, ![m, 384]⟩ : Shape).Slices ![0, 128] ⟨2, ![m, 128]⟩) :
    extractStridedSlice ⟨2, ![m, 128]⟩ ![0, 128] x h (ix2 r j) = x (ix2 r (colZ j)) :=
  slice2_axis1_apply 128 x h r j _ rfl
theorem third2_apply (h : (⟨2, ![m, 384]⟩ : Shape).Slices ![0, 256] ⟨2, ![m, 128]⟩) :
    extractStridedSlice ⟨2, ![m, 128]⟩ ![0, 256] x h (ix2 r j) = x (ix2 r (colN j)) :=
  slice2_axis1_apply 256 x h r j _ rfl

end Thirds

-- One step read at row r, unit j is the specification's cell on that row's gate inputs and old state.
theorem stepV_apply (v3 : FVec Ideal S128x384 .f32) (v7 : FVec Ideal S1x384 .f32) (gi : FVec Ideal S400x384 .f32)
    (h : FVec Ideal S400x128 .f32) (r : Fin 400) (j : Fin 128) :
    stepV v3 v7 gi h (ix2 r j)
      = cell (fun c => gi (ix2 r c))
          (linT (fun k c => v3 (ix2 k c)) (fun c => v7 (ix2 (0 : Fin 1) c)) (fun k => h (ix2 r k)))
          (fun k => h (ix2 r k)) j := by
  unfold stepV
  simp only [addf_apply, mulf_apply, subf_apply, broadcast_apply, logistic, tanh, third0_apply, third1_apply, third2_apply,
    ghV_apply, Ideal.logistic_def, Ideal.tanh_def]
  rfl

structure Loaded (B : BlockIn) (v3 : FVec Ideal S128x384 .f32) (v7 : FVec Ideal S1x384 .f32)
    (v13 : FVec Ideal S6400x384 .f32) : Prop where
  whh : ∀ k c, v3 (ix2 k c) = B.whh k c
  bhh : ∀ c, v7 (ix2 (0 : Fin 1) c) = B.bhh c
  gi : ∀ (t : Fin 16) (r : Fin 400) (c : Fin 384) (q : Fin 6400), q.val = 400 * t.val + r.val →
    v13 (ix2 q c) = linT B.wih B.bih (B.xs t r) c

def IsH (B : BlockIn) (t : Nat) (h : FVec Ideal S400x128 .f32) : Prop := ∀ r k, h (ix2 r k) = hBlk B r t k

section Steps
variable {B : BlockIn} {v3 : FVec Ideal S128x384 .f32} {v7 : FVec Ideal S1x384 .f32} {v13 : FVec Ideal S6400x384 .f32}
  (L : Loaded B v3 v7 v13)
include L

-- A step on the row block of message t takes the state after t messages to the state after t + 1.
theorem step_isH {t : Nat} (o : Nat) {h : FVec Ideal S400x128 .f32} (H : IsH B t h)
    (ht : t ≠ 0 ∧ t < 16 ∧ o = 400 * t := by decide) (hs : S6400x384.Slices ![o, 0] S400x384 := by decide) :
    IsH B (t + 1) (stepV v3 v7 (extractStridedSlice S400x384 ![o, 0] v13 hs) h) := by
  obtain ⟨ht0, ht, ho⟩ := ht
  intro r j
  rw [stepV_apply]
  show _ = cell (linT B.wih B.bih (B.xs (msg t) r)) (if t = 0 then B.bhh else linT B.whh B.bhh (hBlk B r t)) (hBlk B r t) j
  rw [if_neg ht0]
  have e1 : (fun c => extractStridedSlice S400x384 ![o, 0] v13 hs (ix2 r c)) = linT B.wih B.bih (B.xs (msg t) r) := by
    funext c
    rw [slice2_axis0_eq]
    exact L.gi (msg t) r c _ (by
      have hm : (msg t).val = t := msg_val ht
      show o + r.val = 400 * (msg t).val + r.val
      omega)
  have e2 : (fun k c => v3 (ix2 k c)) = B.whh := by funext k c; exact L.whh k c
  have e3 : (fun c => v7 (ix2 (0 : Fin 1) c)) = B.bhh := by funext c; exact L.bhh c
  have e4 : (fun k => h (ix2 r k)) = hBlk B r t := by funext k; exact H r k
  rw [e1, e2, e3, e4]

theorem pay11_isH {v99 : FVec Ideal S400x128 .f32} (H : IsH B 4 v99) : IsH B 6 (k1_pay11 (F := Ideal) v3 v7 v13 v99) :=
  step_isH L 2000 (step_isH L 1600 H)

theorem pay16_isH {v99 : FVec Ideal S400x128 .f32} (H : IsH B 4 v99) :
    IsH B 9 (k1_pay16 (F := Ideal) v3 v7 v13 (k1_pay11 v3 v7 v13 v99) (k1_pay12 v13) (k1_pay13 v3 v7 v13 v99)
      (k1_pay14 v3 v7 v13 v99) (k1_pay15 v3 v7 v13 v99)) :=
  step_isH L 3200 (step_isH L 2800 (step_isH L 2400 (pay11_isH L H)))

theorem pay17_isH {v209 : FVec Ideal S400x128 .f32} (H : IsH B 9 v209) : IsH B 11 (k1_pay17 (F := Ideal) v3 v7 v13 v209) :=
  step_isH L 4000 (step_isH L 3600 H)

theorem pay22_isH {v209 : FVec Ideal S400x128 .f32} (H : IsH B 9 v209) :
    IsH B 14 (k1_pay22 (F := Ideal) v3 v7 v13 (k1_pay17 v3 v7 v13 v209) (k1_pay18 v13) (k1_pay19 v3 v7 v13 v209)
      (k1_pay20 v3 v7 v13 v209) (k1_pay21 v3 v7 v13 v209)) :=
  step_isH L 5200 (step_isH L 4800 (step_isH L 4400 (pay17_isH L H)))

theorem pay23_isH {v319 : FVec Ideal S400x128 .f32} (H : IsH B 14 v319) : IsH B 16 (k1_pay23 (F := Ideal) v3 v7 v13 v319) :=
  step_isH L 6000 (step_isH L 5600 H)

end Steps

section Block
variable (xs : Vec Ideal S16x400x128 .f32) (ft : Vec Ideal S400x128 .f32) (wih whh : Vec Ideal S128x384 .f32)
  (bih bhh : Vec Ideal S1x384 .f32) (wself wneigh : Vec Ideal S128x128 .f32) (bself : Vec Ideal S1x128 .f32)

theorem pay4_apply (t : Fin 16) (r : Fin 400) (c : Fin 384) (q : Fin 6400) (hq : q.val = 400 * t.val + r.val) :
    k1_pay4 (F := Ideal) wih bih xs (ix2 q c)
      = (∑ k : Fin 128, xs (ix3 t r k) * wih (ix2 k c)) + bih (ix2 (0 : Fin 1) c) := by
  have e : ∀ k : Fin 128, shapeCast S6400x128 xs shapeCasts_S16x400x128_S6400x128 (ix2 q k) = xs (ix3 t r k) := fun k =>
    shapeCast_apply xs _ _ _ (by
      rw [Shape.rowMajor_val_three, Shape.rowMajor_val_two]
      show (t.val * 400 + r.val) * 128 + k.val = q.val * 128 + k.val
      omega)
  unfold k1_pay4
  rw [addf_apply, matmul0_apply (d := dot_S6400x128_S128x384_S6400x384_1_0_0_1_n_n) rfl, broadcastTo_1b_ab_apply]
  simp only [shapeCast_self, e]

theorem loaded_blkOf : Loaded (blkOf xs ft wih whh bih bhh wself wneigh bself) (k1_pay2 (F := Ideal) whh) (k1_pay3 (F := Ideal) bhh)
      (k1_pay4 (F := Ideal) wih bih xs) where
  whh := fun k c => by unfold k1_pay2; rw [shapeCast_self]; rfl
  bhh := fun c => by unfold k1_pay3; rw [shapeCast_self]; rfl
  gi := fun t r c q hq => by rw [pay4_apply xs wih bih t r c q hq]; rfl

-- From the zero state the hidden-side gate input is the bias alone, and the old state's share vanishes.
theorem pay5_isH : IsH (blkOf xs ft wih whh bih bhh wself wneigh bself) 1 (k1_pay5 (F := Ideal) wih bih bhh xs) := by
  intro r j
  have L := loaded_blkOf xs ft wih whh bih bhh wself wneigh bself
  have hg : ∀ c : Fin 384, extractStridedSlice S400x384 ![0, 0] (k1_pay4 (F := Ideal) wih bih xs) slices_S6400x384_o0_0_S400x384 (ix2 r c)
      = linT (blkOf xs ft wih whh bih bhh wself wneigh bself).wih (blkOf xs ft wih whh bih bhh wself wneigh bself).bih
          ((blkOf xs ft wih whh bih bhh wself wneigh bself).xs (msg 0) r) c := fun c => by
    rw [slice2_axis0_eq]
    exact L.gi (msg 0) r c _ (by
      show 0 + r.val = 400 * (msg 0).val + r.val
      rw [msg_val (by decide : 0 < 16)])
  show _ = cell _ (if 0 = 0 then _ else _) (fun _ => 0) j
  rw [if_pos rfl]
  unfold k1_pay5 cell
  simp only [addf_apply, mulf_apply, subf_apply, broadcast_apply, logistic, tanh, third0_apply, third1_apply, third2_apply,
    broadcastTo_1b_ab_apply, Ideal.logistic_def, Ideal.tanh_def, hg, L.bhh,
    mul_zero, add_zero]
  rfl

theorem hidden16_isH :
    IsH (blkOf xs ft wih whh bih bhh wself wneigh bself) 16 (hidden16 (F := Ideal) xs wih whh bih bhh) := by
  have L := loaded_blkOf xs ft wih whh bih bhh wself wneigh bself
  have h4 : IsH (blkOf xs ft wih whh bih bhh wself wneigh bself) 4
      (k1_pay10 (F := Ideal) (k1_pay2 whh) (k1_pay3 bhh) (k1_pay4 wih bih xs) (k1_pay5 wih bih bhh xs) (k1_pay6 wih bih xs)
        (k1_pay7 wih whh bih bhh xs) (k1_pay8 wih whh bih bhh xs) (k1_pay9 wih whh bih bhh xs)) :=
    step_isH L 1200 (step_isH L 800 (step_isH L 400 (pay5_isH xs ft wih whh bih bhh wself wneigh bself)))
  exact pay23_isH L (pay22_isH L (pay16_isH L h4))

theorem bodyOut_apply (r : Fin 400) (j : Fin 128) :
    bodyOut (F := Ideal) xs ft wih whh bih bhh wself wneigh bself (ix2 r j)
      = blockOut (blkOf xs ft wih whh bih bhh wself wneigh bself) r j := by
  have H : ∀ k : Fin 128, hidden16 (F := Ideal) xs wih whh bih bhh (ix2 r k)
      = hBlk (blkOf xs ft wih whh bih bhh wself wneigh bself) r 16 k :=
    fun k => hidden16_isH xs ft wih whh bih bhh wself wneigh bself r k
  unfold bodyOut k1_pay1 k1_pay24
  rw [addf_apply, addf_apply, matmul0_apply (d := dot_S400x128_S128x128_S400x128_1_0_0_1_n_n) rfl,
    matmul0_apply (d := dot_S400x128_S128x128_S400x128_1_0_0_1_n_n) rfl, broadcastTo_1b_ab_apply]
  simp only [shapeCast_self, H]
  rfl

end Block

end Cert.KernelIdeal.Hand

end
-- ==== Proof.KerValue.lean ====
import proofs.«207044_g16655883174581_fold_wed_m_811_16_alg».proof.Proof.Vals
import proofs.«207044_g16655883174581_fold_wed_m_811_16_alg».proof.Proof.HostFold
import proofs.«207044_g16655883174581_fold_wed_m_811_16_alg».proof.Proof.TcBody
import proofs.«207044_g16655883174581_fold_wed_m_811_16_alg».proof.Proof.TcValue
import proofs.«207044_g16655883174581_fold_wed_m_811_16_alg».proof.Proof.BlockSpec

noncomputable section

namespace Cert.KernelIdeal.Hand

open Cert.KernelIdeal Cert.KernelIdeal.Gen Idealize.ShloMosaic Idealize.ShloMosaic.TcCoe Idealize.SL.Sem

variable {F : FTy → Type} [FloatOps F]

section Trace
open StableHlo ValueIdx

variable (m : (ℓ : Loc nD τ sig) → Buf (Elt F) ℓ) (d : Dev nD)

theorem Vreg_of_ne {b : Ref sig .tc} (h1 : b ≠ main_v31) (h2 : b ≠ main_v32) :
    Vreg m d b = VA m d (Proc.devRef .tc b) := by
  unfold Vreg VC VB
  simp only [after_cons, after_nil]
  rw [reshape_result_ne _ _ _ _ _ _ _ h2, Function.update_of_ne (devRef_ne_of_ne h1)]

theorem Vreg_v32 :
    (Vreg m d main_v32 : S16x10240x128.Idx → Elt F .f32)
      = shapeCast S16x10240x128 (gathered m (tblOf m) d) shapeCasts_S163840x128_S16x10240x128 := by
  unfold Vreg VC VB
  simp only [after_cons, after_nil]
  rw [reshape_result, Function.update_self]
  rfl

end Trace

section Gathered
open StableHlo ValueIdx

variable (m : (ℓ : Loc nD τ sig) → Buf (Elt F) ℓ) (d : Dev nD)

theorem edge_eq (t : Fin 16) (n : Fin 10000) :
    Cert.Spec.edge t.val n = (⟨16 * n.val + t.val, by omega⟩ : Fin 160000) :=
  Fin.ext (Nat.mod_eq_of_lt (by omega))

theorem tblOf_eq : (tblOf m d : IVec S1320x128 32) = tableT (V0 m d (Proc.devRef .tc main_arg1)) := after_v30 (V0 m d)

theorem tblOf_apply_node (t : Fin 16) (n : Fin 10000) (ch : Fin 1320) (l : Fin 128)
    (h : 128 * ch.val + l.val = 10240 * t.val + n.val) :
    (tblOf m d : IVec S1320x128 32) (ix2 ch l)
      = (V0 m d (Proc.devRef .tc main_arg1) : IVec S2x160000 32) (ix2 (0 : Fin 2) (Cert.Spec.edge t.val n)) := by
  rw [tblOf_eq, edge_eq]
  exact tableT_apply_node _ ch l t n h

theorem gathered_apply_node (t : Fin 16) (n : Fin 10000) (k : Fin 128) :
    gathered m (tblOf m) d (ix2 (⟨10240 * t.val + n.val, by omega⟩ : Fin 163840) k)
      = m (featLoc d) (ix2 (Cert.Args.srcOf (V0 m d (Proc.devRef .tc main_arg1)) (Cert.Spec.edge t.val n)) k) := by
  unfold gathered
  refine congrArg (m (featLoc d)) (congrArg₂ (ix2 (n0 := 10000) (n1 := 128)) (Fin.ext ?_) rfl)
  show ((tblOf m d : IVec S1320x128 32) (ix2 (⟨(10240 * t.val + n.val) / 128, by omega⟩ : Fin 1320)
      (⟨(10240 * t.val + n.val) % 128, Nat.mod_lt _ (by decide)⟩ : Fin 128))).toNat % 10000 = _
  rw [tblOf_apply_node m d t n _ _ (by show 128 * ((10240 * t.val + n.val) / 128) + (10240 * t.val + n.val) % 128 = _; omega)]
  rfl

theorem Vreg_v32_apply_node (t : Fin 16) (n : Fin 10000) (k : Fin 128) :
    (Vreg m d main_v32 : S16x10240x128.Idx → Elt F .f32) (ix3 t (⟨n.val, by omega⟩ : Fin 10240) k)
      = m (featLoc d) (ix2 (Cert.Args.srcOf (V0 m d (Proc.devRef .tc main_arg1)) (Cert.Spec.edge t.val n)) k) := by
  rw [Vreg_v32]
  refine (shapeCast_apply _ _ _ (ix2 (⟨10240 * t.val + n.val, by omega⟩ : Fin 163840) k) ?_).trans (gathered_apply_node m d t n k)
  rw [Shape.rowMajor_val_two, Shape.rowMajor_val_three]
  show (10240 * t.val + n.val) * 128 + k.val = (t.val * 10240 + n.val) * 128 + k.val
  omega

end Gathered

section Block
open StableHlo ValueIdx

variable (m : (ℓ : Loc nD τ sig) → Buf (Elt Ideal) ℓ) (d : Dev nD)

abbrev pOf : Cert.Spec.Params := Cert.Args.params (arraysOf (V0 m d))

theorem ftAt_apply (i : Fin 25) (r : Fin 400) (k : Fin 128) :
    ftAt (Vreg m) d i (ix2 r k) = (pOf m d).feat (Cert.Spec.node i r) k := by
  unfold ftAt
  rw [Vreg_of_ne m d (by decide) (by decide)]
  unfold VA
  rw [after_arg0]
  rfl

theorem blkOf_eq_blockIn (i : Fin 25) :
    blkOf (xsAt (Vreg m) d i) (ftAt (Vreg m) d i) (Vreg m d main_v9) (Vreg m d main_v14) (Vreg m d main_v13) (Vreg m d main_v15)
        (Vreg m d main_v19) (Vreg m d main_v23) (Vreg m d main_v22)
      = Cert.Spec.blockIn (pOf m d) i := by
  unfold blkOf Cert.Spec.blockIn
  rw [Cert.Spec.BlockIn.mk.injEq]
  refine ⟨?_, ?_, ?_, ?_, ?_, ?_, ?_, ?_, ?_⟩
  · funext t r k; exact Vreg_v32_apply_node m d t (Cert.Spec.node i r) k
  · funext r k; exact ftAt_apply m d i r k
  · funext k c; rw [Vreg_of_ne m d (by decide) (by decide)]; exact after_v9_apply (V0 m d) k c
  · funext k c; rw [Vreg_of_ne m d (by decide) (by decide)]; exact after_v14_apply (V0 m d) k c
  · funext c; rw [Vreg_of_ne m d (by decide) (by decide)]; exact after_v13_apply (V0 m d) c
  · funext c; rw [Vreg_of_ne m d (by decide) (by decide)]; exact after_v15_apply (V0 m d) c
  · funext k j; rw [Vreg_of_ne m d (by decide) (by decide)]; exact after_v19_apply (V0 m d) k j
  · funext k j; rw [Vreg_of_ne m d (by decide) (by decide)]; exact after_v23_apply (V0 m d) k j
  · funext j; rw [Vreg_of_ne m d (by decide) (by decide)]; exact after_v22_apply (V0 m d) j

end Block

section Value
open StableHlo ValueIdx

variable (m : (ℓ : Loc nD τ sig) → Buf (Elt Ideal) ℓ) (d : Dev nD)

theorem node_divMod (n : Fin 10000) :
    Cert.Spec.node (⟨n.val / 400, by omega⟩ : Fin 25) (⟨n.val % 400, Nat.mod_lt _ (by decide)⟩ : Fin 400) = n :=
  Fin.ext (by show 400 * (n.val / 400) + n.val % 400 = n.val; omega)

theorem kerValue :
    ((dats (Vreg m) 0 d).arrAt 9 cfg1.N : S10000x128.Idx → EReal)
      = Cert.Args.ofMat (Cert.Spec.outKer (Cert.Args.params (arraysOf (V0 m d)))) := by
  funext k
  obtain ⟨n, j, rfl⟩ : ∃ (n : Fin 10000) (j : Fin 128), k = ix2 n j := ⟨k 0, k 1, eq_ix2 k⟩
  refine (final9_apply (Vreg m) d (ix2 n j)).trans ?_
  show bodyOut (xsAt (Vreg m) d (⟨n.val / 400, by omega⟩ : Fin 25)) (ftAt (Vreg m) d (⟨n.val / 400, by omega⟩ : Fin 25))
      (Vreg m d main_v9) (Vreg m d main_v14) (Vreg m d main_v13) (Vreg m d main_v15) (Vreg m d main_v19) (Vreg m d main_v23)
      (Vreg m d main_v22) (ix2 (⟨n.val % 400, Nat.mod_lt _ (by decide)⟩ : Fin 400) j) = _
  rw [bodyOut_apply, blkOf_eq_blockIn, Cert.Spec.outKer_of_block, node_divMod, Cert.Args.ofMat_ix2]

end Value

end Cert.KernelIdeal.Hand

end
-- ==== Proof.ScSplit.lean ====
import proofs.«207044_g16655883174581_fold_wed_m_811_16_alg».proof.Proof.ScDefs

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

theorem pointsTo_halve {ℓ : Loc nD τ sig} (I : Finset (Idx ℓ)) (f : Buf (Elt F) ℓ) (q : PosShare TreeShare) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

theorem bigSep_halves {n : ℕ} (Φ : Fin (2 ^ (n + 1)) → sProp 𝕄) :
    bigSep Finset.univ Φ
      = iprop((bigSep Finset.univ fun a : Fin (2 ^ n) => Φ ⟨a.val, by have := a.isLt; omega⟩)
          ∗ bigSep Finset.univ fun b : Fin (2 ^ n) => Φ ⟨2 ^ n + b.val, by have := b.isLt; omega⟩) := by
  rw [bigSep_univ_equiv (finSumFinEquiv.trans (finCongr (by omega : 2 ^ n + 2 ^ n = 2 ^ (n + 1)))) Φ, bigSep_univ_sum]
  rfl

theorem pointsTo_leaves {ℓ : Loc nD τ sig} (I : Finset (Idx ℓ)) (f : Buf (Elt F) ℓ) (n : ℕ) (q : PosShare TreeShare) :
    (ℓ ↦[I]{q} f : sProp 𝕄) = bigSep Finset.univ fun i : Fin (2 ^ n) => ℓ ↦[I]{leaf n q i} f := by
  induction n generalizing q with
  | zero =>
    exact (bigSep_univ_of_subsingleton (0 : Fin 1) (Φ := fun i : Fin 1 => (ℓ ↦[I]{leaf 0 q i} f : sProp 𝕄))).symm
  | succ n ih =>
    rw [pointsTo_halve, ih q.left, ih q.right, bigSep_halves]
    congr 1
    · refine bigSep_congr fun a _ => ?_
      show _ = ℓ ↦[I]{leaf (n + 1) q ⟨a.val, _⟩} f
      rw [leaf, dif_pos a.isLt]
    · refine bigSep_congr fun b _ => ?_
      show _ = ℓ ↦[I]{leaf (n + 1) q ⟨2 ^ n + b.val, _⟩} f
      rw [leaf, dif_neg (by simp)]
      congr 2
      exact Fin.ext (by simp)

variable (m : (ℓ : Loc nD τ sig) → Buf (Elt F) ℓ)
variable (tbl : (d : Dev nD) → Buf (Elt F) (idxLoc d))

theorem at_cores {ℓ : Loc nD τ sig} (f : Buf (Elt F) ℓ) :
    (ℓ ↦{fullShare} f : sProp 𝕄) = bigSep Finset.univ fun c : Fin 2 => ℓ ↦{coreShare c} f :=
  pointsTo_leaves Finset.univ f 1 fullShare

theorem at_tiles {ℓ : Loc nD τ sig} (f : Buf (Elt F) ℓ) (c : Fin 2) :
    (ℓ ↦{coreShare c} f : sProp 𝕄) = bigSep Finset.univ fun i : Fin 16 => ℓ ↦{tileShare c i} f :=
  pointsTo_leaves Finset.univ f 4 (coreShare c)

theorem tileNo_inj {c c' : Fin 2} {i i' : Fin 16} (h : tileNo c i = tileNo c' i') : c = c' ∧ i = i' := by
  have h' : 16 * c.val + i.val = 16 * c'.val + i'.val := congrArg Fin.val h
  exact ⟨Fin.ext (by omega), Fin.ext (by omega)⟩

theorem tileNo_surj (w : Fin 32) : ∃ (c : Fin 2) (i : Fin 16), tileNo c i = w :=
  ⟨⟨w.val / 16, by omega⟩, ⟨w.val % 16, by omega⟩, Fin.ext (by show 16 * (w.val / 16) + w.val % 16 = w.val; omega)⟩

theorem tiles_disjoint : ∀ x ∈ (Finset.univ : Finset (Fin 2 × Fin 16)), ∀ y ∈ (Finset.univ : Finset (Fin 2 × Fin 16)),
    x ≠ y → Disjoint (tileSet x.1 x.2) (tileSet y.1 y.2) :=
  fun _ _ _ _ h => Rect.part_disjoint outDiv fun e => h (Prod.ext (tileNo_inj e).1 (tileNo_inj e).2)

theorem tiles_cover : (Finset.univ : Finset (Fin 2 × Fin 16)).biUnion (fun x => tileSet x.1 x.2) = Finset.univ := by
  ext y
  simp only [Finset.mem_biUnion, Finset.mem_univ, true_and, iff_true]
  obtain ⟨w, hw⟩ := Rect.exists_mem_part outDiv y
  obtain ⟨c, i, rfl⟩ := tileNo_surj w
  exact ⟨(c, i), hw⟩

theorem out_tiles (d : Dev nD) (f : Buf (Elt F) (outLoc d)) :
    (outLoc d ↦{fullShare} f : sProp 𝕄)
      = bigSep Finset.univ fun c : Fin 2 => bigSep Finset.univ fun i : Fin 16 => outRows d c i f := by
  rw [← bigSep_univ_prod (fun x : Fin 2 × Fin 16 => outRows d x.1 x.2 f),
    ← pointsTo_biUnion Finset.univ (ℓ := outLoc d) (fun x : Fin 2 × Fin 16 => tileSet x.1 x.2) tiles_disjoint, tiles_cover]

theorem out_tiles_some (d : Dev nD) (f : Buf (Elt F) (outLoc d)) :
    (outLoc d ↦{fullShare} f : sProp 𝕄)
      ⊢ bigSep Finset.univ fun c : Fin 2 => bigSep Finset.univ fun i : Fin 16 => iprop(∃ g, outRows d c i g) := by
  rw [out_tiles]
  refine bigSep_mono fun c _ => bigSep_mono fun i _ => ?_
  refine (show (outRows d c i f : sProp 𝕄) ⊢ iprop(∃ g, outRows d c i g) from ?_)
  iintro H; iexists f; iexact H

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem cores_in (d : Dev nD) (f : Buf (Elt F) (outLoc d)) :
    iprop(featAt m d fullShare ∗ idxAt tbl d fullShare ∗ outLoc d ↦{fullShare} f)
      ⊢ (bigSep Finset.univ fun c : Fin 2 => coreIn m tbl d c : sProp 𝕄) := by
  unfold coreIn
  rw [bigSep_sep', bigSep_sep', ← at_cores (m (featLoc d)), ← at_cores (tbl d)]
  iintro ⟨Hf, Hi, Ho⟩
  isplitl [Hf]; · iexact Hf
  isplitl [Hi]; · iexact Hi
  iapply (out_tiles_some d f); iexact Ho

theorem cores_out (d : Dev nD) :
    (bigSep Finset.univ fun c : Fin 2 => coreOut m tbl d c : sProp 𝕄)
      = iprop(featAt m d fullShare ∗ idxAt tbl d fullShare ∗ outLoc d ↦{fullShare} gathered m tbl d) := by
  unfold coreOut
  rw [bigSep_sep', bigSep_sep', ← at_cores (m (featLoc d)), ← at_cores (tbl d), ← out_tiles]

variable [FloatOps F]

theorem vecSplit : (K (F := F)).VecSplit' (P m tbl) 0 := by
  intro d c
  unfold P; dsimp only
  generalize Fin.cast nCore_zero c = c'
  rw [bigSep_tasks (F := F) (fun i => tileIn m tbl d c' i), bigSep_tasks (F := F) (fun i => tileOut m tbl d c' i)]
  unfold coreIn coreOut tileIn tileOut
  rw [bigSep_sep', bigSep_sep', bigSep_sep', bigSep_sep', ← at_tiles (m (featLoc d)) c', ← at_tiles (tbl d) c']
  iintro H; imodintro
  isplitl [H]; · iexact H
  iintro H; iexact H

end Cert.KernelIdeal.Hand

end
-- ==== Proof.ScGhost.lean ====
import proofs.«207044_g16655883174581_fold_wed_m_811_16_alg».proof.Proof.ScDefs
import Idealize.ShloMosaic.Lib.SparseCore.Launch
import Idealize.ShloMosaic.Lib.Pipeline.Kit
import Idealize.ShloMosaic.Lib.Pipeline.Sound

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

variable (m : (ℓ : Loc nD τ sig) → Buf (Elt F) ℓ) (tbl : (d : Dev nD) → Buf (Elt F) (idxLoc d))

def u₀ : UU :=
  (initOf (K (F := F)).hsCells (K (F := F)).hsToks,
    (initOf (Pipeline.cells (nD := nD) (τ := τ) cfgs cellOf_inj) (Pipeline.launchToks (nD := nD) (τ := τ) cfgs cellOf_inj), 1))

variable [FloatOps F]

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks))
        ∗ (bigSep Finset.univ fun d : Dev nD => iprop(Pipeline.cellsGhost cfgs (EP (F := F)) 0 d ∗ Pipeline.toksInit cfgs (EP (F := F)) 0 d))
        ∗ bigSep Finset.univ fun thr : Thread nD τ => bigSep Finset.univ fun q : Fin 1 => (P m tbl).x q thr) := by
  unfold u₀
  have hfund := Pipeline.fund_ghost (nD := nD) (τ := τ) cfgs (EP (F := F)) cellOf_inj
  rw [bigSep_congr fun c _ => bigSep_univ_of_subsingleton (0 : Fin 1), bigSep_congr fun c _ => bigSep_univ_of_subsingleton (0 : Fin 1),
    ← bigSep_sep'] at hfund
  have hR : ∀ (b : UP) (c : Counters), (BI.own (embR (A := UH) (b, c)) : sProp 𝕄)
      ⊢ iprop(BI.own (EP (F := F) b) ∗ BI.own (((Emb.inr : Emb Counters (UP × Counters)).trans embR) c)) :=
    fun b c => own_pair_emb _ b c
  iintro Hu
  ihave H := (ownU_pair _ _) $$ Hu
  icases H with ⟨HH, HR⟩
  ihave H := (hR _ _) $$ HR
  icases H with ⟨HP, -⟩
  imod hfund $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

variable (res : (d : Dev nD) → Buf (Elt F) ((SparseCore.T d).loc main_v33))

def FIN (d : Dev nD) : sProp 𝕄 :=
  iprop(((SparseCore.T d).loc main_v33 ↦{fullShare} res d)
    ∗ ((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare} m ((SparseCore.T d).loc main_arg3))
    ∗ ((SparseCore.T d).loc main_arg4 ↦{fullShare} m ((SparseCore.T d).loc main_arg4))
    ∗ ((SparseCore.T d).loc main_arg5 ↦{fullShare} m ((SparseCore.T d).loc main_arg5))
    ∗ ((SparseCore.T d).loc main_arg6 ↦{fullShare} m ((SparseCore.T d).loc main_arg6))
    ∗ ((SparseCore.T d).loc main_arg7 ↦{fullShare} m ((SparseCore.T d).loc main_arg7))
    ∗ ((SparseCore.T d).loc main_arg8 ↦{fullShare} m ((SparseCore.T d).loc main_arg8))
    ∗ ((SparseCore.T d).loc main_arg9 ↦{fullShare} m ((SparseCore.T d).loc main_arg9))
    ∗ ((SparseCore.T d).loc main_arg10 ↦{fullShare} m ((SparseCore.T d).loc main_arg10))
    ∗ ((SparseCore.T d).loc main_arg11 ↦{fullShare} m ((SparseCore.T d).loc main_arg11)))

def fq (d : Dev nD) (s' : Phys nD τ sig (Elt F)) : Prop :=
  s'.mem.mem ((SparseCore.T d).loc main_v33) = res d
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)
    ∧ s'.mem.mem ((SparseCore.T d).loc main_arg5) = m ((SparseCore.T d).loc main_arg5)
    ∧ s'.mem.mem ((SparseCore.T d).loc main_arg6) = m ((SparseCore.T d).loc main_arg6)
    ∧ s'.mem.mem ((SparseCore.T d).loc main_arg7) = m ((SparseCore.T d).loc main_arg7)
    ∧ s'.mem.mem ((SparseCore.T d).loc main_arg8) = m ((SparseCore.T d).loc main_arg8)
    ∧ s'.mem.mem ((SparseCore.T d).loc main_arg9) = m ((SparseCore.T d).loc main_arg9)
    ∧ s'.mem.mem ((SparseCore.T d).loc main_arg10) = m ((SparseCore.T d).loc main_arg10)
    ∧ s'.mem.mem ((SparseCore.T d).loc main_arg11) = m ((SparseCore.T d).loc main_arg11)

theorem SI_whole_agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

-- One more buffer held whole fixes one more equation of the final memory.
theorem fin_step {s' : Phys nD τ sig (Elt F)} {ℓ : Loc nD τ sig} {f : Buf (Elt F) ℓ} {R : sProp 𝕄} {Q : Prop}
    (h : iprop(R ∗ SI s') ⊢ (⌜Q⌝ : sProp 𝕄)) :
    iprop(((ℓ ↦{fullShare} f) ∗ R) ∗ SI s') ⊢ (⌜s'.mem.mem ℓ = f ∧ Q⌝ : sProp 𝕄) := by
  iintro ⟨⟨Hp, HR⟩, HSI⟩
  ihave H := (SI_whole_agree s' _ _) $$ [HSI Hp]
  · isplitl [HSI] <;> iassumption
  icases H with ⟨%hr, HSI⟩
  ihave H := h $$ [HR HSI]
  · isplitl [HR] <;> iassumption
  icases H with %hq
  ipureintro; exact ⟨hr, hq⟩

theorem fin_base {s' : Phys nD τ sig (Elt F)} {ℓ : Loc nD τ sig} {f : Buf (Elt F) ℓ} :
    iprop((ℓ ↦{fullShare} f) ∗ SI s') ⊢ (⌜s'.mem.mem ℓ = f⌝ : sProp 𝕄) := by
  iintro ⟨Hp, HSI⟩
  ihave H := (SI_whole_agree s' _ _) $$ [HSI Hp]
  · isplitl [HSI] <;> iassumption
  icases H with ⟨%hr, -⟩
  ipureintro; exact hr

theorem hfin (d : Dev nD) (s' : Phys nD τ sig (Elt F)) : iprop(FIN m res d ∗ SI s') ⊢ (⌜fq m res d s'⌝ : sProp 𝕄) :=
  fin_step <| fin_step <| fin_step <| fin_step <| fin_step <| fin_step <| fin_step <| fin_step <| fin_step <| fin_step <| fin_step <|
    fin_step fin_base

end Cert.KernelIdeal.Hand

end
-- ==== Proof.ScMain.lean ====
import proofs.«207044_g16655883174581_fold_wed_m_811_16_alg».proof.Proof.Common
import proofs.«207044_g16655883174581_fold_wed_m_811_16_alg».proof.Proof.ScDefs
import proofs.«207044_g16655883174581_fold_wed_m_811_16_alg».proof.Proof.ScSplit
import proofs.«207044_g16655883174581_fold_wed_m_811_16_alg».proof.Proof.ScGhost
import proofs.«207044_g16655883174581_fold_wed_m_811_16_alg».proof.Proof.HostOps
import proofs.«207044_g16655883174581_fold_wed_m_811_16_alg».proof.Proof.HostVals
import proofs.«207044_g16655883174581_fold_wed_m_811_16_alg».proof.Proof.Vals
import proofs.«207044_g16655883174581_fold_wed_m_811_16_alg».proof.Proof.TcBody
import Idealize.ShloMosaic.Lib.SparseCore.Launch
import Idealize.ShloMosaic.Lib.StableHlo.Run
import Idealize.ShloMosaic.Lib.Pipeline.Frame
import Idealize.ShloMosaic.Lib.Pipeline.Regions
import Idealize.ShloMosaic.Lib.Pipeline.Kit

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)

variable {F : FTy → Type}

local notation "𝕄" => MM F

variable (m : (ℓ : Loc nD τ sig) → Buf (Elt F) ℓ) (ρ : Dev nD → PrngReg)

variable [FloatOps F]

abbrev SU : Finset (DevRef τ sig) := Pipeline.ucRefs τ sig

abbrev feat' : DevRef τ sig := Proc.devRef .tc (main_arg0 : Ref sig .tc)
abbrev idx' : DevRef τ sig := Proc.devRef .tc (main_v30 : Ref sig .tc)
abbrev out' : DevRef τ sig := Proc.devRef .tc (main_v31 : Ref sig .tc)

abbrev resLoc (d : Dev nD) : Loc nD τ sig := (SparseCore.T d).loc main_v33

def resOf (d : Dev nD) : Buf (Elt F) (resLoc d) := (dats (Vreg m) 0 d).arrAt 9 cfg1.N

theorem unscoped_held (d : Dev nD) :
    (unscopedBufs d (fun b => m ((SparseCore.T d).loc b)) : sProp 𝕄) = held (T d) SU (V0 m d) :=
  Pipeline.unscopedBufs_held d (V0 m d)

abbrev S3 : Finset (DevRef τ sig) := {feat', idx', out'}

theorem S3_sub : (S3 : Finset (DevRef τ sig)) ⊆ SU := by decide

omit [FloatOps F] in
theorem held_S3 (d : Dev nD) (W : Valuation τ sig (Elt F)) :
    (held (T d) S3 W : sProp 𝕄) = iprop((featLoc d ↦{fullShare} W feat') ∗ (idxLoc d ↦{fullShare} W idx') ∗ outLoc d ↦{fullShare} W out') := by
  unfold held S3
  rw [SparseCore.bigSep_insert' (by decide), SparseCore.bigSep_insert' (by decide), bigSep_singleton]

theorem VA_feat (d : Dev nD) : VA m d feat' = m (featLoc d) := after_arg0 (V0 m d)

-- A valuation equal to `VA` off the output: the whole set is the call's three arrays, the output at `o`, and the rest.
theorem held_call (d : Dev nD) (W : Valuation τ sig (Elt F)) (o : Buf (Elt F) (outLoc d)) (ho : W out' = o)
    (hW : ∀ b, b ≠ out' → W b = VA m d b) :
    (held (T d) SU W : sProp 𝕄)
      = iprop(((featLoc d ↦{fullShare} m (featLoc d)) ∗ (idxLoc d ↦{fullShare} tblOf m d) ∗ outLoc d ↦{fullShare} o) ∗ held (T d) (SU \ S3) (VA m d)) := by
  rw [held_sub_split (T d) S3_sub W, held_S3, ho, hW feat' (by decide), hW idx' (by decide), VA_feat,
    held_congr (T d) fun b hb => hW b fun e => (Finset.mem_sdiff.mp hb).2 (by rw [e]; simp [S3])]
  rfl

theorem st0_eq (tbl : (d : Dev nD) → Buf (Elt F) (idxLoc d)) (d : Dev nD) :
    (bigSep Finset.univ fun c : Fin ((K (F := F)).nCore 0) => (P m tbl).st 0 d c) = (bigSep Finset.univ fun c : Fin 2 => coreIn m tbl d c : sProp 𝕄) := rfl
theorem dn0_eq (tbl : (d : Dev nD) → Buf (Elt F) (idxLoc d)) (d : Dev nD) :
    (bigSep Finset.univ fun c : Fin ((K (F := F)).nCore 0) => (P m tbl).dn 0 d c) = (bigSep Finset.univ fun c : Fin 2 => coreOut m tbl d c : sProp 𝕄) := rfl

def mainOut (d : Dev nD) : sProp 𝕄 :=
  iprop((dats (Vreg m) 0 d).arrays ((dats (Vreg m) 0 d).arrAt · cfg1.N) ∗ Pipeline.unscopedRest spec1 d (Vreg m d))

abbrev adm : (p : Fin 1) → (pcfgs (F := F) p).Adm := fun p => (cfgs p).toPCfg_adm

omit [FloatOps F] in

theorem wbelow_any (thr : Thread nD τ) (W : Waits sig (HIx 1)) : (K (F := F)).WBelow thr W 8 := fun p _ => by
  rcases p with ⟨s, _ | q⟩
  · exact Nat.zero_le _
  · show (K (F := F)).lev (thr, s) (some q) ≤ 8
    have h := (K (F := F)).lev_some_le (thr, s) q
    have hq : q.val = 0 := by omega
    omega

abbrev R (c : Dev nD) : sProp 𝕄 := iprop(∃ W, owes (c : Thread nD τ) (0 : CellTallies nD τ sig (HIx 1)) W)
abbrev Rg (c : Dev nD) : sProp 𝕄 := iprop(∃ r, prngReg c r)

set_option backward.isDefEq.respectTransparency.types false in

def reg : Pipeline.RegionSeg (pcfgs (F := F)) adm (dats (Vreg m)) (none : HIx 1) defs₀ 𝒱₀ (K (F := F)).L (K (F := F)).lev 0 where
  win := launch1.win.to₀
  block_pos := launch1.block_pos
  stage_whole := launch1.stage_whole
  K := Fin 0
  osem := Fin.elim0
  ho := ⟨fun k => k.elim0, fun k => k.elim0, fun k => k.elim0⟩
  hbody c := (body_obligation (Vreg m) c none).loose
  hwaits := Pipeline.hwaits_of_owed_zero _ _ _ _ _ _ 0 fun _ _ => rfl
  pre c := iprop(held (c : Thread nD τ) SU (VC m c) ∗ R c ∗ Rg c)
  post c := iprop(mainOut m c ∗ R c ∗ Rg c)
  X c := Rg c
  Y c := Rg c
  Z c := Pipeline.unscopedRest spec1 c (Vreg m c)
  hentry c := by
    rw [show held (c : Thread nD τ) SU (VC m c) = unscopedBufs c (Vreg m c) from (Pipeline.unscopedBufs_held c (VC m c)).symm]
    have hsplit := Pipeline.arrays_of_unscopedBufs (pcfgs (F := F)) adm (dats (Vreg m)) launch1.win launch1.arr_whole c
      ((dats (Vreg m) 0 c).share_full fun _ => rfl) (Vreg m c) fun w => A_eq (Vreg m) c w
    iintro ⟨⟨Hub, HO, Hg⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    rw [show (dats (Vreg m) 0 c).Φ 0 = ΦTc c from rfl]; unfold ΦTc
    iintro ⟨Hg, -, Hr⟩
    isplitl [Hr] <;> iassumption
  hout c := by
    rw [show (dats (Vreg m) 0 c).Φ (Fin.last cfg1.N) = ΦTc c from rfl]; unfold ΦTc Pipeline.ownSems0
    rw [show (Finset.univ : Finset (Fin 0)) = ∅ from rfl, BI.bigSep_empty]
    iintro ⟨Hr, Hg⟩
    isplitl [Hg]; · iexact Hg
    isplitr; · iempintro
    iexact Hr
  hexit c := by
    unfold mainOut
    iintro ⟨Ha, HO, HY, HZ⟩
    imodintro
    isplitl [Ha HZ]
    · isplitl [Ha] <;> iassumption
    isplitl [HO]
    · unfold Pipeline.Dat.owesAt Pipeline.owesWithin
      icases HO with ⟨%W, -, HO⟩; iexists W; iexact HO
    iexact HY

omit [FloatOps F] in

theorem tcSt_split (d : Dev nD) :
    ((K (F := F)).tcSt EH d 1 : sProp 𝕄) ⊢ iprop(R d ∗ (R d -∗ (K (F := F)).tcSt EH d 1)) := by
  unfold SparseCore.Cfg.tcSt
  rw [(K (F := F)).Otc_end d le_rfl]
  iintro ⟨⟨%W, -, HO⟩, Hrest⟩
  isplitl [HO]; · iexists W; iexact HO
  iintro ⟨%W', HO⟩
  isplitl [HO]
  · iexists W'; isplitr; · ipureintro; exact wbelow_any _ _
    iexact HO
  iexact Hrest

set_option backward.isDefEq.respectTransparency.types false in
theorem hmain_out (κ : GSem nD τ sig → ℕ) (d : Dev nD) :
    iprop((K (F := F)).ctx EH (P m (tblOf m)) κ ∗ (K (F := F)).tcSt EH d 0 ∗ (K (F := F)).tcRes m ρ d
        ∗ iprop(Pipeline.cellsGhost cfgs (EP (F := F)) 0 d ∗ Pipeline.toksInit cfgs (EP (F := F)) 0 d))
      ⊢ wp frame (wpE ((K (F := F)).defs (D (F := F))) 𝒱 (SparseCore.T d) none) Set.univ (main d)
          fun _ => iprop((K (F := F)).tcSt EH d 1 ∗ mainOut m d) := by
  unfold SparseCore.Cfg.tcRes
  rw [unscoped_held, main_eq]
  iintro ⟨#Hctx, Hst, ⟨Hb, Hheld, -, Hprng⟩, Hg⟩

  iapply (StableHlo.wp_seq 𝒱 none Set.univ d SU _ hostOpsA (fun op h => Pipeline.sub_ucRefs op (List.forall_iff_forall_mem.mp hostOpsA_sub op h)) (List.forall_iff_forall_mem.mp hostOpsA_fresh) (V0 m d)) $$ [Hb Hheld]
  · isplitl [Hb] <;> iassumption
  iintro ⟨Hb, Hheld⟩

  ihave Hh := (Entails.of_eq (held_call m d (StableHlo.after hostOpsA (V0 m d)) (VA m d out') rfl fun _ _ => rfl)) $$ Hheld
  icases Hh with ⟨⟨Hf, Hi, Ho⟩, Hrest⟩
  rw [wp_bind]
  iapply ((K (F := F)).wp_run (D (F := F)) 𝒱 (EH := EH) (P := P m (tblOf m)) κ d 0) $$ [Hst Hf Hi Ho Hb Hrest Hprng Hg]
  isplitr; · iexact Hctx
  isplitl [Hst]; · iexact Hst
  isplitl [Hf Hi Ho]
  · rw [st0_eq]
    iapply (cores_in m (tblOf m) d (VA m d out'))
    isplitl [Hf]; · iexact Hf
    isplitl [Hi] <;> iassumption
  iintro ⟨Hst, Hdn⟩
  ihave Hdn' := (Entails.of_eq ((dn0_eq m (tblOf m) d).trans (cores_out m (tblOf m) d))) $$ Hdn
  icases Hdn' with ⟨Hf, Hi, Ho⟩

  iapply (StableHlo.wp_seq 𝒱 none Set.univ d SU _ hostOpsB (fun op h => Pipeline.sub_ucRefs op (List.forall_iff_forall_mem.mp hostOpsB_sub op h)) (List.forall_iff_forall_mem.mp hostOpsB_fresh) (VB m d)) $$ [Hb Hf Hi Ho Hrest]
  · isplitl [Hb]; · iexact Hb
    iapply (Entails.of_eq (held_call m d (VB m d) _ (Function.update_self _ _ _) fun _ h => Function.update_of_ne h _ _).symm)
    isplitr [Hrest]
    · isplitl [Hf]; · iexact Hf
      isplitl [Hi] <;> iassumption
    · iexact Hrest
  iintro ⟨Hb, Hheld⟩

  ihave Hs := (show ((K (F := F)).tcSt EH d ((0 : Fin 1).val + 1) : sProp 𝕄) ⊢ iprop(R d ∗ (R d -∗ (K (F := F)).tcSt EH d 1)) from tcSt_split (F := F) d) $$ Hst
  icases Hs with ⟨HO, Hback⟩
  ihave Hlev := (SparseCore.Cfg.ctx_levAts κ) $$ Hctx
  rw [show (Prog.lift (.customCall (SparseCore.inner (Pipeline.entry 0)) ()) >>= fun _ => pure ⟨⟩ :
        Prog (TpuEff nD τ sig (Elt F) (SparseCore.Sig (ΛP (F := F)) 1) .tc) PUnit)
      = SparseCore.liftProg (.op (.customCall (Pipeline.entry 0) ()) fun _ => .ret ⟨⟩) from rfl]
  iapply ((K (F := F)).wp_liftProg (D (F := F)) 𝒱 (SparseCore.T d) Set.univ none _ _)
  iapply (Pipeline.RegionSeg.wp (pcfgs (F := F)) adm (dats (Vreg m)) (none : HIx 1) cellOf_inj EP defs₀ 𝒱₀ (K (F := F)).L (K (F := F)).lev
      (reg m) d none (fun _ h => nomatch h) (fun _ => .ret ⟨⟩) _)
  isplitr [Hb Hheld HO Hprng Hlev Hg]
  · iintro ⟨Hb, Hpost⟩
    rw [wp_ret]
    imodintro
    ihave Hp := (show (reg m).post d ⊢ iprop(mainOut m d ∗ R d ∗ Rg d) from .rfl) $$ Hpost
    icases Hp with ⟨Hout, HO, -⟩
    isplitl [HO Hback]; · iapply Hback; iexact HO
    iexact Hout
  isplitl [Hb]; · iexact Hb
  isplitl [Hheld HO Hprng]
  · iapply (show iprop(held (SparseCore.T d) SU (VC m d) ∗ R d ∗ Rg d) ⊢ (reg m).pre d from .rfl)
    isplitl [Hheld]; · iexact Hheld
    isplitl [HO]; · iexact HO
    iexists _; iexact Hprng
  isplitl [Hlev]; · iexact Hlev
  iexact Hg

theorem VC_of_ne (d : Dev nD) {r : Ref sig .tc} (h : r ≠ main_v32) : VC m d (Proc.devRef .tc r) = VB m d (Proc.devRef .tc r) :=
  StableHlo.reshape_result_ne main_v31 main_v32 rfl shapeCasts_S163840x128_S16x10240x128 _ _ (VB m d) h
theorem VB_of_ne (d : Dev nD) {r : Ref sig .tc} (h : r ≠ main_v31) : VB m d (Proc.devRef .tc r) = VA m d (Proc.devRef .tc r) :=
  Function.update_of_ne (StableHlo.devRef_ne_of_ne h) _ _

theorem Vreg_of_untouched (d : Dev nD) {r : Ref sig .tc} (h32 : r ≠ main_v32) (h31 : r ≠ main_v31) (hw : r ∉ writtenA) :
    Vreg m d r = m ((SparseCore.T d).loc r) := by
  show VC m d (Proc.devRef .tc r) = _
  rw [VC_of_ne m d h32, VB_of_ne m d h31]
  exact after_of_not_written (V0 m d) hw

abbrev args11 : Finset (Ref sig .tc) :=
  {main_arg1, main_arg2, main_arg3, main_arg4, main_arg5, main_arg6, main_arg7, main_arg8, main_arg9, main_arg10, main_arg11}

theorem args11_sub : args11 ⊆ (Finset.univ.filter fun b : Ref sig .tc => ¬ b.isScoped) \ Finset.univ.image (Pipeline.arrRef spec1) := by
  decide

theorem args11_untouched : ∀ b ∈ args11, b ≠ main_v32 ∧ b ≠ main_v31 ∧ b ∉ writtenA := by decide

-- None of the eleven is written before the region and none is one of its windows' arrays, so each still holds its launch contents.
theorem rest_args (d : Dev nD) :
    (Pipeline.unscopedRest spec1 d (Vreg m d) : sProp 𝕄)
      ⊢ bigSep args11 fun b : Ref sig .tc => ((SparseCore.T d).loc b ↦{fullShare} m ((SparseCore.T d).loc b)) := by
  refine (bigSep_subset args11_sub).trans (Entails.of_eq (bigSep_congr fun b hb => ?_))
  obtain ⟨h32, h31, hw⟩ := args11_untouched b hb
  rw [Vreg_of_untouched m d h32 h31 hw]

theorem arrays_out (d : Dev nD) :
    ((dats (Vreg m) 0 d).arrays ((dats (Vreg m) 0 d).arrAt · cfg1.N) : sProp 𝕄)
      ⊢ iprop((resLoc d ↦{fullShare} resOf m d) ∗ (featLoc d ↦{fullShare} m (featLoc d))) := by
  have e : (dats (Vreg m) 0 d).arrAt 1 cfg1.N = m (featLoc d) :=
    ((dats (Vreg m) 0 d).arrAt_in 1 rfl _).trans ((A_eq (Vreg m) d 1).trans (Vreg_of_untouched m d (r := main_arg0) (by decide) (by decide) (by decide)))
  rw [Pipeline.arrays_eq cfgs (dats (Vreg m)) 0 d launch1.arr_whole ((dats (Vreg m) 0 d).share_full fun _ => rfl), bigSep_W1]
  iintro ⟨-, H1, -, -, -, -, -, -, -, H9⟩
  isplitl [H9]; · iexact H9
  ihave H1' := (Entails.of_eq (congrArg (fun f => (featLoc d ↦{fullShare} f : sProp 𝕄)) e)) $$ H1
  iexact H1'

theorem mainOut_fin (d : Dev nD) : (mainOut m d : sProp 𝕄) ⊢ FIN m (resOf m) d := by
  unfold mainOut FIN
  refine (BIClass.sep_mono (arrays_out m d) (rest_args m d)).trans ?_
  repeat rw [SparseCore.bigSep_insert' (by decide)]
  rw [bigSep_singleton]
  iintro ⟨⟨H9, H0⟩, Hr⟩
  isplitl [H9]; · iexact H9
  isplitl [H0]; · iexact H0
  iexact Hr

theorem hmain (κ : GSem nD τ sig → ℕ) (d : Dev nD) :
    iprop((K (F := F)).ctx EH (P m (tblOf m)) κ ∗ (K (F := F)).tcSt EH d 0 ∗ (K (F := F)).tcRes m ρ d
        ∗ iprop(Pipeline.cellsGhost cfgs (EP (F := F)) 0 d ∗ Pipeline.toksInit cfgs (EP (F := F)) 0 d))
      ⊢ wp frame (wpE ((K (F := F)).defs (D (F := F))) 𝒱 (SparseCore.T d) none) Set.univ (main d)
          fun _ => iprop((K (F := F)).tcSt EH d 1 ∗ FIN m (resOf m) d) :=
  (hmain_out m ρ κ d).trans (wp_mono frame _ Set.univ fun _ => sep_mono .rfl (mainOut_fin m d))

end Cert.KernelIdeal.Hand

end
-- ==== Proof.ScTileDefs.lean ====
import proofs.«207044_g16655883174581_fold_wed_m_811_16_alg».proof.Proof.ScDefs
import proofs.«207044_g16655883174581_fold_wed_m_811_16_alg».proof.Proof.Gen.KernelIdeal.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

abbrev fW : Memref sig Kind.scVector Space.hbm S10000x128 EltTy.f32 := Memref.whole main_arg0_scv
abbrev iW : Memref sig Kind.scVector Space.hbm S1320x128 EltTy.i32 := Memref.whole main_v30_scv
abbrev oW : Memref sig Kind.scVector Space.hbm S163840x128 EltTy.f32 := Memref.whole main_v31_scv
abbrev sI : Memref sig Kind.scVector Space.vmem S40x128 EltTy.i32 := Memref.whole cc0_scratch0
abbrev b0 : Memref sig Kind.scVector Space.vmem S128x128 EltTy.f32 := Memref.whole cc0_scratch1
abbrev b1 : Memref sig Kind.scVector Space.vmem S128x128 EltTy.f32 := Memref.whole cc0_scratch2
abbrev b2 : Memref sig Kind.scVector Space.vmem S128x128 EltTy.f32 := Memref.whole cc0_scratch3
abbrev b3 : Memref sig Kind.scVector Space.vmem S128x128 EltTy.f32 := Memref.whole cc0_scratch4
abbrev b4 : Memref sig Kind.scVector Space.vmem S128x128 EltTy.f32 := Memref.whole cc0_scratch5

variable {F : FTy → Type}

local notation "𝕄" => MM F

variable (m : (ℓ : Loc nD τ sig) → Buf (Elt F) ℓ) (tbl : (d : Dev nD) → Buf (Elt F) (idxLoc d))

variable [FloatOps F]

section Task

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

abbrev thr : Thread nD τ := V d (cV L) (jV L)

abbrev chunk0 (L : grid0.Coords) : Nat := if (L 0).val = 0 then 40 * (L 1).val else 40 * (L 1).val + 640

omit [FloatOps F] in
theorem chunk0_le (L : grid0.Coords) : chunk0 L + 40 ≤ 1280 := by
  have h0 : (L 0).val < 2 := (L 0).isLt
  have h1 : (L 1).val < 16 := (L 1).isLt
  unfold chunk0; split <;> omega

omit [FloatOps F] in
theorem tileK_inb (L : grid0.Coords) : ∀ a, (![128 * chunk0 L, 0] : Fin 2 → Nat) a + (![5120, 128] : Fin 2 → Nat) a ≤ S163840x128.size a := by
  have h := chunk0_le L
  intro a; match a with
  | ⟨0, _⟩ => show 128 * chunk0 L + 5120 ≤ 163840; omega
  | ⟨1, _⟩ => show 0 + 128 ≤ 128; omega

abbrev tileK (L : grid0.Coords) : Rect S163840x128 := Rect.unit (s := S163840x128) ![128 * chunk0 L, 0] ![5120, 128] (tileK_inb L)
abbrev oTile (L : grid0.Coords) : Memref sig .scVector .hbm (⟨2, ![5120, 128]⟩ : Shape) .f32 := (oW).slice (tileK L) (fun _ => rfl)

omit [FloatOps F] in
theorem rowInb (j : Nat) (hj : j < 40) : ∀ a, (![j, 0] : Fin 2 → Nat) a + S1x128.size a ≤ S40x128.size a := by
  intro a; match a with
  | ⟨0, _⟩ => show j + 1 ≤ 40; omega
  | ⟨1, _⟩ => show 0 + 128 ≤ 128; omega

abbrev rowM (j : Nat) (hj : j < 40) : Memref sig .scVector .vmem S128 .i32 :=
  ((sI).slice (Rect.unit (s := S40x128) ![j, 0] S1x128.size (rowInb j hj)) (fun _ => rfl)).squeeze S128 squeezes_S1x128_S128

abbrev fAll : Memref sig .scVector .hbm S10000x128 .f32 :=
  (fW).slice (Rect.unit (s := S10000x128) ![0, 0] S10000x128.size inb_S10000x128_S10000x128_0_0) (fun _ => rfl)

def RowsAre (cI : Buf (Elt F) ((thr d L).loc cc0_scratch0)) (j : Nat) (hj : j < 40) (fd : S128x128.Idx → Elt F .f32) : Prop :=
  ∀ y : S128x128.Idx, fd y = m (featLoc d) (ValueIdx.ix2
    (⟨(cI (ValueIdx.ix2 (⟨j, hj⟩ : Fin 40) (⟨(y 0).val, (y 0).isLt⟩ : Fin 128))).toNat % 10000, Nat.mod_lt _ (by decide)⟩ : Fin 10000)
    (⟨(y 1).val, (y 1).isLt⟩ : Fin 128))

abbrev flightD (b : Memref sig .scVector .vmem S128x128 .f32) (fd : Buf (Elt F) (b.view.loc (thr d L)))
    (cI : Buf (Elt F) ((thr d L).loc cc0_scratch0)) (j : Nat) (hj : j < 40) (q : PosShare TreeShare) : sProp 𝕄 :=
  iprop((((b).view.loc (thr d L) ↦[(b).view.set]{fullShare} fd)
      ∗ (sI).view.loc (thr d L) ↦[(rowM j hj).view.set]{fullShare} cI)
    ∗ (fW).view.loc (thr d L) ↦[(fAll).view.set]{q} m (featLoc d))

def slot (b : Memref sig .scVector .vmem S128x128 .f32) (g : DmaSem sig) (i : Fin 5)
    (cI : Buf (Elt F) ((thr d L).loc cc0_scratch0)) (j : Nat) (hj : j < 40) : sProp 𝕄 :=
  iprop(∃ fd : Buf (Elt F) (b.view.loc (thr d L)), ⌜RowsAre m d L cI j hj (b.view.read (Elt F) fd)⌝
    ∗ Transfers.Flight countersEmb (thr d L) (.dma g) (default : HIx 1) 524288
        (flightD m d L b fd cI j hj (Transfers.shareTok (tileShare (cL L) (jL L)) 5 i))
    ∗ ((fW).view.loc (thr d L) ↦[Finset.univ \ (fAll).view.set]{Transfers.shareTok (tileShare (cL L) (jL L)) 5 i} m (featLoc d))
    ∗ ∃ f, (b).view.loc (thr d L) ↦[Finset.univ \ (b).view.set]{fullShare} f)

def DoneUpTo (tbl : (d : Dev nD) → Buf (Elt F) (idxLoc d)) (n : Nat) (fo : Buf (Elt F) (outLoc d)) : Prop :=
  ∀ y : S163840x128.Idx, 128 * chunk0 L ≤ (y 0).val → (y 0).val < 128 * (chunk0 L + n) → fo y = gathered m tbl d y

omit [FloatOps F] in
theorem row_lt (k r : Nat) (hk : k ≤ 7) (hr : r < 5) : 5 * k + r < 40 := by omega

abbrev rowSet (j : Nat) (hj : j < 40) : Finset (Idx ((sI).view.loc (thr d L))) := (rowM j hj).view.set

abbrev restRows (k : Nat) (hk : k ≤ 7) : Finset (Idx ((sI).view.loc (thr d L))) :=
  ((((Finset.univ \ rowSet d L (5 * k) (row_lt k 0 hk (by decide))) \ rowSet d L (5 * k + 1) (row_lt k 1 hk (by decide)))
      \ rowSet d L (5 * k + 2) (row_lt k 2 hk (by decide))) \ rowSet d L (5 * k + 3) (row_lt k 3 hk (by decide)))
    \ rowSet d L (5 * k + 4) (row_lt k 4 hk (by decide))

def InvOK (tbl : (d : Dev nD) → Buf (Elt F) (idxLoc d)) (O : CellTallies nD τ sig (HIx 1)) (W : Waits sig (HIx 1))
    (cI : Buf (Elt F) ((thr d L).loc cc0_scratch0)) (k : Nat) (hk : k ≤ 7) : sProp 𝕄 :=
  iprop(Transfers.MayWaits (thr d L) (default : HIx 1) O
    ∗ slot m d L b0 cc0_scratch6.sem 0 cI (5 * k) (row_lt k 0 hk (by decide))
    ∗ slot m d L b1 cc0_scratch7.sem 1 cI (5 * k + 1) (row_lt k 1 hk (by decide))
    ∗ slot m d L b2 cc0_scratch8.sem 2 cI (5 * k + 2) (row_lt k 2 hk (by decide))
    ∗ slot m d L b3 cc0_scratch9.sem 3 cI (5 * k + 3) (row_lt k 3 hk (by decide))
    ∗ slot m d L b4 cc0_scratch10.sem 4 cI (5 * k + 4) (row_lt k 4 hk (by decide))
    ∗ ((sI).view.loc (thr d L) ↦[restRows d L k hk]{fullShare} cI)
    ∗ (∃ fo, ((oTile L).view.loc (thr d L) ↦[(oTile L).view.set]{fullShare} fo) ∗ ⌜DoneUpTo m d L tbl (5 * k) fo⌝)
    ∗ semVal (thr d L, .dma cc0_scratch11.sem) 0 ∗ semVal (thr d L, .dma cc0_scratch12.sem) 0 ∗ semVal (thr d L, .dma cc0_scratch13.sem) 0
    ∗ semVal (thr d L, .dma cc0_scratch14.sem) 0 ∗ semVal (thr d L, .dma cc0_scratch15.sem) 0
    ∗ ∃ W', ⌜∀ p ∈ W', p ∈ W ∨ p.2 = none⌝ ∗ owes (thr d L) O W')

def Inv (tbl : (d : Dev nD) → Buf (Elt F) (idxLoc d)) (O : CellTallies nD τ sig (HIx 1)) (W : Waits sig (HIx 1))
    (cI : Buf (Elt F) ((thr d L).loc cc0_scratch0)) (k : Nat) (_ : PUnit) : sProp 𝕄 :=
  if hk : k ≤ 7 then InvOK m d L tbl O W cI k hk else iprop(False)

end Task

end Cert.KernelIdeal.Hand

end
-- ==== Proof.ScTileSets.lean ====
import proofs.«207044_g16655883174581_fold_wed_m_811_16_alg».proof.Proof.ScTileDefs

noncomputable section

namespace Cert.KernelIdeal.Hand

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.Sem

variable {F : FTy → Type}

local notation "𝕄" => MM F

variable (m : (ℓ : Loc nD τ sig) → Buf (Elt F) ℓ) (tbl : (d : Dev nD) → Buf (Elt F) (idxLoc d))

variable [FloatOps F]

section Sets

variable (d : Dev nD) (L : grid0.Coords)

theorem chunk0_eq (L : grid0.Coords) : chunk0 L = 40 * (tileNo (cL L) (jL L)).val := by
  have h0 : (L 0).val < 2 := (L 0).isLt
  show chunk0 L = 40 * (16 * (L 0).val + (L 1).val)
  unfold chunk0
  split <;> omega

theorem mem_oTile (y : S163840x128.Idx) :
    y ∈ (oTile L).view.set ↔ 128 * chunk0 L ≤ (y 0).val ∧ (y 0).val < 128 * (chunk0 L + 40) := by
  show y ∈ ((View.whole main_v31_scv).slice (tileK L)).set ↔ _
  rw [View.set_slice_whole, Rect.mem_set_unit]
  constructor
  · intro h
    have h0 := h 0
    change 128 * chunk0 L ≤ (y 0).val ∧ (y 0).val < 128 * chunk0 L + 5120 at h0
    omega
  · intro h a
    match a with
    | ⟨0, _⟩ => show 128 * chunk0 L ≤ (y 0).val ∧ (y 0).val < 128 * chunk0 L + 5120; omega
    | ⟨1, _⟩ => show 0 ≤ (y 1).val ∧ (y 1).val < 0 + 128; exact ⟨Nat.zero_le _, by have h1 : (y 1).val < 128 := (y 1).isLt; omega⟩

theorem mem_tileSet (c : Fin 2) (i : Fin 16) (y : S163840x128.Idx) :
    y ∈ tileSet c i ↔ 5120 * (tileNo c i).val ≤ (y 0).val ∧ (y 0).val < 5120 * (tileNo c i).val + 5120 := by
  show y ∈ (Rect.unit (s := S163840x128) _ _ _).set ↔ _
  rw [Rect.mem_set_unit]
  constructor
  · intro h
    have h0 := h 0
    change (tileNo c i).val * 5120 ≤ (y 0).val ∧ (y 0).val < (tileNo c i).val * 5120 + 5120 at h0
    omega
  · intro h a
    match a with
    | ⟨0, _⟩ => show (tileNo c i).val * 5120 ≤ (y 0).val ∧ (y 0).val < (tileNo c i).val * 5120 + 5120; omega
    | ⟨1, _⟩ => show 0 * 128 ≤ (y 1).val ∧ (y 1).val < 0 * 128 + 128; exact ⟨by omega, by have h1 : (y 1).val < 128 := (y 1).isLt; omega⟩

theorem oTile_set : (oTile L).view.set = tileSet (cL L) (jL L) := by
  ext y
  rw [mem_oTile, mem_tileSet, chunk0_eq]
  omega

theorem out_spelt_tile (fo : Buf (Elt F) (outLoc d)) :
    (outLoc d ↦[tileSet (cL L) (jL L)]{fullShare} fo : sProp 𝕄)
      = (oTile L).view.loc (thr d L) ↦[(oTile L).view.set]{fullShare} fo := by
  rw [oTile_set]

theorem done_all_tile (fo : Buf (Elt F) (outLoc d)) (h : DoneUpTo m d L tbl 40 fo) :
    ((oTile L).view.loc (thr d L) ↦[(oTile L).view.set]{fullShare} fo : sProp 𝕄)
      = (oTile L).view.loc (thr d L) ↦[(oTile L).view.set]{fullShare} gathered m tbl d :=
  pointsTo_congr fun y hy => h y ((mem_oTile L y).1 hy).1 ((mem_oTile L y).1 hy).2

theorem mem_rowSet (j : Nat) (hj : j < 40) (y : S40x128.Idx) : y ∈ rowSet d L j hj ↔ (y 0).val = j := by
  show y ∈ (((View.whole cc0_scratch0).slice (Rect.unit (s := S40x128) ![j, 0] S1x128.size (rowInb j hj))).reshape S128 squeezes_S1x128_S128.numel_eq).set ↔ _
  rw [View.set_reshape, View.set_slice_whole, Rect.mem_set_unit]
  constructor
  · intro h
    have h0 := h 0
    change j ≤ (y 0).val ∧ (y 0).val < j + 1 at h0
    omega
  · intro h a
    match a with
    | ⟨0, _⟩ => show j ≤ (y 0).val ∧ (y 0).val < j + 1; omega
    | ⟨1, _⟩ => show 0 ≤ (y 1).val ∧ (y 1).val < 0 + 128; exact ⟨Nat.zero_le _, by have h1 : (y 1).val < 128 := (y 1).isLt; omega⟩

theorem rows_disjoint {j j' : Nat} (hj : j < 40) (hj' : j' < 40) (hne : j ≠ j') :
    Disjoint (rowSet d L j hj) (rowSet d L j' hj') :=
  Finset.disjoint_left.2 fun y h1 h2 => hne (((mem_rowSet d L j hj y).1 h1).symm.trans ((mem_rowSet d L j' hj' y).1 h2))

theorem rowSet_congr {j j' : Nat} (e : j = j') (hj : j < 40) (hj' : j' < 40) : rowSet d L j hj = rowSet d L j' hj' := by
  subst e; rfl

theorem fetched_apply (j : Fin 40) (l : Fin 128) :
    ((iW).slice (Rect.unit (s := S1320x128) (k0_off1 L) S40x128.size (k0_off1_inb L)) (fun _ => rfl)).view.read (Elt F) (tbl d)
        (ValueIdx.ix2 j l)
      = tbl d (ValueIdx.ix2 (⟨chunk0 L + j.val, by have := chunk0_le L; omega⟩ : Fin 1320) l) := by
  rw [View.read_apply, cast_eq]
  refine congrArg (tbl d) (funext fun a => Fin.ext ?_)
  match a with
  | ⟨0, _⟩ =>
    show k0_off1 L 0 + 1 * j.val = chunk0 L + j.val
    rw [k0_off1_eq]
    show (if (L 0).val = 0 then 40 * (L 1).val else 40 * (L 1).val + 640) + 1 * j.val = chunk0 L + j.val
    unfold chunk0
    omega
  | ⟨1, _⟩ =>
    show k0_off1 L 1 + 1 * l.val = l.val
    rw [k0_off1_eq]
    show 0 + 1 * l.val = l.val
    omega

end Sets

end Cert.KernelIdeal.Hand

end
-- ==== Proof.ScTileVals.lean ====
import proofs.«207044_g16655883174581_fold_wed_m_811_16_alg».proof.Proof.ScTileDefs
import Idealize.ShloMosaic.Lib.SparseCore.Stream

noncomputable section

namespace Cert.KernelIdeal.Hand

open Cert.KernelIdeal Cert.KernelIdeal.Gen

open Idealize.ShloMosaic
open Idealize.ShloMosaic.SparseCore (S V T)
open Idealize.ShloMosaic.ValueIdx
open Idealize.SL Idealize.SL.Sem

variable {F : FTy → Type}

variable (m : (ℓ : Loc nD τ sig) → Buf (Elt F) ℓ)

section Vals

variable (d : Dev nD) (L : grid0.Coords)

theorem S128_numel : S128.numel = 128 := Shape.numel_rank1 _

theorem rowMajor_symm_S128 (k : Fin S128.numel) :
    S128.rowMajor.symm k = ix1 (⟨k.val, lt_of_lt_of_eq k.isLt S128_numel⟩ : Fin 128) := by
  rw [Equiv.symm_apply_eq]
  refine Fin.ext ?_
  show k.val = (S128.rowMajor (ix1 (⟨k.val, lt_of_lt_of_eq k.isLt S128_numel⟩ : Fin 128))).val
  rw [Shape.rowMajor_val_one]

theorem rowM_read (cI : Buf (Elt F) ((thr d L).loc cc0_scratch0)) (j : Nat) (hj : j < 40) (l : Fin 128) :
    (rowM j hj).view.read (Elt F) cI (ix1 l) = cI (ix2 (⟨j, hj⟩ : Fin 40) l) := by
  rw [View.read_apply]
  refine (cast_eq _ _).trans (congrArg cI (funext fun a => Fin.ext ?_))
  have hre : Shape.reshapeEquiv (squeezes_S1x128_S128 : S1x128.Squeezes S128).numel_eq (ix1 l) = ix2 (0 : Fin 1) l :=
    Shape.reshapeEquiv_eq_of_rowMajor _ (by
      rw [Shape.rowMajor_val_two, Shape.rowMajor_val_one]
      show 0 * 128 + l.val = l.val
      omega)
  match a with
  | ⟨0, _⟩ =>
    show j + 1 * ((Shape.reshapeEquiv (squeezes_S1x128_S128 : S1x128.Squeezes S128).numel_eq (ix1 l)) 0).val = j
    rw [hre]; rfl
  | ⟨1, _⟩ =>
    show 0 + 1 * ((Shape.reshapeEquiv (squeezes_S1x128_S128 : S1x128.Squeezes S128).numel_eq (ix1 l)) 1).val = l.val
    rw [hre]; show 0 + 1 * l.val = l.val; omega

theorem fAll_read (i : S10000x128.Idx) : (fAll).view.read (Elt F) (m (featLoc d)) i = m (featLoc d) i := by
  rw [View.read_apply]
  refine (cast_eq _ _).trans (congrArg (m (featLoc d)) (funext fun a => Fin.ext ?_))
  match a with
  | ⟨0, _⟩ => show 0 + 1 * (i 0).val = (i 0).val; omega
  | ⟨1, _⟩ => show 0 + 1 * (i 1).val = (i 1).val; omega

theorem rowsAre_writes (b : Memref sig .scVector .vmem S128x128 .f32) (fprev : Buf (Elt F) (b.view.loc (thr d L)))
    (cI : Buf (Elt F) ((thr d L).loc cc0_scratch0)) (j : Nat) (hj : j < 40)
    (hin' : ∀ x, ((rowM j hj).view.read (Elt F) cI x).toNat < S10000x128.size gathers_S10000x128_S128x128.axis) :
    RowsAre m d L cI j hj (b.view.read (Elt F) (b.view.writes (Elt F) fprev
      [⟨Rect.whole S128x128, SparseCore.gatherPayload gathers_S10000x128_S128x128 ((fAll).view.read (Elt F) (m (featLoc d)))
        (SparseCore.rows ((rowM j hj).view.read (Elt F) cI) rfl hin')⟩])) := by
  intro y
  refine ((congrArg _ (Rect.emb_whole_apply S128x128 y).symm).trans
    (View.read_writes_cons_emb b.view fprev (Rect.whole S128x128) _ [] y)).trans ?_
  unfold SparseCore.gatherPayload
  rw [fAll_read]
  refine congrArg (m (featLoc d)) (funext fun a => Fin.ext ?_)
  match a with
  | ⟨0, _⟩ =>
    show ((rowM j hj).view.read (Elt F) cI (S128.rowMajor.symm (Fin.cast _ (y gathers_S10000x128_S128x128.axis')))).toNat
      = (cI (ix2 (⟨j, hj⟩ : Fin 40) (⟨(y 0).val, (y 0).isLt⟩ : Fin 128))).toNat % 10000
    have hlt := hin' (ix1 (⟨(y 0).val, (y 0).isLt⟩ : Fin 128))
    rw [rowM_read] at hlt
    rw [rowMajor_symm_S128, rowM_read]
    exact (Nat.mod_eq_of_lt hlt).symm
  | ⟨1, _⟩ => rfl

end Vals

end Cert.KernelIdeal.Hand

end
-- ==== Proof.ScTileWins.lean ====
import proofs.«207044_g16655883174581_fold_wed_m_811_16_alg».proof.Proof.ScTileSets

noncomputable section

namespace Cert.KernelIdeal.Hand

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.Sem

variable {F : FTy → Type}

local notation "𝕄" => MM F

variable (m : (ℓ : Loc nD τ sig) → Buf (Elt F) ℓ) (tbl : (d : Dev nD) → Buf (Elt F) (idxLoc d))

variable [FloatOps F]

section Windows

variable (d : Dev nD) (L : grid0.Coords)

abbrev wP (k : Fin (k0_t1_loop L).trips) (j : BitVec 32) (h : ∀ a, k0_off3 L k j a + S128x128.size a ≤ S163840x128.size a) :
    Memref sig .scVector .hbm S128x128 .f32 :=
  (oW).slice (Rect.unit (s := S163840x128) (k0_off3 L k j) S128x128.size h) (fun _ => rfl)
abbrev wE (j : BitVec 32) (h : ∀ a, k0_off9 L j a + S128x128.size a ≤ S163840x128.size a) : Memref sig .scVector .hbm S128x128 .f32 :=
  (oW).slice (Rect.unit (s := S163840x128) (k0_off9 L j) S128x128.size h) (fun _ => rfl)
abbrev rP (k : Fin (k0_t1_loop L).trips) (j : BitVec 32) (h : ∀ a, k0_off4 L k j a + S1x128.size a ≤ S40x128.size a) :
    Memref sig .scVector .vmem S128 .i32 :=
  ((sI).slice (Rect.unit (s := S40x128) (k0_off4 L k j) S1x128.size h) (fun _ => rfl)).squeeze S128 squeezes_S1x128_S128

abbrev winP (k : Fin (k0_t1_loop L).trips) (r : Fin 5) := wP L k (BitVec.ofNat 32 r.val) (k0_off3_inb L k r)
abbrev winE (r : Fin 5) := wE L (BitVec.ofNat 32 r.val) (k0_off9_inb L r)

theorem trip_lt (k : Fin (k0_t1_loop L).trips) : k.val < 7 := by
  have h := (k0_t1_abs L).2.1
  have hk := k.isLt
  omega

theorem mem_winP (k : Fin (k0_t1_loop L).trips) (r : Fin 5) (y : S163840x128.Idx) :
    y ∈ (winP L k r).view.set
      ↔ 128 * (chunk0 L + 5 * k.val + r.val) ≤ (y 0).val ∧ (y 0).val < 128 * (chunk0 L + 5 * k.val + r.val + 1) := by
  show y ∈ ((View.whole main_v31_scv).slice (Rect.unit (s := S163840x128) (k0_off3 L k (BitVec.ofNat 32 r.val)) S128x128.size
    (k0_off3_inb L k r))).set ↔ _
  rw [View.set_slice_whole, Rect.mem_set_unit, k0_off3_eq L k r]
  constructor
  · intro h
    have h0 := h 0
    change 128 * chunk0 L + 640 * k.val + 128 * r.val ≤ (y 0).val ∧ (y 0).val < 128 * chunk0 L + 640 * k.val + 128 * r.val + 128 at h0
    omega
  · intro h a
    match a with
    | ⟨0, _⟩ =>
      show 128 * chunk0 L + 640 * k.val + 128 * r.val ≤ (y 0).val ∧ (y 0).val < 128 * chunk0 L + 640 * k.val + 128 * r.val + 128
      omega
    | ⟨1, _⟩ => show 0 ≤ (y 1).val ∧ (y 1).val < 0 + 128; exact ⟨Nat.zero_le _, by have h1 : (y 1).val < 128 := (y 1).isLt; omega⟩

theorem mem_winE (r : Fin 5) (y : S163840x128.Idx) :
    y ∈ (winE L r).view.set
      ↔ 128 * (chunk0 L + 35 + r.val) ≤ (y 0).val ∧ (y 0).val < 128 * (chunk0 L + 35 + r.val + 1) := by
  show y ∈ ((View.whole main_v31_scv).slice (Rect.unit (s := S163840x128) (k0_off9 L (BitVec.ofNat 32 r.val)) S128x128.size
    (k0_off9_inb L r))).set ↔ _
  rw [View.set_slice_whole, Rect.mem_set_unit, k0_off9_eq L r]
  have h40 : (if (L 0).val = 0 then 40 else 40) = 40 := by split <;> rfl
  constructor
  · intro h
    have h0 := h 0
    change 128 * chunk0 L + 640 * ((if (L 0).val = 0 then 40 else 40) / 5) + 128 * r.val - 640 ≤ (y 0).val
      ∧ (y 0).val < 128 * chunk0 L + 640 * ((if (L 0).val = 0 then 40 else 40) / 5) + 128 * r.val - 640 + 128 at h0
    rw [h40] at h0
    omega
  · intro h a
    match a with
    | ⟨0, _⟩ =>
      show 128 * chunk0 L + 640 * ((if (L 0).val = 0 then 40 else 40) / 5) + 128 * r.val - 640 ≤ (y 0).val
        ∧ (y 0).val < 128 * chunk0 L + 640 * ((if (L 0).val = 0 then 40 else 40) / 5) + 128 * r.val - 640 + 128
      rw [h40]
      omega
    | ⟨1, _⟩ => show 0 ≤ (y 1).val ∧ (y 1).val < 0 + 128; exact ⟨Nat.zero_le _, by have h1 : (y 1).val < 128 := (y 1).isLt; omega⟩

theorem winP_sub (k : Fin (k0_t1_loop L).trips) (r : Fin 5) (hk : k.val < 7) : (winP L k r).view.set ⊆ (oTile L).view.set := by
  intro y hy
  have h := (mem_winP L k r y).1 hy
  have hr := r.isLt
  exact (mem_oTile L y).2 (by omega)
theorem winE_sub (r : Fin 5) : (winE L r).view.set ⊆ (oTile L).view.set := by
  intro y hy
  have h := (mem_winE L r y).1 hy
  have hr := r.isLt
  exact (mem_oTile L y).2 (by omega)

theorem winP_disj (k : Fin (k0_t1_loop L).trips) {r r' : Fin 5} (hne : r ≠ r') :
    Disjoint (winP L k r).view.set (winP L k r').view.set :=
  Finset.disjoint_left.2 fun y h1 h2 => hne (Fin.ext (by
    have a := (mem_winP L k r y).1 h1
    have b := (mem_winP L k r' y).1 h2
    omega))
theorem winE_disj {r r' : Fin 5} (hne : r ≠ r') : Disjoint (winE L r).view.set (winE L r').view.set :=
  Finset.disjoint_left.2 fun y h1 h2 => hne (Fin.ext (by
    have a := (mem_winE L r y).1 h1
    have b := (mem_winE L r' y).1 h2
    omega))

section Carve

variable {ℓ : Loc nD τ sig} {S T0 T1 T2 T3 T4 : Finset (Idx ℓ)}

theorem carve5 (f : Buf (Elt F) ℓ) (h0 : T0 ⊆ S) (h1 : T1 ⊆ S \ T0) (h2 : T2 ⊆ (S \ T0) \ T1) (h3 : T3 ⊆ ((S \ T0) \ T1) \ T2)
    (h4 : T4 ⊆ (((S \ T0) \ T1) \ T2) \ T3) :
    (ℓ ↦[S]{fullShare} f : sProp 𝕄)
      ⊢ iprop((ℓ ↦[T0]{fullShare} f) ∗ (ℓ ↦[T1]{fullShare} f) ∗ (ℓ ↦[T2]{fullShare} f) ∗ (ℓ ↦[T3]{fullShare} f)
          ∗ (ℓ ↦[T4]{fullShare} f) ∗ ℓ ↦[((((S \ T0) \ T1) \ T2) \ T3) \ T4]{fullShare} f) :=
  (pointsTo_split_subset h0).1.trans (sep_mono_r ((pointsTo_split_subset h1).1.trans (sep_mono_r
    ((pointsTo_split_subset h2).1.trans (sep_mono_r ((pointsTo_split_subset h3).1.trans (sep_mono_r
      (pointsTo_split_subset h4).1)))))))

theorem join5 (h0 : T0 ⊆ S) (h1 : T1 ⊆ S \ T0) (h2 : T2 ⊆ (S \ T0) \ T1) (h3 : T3 ⊆ ((S \ T0) \ T1) \ T2)
    (h4 : T4 ⊆ (((S \ T0) \ T1) \ T2) \ T3) (g0 g1 g2 g3 g4 f h : Buf (Elt F) ℓ)
    (e0 : ∀ y ∈ T0, g0 y = h y) (e1 : ∀ y ∈ T1, g1 y = h y) (e2 : ∀ y ∈ T2, g2 y = h y) (e3 : ∀ y ∈ T3, g3 y = h y)
    (e4 : ∀ y ∈ T4, g4 y = h y) (er : ∀ y ∈ ((((S \ T0) \ T1) \ T2) \ T3) \ T4, f y = h y) :
    iprop((ℓ ↦[T0]{fullShare} g0) ∗ (ℓ ↦[T1]{fullShare} g1) ∗ (ℓ ↦[T2]{fullShare} g2) ∗ (ℓ ↦[T3]{fullShare} g3)
        ∗ (ℓ ↦[T4]{fullShare} g4) ∗ ℓ ↦[((((S \ T0) \ T1) \ T2) \ T3) \ T4]{fullShare} f)
      ⊢ (ℓ ↦[S]{fullShare} h : sProp 𝕄) := by
  rw [pointsTo_congr e0, pointsTo_congr e1, pointsTo_congr e2, pointsTo_congr e3, pointsTo_congr e4, pointsTo_congr er]
  exact (sep_mono_r (sep_mono_r (sep_mono_r (sep_mono_r (pointsTo_split_subset h4).2)))).trans
    ((sep_mono_r (sep_mono_r (sep_mono_r (pointsTo_split_subset h3).2))).trans
      ((sep_mono_r (sep_mono_r (pointsTo_split_subset h2).2)).trans
        ((sep_mono_r (pointsTo_split_subset h1).2).trans (pointsTo_split_subset h0).2)))

end Carve

theorem sub_sdiff {α : Type} [DecidableEq α] {A S T : Finset α} (h : A ⊆ S) (hd : Disjoint A T) : A ⊆ S \ T :=
  Finset.subset_sdiff.2 ⟨h, hd⟩

theorem chain5 {α : Type} [DecidableEq α] {S : Finset α} (T : Fin 5 → Finset α) (hs : ∀ r, T r ⊆ S)
    (hd : ∀ r r', r ≠ r' → Disjoint (T r) (T r')) :
    T 0 ⊆ S ∧ T 1 ⊆ S \ T 0 ∧ T 2 ⊆ (S \ T 0) \ T 1 ∧ T 3 ⊆ ((S \ T 0) \ T 1) \ T 2 ∧ T 4 ⊆ (((S \ T 0) \ T 1) \ T 2) \ T 3 :=
  ⟨hs 0, sub_sdiff (hs 1) (hd _ _ (by decide)), sub_sdiff (sub_sdiff (hs 2) (hd _ _ (by decide))) (hd _ _ (by decide)),
    sub_sdiff (sub_sdiff (sub_sdiff (hs 3) (hd _ _ (by decide))) (hd _ _ (by decide))) (hd _ _ (by decide)),
    sub_sdiff (sub_sdiff (sub_sdiff (sub_sdiff (hs 4) (hd _ _ (by decide))) (hd _ _ (by decide))) (hd _ _ (by decide))) (hd _ _ (by decide))⟩

theorem winP_chain (k : Fin (k0_t1_loop L).trips) (hk : k.val < 7) :
    (winP L k 0).view.set ⊆ (oTile L).view.set
      ∧ (winP L k 1).view.set ⊆ (oTile L).view.set \ (winP L k 0).view.set
      ∧ (winP L k 2).view.set ⊆ ((oTile L).view.set \ (winP L k 0).view.set) \ (winP L k 1).view.set
      ∧ (winP L k 3).view.set ⊆ (((oTile L).view.set \ (winP L k 0).view.set) \ (winP L k 1).view.set) \ (winP L k 2).view.set
      ∧ (winP L k 4).view.set ⊆ ((((oTile L).view.set \ (winP L k 0).view.set) \ (winP L k 1).view.set) \ (winP L k 2).view.set)
          \ (winP L k 3).view.set :=
  chain5 (α := S163840x128.Idx) (S := (oTile L).view.set) (fun r => (winP L k r).view.set) (fun r => winP_sub L k r hk) fun _ _ h => winP_disj L k h

theorem winE_chain :
    (winE L 0).view.set ⊆ (oTile L).view.set
      ∧ (winE L 1).view.set ⊆ (oTile L).view.set \ (winE L 0).view.set
      ∧ (winE L 2).view.set ⊆ ((oTile L).view.set \ (winE L 0).view.set) \ (winE L 1).view.set
      ∧ (winE L 3).view.set ⊆ (((oTile L).view.set \ (winE L 0).view.set) \ (winE L 1).view.set) \ (winE L 2).view.set
      ∧ (winE L 4).view.set ⊆ ((((oTile L).view.set \ (winE L 0).view.set) \ (winE L 1).view.set) \ (winE L 2).view.set)
          \ (winE L 3).view.set :=
  chain5 (α := S163840x128.Idx) (S := (oTile L).view.set) (fun r => (winE L r).view.set) (winE_sub L) fun _ _ h => winE_disj L h

abbrev rowP (k : Fin (k0_t1_loop L).trips) (r : Fin 5) := rP L k (BitVec.ofNat 32 r.val) (k0_off4_inb L k r)

theorem rowP_set (k : Fin (k0_t1_loop L).trips) (r : Fin 5) :
    (rowP L k r).view.set = rowSet d L (5 * k.val + r.val + 5) (by have := trip_lt L k; have := r.isLt; omega) := by
  have gen : ∀ (off : Fin 2 → Nat) (p : ∀ a, off a + S1x128.size a ≤ S40x128.size a) (j : Nat) (hj : j < 40), off = ![j, 0] →
      (((sI).slice (Rect.unit (s := S40x128) off S1x128.size p) (fun _ => rfl)).squeeze S128 squeezes_S1x128_S128).view.set
        = rowSet d L j hj := by
    intro off p j hj h
    subst h
    rfl
  exact gen _ _ _ _ (k0_off4_eq L k r)

theorem row_sub_sdiff {A : Finset (Idx ((sI).view.loc (thr d L)))} {j j' : Nat} (hj : j < 40) (hj' : j' < 40)
    (h : rowSet d L j hj ⊆ A) (hne : j ≠ j') : rowSet d L j hj ⊆ A \ rowSet d L j' hj' :=
  sub_sdiff h (rows_disjoint d L hj hj' hne)

theorem row_sub_restRows (k : Nat) (hk : k ≤ 7) (j : Nat) (hj : j < 40) (h : 5 * k + 5 ≤ j) :
    rowSet d L j hj ⊆ restRows d L k hk := by
  unfold restRows
  exact row_sub_sdiff d L hj _ (row_sub_sdiff d L hj _ (row_sub_sdiff d L hj _ (row_sub_sdiff d L hj _
    (row_sub_sdiff d L hj _ (Finset.subset_univ _) (by omega)) (by omega)) (by omega)) (by omega)) (by omega)

theorem row_sub_restRows_succ (k : Nat) (hk : k + 1 ≤ 7) (j : Nat) (hj : j < 40) (h : j < 5 * k + 5) :
    rowSet d L j hj ⊆ restRows d L (k + 1) hk := by
  unfold restRows
  exact row_sub_sdiff d L hj _ (row_sub_sdiff d L hj _ (row_sub_sdiff d L hj _ (row_sub_sdiff d L hj _
    (row_sub_sdiff d L hj _ (Finset.subset_univ _) (by omega)) (by omega)) (by omega)) (by omega)) (by omega)

theorem rowP_chain (k : Fin (k0_t1_loop L).trips) :
    (rowP L k 0).view.set ⊆ restRows d L k.val (by have := trip_lt L k; omega)
      ∧ (rowP L k 1).view.set ⊆ restRows d L k.val (by have := trip_lt L k; omega) \ (rowP L k 0).view.set
      ∧ (rowP L k 2).view.set ⊆ (restRows d L k.val (by have := trip_lt L k; omega) \ (rowP L k 0).view.set) \ (rowP L k 1).view.set
      ∧ (rowP L k 3).view.set ⊆ ((restRows d L k.val (by have := trip_lt L k; omega) \ (rowP L k 0).view.set) \ (rowP L k 1).view.set) \ (rowP L k 2).view.set
      ∧ (rowP L k 4).view.set ⊆ (((restRows d L k.val (by have := trip_lt L k; omega) \ (rowP L k 0).view.set) \ (rowP L k 1).view.set) \ (rowP L k 2).view.set) \ (rowP L k 3).view.set :=
  chain5 (α := S40x128.Idx) (S := restRows d L k.val (by have := trip_lt L k; omega)) (fun r => (rowP L k r).view.set)
    (fun r => by rw [rowP_set d L k r]; exact row_sub_restRows d L _ _ _ _ (by omega))
    fun r r' h => by rw [rowP_set d L k r, rowP_set d L k r']; exact rows_disjoint d L _ _ fun e => h (Fin.ext (by omega))

theorem mem_sdiff_row {A : Finset (Idx ((sI).view.loc (thr d L)))} {j : Nat} {hj : j < 40} {y : S40x128.Idx} :
    y ∈ A \ rowSet d L j hj ↔ y ∈ A ∧ (y 0).val ≠ j :=
  Finset.mem_sdiff.trans (and_congr_right fun _ => not_congr (mem_rowSet d L j hj y))

theorem mem_sdiff_rows5 {A : Finset (Idx ((sI).view.loc (thr d L)))} {j0 j1 j2 j3 j4 : Nat} {h0 : j0 < 40} {h1 : j1 < 40}
    {h2 : j2 < 40} {h3 : j3 < 40} {h4 : j4 < 40} {y : S40x128.Idx} :
    y ∈ ((((A \ rowSet d L j0 h0) \ rowSet d L j1 h1) \ rowSet d L j2 h2) \ rowSet d L j3 h3) \ rowSet d L j4 h4
      ↔ y ∈ A ∧ (y 0).val ≠ j0 ∧ (y 0).val ≠ j1 ∧ (y 0).val ≠ j2 ∧ (y 0).val ≠ j3 ∧ (y 0).val ≠ j4 := by
  constructor
  · intro h
    obtain ⟨h, e4⟩ := (mem_sdiff_row d L).1 h
    obtain ⟨h, e3⟩ := (mem_sdiff_row d L).1 h
    obtain ⟨h, e2⟩ := (mem_sdiff_row d L).1 h
    obtain ⟨h, e1⟩ := (mem_sdiff_row d L).1 h
    obtain ⟨h, e0⟩ := (mem_sdiff_row d L).1 h
    exact ⟨h, e0, e1, e2, e3, e4⟩
  · rintro ⟨h, e0, e1, e2, e3, e4⟩
    exact (mem_sdiff_row d L).2 ⟨(mem_sdiff_row d L).2 ⟨(mem_sdiff_row d L).2 ⟨(mem_sdiff_row d L).2
      ⟨(mem_sdiff_row d L).2 ⟨h, e0⟩, e1⟩, e2⟩, e3⟩, e4⟩

theorem mem_restRows (k : Nat) (hk : k ≤ 7) (y : S40x128.Idx) :
    y ∈ restRows d L k hk ↔ ((y 0).val < 5 * k ∨ 5 * k + 5 ≤ (y 0).val) := by
  unfold restRows
  rw [mem_sdiff_rows5 d L]
  constructor
  · rintro ⟨-, e0, e1, e2, e3, e4⟩
    omega
  · intro h
    exact ⟨Finset.mem_univ _, by omega, by omega, by omega, by omega, by omega⟩

theorem rest_after_trip (k : Fin (k0_t1_loop L).trips) :
    ((((restRows d L k.val (by have := trip_lt L k; omega) \ (rowP L k 0).view.set) \ (rowP L k 1).view.set) \ (rowP L k 2).view.set) \ (rowP L k 3).view.set) \ (rowP L k 4).view.set
      = ((((restRows d L (k.val + 1) (by have := trip_lt L k; omega) \ rowSet d L (5 * k.val) (by have := trip_lt L k; omega)) \ rowSet d L (5 * k.val + 1) (by have := trip_lt L k; omega)) \ rowSet d L (5 * k.val + 2) (by have := trip_lt L k; omega))
          \ rowSet d L (5 * k.val + 3) (by have := trip_lt L k; omega)) \ rowSet d L (5 * k.val + 4) (by have := trip_lt L k; omega) := by
  rw [rowP_set d L k 0, rowP_set d L k 1, rowP_set d L k 2, rowP_set d L k 3, rowP_set d L k 4]
  ext y
  refine (mem_sdiff_rows5 d L).trans (Iff.trans ?_ (mem_sdiff_rows5 d L).symm)
  refine Iff.trans (and_congr_left' (mem_restRows d L _ _ y)) (Iff.trans ?_ (and_congr_left' (mem_restRows d L _ _ y)).symm)
  show ((y 0).val < 5 * k.val ∨ 5 * k.val + 5 ≤ (y 0).val) ∧ (y 0).val ≠ 5 * k.val + 0 + 5 ∧ (y 0).val ≠ 5 * k.val + 1 + 5
      ∧ (y 0).val ≠ 5 * k.val + 2 + 5 ∧ (y 0).val ≠ 5 * k.val + 3 + 5 ∧ (y 0).val ≠ 5 * k.val + 4 + 5
    ↔ ((y 0).val < 5 * (k.val + 1) ∨ 5 * (k.val + 1) + 5 ≤ (y 0).val) ∧ (y 0).val ≠ 5 * k.val ∧ (y 0).val ≠ 5 * k.val + 1
      ∧ (y 0).val ≠ 5 * k.val + 2 ∧ (y 0).val ≠ 5 * k.val + 3 ∧ (y 0).val ≠ 5 * k.val + 4
  omega

theorem rowRet_chain (k : Fin (k0_t1_loop L).trips) :
    rowSet d L (5 * k.val) (by have := trip_lt L k; omega) ⊆ restRows d L (k.val + 1) (by have := trip_lt L k; omega)
      ∧ rowSet d L (5 * k.val + 1) (by have := trip_lt L k; omega) ⊆ restRows d L (k.val + 1) (by have := trip_lt L k; omega) \ rowSet d L (5 * k.val) (by have := trip_lt L k; omega)
      ∧ rowSet d L (5 * k.val + 2) (by have := trip_lt L k; omega) ⊆ (restRows d L (k.val + 1) (by have := trip_lt L k; omega) \ rowSet d L (5 * k.val) (by have := trip_lt L k; omega)) \ rowSet d L (5 * k.val + 1) (by have := trip_lt L k; omega)
      ∧ rowSet d L (5 * k.val + 3) (by have := trip_lt L k; omega) ⊆ ((restRows d L (k.val + 1) (by have := trip_lt L k; omega) \ rowSet d L (5 * k.val) (by have := trip_lt L k; omega)) \ rowSet d L (5 * k.val + 1) (by have := trip_lt L k; omega)) \ rowSet d L (5 * k.val + 2) (by have := trip_lt L k; omega)
      ∧ rowSet d L (5 * k.val + 4) (by have := trip_lt L k; omega) ⊆ (((restRows d L (k.val + 1) (by have := trip_lt L k; omega) \ rowSet d L (5 * k.val) (by have := trip_lt L k; omega)) \ rowSet d L (5 * k.val + 1) (by have := trip_lt L k; omega)) \ rowSet d L (5 * k.val + 2) (by have := trip_lt L k; omega))
          \ rowSet d L (5 * k.val + 3) (by have := trip_lt L k; omega) := by
  have hk := trip_lt L k
  refine ⟨row_sub_restRows_succ d L _ _ _ _ (by omega), ?_, ?_, ?_, ?_⟩
  · exact row_sub_sdiff d L _ _ (row_sub_restRows_succ d L _ _ _ _ (by omega)) (by omega)
  · exact row_sub_sdiff d L _ _ (row_sub_sdiff d L _ _ (row_sub_restRows_succ d L _ _ _ _ (by omega)) (by omega)) (by omega)
  · exact row_sub_sdiff d L _ _ (row_sub_sdiff d L _ _ (row_sub_sdiff d L _ _ (row_sub_restRows_succ d L _ _ _ _ (by omega)) (by omega))
      (by omega)) (by omega)
  · exact row_sub_sdiff d L _ _ (row_sub_sdiff d L _ _ (row_sub_sdiff d L _ _ (row_sub_sdiff d L _ _
      (row_sub_restRows_succ d L _ _ _ _ (by omega)) (by omega)) (by omega)) (by omega)) (by omega)

end Windows

end Cert.KernelIdeal.Hand

end
-- ==== Proof.ScTileClose.lean ====
import proofs.«207044_g16655883174581_fold_wed_m_811_16_alg».proof.Proof.ScTileVals
import proofs.«207044_g16655883174581_fold_wed_m_811_16_alg».proof.Proof.ScTileWins

noncomputable section

namespace Cert.KernelIdeal.Hand

open Cert.KernelIdeal Cert.KernelIdeal.Gen

open Idealize.ShloMosaic
open Idealize.ShloMosaic.SparseCore (S V T)
open Idealize.ShloMosaic.ValueIdx
open Idealize.SL Idealize.SL.Sem

variable {F : FTy → Type}

variable (m : (ℓ : Loc nD τ sig) → Buf (Elt F) ℓ) (tbl : (d : Dev nD) → Buf (Elt F) (idxLoc d))

section Close

variable (d : Dev nD) (L : grid0.Coords)

abbrev oWinAt (o : Fin 2 → Nat) (ho : ∀ a, o a + S128x128.size a ≤ S163840x128.size a) :
    Memref sig .scVector .hbm S128x128 .f32 :=
  (oW).slice (Rect.unit (s := S163840x128) o S128x128.size ho) (fun _ => rfl)

theorem mem_oWinAt (o : Fin 2 → Nat) (ho : ∀ a, o a + S128x128.size a ≤ S163840x128.size a) (c : Nat)
    (h0 : o 0 = 128 * c) (h1 : o 1 = 0) (y : S163840x128.Idx) :
    y ∈ (oWinAt o ho).view.set ↔ 128 * c ≤ (y 0).val ∧ (y 0).val < 128 * (c + 1) := by
  show y ∈ ((View.whole main_v31_scv).slice (Rect.unit (s := S163840x128) o S128x128.size ho)).set ↔ _
  rw [View.set_slice_whole, Rect.mem_set_unit]
  constructor
  · intro h
    have h0' := h 0
    change o 0 ≤ (y 0).val ∧ (y 0).val < o 0 + 128 at h0'
    omega
  · intro h a
    match a with
    | ⟨0, _⟩ => show o 0 ≤ (y 0).val ∧ (y 0).val < o 0 + 128; omega
    | ⟨1, _⟩ =>
      show o 1 ≤ (y 1).val ∧ (y 1).val < o 1 + 128
      have hy1 : (y 1).val < 128 := (y 1).isLt
      omega

-- The gathered rows on the five chunks after the tile's first `c0`, the old contents elsewhere.
def closed (c0 : Nat) (fo' : Buf (Elt F) (outLoc d)) : Buf (Elt F) (outLoc d) := fun y =>
  if 128 * (chunk0 L + c0) ≤ (y 0).val ∧ (y 0).val < 128 * (chunk0 L + c0 + 5) then gathered m tbl d y else fo' y

theorem closed_win (cI : Buf (Elt F) ((thr d L).loc cc0_scratch0))
    (hcI : ∀ (j : Fin 40) (l : Fin 128), cI (ix2 j l)
      = tbl d (ix2 (⟨chunk0 L + j.val, by have := chunk0_le L; have := j.isLt; omega⟩ : Fin 1320) l))
    {c0 : Nat} {o : Fin 5 → Fin 2 → Nat} {ho : ∀ r a, o r a + S128x128.size a ≤ S163840x128.size a}
    (h0 : ∀ r : Fin 5, o r 0 = 128 * (chunk0 L + c0 + r.val)) (h1 : ∀ r : Fin 5, o r 1 = 0) (fo' : Buf (Elt F) (outLoc d))
    (r : Fin 5) {hn : c0 + r.val < 40} (pd : S128x128.Idx → Elt F .f32) (hpd : RowsAre m d L cI (c0 + r.val) hn pd) :
    ∀ y ∈ (oWinAt (o r) (ho r)).view.set,
      (oWinAt (o r) (ho r)).view.writes (Elt F) fo' [⟨Rect.whole S128x128, pd⟩] y = closed m tbl d L c0 fo' y := by
  intro y hy
  have hr := r.isLt
  have h0r := h0 r
  have h1r := h1 r
  have hm := (mem_oWinAt (o r) (ho r) _ h0r h1r y).1 hy
  refine Eq.trans ?_ (if_pos ⟨by omega, by omega⟩).symm
  obtain ⟨x, -, rfl⟩ := Finset.mem_map.mp hy
  have he : ((oWinAt (o r) (ho r)).view.slice (Rect.whole S128x128)).emb x = (oWinAt (o r) (ho r)).view.emb x :=
    congrArg (oWinAt (o r) (ho r)).view.emb (Rect.emb_whole_apply S128x128 x)
  show ((oWinAt (o r) (ho r)).view.slice (Rect.whole S128x128)).write (Elt F) fo' pd Finset.univ ((oWinAt (o r) (ho r)).view.emb x) = _
  rw [← he, View.write_emb_of_mem _ _ (Finset.mem_univ x), he]
  refine (cast_eq _ _).trans ?_
  rw [hpd x]
  unfold gathered
  have hx0 : (x 0).val < 128 := (x 0).isLt
  have hc := chunk0_le L
  refine congrArg (m (featLoc d)) (congrArg₂ (fun (r : Fin 10000) (k : Fin 128) => ix2 r k) (Fin.ext ?_) (Fin.ext ?_))
  · show (cI (ix2 (⟨c0 + r.val, hn⟩ : Fin 40) (⟨(x 0).val, (x 0).isLt⟩ : Fin 128))).toNat % 10000 = _
    rw [hcI (⟨c0 + r.val, hn⟩ : Fin 40) (⟨(x 0).val, (x 0).isLt⟩ : Fin 128)]
    refine congrArg (fun i => (tbl d i).toNat % 10000)
      (congrArg₂ (fun (a : Fin 1320) (b : Fin 128) => ix2 a b) (Fin.ext ?_) (Fin.ext ?_))
    · show chunk0 L + (c0 + r.val) = (o r 0 + 1 * (x 0).val) / 128
      omega
    · show (x 0).val = (o r 0 + 1 * (x 0).val) % 128
      omega
  · show (x 1).val = o r 1 + 1 * (x 1).val
    omega

theorem closed_rest (c0 : Nat) (o : Fin 5 → Fin 2 → Nat) (ho : ∀ r a, o r a + S128x128.size a ≤ S163840x128.size a)
    (h0 : ∀ r : Fin 5, o r 0 = 128 * (chunk0 L + c0 + r.val)) (h1 : ∀ r : Fin 5, o r 1 = 0) (fo' : Buf (Elt F) (outLoc d)) :
    ∀ y ∈ (((((oTile L).view.set \ (oWinAt (o 0) (ho 0)).view.set) \ (oWinAt (o 1) (ho 1)).view.set) \ (oWinAt (o 2) (ho 2)).view.set) \ (oWinAt (o 3) (ho 3)).view.set) \ (oWinAt (o 4) (ho 4)).view.set,
      fo' y = closed m tbl d L c0 fo' y := by
  intro y hy
  simp only [Finset.mem_sdiff] at hy
  obtain ⟨⟨⟨⟨⟨-, n0⟩, n1⟩, n2⟩, n3⟩, n4⟩ := hy
  refine (if_neg fun hin => ?_).symm
  have key : ∀ r : Fin 5, ¬ (128 * (chunk0 L + c0 + r.val) ≤ (y 0).val ∧ (y 0).val < 128 * (chunk0 L + c0 + r.val + 1)) :=
    fun r => (mem_oWinAt (o r) (ho r) _ (h0 r) (h1 r) y).not.1 (by fin_cases r <;> assumption)
  have h5 : (y 0).val / 128 - (chunk0 L + c0) < 5 := by omega
  exact key ⟨_, h5⟩ ⟨by show 128 * (chunk0 L + c0 + ((y 0).val / 128 - (chunk0 L + c0))) ≤ _; omega,
    by show _ < 128 * (chunk0 L + c0 + ((y 0).val / 128 - (chunk0 L + c0)) + 1); omega⟩

theorem closed_done (c0 : Nat) (fo' : Buf (Elt F) (outLoc d)) (hfo : DoneUpTo m d L tbl c0 fo') :
    DoneUpTo m d L tbl (c0 + 5) (closed m tbl d L c0 fo') := by
  intro y hlo hhi
  by_cases hin : 128 * (chunk0 L + c0) ≤ (y 0).val ∧ (y 0).val < 128 * (chunk0 L + c0 + 5)
  · exact if_pos hin
  · exact (if_neg hin).trans (hfo y hlo (by omega))

theorem out_close (cI : Buf (Elt F) ((thr d L).loc cc0_scratch0))
    (hcI : ∀ (j : Fin 40) (l : Fin 128), cI (ix2 j l)
      = tbl d (ix2 (⟨chunk0 L + j.val, by have := chunk0_le L; have := j.isLt; omega⟩ : Fin 1320) l))
    (k : Fin (k0_t1_loop L).trips) (hk : k.val < 7)
    (fo' : Buf (Elt F) (outLoc d)) (hfo : DoneUpTo m d L tbl (5 * k.val) fo')
    (pd0 pd1 pd2 pd3 pd4 : S128x128.Idx → Elt F .f32)
    (hp0 : RowsAre m d L cI (5 * k.val) (by omega) pd0) (hp1 : RowsAre m d L cI (5 * k.val + 1) (by omega) pd1)
    (hp2 : RowsAre m d L cI (5 * k.val + 2) (by omega) pd2) (hp3 : RowsAre m d L cI (5 * k.val + 3) (by omega) pd3)
    (hp4 : RowsAre m d L cI (5 * k.val + 4) (by omega) pd4) :
    ∃ h : Buf (Elt F) (outLoc d),
      (∀ y ∈ (winP L k 0).view.set,
        (winP L k 0).view.writes (Elt F) fo' [⟨Rect.whole S128x128, pd0⟩] y = h y)
      ∧ (∀ y ∈ (winP L k 1).view.set,
        (winP L k 1).view.writes (Elt F) fo' [⟨Rect.whole S128x128, pd1⟩] y = h y)
      ∧ (∀ y ∈ (winP L k 2).view.set,
        (winP L k 2).view.writes (Elt F) fo' [⟨Rect.whole S128x128, pd2⟩] y = h y)
      ∧ (∀ y ∈ (winP L k 3).view.set,
        (winP L k 3).view.writes (Elt F) fo' [⟨Rect.whole S128x128, pd3⟩] y = h y)
      ∧ (∀ y ∈ (winP L k 4).view.set,
        (winP L k 4).view.writes (Elt F) fo' [⟨Rect.whole S128x128, pd4⟩] y = h y)
      ∧ (∀ y ∈ (((((oTile L).view.set
              \ (winP L k 0).view.set)
              \ (winP L k 1).view.set)
              \ (winP L k 2).view.set)
              \ (winP L k 3).view.set)
              \ (winP L k 4).view.set, fo' y = h y)
      ∧ DoneUpTo m d L tbl (5 * k.val + 5) h := by
  have h0 : ∀ r : Fin 5, k0_off3 L k (BitVec.ofNat 32 r.val) 0 = 128 * (chunk0 L + 5 * k.val + r.val) := fun r => by
    rw [k0_off3_eq]
    show 128 * chunk0 L + 640 * k.val + 128 * r.val = 128 * (chunk0 L + 5 * k.val + r.val)
    omega
  have h1 : ∀ r : Fin 5, k0_off3 L k (BitVec.ofNat 32 r.val) 1 = 0 := fun r => by rw [k0_off3_eq]; rfl
  have W := closed_win m tbl d L cI hcI (ho := k0_off3_inb L k) h0 h1 fo'
  exact ⟨closed m tbl d L (5 * k.val) fo',
    W 0 pd0 hp0, W 1 pd1 hp1, W 2 pd2 hp2, W 3 pd3 hp3, W 4 pd4 hp4,
    closed_rest m tbl d L _ (fun r => k0_off3 L k (BitVec.ofNat 32 r.val)) (k0_off3_inb L k) h0 h1 fo',
    closed_done m tbl d L _ fo' hfo⟩

theorem out_close_E (cI : Buf (Elt F) ((thr d L).loc cc0_scratch0))
    (hcI : ∀ (j : Fin 40) (l : Fin 128), cI (ix2 j l)
      = tbl d (ix2 (⟨chunk0 L + j.val, by have := chunk0_le L; have := j.isLt; omega⟩ : Fin 1320) l))
    (fo' : Buf (Elt F) (outLoc d)) (hfo : DoneUpTo m d L tbl 35 fo')
    (pd0 pd1 pd2 pd3 pd4 : S128x128.Idx → Elt F .f32)
    (hp0 : RowsAre m d L cI 35 (by omega) pd0) (hp1 : RowsAre m d L cI (35 + 1) (by omega) pd1)
    (hp2 : RowsAre m d L cI (35 + 2) (by omega) pd2) (hp3 : RowsAre m d L cI (35 + 3) (by omega) pd3)
    (hp4 : RowsAre m d L cI (35 + 4) (by omega) pd4) :
    ∃ h : Buf (Elt F) (outLoc d),
      (∀ y ∈ (winE L 0).view.set,
        (winE L 0).view.writes (Elt F) fo' [⟨Rect.whole S128x128, pd0⟩] y = h y)
      ∧ (∀ y ∈ (winE L 1).view.set,
        (winE L 1).view.writes (Elt F) fo' [⟨Rect.whole S128x128, pd1⟩] y = h y)
      ∧ (∀ y ∈ (winE L 2).view.set,
        (winE L 2).view.writes (Elt F) fo' [⟨Rect.whole S128x128, pd2⟩] y = h y)
      ∧ (∀ y ∈ (winE L 3).view.set,
        (winE L 3).view.writes (Elt F) fo' [⟨Rect.whole S128x128, pd3⟩] y = h y)
      ∧ (∀ y ∈ (winE L 4).view.set,
        (winE L 4).view.writes (Elt F) fo' [⟨Rect.whole S128x128, pd4⟩] y = h y)
      ∧ (∀ y ∈ (((((oTile L).view.set
              \ (winE L 0).view.set)
              \ (winE L 1).view.set)
              \ (winE L 2).view.set)
              \ (winE L 3).view.set)
              \ (winE L 4).view.set, fo' y = h y)
      ∧ DoneUpTo m d L tbl 40 h := by
  have h0 : ∀ r : Fin 5, k0_off9 L (BitVec.ofNat 32 r.val) 0 = 128 * (chunk0 L + 35 + r.val) := fun r => by
    rw [k0_off9_eq]
    have h40 : (if (L 0).val = 0 then 40 else 40) = 40 := by split <;> rfl
    show 128 * chunk0 L + 640 * ((if (L 0).val = 0 then 40 else 40) / 5) + 128 * r.val - 640 = 128 * (chunk0 L + 35 + r.val)
    rw [h40]
    omega
  have h1 : ∀ r : Fin 5, k0_off9 L (BitVec.ofNat 32 r.val) 1 = 0 := fun r => by rw [k0_off9_eq]; rfl
  have W := closed_win m tbl d L cI hcI (ho := k0_off9_inb L) h0 h1 fo'
  exact ⟨closed m tbl d L 35 fo',
    W 0 pd0 hp0, W 1 pd1 hp1, W 2 pd2 hp2, W 3 pd3 hp3, W 4 pd4 hp4,
    closed_rest m tbl d L _ (fun r => k0_off9 L (BitVec.ofNat 32 r.val)) (k0_off9_inb L) h0 h1 fo',
    closed_done m tbl d L _ fo' hfo⟩

theorem rowsAre_writes_at (b : Memref sig .scVector .vmem S128x128 .f32) (fprev : Buf (Elt F) (b.view.loc (thr d L)))
    (cI : Buf (Elt F) ((thr d L).loc cc0_scratch0)) (j : Nat) (hj : j < 40)
    (o : Fin 2 → Nat) (ho : ∀ a, o a + S1x128.size a ≤ S40x128.size a) (hoj : o = ![j, 0])
    (hin' : ∀ x, ((((sI).slice (Rect.unit (s := S40x128) o S1x128.size ho) (fun _ => rfl)).squeeze S128 squeezes_S1x128_S128).view.read
      (Elt F) cI x).toNat < S10000x128.size gathers_S10000x128_S128x128.axis) :
    RowsAre m d L cI j hj (b.view.read (Elt F) (b.view.writes (Elt F) fprev
      [⟨Rect.whole S128x128, SparseCore.gatherPayload gathers_S10000x128_S128x128 ((fAll).view.read (Elt F) (m (featLoc d)))
        (SparseCore.rows ((((sI).slice (Rect.unit (s := S40x128) o S1x128.size ho) (fun _ => rfl)).squeeze S128 squeezes_S1x128_S128).view.read
          (Elt F) cI) rfl hin')⟩])) := by
  subst hoj
  exact rowsAre_writes m d L b fprev cI j hj hin'

theorem rowsAre_writes_P (b : Memref sig .scVector .vmem S128x128 .f32) (fprev : Buf (Elt F) (b.view.loc (thr d L)))
    (cI : Buf (Elt F) ((thr d L).loc cc0_scratch0)) (k : Fin (k0_t1_loop L).trips) (r : Fin 5)
    (hin' : ∀ x, ((rowP L k r).view.read (Elt F) cI x).toNat < S10000x128.size gathers_S10000x128_S128x128.axis) :
    RowsAre m d L cI (5 * (k.val + 1) + r.val) (by have := trip_lt L k; have := r.isLt; omega)
      (b.view.read (Elt F) (b.view.writes (Elt F) fprev
        [⟨Rect.whole S128x128, SparseCore.gatherPayload gathers_S10000x128_S128x128 ((fAll).view.read (Elt F) (m (featLoc d)))
          (SparseCore.rows ((rowP L k r).view.read (Elt F) cI) rfl hin')⟩])) :=
  rowsAre_writes_at m d L b fprev cI _ _ (k0_off4 L k (BitVec.ofNat 32 r.val)) (k0_off4_inb L k r)
    ((k0_off4_eq L k r).trans (congrArg (fun j => ![j, 0]) (by omega))) hin'

end Close

end Cert.KernelIdeal.Hand

end
-- ==== Proof.ScTileSlot.lean ====
import proofs.«207044_g16655883174581_fold_wed_m_811_16_alg».proof.Proof.ScTileDefs
import proofs.«207044_g16655883174581_fold_wed_m_811_16_alg».proof.Proof.ScTileWins
import Idealize.ShloMosaic.Lib.Transfers

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

variable (m : (ℓ : Loc nD τ sig) → Buf (Elt F) ℓ) (tbl : (d : Dev nD) → Buf (Elt F) (idxLoc d))

variable [FloatOps F]

section Slot

variable (d : Dev nD) (L : grid0.Coords)

theorem slot_close (b : Memref sig .scVector .vmem S128x128 .f32) (g : DmaSem sig) (i : Fin 5) (cI : Buf (Elt F) ((thr d L).loc cc0_scratch0))
    (k : Fin (k0_t1_loop L).trips) (r : Fin 5) (hk : k.val + 1 ≤ 7)
    (fd : Buf (Elt F) (b.view.loc (thr d L))) (x : Buf (Elt F) (b.view.loc (thr d L)))
    (hrows : RowsAre m d L cI (5 * (k.val + 1) + r.val) (by omega) (b.view.read (Elt F) fd)) :
    iprop(Transfers.Flight countersEmb (thr d L) (.dma g) (default : HIx 1) 524288
          iprop(((b.view.loc (thr d L) ↦[b.view.set]{fullShare} fd) ∗ (rowP L k r).view.loc (thr d L) ↦[(rowP L k r).view.set]{fullShare} cI)
            ∗ (fW).view.loc (thr d L) ↦[(fAll).view.set]{Transfers.shareTok (tileShare (cL L) (jL L)) 5 i} m (featLoc d))
        ∗ ((fW).view.loc (thr d L) ↦[Finset.univ \ (fAll).view.set]{Transfers.shareTok (tileShare (cL L) (jL L)) 5 i} m (featLoc d))
        ∗ (b.view.loc (thr d L) ↦[Finset.univ \ b.view.set]{fullShare} x))
      ⊢ slot m d L b g i cI (5 * (k.val + 1) + r.val) (by omega) := by
  have hlt : 5 * k.val + r.val + 5 < 40 := by omega
  have hj : 5 * (k.val + 1) + r.val < 40 := by omega

  have hpt : ((rowP L k r).view.loc (thr d L) ↦[(rowP L k r).view.set]{fullShare} cI : sProp 𝕄)
      = ((sI).view.loc (thr d L) ↦[(rowM (5 * (k.val + 1) + r.val) hj).view.set]{fullShare} cI) :=
    congrArg (fun s : Finset (Idx ((sI).view.loc (thr d L))) => ((sI).view.loc (thr d L) ↦[s]{fullShare} cI : sProp 𝕄))
      ((rowP_set d L k r).trans (rowSet_congr d L (by omega) hlt hj))
  unfold slot
  iintro ⟨HF, Hrest, Hx⟩
  iexists fd
  isplitr
  · ipureintro; exact hrows
  isplitl [HF]
  · iapply (Transfers.Flight_mono countersEmb (thr d L) ?_) $$ HF
    rw [hpt]
  isplitl [Hrest]; · iexact Hrest
  iexists x; iexact Hx

end Slot

end Cert.KernelIdeal.Hand

end
-- ==== Proof.ScTile.lean ====
import proofs.«207044_g16655883174581_fold_wed_m_811_16_alg».proof.Proof.ScDefs
import proofs.«207044_g16655883174581_fold_wed_m_811_16_alg».proof.Proof.ScTileDefs
import proofs.«207044_g16655883174581_fold_wed_m_811_16_alg».proof.Proof.ScTileSets
import proofs.«207044_g16655883174581_fold_wed_m_811_16_alg».proof.Proof.ScTileVals
import proofs.«207044_g16655883174581_fold_wed_m_811_16_alg».proof.Proof.ScTileWins
import proofs.«207044_g16655883174581_fold_wed_m_811_16_alg».proof.Proof.ScTileClose
import proofs.«207044_g16655883174581_fold_wed_m_811_16_alg».proof.Proof.ScTileSlot
import proofs.«207044_g16655883174581_fold_wed_m_811_16_alg».proof.Proof.Gen.KernelIdeal.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable (m : (ℓ : Loc nD τ sig) → Buf (Elt F) ℓ) (tbl : (d : Dev nD) → Buf (Elt F) (idxLoc d))

variable [FloatOps F]

section Task

variable (d : Dev nD) (L : grid0.Coords)

abbrev semList : List (SemLoc sig) :=
  [.dma cc0_scratch6.sem, .dma cc0_scratch7.sem, .dma cc0_scratch8.sem, .dma cc0_scratch9.sem, .dma cc0_scratch10.sem,
   .dma cc0_scratch11.sem, .dma cc0_scratch12.sem, .dma cc0_scratch13.sem, .dma cc0_scratch14.sem, .dma cc0_scratch15.sem,
   .dma cc0_scoped0.sem]
abbrev cellList : List (GSem nD τ sig) := (semList).map fun s => (thr d L, s)

omit [FloatOps F] in
theorem cellList_nodup : (cellList d L).Nodup :=
  List.Nodup.map (fun _ _ e => (Prod.mk.inj e).2) (by decide)

omit [FloatOps F] in
theorem cellList_sub : (cellList d L).toFinset ⊆ ownCells (thr d L) := by
  intro g hg
  obtain ⟨s, hs, rfl⟩ := List.mem_map.mp (List.mem_toFinset.mp hg)
  have hsc : ∀ s ∈ (semList : List (SemLoc sig)), s.isScoped .scVector = true := by decide
  exact mem_ownCells.mpr ⟨rfl, hsc s hs⟩

omit [FloatOps F] in
theorem ownSems0_V :
    (ownSems0 (thr d L) : sProp 𝕄)
      = iprop((semVal (thr d L, .dma cc0_scratch6.sem) 0 ∗ semVal (thr d L, .dma cc0_scratch7.sem) 0 ∗ semVal (thr d L, .dma cc0_scratch8.sem) 0
            ∗ semVal (thr d L, .dma cc0_scratch9.sem) 0 ∗ semVal (thr d L, .dma cc0_scratch10.sem) 0
            ∗ semVal (thr d L, .dma cc0_scratch11.sem) 0 ∗ semVal (thr d L, .dma cc0_scratch12.sem) 0 ∗ semVal (thr d L, .dma cc0_scratch13.sem) 0
            ∗ semVal (thr d L, .dma cc0_scratch14.sem) 0 ∗ semVal (thr d L, .dma cc0_scratch15.sem) 0 ∗ semVal (thr d L, .dma cc0_scoped0.sem) 0)
          ∗ bigSep (ownCells (thr d L) \ (cellList d L).toFinset) fun g => semVal g 0) := by
  unfold SparseCore.Cfg.ownSems0
  rw [SparseCore.bigSep_sdiff_split' (cellList_sub d L), bigSep_eq_bigSepL _ (cellList_nodup d L)]
  rfl

abbrev bufList : List (Ref sig .scVector) := [cc0_scratch0, cc0_scratch1, cc0_scratch2, cc0_scratch3, cc0_scratch4, cc0_scratch5]
abbrev refList : List (DevRef τ sig) := (bufList).map fun b => (Proc.scVector (cV L) (jV L)).devRef b

omit [FloatOps F] in
theorem refList_nodup : (refList L).Nodup :=
  List.Nodup.map (fun _ _ e => Proc.devRef_injective _ e) (by decide +revert)

omit [FloatOps F] in
theorem refList_sub : (refList L).toFinset ⊆ ownRefs (τ := τ) (.scVector (cV L) (jV L)) := by
  intro b hb
  obtain ⟨r, hr, rfl⟩ := List.mem_map.mp (List.mem_toFinset.mp hb)
  simp only [bufList, List.mem_cons, List.not_mem_nil, or_false] at hr
  rcases hr with rfl | rfl | rfl | rfl | rfl | rfl <;>
    exact SparseCore.Cfg.mem_ownRefs_of_owner (p := Proc.scVector (cV L) (jV L)) rfl

omit [FloatOps F] in
theorem ownBufs_V :
    (ownBufs (thr d L) : sProp 𝕄)
      = iprop(((∃ f, (thr d L).loc cc0_scratch0 ↦{fullShare} f) ∗ (∃ f, (thr d L).loc cc0_scratch1 ↦{fullShare} f) ∗ (∃ f, (thr d L).loc cc0_scratch2 ↦{fullShare} f)
            ∗ (∃ f, (thr d L).loc cc0_scratch3 ↦{fullShare} f) ∗ (∃ f, (thr d L).loc cc0_scratch4 ↦{fullShare} f) ∗ (∃ f, (thr d L).loc cc0_scratch5 ↦{fullShare} f))
          ∗ bigSep (ownRefs (τ := τ) (.scVector (cV L) (jV L)) \ (refList L).toFinset) fun b => iprop(∃ f, ((d, b) : Loc nD τ sig) ↦{fullShare} f)) := by
  unfold SparseCore.Cfg.ownBufs
  rw [SparseCore.bigSep_sdiff_split' (refList_sub L), bigSep_eq_bigSepL _ (refList_nodup L)]
  rfl

omit [FloatOps F] in

theorem rows_lt (pay : S40x128.Idx → Elt F .i32) (hpay : ∀ i, (pay i).toNat < 10000)
    (fs : Buf (Elt F) ((thr d L).loc cc0_scratch0))
    (off : Fin 2 → Nat) (h : ∀ a, off a + S1x128.size a ≤ S40x128.size a) (x : S128.Idx) :
    (View.read (Elt F) (((sI).slice (Rect.unit (s := S40x128) off S1x128.size h) (fun _ => rfl)).squeeze S128 squeezes_S1x128_S128).view
      (View.write (Elt F) (sI).view fs pay Finset.univ) x).toNat < 10000 := by
  rw [show View.write (Elt F) (sI).view fs pay Finset.univ = pay from View.write_whole_univ _ _ _]
  rw [show ∀ j, View.read (Elt F) (((sI).slice (Rect.unit (s := S40x128) off S1x128.size h) (fun _ => rfl)).squeeze S128 squeezes_S1x128_S128).view pay j
      = pay ((((sI).slice (Rect.unit (s := S40x128) off S1x128.size h) (fun _ => rfl)).squeeze S128 squeezes_S1x128_S128).view.emb j)
    from fun j => (View.read_apply _ _).trans (cast_eq _ _)]
  exact hpay _

omit [FloatOps F] in

theorem trips1 : ∀ L : grid0.Coords, (k0_t1_loop L).trips = 7 := by decide +kernel
omit [FloatOps F] in

theorem trips2 : ∀ L : grid0.Coords, (k0_t2_loop L).trips = 0 := by decide +kernel

set_option maxHeartbeats 4000000 in
theorem tile_body (hF : (K (F := F)).Facts) (hT : ∀ d' i, (tbl d' i).toNat < 10000)
    (O : CellTallies nD τ sig (HIx 1)) (W : Waits sig (HIx 1)) (hO : ∀ g, O g none = 0) :
    iprop(levAts (K (F := F)).L (K (F := F)).lev ∗ emp
        ∗ tileIn m tbl d (cL L) (jL L)
        ∗ scopedBufs (thr d L) ∗ scopedSems0 (thr d L) ∗ owes (thr d L) O W)
      ⊢ wp frame (wpE (defs₀ (F := F)) 𝒱₀ (thr d L) none) Set.univ
          (cc0_gather_k L fW (Memref.isWhole_whole _) iW (Memref.isWhole_whole _) oW (Memref.isWhole_whole _)
            sI (Memref.isWhole_whole _) b0 (Memref.isWhole_whole _) b1 (Memref.isWhole_whole _) b2 (Memref.isWhole_whole _)
            b3 (Memref.isWhole_whole _) b4 (Memref.isWhole_whole _)
            cc0_scratch6 cc0_scratch7 cc0_scratch8 cc0_scratch9 cc0_scratch10 cc0_scratch11 cc0_scratch12 cc0_scratch13 cc0_scratch14 cc0_scratch15 cc0_scoped0)
          fun _ => iprop(tileOut m tbl d (cL L) (jL L)
            ∗ scopedBufs (thr d L) ∗ scopedSems0 (thr d L)
            ∗ ∃ W', ⌜∀ p ∈ W', p ∈ W ∨ p.2 = none⌝ ∗ owes (thr d L) O W') := by
  simp only [cc0_gather_k_eq_skeleton]; unfold cc0_gather_k_skel
  rw [(K (F := F)).scopedBufs_V hF d (cV L) (jV L), SparseCore.Cfg.scopedSems0_V (Val := Elt F) d (cV L) (jV L), ownSems0_V, ownBufs_V]
  unfold tileIn featAt idxAt outRows
  iintro ⟨#Hlv, -, ⟨Hf, Hi, ⟨%fo, Ho⟩⟩, ⟨⟨⟨%fsI, HsI⟩, ⟨%f0, Hb0⟩, ⟨%f1, Hb1⟩, ⟨%f2, Hb2⟩, ⟨%f3, Hb3⟩, ⟨%f4, Hb4⟩⟩, Hbufs⟩,
    ⟨⟨Hg0, Hg1, Hg2, Hg3, Hg4, Hs0, Hs1, Hs2, Hs3, Hs4, Hc⟩, Hsems⟩, HO⟩
  ihave Hmw := (show levAts (K (F := F)).L (K (F := F)).lev ⊢ Transfers.MayWaits (thr d L) (default : HIx 1) O from
    (K (F := F)).mayWaits_none (thr := thr d L) hO) $$ Hlv

  ihave Hf' := (Transfers.pointsTo_toks_split (q := tileShare (cL L) (jL L)) 5) $$ Hf
  icases Hf' with ⟨Hfr, Hft⟩
  have e5 : (bigSep Finset.univ fun i : Fin 5 => (featLoc d ↦{Transfers.shareTok (tileShare (cL L) (jL L)) 5 i} m (featLoc d) : sProp 𝕄))
      = iprop((featLoc d ↦{Transfers.shareTok (tileShare (cL L) (jL L)) 5 0} m (featLoc d)) ∗ (featLoc d ↦{Transfers.shareTok (tileShare (cL L) (jL L)) 5 1} m (featLoc d))
          ∗ (featLoc d ↦{Transfers.shareTok (tileShare (cL L) (jL L)) 5 2} m (featLoc d)) ∗ (featLoc d ↦{Transfers.shareTok (tileShare (cL L) (jL L)) 5 3} m (featLoc d))
          ∗ (featLoc d ↦{Transfers.shareTok (tileShare (cL L) (jL L)) 5 4} m (featLoc d))) :=
    bigSep_univ_eq_bigSepL [(0 : Fin 5), 1, 2, 3, 4] (by decide) (by decide) _
  ihave Hft' := (Entails.of_eq e5) $$ Hft
  icases Hft' with ⟨Hf0, Hf1, Hf2, Hf3, Hf4⟩

  ihave Hi' := (Entails.of_eq (show (idxLoc d ↦{tileShare (cL L) (jL L)} tbl d : sProp 𝕄) = (iW).view.loc (thr d L) ↦{tileShare (cL L) (jL L)} tbl d from rfl)) $$ Hi
  ihave HsI' := (Entails.of_eq (show ((thr d L).loc cc0_scratch0 ↦{fullShare} fsI : sProp 𝕄) = (sI).view.loc (thr d L) ↦{fullShare} fsI from rfl)) $$ HsI
  ihave Hb0' := (Entails.of_eq (show ((thr d L).loc cc0_scratch1 ↦{fullShare} f0 : sProp 𝕄) = (b0).view.loc (thr d L) ↦{fullShare} f0 from rfl)) $$ Hb0
  ihave Hb1' := (Entails.of_eq (show ((thr d L).loc cc0_scratch2 ↦{fullShare} f1 : sProp 𝕄) = (b1).view.loc (thr d L) ↦{fullShare} f1 from rfl)) $$ Hb1
  ihave Hb2' := (Entails.of_eq (show ((thr d L).loc cc0_scratch3 ↦{fullShare} f2 : sProp 𝕄) = (b2).view.loc (thr d L) ↦{fullShare} f2 from rfl)) $$ Hb2
  ihave Hb3' := (Entails.of_eq (show ((thr d L).loc cc0_scratch4 ↦{fullShare} f3 : sProp 𝕄) = (b3).view.loc (thr d L) ↦{fullShare} f3 from rfl)) $$ Hb3
  ihave Hb4' := (Entails.of_eq (show ((thr d L).loc cc0_scratch5 ↦{fullShare} f4 : sProp 𝕄) = (b4).view.loc (thr d L) ↦{fullShare} f4 from rfl)) $$ Hb4
  ihave Hf0' := (Entails.of_eq (show (featLoc d ↦{Transfers.shareTok (tileShare (cL L) (jL L)) 5 0} m (featLoc d) : sProp 𝕄) = (fW).view.loc (thr d L) ↦{Transfers.shareTok (tileShare (cL L) (jL L)) 5 0} m (featLoc d) from rfl)) $$ Hf0
  ihave Hf1' := (Entails.of_eq (show (featLoc d ↦{Transfers.shareTok (tileShare (cL L) (jL L)) 5 1} m (featLoc d) : sProp 𝕄) = (fW).view.loc (thr d L) ↦{Transfers.shareTok (tileShare (cL L) (jL L)) 5 1} m (featLoc d) from rfl)) $$ Hf1
  ihave Hf2' := (Entails.of_eq (show (featLoc d ↦{Transfers.shareTok (tileShare (cL L) (jL L)) 5 2} m (featLoc d) : sProp 𝕄) = (fW).view.loc (thr d L) ↦{Transfers.shareTok (tileShare (cL L) (jL L)) 5 2} m (featLoc d) from rfl)) $$ Hf2
  ihave Hf3' := (Entails.of_eq (show (featLoc d ↦{Transfers.shareTok (tileShare (cL L) (jL L)) 5 3} m (featLoc d) : sProp 𝕄) = (fW).view.loc (thr d L) ↦{Transfers.shareTok (tileShare (cL L) (jL L)) 5 3} m (featLoc d) from rfl)) $$ Hf3
  ihave Hf4' := (Entails.of_eq (show (featLoc d ↦{Transfers.shareTok (tileShare (cL L) (jL L)) 5 4} m (featLoc d) : sProp 𝕄) = (fW).view.loc (thr d L) ↦{Transfers.shareTok (tileShare (cL L) (jL L)) 5 4} m (featLoc d) from rfl)) $$ Hf4
  sl_exec

  have hpay : ∀ i, (tile_body.sl.dma0 tbl d L i).toNat < 10000 := fun i => by
    unfold tile_body.sl.dma0
    show BitVec.toNat (View.read (Elt F) ((iW).slice (Rect.unit (s := S1320x128) (k0_off1 L) S40x128.size (k0_off1_inb L)) (fun _ => rfl)).view (tbl d) i) < 10000
    rw [show ∀ j, View.read (Elt F) ((iW).slice (Rect.unit (s := S1320x128) (k0_off1 L) S40x128.size (k0_off1_inb L)) (fun _ => rfl)).view (tbl d) j
        = tbl d (((iW).slice (Rect.unit (s := S1320x128) (k0_off1 L) S40x128.size (k0_off1_inb L)) (fun _ => rfl)).view.emb j)
      from fun j => (View.read_apply _ _).trans (cast_eq _ _)]
    exact hT d _
  have hin : ∀ (off : Fin 2 → Nat) (h : ∀ a, off a + S1x128.size a ≤ S40x128.size a) (x : S128.Idx),
      (View.read (Elt F) (((sI).slice (Rect.unit (s := S40x128) off S1x128.size h) (fun _ => rfl)).squeeze S128 squeezes_S1x128_S128).view
        (View.write (Elt F) (sI).view fsI (tile_body.sl.dma0 tbl d L) Finset.univ) x).toNat < 10000 :=
    fun off h x => rows_lt d L _ hpay fsI off h x

  have hcI : ∀ (j : Fin 40) (l : Fin 128),
      (View.write (Elt F) (sI).view fsI (tile_body.sl.dma0 tbl d L) Finset.univ) (ValueIdx.ix2 j l)
        = tbl d (ValueIdx.ix2 (⟨chunk0 L + j.val, by have := chunk0_le L; have := j.isLt; omega⟩ : Fin 1320) l) := fun j l => by
    rw [show View.write (Elt F) (sI).view fsI (tile_body.sl.dma0 tbl d L) Finset.univ = tile_body.sl.dma0 tbl d L from View.write_whole_univ _ _ _]
    exact fetched_apply tbl d L j l
  sl_exec

  have htr1 : (k0_t1_loop L).trips = 7 := trips1 L
  have htr2 : (k0_t2_loop L).trips = 0 := trips2 L
  sl_for (Inv m d L tbl O W (View.write (Elt F) (sI).view fsI (tile_body.sl.dma0 tbl d L) Finset.univ)) $$ [Hmw Hg0 Hf0' Hb0' Hg1 Hf1' Hb1' Hg2 Hf2' Hb2' Hg3 Hf3' Hb3' Hg4 Hf4' Hb4' HsI' Ho Hs0 Hs1 Hs2 Hs3 Hs4 HO]
  case region =>
    intro k _
    have hk7 : k.val < 7 := lt_of_lt_of_eq k.isLt htr1
    unfold Inv
    rw [dif_pos (show k.val ≤ 7 by omega), dif_pos (show k.val + 1 ≤ 7 by omega)]
    unfold InvOK slot flightD
    iintro ⟨Hmw, ⟨%fd0, %hr0, Hg0, Hf0, %x0, Hb0⟩, ⟨%fd1, %hr1, Hg1, Hf1, %x1, Hb1⟩, ⟨%fd2, %hr2, Hg2, Hf2, %x2, Hb2⟩,
      ⟨%fd3, %hr3, Hg3, Hf3, %x3, Hb3⟩, ⟨%fd4, %hr4, Hg4, Hf4, %x4, Hb4⟩, HsI, ⟨%fo', Ho, %hdone⟩, Hs0, Hs1, Hs2, Hs3, Hs4, %W', %hW', HO⟩

    obtain ⟨hw0, hw1, hw2, hw3, hw4⟩ := winP_chain L k hk7
    obtain ⟨hq0, hq1, hq2, hq3, hq4⟩ := rowP_chain d L k
    ihave Ho5 := (carve5 (F := F) fo' hw0 hw1 hw2 hw3 hw4) $$ Ho
    icases Ho5 with ⟨Hw0, Hw1, Hw2, Hw3, Hw4, Hor4⟩
    ihave Hw0' := (Entails.of_eq (show ((oTile L).view.loc (thr d L) ↦[(winP L k 0).view.set]{fullShare} fo' : sProp 𝕄)
      = (wP L k 0#32 (k0_off3_inb L k 0)).view.loc (thr d L) ↦[(wP L k 0#32 (k0_off3_inb L k 0)).view.set]{fullShare} fo' from rfl)) $$ Hw0
    ihave Hw1' := (Entails.of_eq (show ((oTile L).view.loc (thr d L) ↦[(winP L k 1).view.set]{fullShare} fo' : sProp 𝕄)
      = (wP L k 1#32 (k0_off3_inb L k 1)).view.loc (thr d L) ↦[(wP L k 1#32 (k0_off3_inb L k 1)).view.set]{fullShare} fo' from rfl)) $$ Hw1
    ihave Hw2' := (Entails.of_eq (show ((oTile L).view.loc (thr d L) ↦[(winP L k 2).view.set]{fullShare} fo' : sProp 𝕄)
      = (wP L k 2#32 (k0_off3_inb L k 2)).view.loc (thr d L) ↦[(wP L k 2#32 (k0_off3_inb L k 2)).view.set]{fullShare} fo' from rfl)) $$ Hw2
    ihave Hw3' := (Entails.of_eq (show ((oTile L).view.loc (thr d L) ↦[(winP L k 3).view.set]{fullShare} fo' : sProp 𝕄)
      = (wP L k 3#32 (k0_off3_inb L k 3)).view.loc (thr d L) ↦[(wP L k 3#32 (k0_off3_inb L k 3)).view.set]{fullShare} fo' from rfl)) $$ Hw3
    ihave Hw4' := (Entails.of_eq (show ((oTile L).view.loc (thr d L) ↦[(winP L k 4).view.set]{fullShare} fo' : sProp 𝕄)
      = (wP L k 4#32 (k0_off3_inb L k 4)).view.loc (thr d L) ↦[(wP L k 4#32 (k0_off3_inb L k 4)).view.set]{fullShare} fo' from rfl)) $$ Hw4
    ihave Hs5 := (carve5 (F := F) (ℓ := (sI).view.loc (thr d L)) (View.write (Elt F) (sI).view fsI (tile_body.sl.dma0 tbl d L) Finset.univ) hq0 hq1 hq2 hq3 hq4) $$ HsI
    icases Hs5 with ⟨Hq0, Hq1, Hq2, Hq3, Hq4, Hir4⟩
    ihave Hq0' := (Entails.of_eq (show ((sI).view.loc (thr d L) ↦[(rowP L k 0).view.set]{fullShare} (View.write (Elt F) (sI).view fsI (tile_body.sl.dma0 tbl d L) Finset.univ) : sProp 𝕄)
      = (rP L k 0#32 (k0_off4_inb L k 0)).view.loc (thr d L) ↦[(rP L k 0#32 (k0_off4_inb L k 0)).view.set]{fullShare} (View.write (Elt F) (sI).view fsI (tile_body.sl.dma0 tbl d L) Finset.univ) from rfl)) $$ Hq0
    ihave Hq1' := (Entails.of_eq (show ((sI).view.loc (thr d L) ↦[(rowP L k 1).view.set]{fullShare} (View.write (Elt F) (sI).view fsI (tile_body.sl.dma0 tbl d L) Finset.univ) : sProp 𝕄)
      = (rP L k 1#32 (k0_off4_inb L k 1)).view.loc (thr d L) ↦[(rP L k 1#32 (k0_off4_inb L k 1)).view.set]{fullShare} (View.write (Elt F) (sI).view fsI (tile_body.sl.dma0 tbl d L) Finset.univ) from rfl)) $$ Hq1
    ihave Hq2' := (Entails.of_eq (show ((sI).view.loc (thr d L) ↦[(rowP L k 2).view.set]{fullShare} (View.write (Elt F) (sI).view fsI (tile_body.sl.dma0 tbl d L) Finset.univ) : sProp 𝕄)
      = (rP L k 2#32 (k0_off4_inb L k 2)).view.loc (thr d L) ↦[(rP L k 2#32 (k0_off4_inb L k 2)).view.set]{fullShare} (View.write (Elt F) (sI).view fsI (tile_body.sl.dma0 tbl d L) Finset.univ) from rfl)) $$ Hq2
    ihave Hq3' := (Entails.of_eq (show ((sI).view.loc (thr d L) ↦[(rowP L k 3).view.set]{fullShare} (View.write (Elt F) (sI).view fsI (tile_body.sl.dma0 tbl d L) Finset.univ) : sProp 𝕄)
      = (rP L k 3#32 (k0_off4_inb L k 3)).view.loc (thr d L) ↦[(rP L k 3#32 (k0_off4_inb L k 3)).view.set]{fullShare} (View.write (Elt F) (sI).view fsI (tile_body.sl.dma0 tbl d L) Finset.univ) from rfl)) $$ Hq3
    ihave Hq4' := (Entails.of_eq (show ((sI).view.loc (thr d L) ↦[(rowP L k 4).view.set]{fullShare} (View.write (Elt F) (sI).view fsI (tile_body.sl.dma0 tbl d L) Finset.univ) : sProp 𝕄)
      = (rP L k 4#32 (k0_off4_inb L k 4)).view.loc (thr d L) ↦[(rP L k 4#32 (k0_off4_inb L k 4)).view.set]{fullShare} (View.write (Elt F) (sI).view fsI (tile_body.sl.dma0 tbl d L) Finset.univ) from rfl)) $$ Hq4
    sl_exec
    sl_step
    have hk8 : k.val + 1 ≤ 7 := by omega
    isplitl [Hmw]; · iexact Hmw
    isplitl [Hg0 Hf0 Hb0]
    · iapply ((slot_close m d L b0 cc0_scratch6.sem 0 _ k 0 hk8 _ x0
          (rowsAre_writes_P m d L b0 fd0 _ k 0 (hin _ _))).trans (Entails.of_eq (by unfold slot flightD; rfl))) $$ [Hg0 Hf0 Hb0]
      isplitl [Hg0]; · iexact Hg0
      isplitl [Hf0]; · iexact Hf0
      iexact Hb0
    isplitl [Hg1 Hf1 Hb1]
    · iapply ((slot_close m d L b1 cc0_scratch7.sem 1 _ k 1 hk8 _ x1
          (rowsAre_writes_P m d L b1 fd1 _ k 1 (hin _ _))).trans (Entails.of_eq (by unfold slot flightD; rfl))) $$ [Hg1 Hf1 Hb1]
      isplitl [Hg1]; · iexact Hg1
      isplitl [Hf1]; · iexact Hf1
      iexact Hb1
    isplitl [Hg2 Hf2 Hb2]
    · iapply ((slot_close m d L b2 cc0_scratch8.sem 2 _ k 2 hk8 _ x2
          (rowsAre_writes_P m d L b2 fd2 _ k 2 (hin _ _))).trans (Entails.of_eq (by unfold slot flightD; rfl))) $$ [Hg2 Hf2 Hb2]
      isplitl [Hg2]; · iexact Hg2
      isplitl [Hf2]; · iexact Hf2
      iexact Hb2
    isplitl [Hg3 Hf3 Hb3]
    · iapply ((slot_close m d L b3 cc0_scratch9.sem 3 _ k 3 hk8 _ x3
          (rowsAre_writes_P m d L b3 fd3 _ k 3 (hin _ _))).trans (Entails.of_eq (by unfold slot flightD; rfl))) $$ [Hg3 Hf3 Hb3]
      isplitl [Hg3]; · iexact Hg3
      isplitl [Hf3]; · iexact Hf3
      iexact Hb3
    isplitl [Hg4 Hf4 Hb4]
    · iapply ((slot_close m d L b4 cc0_scratch10.sem 4 _ k 4 hk8 _ x4
          (rowsAre_writes_P m d L b4 fd4 _ k 4 (hin _ _))).trans (Entails.of_eq (by unfold slot flightD; rfl))) $$ [Hg4 Hf4 Hb4]
      isplitl [Hg4]; · iexact Hg4
      isplitl [Hf4]; · iexact Hf4
      iexact Hb4
    isplitl [Hir4 Hg0_dst_and Hg1_dst_and Hg2_dst_and Hg3_dst_and Hg4_dst_and]
    · obtain ⟨j0, j1, j2, j3, j4⟩ := rowRet_chain d L k
      ihave Hr := (Entails.of_eq (congrArg (fun S => ((sI).view.loc (thr d L) ↦[S]{fullShare} (View.write (Elt F) (sI).view fsI (tile_body.sl.dma0 tbl d L) Finset.univ) : sProp 𝕄)) (rest_after_trip d L k))) $$ Hir4
      iapply (join5 j0 j1 j2 j3 j4 _ _ _ _ _ _ (View.write (Elt F) (sI).view fsI (tile_body.sl.dma0 tbl d L) Finset.univ) (fun _ _ => rfl) (fun _ _ => rfl) (fun _ _ => rfl) (fun _ _ => rfl) (fun _ _ => rfl) (fun _ _ => rfl)) $$ [Hg0_dst_and Hg1_dst_and Hg2_dst_and Hg3_dst_and Hg4_dst_and Hr]
      isplitl [Hg0_dst_and]; · iexact Hg0_dst_and
      isplitl [Hg1_dst_and]; · iexact Hg1_dst_and
      isplitl [Hg2_dst_and]; · iexact Hg2_dst_and
      isplitl [Hg3_dst_and]; · iexact Hg3_dst_and
      isplitl [Hg4_dst_and]; · iexact Hg4_dst_and
      iexact Hr
    isplitl [Hw0' Hw1' Hw2' Hw3' Hw4' Hor4]
    · obtain ⟨h, e0, e1, e2, e3, e4, er, hd⟩ := out_close m tbl d L _ hcI k hk7 fo' hdone _ _ _ _ _ hr0 hr1 hr2 hr3 hr4
      iexists h; isplitl [Hw0' Hw1' Hw2' Hw3' Hw4' Hor4]
      swap; · ipureintro; exact (show 5 * k.val + 5 = 5 * (k.val + 1) by omega) ▸ hd
      iapply (join5 (F := F) hw0 hw1 hw2 hw3 hw4 _ _ _ _ _ fo' h e0 e1 e2 e3 e4 er) $$ [Hw0' Hw1' Hw2' Hw3' Hw4' Hor4]
      isplitl [Hw0']; · iexact Hw0'
      isplitl [Hw1']; · iexact Hw1'
      isplitl [Hw2']; · iexact Hw2'
      isplitl [Hw3']; · iexact Hw3'
      isplitl [Hw4']; · iexact Hw4'
      iexact Hor4
    isplitl [Hs0]; · iexact Hs0
    isplitl [Hs1]; · iexact Hs1
    isplitl [Hs2]; · iexact Hs2
    isplitl [Hs3]; · iexact Hs3
    isplitl [Hs4]; · iexact Hs4
    iexists _; isplitr
    swap; · iexact HO
    ipureintro; intro p hp
    repeat (first | exact hW' p hp | (rcases Finset.mem_insert.mp hp with hq | hp; · exact .inr (hq ▸ rfl)))
  · unfold Inv
    rw [dif_pos (show (0 : Nat) ≤ 7 by omega)]
    unfold InvOK slot flightD
    isplitl [Hmw]; · iexact Hmw
    isplitl [Hg0 Hf0' Hb0']
    · iexists _; isplitr
      · ipureintro; exact rowsAre_writes m d L b0 f0 _ (5 * 0 + 0) (row_lt 0 0 (by omega) (by decide)) (hin _ _)
      isplitl [Hg0]; · iexact Hg0
      isplitl [Hf0']; · iexact Hf0'
      iexists _; iexact Hb0'
    isplitl [Hg1 Hf1' Hb1']
    · iexists _; isplitr
      · ipureintro; exact rowsAre_writes m d L b1 f1 _ (5 * 0 + 1) (row_lt 0 1 (by omega) (by decide)) (hin _ _)
      isplitl [Hg1]; · iexact Hg1
      isplitl [Hf1']; · iexact Hf1'
      iexists _; iexact Hb1'
    isplitl [Hg2 Hf2' Hb2']
    · iexists _; isplitr
      · ipureintro; exact rowsAre_writes m d L b2 f2 _ (5 * 0 + 2) (row_lt 0 2 (by omega) (by decide)) (hin _ _)
      isplitl [Hg2]; · iexact Hg2
      isplitl [Hf2']; · iexact Hf2'
      iexists _; iexact Hb2'
    isplitl [Hg3 Hf3' Hb3']
    · iexists _; isplitr
      · ipureintro; exact rowsAre_writes m d L b3 f3 _ (5 * 0 + 3) (row_lt 0 3 (by omega) (by decide)) (hin _ _)
      isplitl [Hg3]; · iexact Hg3
      isplitl [Hf3']; · iexact Hf3'
      iexists _; iexact Hb3'
    isplitl [Hg4 Hf4' Hb4']
    · iexists _; isplitr
      · ipureintro; exact rowsAre_writes m d L b4 f4 _ (5 * 0 + 4) (row_lt 0 4 (by omega) (by decide)) (hin _ _)
      isplitl [Hg4]; · iexact Hg4
      isplitl [Hf4']; · iexact Hf4'
      iexists _; iexact Hb4'
    isplitl [HsI']; · iexact HsI'
    isplitl [Ho]
    · iexists fo; isplitl [Ho]
      · iapply (Entails.of_eq (out_spelt_tile d L fo)); iexact Ho
      · ipureintro; intro y h1 h2; omega
    isplitl [Hs0]; · iexact Hs0
    isplitl [Hs1]; · iexact Hs1
    isplitl [Hs2]; · iexact Hs2
    isplitl [Hs3]; · iexact Hs3
    isplitl [Hs4]; · iexact Hs4
    iexists _; isplitr
    swap; · iexact HO
    ipureintro; intro p hp
    rcases Finset.mem_insert.mp hp with hp | hp
    · exact .inr (hp ▸ rfl)
    · exact .inl hp
  iintro %xacc HI

  ihave HI2 := (show Inv m d L tbl O W (View.write (Elt F) (sI).view fsI (tile_body.sl.dma0 tbl d L) Finset.univ)
      (Scf.trips (k0_t1_loop L).lb (k0_t1_loop L).ub (k0_t1_loop L).st) xacc
      ⊢ InvOK m d L tbl O W (View.write (Elt F) (sI).view fsI (tile_body.sl.dma0 tbl d L) Finset.univ) 7 (le_refl 7) from by
    rw [show Scf.trips (k0_t1_loop L).lb (k0_t1_loop L).ub (k0_t1_loop L).st = 7 from htr1]
    unfold Inv
    exact Entails.of_eq (dif_pos (le_refl 7))) $$ HI
  ihave HI3 := (show InvOK m d L tbl O W (View.write (Elt F) (sI).view fsI (tile_body.sl.dma0 tbl d L) Finset.univ) 7 (le_refl 7) ⊢ _ from by
    unfold InvOK slot flightD
    exact BI.Entails.refl _) $$ HI2
  icases HI3 with ⟨Hmw2, ⟨%fd0, %hr0, Hg0, Hf0, %x0, Hb0⟩, ⟨%fd1, %hr1, Hg1, Hf1, %x1, Hb1⟩, ⟨%fd2, %hr2, Hg2, Hf2, %x2, Hb2⟩,
    ⟨%fd3, %hr3, Hg3, Hf3, %x3, Hb3⟩, ⟨%fd4, %hr4, Hg4, Hf4, %x4, Hb4⟩, HsI, ⟨%fo', Ho, %hdone⟩, Hs0, Hs1, Hs2, Hs3, Hs4, %W', %hW', HO⟩

  obtain ⟨hw0, hw1, hw2, hw3, hw4⟩ := winE_chain L
  ihave Ho5 := (carve5 (F := F) fo' hw0 hw1 hw2 hw3 hw4) $$ Ho
  icases Ho5 with ⟨Hw0, Hw1, Hw2, Hw3, Hw4, Hor⟩
  ihave Hw0' := (Entails.of_eq (show ((oTile L).view.loc (thr d L) ↦[(winE L 0).view.set]{fullShare} fo' : sProp 𝕄)
      = (wE L 0#32 (k0_off9_inb L 0)).view.loc (thr d L) ↦[(wE L 0#32 (k0_off9_inb L 0)).view.set]{fullShare} fo' from rfl)) $$ Hw0
  ihave Hw1' := (Entails.of_eq (show ((oTile L).view.loc (thr d L) ↦[(winE L 1).view.set]{fullShare} fo' : sProp 𝕄)
      = (wE L 1#32 (k0_off9_inb L 1)).view.loc (thr d L) ↦[(wE L 1#32 (k0_off9_inb L 1)).view.set]{fullShare} fo' from rfl)) $$ Hw1
  ihave Hw2' := (Entails.of_eq (show ((oTile L).view.loc (thr d L) ↦[(winE L 2).view.set]{fullShare} fo' : sProp 𝕄)
      = (wE L 2#32 (k0_off9_inb L 2)).view.loc (thr d L) ↦[(wE L 2#32 (k0_off9_inb L 2)).view.set]{fullShare} fo' from rfl)) $$ Hw2
  ihave Hw3' := (Entails.of_eq (show ((oTile L).view.loc (thr d L) ↦[(winE L 3).view.set]{fullShare} fo' : sProp 𝕄)
      = (wE L 3#32 (k0_off9_inb L 3)).view.loc (thr d L) ↦[(wE L 3#32 (k0_off9_inb L 3)).view.set]{fullShare} fo' from rfl)) $$ Hw3
  ihave Hw4' := (Entails.of_eq (show ((oTile L).view.loc (thr d L) ↦[(winE L 4).view.set]{fullShare} fo' : sProp 𝕄)
      = (wE L 4#32 (k0_off9_inb L 4)).view.loc (thr d L) ↦[(wE L 4#32 (k0_off9_inb L 4)).view.set]{fullShare} fo' from rfl)) $$ Hw4
  sl_exec
  sl_step

  obtain ⟨ho, e0, e1, e2, e3, e4, er, hho⟩ := out_close_E m tbl d L _ hcI fo' hdone _ _ _ _ _ hr0 hr1 hr2 hr3 hr4
  ihave Ho6 := (join5 (F := F) hw0 hw1 hw2 hw3 hw4 _ _ _ _ _ fo' ho e0 e1 e2 e3 e4 er) $$ [Hw0' Hw1' Hw2' Hw3' Hw4' Hor]
  · isplitl [Hw0']; · iexact Hw0'
    isplitl [Hw1']; · iexact Hw1'
    isplitl [Hw2']; · iexact Hw2'
    isplitl [Hw3']; · iexact Hw3'
    isplitl [Hw4']; · iexact Hw4'
    iexact Hor
  ihave Ho7 := (Entails.of_eq ((done_all_tile m tbl d L ho hho).trans (out_spelt_tile d L (gathered m tbl d)).symm)) $$ Ho6

  ihave Hft := (Entails.of_eq e5.symm) $$ [Hf0 Hf1 Hf2 Hf3 Hf4]
  · isplitl [Hf0]; · iexact Hf0
    isplitl [Hf1]; · iexact Hf1
    isplitl [Hf2]; · iexact Hf2
    isplitl [Hf3]; · iexact Hf3
    iexact Hf4
  ihave Hf := (Transfers.pointsTo_toks_join (q := tileShare (cL L) (jL L)) 5) $$ [Hfr Hft]
  · isplitl [Hfr]; · iexact Hfr
    iexact Hft
  ihave Ht := (show iprop((featLoc d ↦{tileShare (cL L) (jL L)} m (featLoc d)) ∗ (idxLoc d ↦{tileShare (cL L) (jL L)} tbl d)
        ∗ (outLoc d ↦[tileSet (cL L) (jL L)]{fullShare} gathered m tbl d)) ⊢ (tileOut m tbl d (cL L) (jL L) : sProp 𝕄) from Entails.of_eq rfl) $$ [Hf Hi' Ho7]
  · isplitl [Hf]; · iexact Hf
    isplitl [Hi']; · iexact Hi'
    iexact Ho7

  obtain ⟨hq0, hq1, hq2, hq3, hq4⟩ := chain5 (α := Idx ((sI).view.loc (thr d L))) (S := Finset.univ) (fun r : Fin 5 => rowSet d L (5 * 7 + r.val) (by have := r.isLt; omega))
    (fun _ => Finset.subset_univ _) fun _ _ h => rows_disjoint d L _ _ fun e => h (Fin.ext (by omega))
  ihave HsIw := (join5 (F := F) (ℓ := (sI).view.loc (thr d L)) hq0 hq1 hq2 hq3 hq4 _ _ _ _ _ _ (View.write (Elt F) (sI).view fsI (tile_body.sl.dma0 tbl d L) Finset.univ)
      (fun _ _ => rfl) (fun _ _ => rfl) (fun _ _ => rfl) (fun _ _ => rfl) (fun _ _ => rfl) (fun _ _ => rfl)) $$ [Hg0_dst_and Hg1_dst_and Hg2_dst_and Hg3_dst_and Hg4_dst_and HsI]
  · isplitl [Hg0_dst_and]; · iexact Hg0_dst_and
    isplitl [Hg1_dst_and]; · iexact Hg1_dst_and
    isplitl [Hg2_dst_and]; · iexact Hg2_dst_and
    isplitl [Hg3_dst_and]; · iexact Hg3_dst_and
    isplitl [Hg4_dst_and]; · iexact Hg4_dst_and
    iexact HsI

  ihave Hb0w := (Entails.of_eq (show ((b0).view.loc (thr d L) ↦[(b0).view.set]{fullShare} fd0 : sProp 𝕄)
      = (thr d L).loc cc0_scratch1 ↦{fullShare} fd0 by rw [show (b0).view.set = Finset.univ from View.set_whole _])) $$ Hg0_dst
  ihave Hb1w := (Entails.of_eq (show ((b1).view.loc (thr d L) ↦[(b1).view.set]{fullShare} fd1 : sProp 𝕄)
      = (thr d L).loc cc0_scratch2 ↦{fullShare} fd1 by rw [show (b1).view.set = Finset.univ from View.set_whole _])) $$ Hg1_dst
  ihave Hb2w := (Entails.of_eq (show ((b2).view.loc (thr d L) ↦[(b2).view.set]{fullShare} fd2 : sProp 𝕄)
      = (thr d L).loc cc0_scratch3 ↦{fullShare} fd2 by rw [show (b2).view.set = Finset.univ from View.set_whole _])) $$ Hg2_dst
  ihave Hb3w := (Entails.of_eq (show ((b3).view.loc (thr d L) ↦[(b3).view.set]{fullShare} fd3 : sProp 𝕄)
      = (thr d L).loc cc0_scratch4 ↦{fullShare} fd3 by rw [show (b3).view.set = Finset.univ from View.set_whole _])) $$ Hg3_dst
  ihave Hb4w := (Entails.of_eq (show ((b4).view.loc (thr d L) ↦[(b4).view.set]{fullShare} fd4 : sProp 𝕄)
      = (thr d L).loc cc0_scratch5 ↦{fullShare} fd4 by rw [show (b4).view.set = Finset.univ from View.set_whole _])) $$ Hg4_dst
  isplitl [Ht]; · iexact Ht
  isplitl [HsIw Hb0w Hb1w Hb2w Hb3w Hb4w Hbufs]
  · isplitl [HsIw Hb0w Hb1w Hb2w Hb3w Hb4w]
    · isplitl [HsIw]; · iexists _; iexact HsIw
      isplitl [Hb0w]; · iexists _; iexact Hb0w
      isplitl [Hb1w]; · iexists _; iexact Hb1w
      isplitl [Hb2w]; · iexists _; iexact Hb2w
      isplitl [Hb3w]; · iexists _; iexact Hb3w
      iexists _; iexact Hb4w
    iexact Hbufs
  isplitl [Hg0 Hg1 Hg2 Hg3 Hg4 Hs0 Hs1 Hs2 Hs3 Hs4 Hc Hsems]
  · isplitl [Hg0 Hg1 Hg2 Hg3 Hg4 Hs0 Hs1 Hs2 Hs3 Hs4 Hc]
    · isplitl [Hg0]; · iexact Hg0
      isplitl [Hg1]; · iexact Hg1
      isplitl [Hg2]; · iexact Hg2
      isplitl [Hg3]; · iexact Hg3
      isplitl [Hg4]; · iexact Hg4
      isplitl [Hs0]; · iexact Hs0
      isplitl [Hs1]; · iexact Hs1
      isplitl [Hs2]; · iexact Hs2
      isplitl [Hs3]; · iexact Hs3
      isplitl [Hs4]; · iexact Hs4
      iexact Hc
    iexact Hsems

  iexists _; isplitr
  swap; · iexact HO
  ipureintro; intro p hp
  repeat (first | exact hW' p hp | (rcases Finset.mem_insert.mp hp with hq | hp; · exact .inr (hq ▸ rfl)))

end Task

end Cert.KernelIdeal.Hand

end
-- ==== Proof.ScTileObl.lean ====
import proofs.«207044_g16655883174581_fold_wed_m_811_16_alg».proof.Proof.ScDefs
import proofs.«207044_g16655883174581_fold_wed_m_811_16_alg».proof.Proof.ScSplit
import proofs.«207044_g16655883174581_fold_wed_m_811_16_alg».proof.Proof.ScTileDefs
import proofs.«207044_g16655883174581_fold_wed_m_811_16_alg».proof.Proof.ScTile
import proofs.«207044_g16655883174581_fold_wed_m_811_16_alg».proof.Proof.Gen.KernelIdeal.Skeleton
import Idealize.ShloMosaic.Lib.SparseCore.Launch
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable (m : (ℓ : Loc nD τ sig) → Buf (Elt F) ℓ) (tbl : (d : Dev nD) → Buf (Elt F) (idxLoc d))

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (coordsV c s)
          fW (Memref.isWhole_whole _) iW (Memref.isWhole_whole _) oW (Memref.isWhole_whole _) sI (Memref.isWhole_whole _)
          b0 (Memref.isWhole_whole _) b1 (Memref.isWhole_whole _) b2 (Memref.isWhole_whole _) b3 (Memref.isWhole_whole _) b4 (Memref.isWhole_whole _)
          cc0_scratch6 cc0_scratch7 cc0_scratch8 cc0_scratch9 cc0_scratch10 cc0_scratch11 cc0_scratch12 cc0_scratch13 cc0_scratch14 cc0_scratch15 cc0_scoped0) ⟨⟩ c s := rfl

omit [FloatOps F] in

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hT : ∀ d' i, (tbl d' i).toNat < 10000) : (K (F := F)).TileObl (D (F := F)) 𝒱 (P m tbl) v₀ 0 := by
  intro d c i O W hO _ _

  simp only [show (P m tbl).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m tbl d (coordsV ⟨_, hc.1⟩ ⟨_, hc.2⟩) hF hT O W hO).trans (wp_mono frame _ _ fun _ => obl_post)

end Cert.KernelIdeal.Hand

end
-- ==== Proof.ScRun.lean ====
import proofs.«207044_g16655883174581_fold_wed_m_811_16_alg».proof.Proof.ScSplit
import proofs.«207044_g16655883174581_fold_wed_m_811_16_alg».proof.Proof.Vals
import proofs.«207044_g16655883174581_fold_wed_m_811_16_alg».proof.Proof.HostVals
import proofs.«207044_g16655883174581_fold_wed_m_811_16_alg».proof.Proof.TcBody
import proofs.«207044_g16655883174581_fold_wed_m_811_16_alg».proof.Proof.ScGhost
import proofs.«207044_g16655883174581_fold_wed_m_811_16_alg».proof.Proof.ScMain
import proofs.«207044_g16655883174581_fold_wed_m_811_16_alg».proof.Proof.ScTileObl
import Idealize.ShloMosaic.Lib.SparseCore.Launch

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

variable (m : (ℓ : Loc nD τ sig) → Buf (Elt F) ℓ) (ρ : Dev nD → PrngReg)

variable [FloatOps F]

theorem tbl_lt (hsrc : ∀ d : Dev nD, Cert.Args.SrcInRange (m ((SparseCore.T d).loc main_arg1))) (d : Dev nD)
    (i : Idx (idxLoc d)) : (tblOf m d i).toNat < 10000 :=
  after_v30_lt (V0 m d) (hsrc d) i

def QC : PUnit × MemSt nD τ sig (Elt F) → Prop := fun r => ∀ c : Dev nD,
  r.2.mem ((SparseCore.T c).loc main_v33) = resOf m c
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_arg3) = m ((SparseCore.T c).loc main_arg3)
    ∧ r.2.mem ((SparseCore.T c).loc main_arg4) = m ((SparseCore.T c).loc main_arg4)
    ∧ r.2.mem ((SparseCore.T c).loc main_arg5) = m ((SparseCore.T c).loc main_arg5)
    ∧ r.2.mem ((SparseCore.T c).loc main_arg6) = m ((SparseCore.T c).loc main_arg6)
    ∧ r.2.mem ((SparseCore.T c).loc main_arg7) = m ((SparseCore.T c).loc main_arg7)
    ∧ r.2.mem ((SparseCore.T c).loc main_arg8) = m ((SparseCore.T c).loc main_arg8)
    ∧ r.2.mem ((SparseCore.T c).loc main_arg9) = m ((SparseCore.T c).loc main_arg9)
    ∧ r.2.mem ((SparseCore.T c).loc main_arg10) = m ((SparseCore.T c).loc main_arg10)
    ∧ r.2.mem ((SparseCore.T c).loc main_arg11) = m ((SparseCore.T c).loc main_arg11)

theorem run_main [∀ e, Nonempty (Elt F e)]
    (hsrc : ∀ d : Dev nD, Cert.Args.SrcInRange (m ((SparseCore.T d).loc main_arg1))) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (tblOf m)) facts v₀
    (fun q hq => match q with | 0 => nomatch hq)
    (fun q _ => match q with | 0 => tileObl m (tblOf m) facts (tbl_lt m hsrc))
    (fun q _ => match q with | 0 => SparseCore.Cfg.VecSplit.of_plain (vecSplit m (tblOf m)))
    m ρ main (fun d => iprop(Pipeline.cellsGhost cfgs (EP (F := F)) 0 d ∗ Pipeline.toksInit cfgs (EP (F := F)) 0 d))
    (FIN m (resOf m)) (u₀ (F := F)) (sep_elim_left.trans (hu₀ m (tblOf m))) (hmain m ρ) (fq m (resOf m)) (hfin m (resOf m))
    (QC m) (fun _ h c => h c)

end Cert.KernelIdeal.Hand

end
-- ==== Proof.Bits.Common.lean ====
import proofs.«207044_g16655883174581_fold_wed_m_811_16_alg».proof.Kernel
import proofs.«207044_g16655883174581_fold_wed_m_811_16_alg».proof.Proof.Gen.Kernel
import proofs.«207044_g16655883174581_fold_wed_m_811_16_alg».proof.Proof.Gen.Kernel.Launch
import Idealize.ShloMosaic.Lib.SparseCore.Launch
import Idealize.ShloMosaic.Lib.Pipeline.Kit
import Idealize.ShloMosaic.Lib.Transfers

noncomputable section

namespace Cert.Kernel.Hand

open Cert.Kernel Cert.Kernel.Gen

open Idealize.ShloMosaic
open Idealize.ShloMosaic.SparseCore.Cfg (HIx)
open Idealize.SL Idealize.SL.RA Idealize.SL.BI
open Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ

abbrev EH : Emb UH (MM F) := embL

def EP : Emb UP (MM F) := (Emb.inl : Emb UP (UP × Counters)).trans embR

instance EP_landsIn : (EP : Emb UP (MM F)).LandsIn (upEmb : UEmb _ (MM F)) := by unfold EP embR; infer_instance

example : CountersIn UU := inferInstance

end Cert.Kernel.Hand

end
-- ==== Proof.Bits.ScDefs.lean ====
import proofs.«207044_g16655883174581_fold_wed_m_811_16_alg».proof.Proof.Bits.Common
import Idealize.ShloMosaic.Lib.ValueIdx

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.Sem

variable {F : FTy → Type}

local notation "𝕄" => MM F

def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

def coreShare (c : Fin 2) : PosShare TreeShare := leaf 1 fullShare c
def tileShare (c : Fin 2) (i : Fin 16) : PosShare TreeShare := leaf 4 (coreShare c) i

abbrev featLoc (d : Dev nD) : Loc nD τ sig := (SparseCore.T d).loc main_arg0
abbrev idxLoc (d : Dev nD) : Loc nD τ sig := (SparseCore.T d).loc main_v30
abbrev outLoc (d : Dev nD) : Loc nD τ sig := (SparseCore.T d).loc main_v31

theorem outDiv : 32 ∣ S163840x128.size 0 := ⟨5120, rfl⟩

def tileNo (c : Fin 2) (i : Fin 16) : Fin 32 := ⟨16 * c.val + i.val, by omega⟩
abbrev tileRect (c : Fin 2) (i : Fin 16) : Rect S163840x128 := Rect.part (s := S163840x128) (a₀ := 0) outDiv (tileNo c i)
abbrev tileSet (c : Fin 2) (i : Fin 16) : Finset S163840x128.Idx := (tileRect c i).set

variable (m : (ℓ : Loc nD τ sig) → Buf (Elt F) ℓ)

variable (tbl : (d : Dev nD) → Buf (Elt F) (idxLoc d))

def gathered (d : Dev nD) : Buf (Elt F) (outLoc d) := fun y =>
  m (featLoc d) (ValueIdx.ix2
    (⟨(tbl d (ValueIdx.ix2 (⟨(y 0).val / 128, by have h : (y 0).val < 163840 := (y 0).isLt; omega⟩ : Fin 1320) (⟨(y 0).val % 128, Nat.mod_lt _ (by decide)⟩ : Fin 128))).toNat % 10000,
      Nat.mod_lt _ (by decide)⟩ : Fin 10000) (⟨(y 1).val, (y 1).isLt⟩ : Fin 128))

variable [FloatOps F]

abbrev featAt (d : Dev nD) (q : PosShare TreeShare) : sProp 𝕄 := featLoc d ↦{q} m (featLoc d)
abbrev idxAt (d : Dev nD) (q : PosShare TreeShare) : sProp 𝕄 := idxLoc d ↦{q} tbl d
abbrev outRows (d : Dev nD) (c : Fin 2) (i : Fin 16) (f : Buf (Elt F) (outLoc d)) : sProp 𝕄 := outLoc d ↦[tileSet c i]{fullShare} f

def coreIn (d : Dev nD) (c : Fin 2) : sProp 𝕄 :=
  iprop(featAt m d (coreShare c) ∗ idxAt tbl d (coreShare c) ∗ bigSep Finset.univ fun i : Fin 16 => iprop(∃ f, outRows d c i f))
def coreOut (d : Dev nD) (c : Fin 2) : sProp 𝕄 :=
  iprop(featAt m d (coreShare c) ∗ idxAt tbl d (coreShare c) ∗ bigSep Finset.univ fun i : Fin 16 => outRows d c i (gathered m tbl d))

def tileIn (d : Dev nD) (c : Fin 2) (i : Fin 16) : sProp 𝕄 :=
  iprop(featAt m d (tileShare c i) ∗ idxAt tbl d (tileShare c i) ∗ ∃ f, outRows d c i f)
def tileOut (d : Dev nD) (c : Fin 2) (i : Fin 16) : sProp 𝕄 :=
  iprop(featAt m d (tileShare c i) ∗ idxAt tbl d (tileShare c i) ∗ outRows d c i (gathered m tbl d))

def P : (K (F := F)).Pay (nD := nD) (Val := Elt F) (Name := ℕ) (U := UU) where
  st := fun q d c => match q with | 0 => coreIn m tbl d (Fin.cast nCore_zero c)
  dn := fun q d c => match q with | 0 => coreOut m tbl d (Fin.cast nCore_zero c)
  go := fun q d c i => match q with | 0 => tileIn m tbl d (Fin.cast nCore_zero c) (Fin.cast nSub_zero i)
  td := fun q d c i => match q with | 0 => tileOut m tbl d (Fin.cast nCore_zero c) (Fin.cast nSub_zero i)
  x := fun _ _ => iprop(emp)

instance P_storable : (P (F := F) m tbl).IsStorable where
  st q d c := match q with | 0 => by unfold P coreIn; dsimp only; infer_instance
  dn q d c := match q with | 0 => by unfold P coreOut; dsimp only; infer_instance
  go q d c i := match q with | 0 => by unfold P tileIn; dsimp only; infer_instance
  td q d c i := match q with | 0 => by unfold P tileOut; dsimp only; infer_instance

end Cert.Kernel.Hand

end
-- ==== Proof.Bits.ScSplit.lean ====
import proofs.«207044_g16655883174581_fold_wed_m_811_16_alg».proof.Proof.Bits.ScDefs

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

theorem pointsTo_halve {ℓ : Loc nD τ sig} (I : Finset (Idx ℓ)) (f : Buf (Elt F) ℓ) (q : PosShare TreeShare) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

theorem bigSep_halves {n : ℕ} (Φ : Fin (2 ^ (n + 1)) → sProp 𝕄) :
    bigSep Finset.univ Φ
      = iprop((bigSep Finset.univ fun a : Fin (2 ^ n) => Φ ⟨a.val, by have := a.isLt; omega⟩)
          ∗ bigSep Finset.univ fun b : Fin (2 ^ n) => Φ ⟨2 ^ n + b.val, by have := b.isLt; omega⟩) := by
  rw [bigSep_univ_equiv (finSumFinEquiv.trans (finCongr (by omega : 2 ^ n + 2 ^ n = 2 ^ (n + 1)))) Φ, bigSep_univ_sum]
  rfl

theorem pointsTo_leaves {ℓ : Loc nD τ sig} (I : Finset (Idx ℓ)) (f : Buf (Elt F) ℓ) (n : ℕ) (q : PosShare TreeShare) :
    (ℓ ↦[I]{q} f : sProp 𝕄) = bigSep Finset.univ fun i : Fin (2 ^ n) => ℓ ↦[I]{leaf n q i} f := by
  induction n generalizing q with
  | zero =>
    exact (bigSep_univ_of_subsingleton (0 : Fin 1) (Φ := fun i : Fin 1 => (ℓ ↦[I]{leaf 0 q i} f : sProp 𝕄))).symm
  | succ n ih =>
    rw [pointsTo_halve, ih q.left, ih q.right, bigSep_halves]
    congr 1
    · refine bigSep_congr fun a _ => ?_
      show _ = ℓ ↦[I]{leaf (n + 1) q ⟨a.val, _⟩} f
      rw [leaf, dif_pos a.isLt]
    · refine bigSep_congr fun b _ => ?_
      show _ = ℓ ↦[I]{leaf (n + 1) q ⟨2 ^ n + b.val, _⟩} f
      rw [leaf, dif_neg (by simp)]
      congr 2
      exact Fin.ext (by simp)

variable (m : (ℓ : Loc nD τ sig) → Buf (Elt F) ℓ)
variable (tbl : (d : Dev nD) → Buf (Elt F) (idxLoc d))

theorem at_cores {ℓ : Loc nD τ sig} (f : Buf (Elt F) ℓ) :
    (ℓ ↦{fullShare} f : sProp 𝕄) = bigSep Finset.univ fun c : Fin 2 => ℓ ↦{coreShare c} f :=
  pointsTo_leaves Finset.univ f 1 fullShare

theorem at_tiles {ℓ : Loc nD τ sig} (f : Buf (Elt F) ℓ) (c : Fin 2) :
    (ℓ ↦{coreShare c} f : sProp 𝕄) = bigSep Finset.univ fun i : Fin 16 => ℓ ↦{tileShare c i} f :=
  pointsTo_leaves Finset.univ f 4 (coreShare c)

theorem tileNo_inj {c c' : Fin 2} {i i' : Fin 16} (h : tileNo c i = tileNo c' i') : c = c' ∧ i = i' := by
  have h' : 16 * c.val + i.val = 16 * c'.val + i'.val := congrArg Fin.val h
  exact ⟨Fin.ext (by omega), Fin.ext (by omega)⟩

theorem tileNo_surj (w : Fin 32) : ∃ (c : Fin 2) (i : Fin 16), tileNo c i = w :=
  ⟨⟨w.val / 16, by omega⟩, ⟨w.val % 16, by omega⟩, Fin.ext (by show 16 * (w.val / 16) + w.val % 16 = w.val; omega)⟩

theorem tiles_disjoint : ∀ x ∈ (Finset.univ : Finset (Fin 2 × Fin 16)), ∀ y ∈ (Finset.univ : Finset (Fin 2 × Fin 16)),
    x ≠ y → Disjoint (tileSet x.1 x.2) (tileSet y.1 y.2) :=
  fun _ _ _ _ h => Rect.part_disjoint outDiv fun e => h (Prod.ext (tileNo_inj e).1 (tileNo_inj e).2)

theorem tiles_cover : (Finset.univ : Finset (Fin 2 × Fin 16)).biUnion (fun x => tileSet x.1 x.2) = Finset.univ := by
  ext y
  simp only [Finset.mem_biUnion, Finset.mem_univ, true_and, iff_true]
  obtain ⟨w, hw⟩ := Rect.exists_mem_part outDiv y
  obtain ⟨c, i, rfl⟩ := tileNo_surj w
  exact ⟨(c, i), hw⟩

theorem out_tiles (d : Dev nD) (f : Buf (Elt F) (outLoc d)) :
    (outLoc d ↦{fullShare} f : sProp 𝕄)
      = bigSep Finset.univ fun c : Fin 2 => bigSep Finset.univ fun i : Fin 16 => outRows d c i f := by
  rw [← bigSep_univ_prod (fun x : Fin 2 × Fin 16 => outRows d x.1 x.2 f),
    ← pointsTo_biUnion Finset.univ (ℓ := outLoc d) (fun x : Fin 2 × Fin 16 => tileSet x.1 x.2) tiles_disjoint, tiles_cover]

theorem out_tiles_some (d : Dev nD) (f : Buf (Elt F) (outLoc d)) :
    (outLoc d ↦{fullShare} f : sProp 𝕄)
      ⊢ bigSep Finset.univ fun c : Fin 2 => bigSep Finset.univ fun i : Fin 16 => iprop(∃ g, outRows d c i g) := by
  rw [out_tiles]
  refine bigSep_mono fun c _ => bigSep_mono fun i _ => ?_
  refine (show (outRows d c i f : sProp 𝕄) ⊢ iprop(∃ g, outRows d c i g) from ?_)
  iintro H; iexists f; iexact H

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem cores_in (d : Dev nD) (f : Buf (Elt F) (outLoc d)) :
    iprop(featAt m d fullShare ∗ idxAt tbl d fullShare ∗ outLoc d ↦{fullShare} f)
      ⊢ (bigSep Finset.univ fun c : Fin 2 => coreIn m tbl d c : sProp 𝕄) := by
  unfold coreIn
  rw [bigSep_sep', bigSep_sep', ← at_cores (m (featLoc d)), ← at_cores (tbl d)]
  iintro ⟨Hf, Hi, Ho⟩
  isplitl [Hf]; · iexact Hf
  isplitl [Hi]; · iexact Hi
  iapply (out_tiles_some d f); iexact Ho

theorem cores_out (d : Dev nD) :
    (bigSep Finset.univ fun c : Fin 2 => coreOut m tbl d c : sProp 𝕄)
      = iprop(featAt m d fullShare ∗ idxAt tbl d fullShare ∗ outLoc d ↦{fullShare} gathered m tbl d) := by
  unfold coreOut
  rw [bigSep_sep', bigSep_sep', ← at_cores (m (featLoc d)), ← at_cores (tbl d), ← out_tiles]

variable [FloatOps F]

theorem vecSplit : (K (F := F)).VecSplit' (P m tbl) 0 := by
  intro d c
  unfold P; dsimp only
  generalize Fin.cast nCore_zero c = c'
  rw [bigSep_tasks (F := F) (fun i => tileIn m tbl d c' i), bigSep_tasks (F := F) (fun i => tileOut m tbl d c' i)]
  unfold coreIn coreOut tileIn tileOut
  rw [bigSep_sep', bigSep_sep', bigSep_sep', bigSep_sep', ← at_tiles (m (featLoc d)) c', ← at_tiles (tbl d) c']
  iintro H; imodintro
  isplitl [H]; · iexact H
  iintro H; iexact H

end Cert.Kernel.Hand

end
-- ==== Proof.Bits.HostOps.lean ====
import proofs.«207044_g16655883174581_fold_wed_m_811_16_alg».proof.Proof.Gen.Kernel
import Idealize.ShloMosaic.Lib.StableHlo.Run

noncomputable section

namespace Cert.Kernel.Hand

open Cert.Kernel Cert.Kernel.Gen Idealize.ShloMosaic Idealize.ShloMosaic.TcCoe Idealize.SL.Sem

variable {F : FTy → Type} [FloatOps F]

abbrev hostOpsA : List (HloOp τ sig (Elt F)) :=
  [ StableHlo.nullary main_cst (constant S_ .f32 0x3727C5AC#32),
    StableHlo.unary main_cst main_v0 (broadcastInDim S128 ![] bcast_S_S128 : (⟨S_, .f32⟩ : BufTy).Contents (Elt F) → (⟨S128, .f32⟩ : BufTy).Contents (Elt F)),
    StableHlo.binary main_arg5 main_v0 main_v1 (addf : (⟨S128, .f32⟩ : BufTy).Contents (Elt F) → (⟨S128, .f32⟩ : BufTy).Contents (Elt F) → (⟨S128, .f32⟩ : BufTy).Contents (Elt F)),
    StableHlo.unary main_v1 main_v2 (Host.rsqrt : (⟨S128, .f32⟩ : BufTy).Contents (Elt F) → (⟨S128, .f32⟩ : BufTy).Contents (Elt F)),
    StableHlo.binary main_arg2 main_v2 main_v3 (mulf : (⟨S128, .f32⟩ : BufTy).Contents (Elt F) → (⟨S128, .f32⟩ : BufTy).Contents (Elt F) → (⟨S128, .f32⟩ : BufTy).Contents (Elt F)),
    StableHlo.binary main_arg4 main_v3 main_v4 (mulf : (⟨S128, .f32⟩ : BufTy).Contents (Elt F) → (⟨S128, .f32⟩ : BufTy).Contents (Elt F) → (⟨S128, .f32⟩ : BufTy).Contents (Elt F)),
    StableHlo.binary main_arg3 main_v4 main_v5 (subf : (⟨S128, .f32⟩ : BufTy).Contents (Elt F) → (⟨S128, .f32⟩ : BufTy).Contents (Elt F) → (⟨S128, .f32⟩ : BufTy).Contents (Elt F)),
    StableHlo.unary main_v3 main_v6 (broadcastInDim S128x1 ![0] bcast_S128_S128x1_0 : (⟨S128, .f32⟩ : BufTy).Contents (Elt F) → (⟨S128x1, .f32⟩ : BufTy).Contents (Elt F)),
    StableHlo.unary main_arg6 main_v7 ((transpose S128x384 [1, 0] · transposes_S384x128_S128x384_1_0) : (⟨S384x128, .f32⟩ : BufTy).Contents (Elt F) → (⟨S128x384, .f32⟩ : BufTy).Contents (Elt F)),
    StableHlo.unary main_v6 main_v8 (broadcastInDim S128x384 ![0, 1] bcast_S128x1_S128x384_0_1 : (⟨S128x1, .f32⟩ : BufTy).Contents (Elt F) → (⟨S128x384, .f32⟩ : BufTy).Contents (Elt F)),
    StableHlo.binary main_v8 main_v7 main_v9 (mulf : (⟨S128x384, .f32⟩ : BufTy).Contents (Elt F) → (⟨S128x384, .f32⟩ : BufTy).Contents (Elt F) → (⟨S128x384, .f32⟩ : BufTy).Contents (Elt F)),
    StableHlo.unary main_arg6 main_v10 ((transpose S128x384 [1, 0] · transposes_S384x128_S128x384_1_0) : (⟨S384x128, .f32⟩ : BufTy).Contents (Elt F) → (⟨S128x384, .f32⟩ : BufTy).Contents (Elt F)),
    StableHlo.binary main_v5 main_v10 main_v11 ((fun l r => Host.dotGeneral dot_S128_S128x384_S384_0_0_n_1_n_n none l r) : (⟨S128, .f32⟩ : BufTy).Contents (Elt F) → (⟨S128x384, .f32⟩ : BufTy).Contents (Elt F) → (⟨S384, .f32⟩ : BufTy).Contents (Elt F)),
    StableHlo.binary main_v11 main_arg8 main_v12 (addf : (⟨S384, .f32⟩ : BufTy).Contents (Elt F) → (⟨S384, .f32⟩ : BufTy).Contents (Elt F) → (⟨S384, .f32⟩ : BufTy).Contents (Elt F)),
    StableHlo.unary main_v12 main_v13 (broadcastInDim S1x384 ![1] bcast_S384_S1x384_1 : (⟨S384, .f32⟩ : BufTy).Contents (Elt F) → (⟨S1x384, .f32⟩ : BufTy).Contents (Elt F)),
    StableHlo.unary main_arg7 main_v14 ((transpose S128x384 [1, 0] · transposes_S384x128_S128x384_1_0) : (⟨S384x128, .f32⟩ : BufTy).Contents (Elt F) → (⟨S128x384, .f32⟩ : BufTy).Contents (Elt F)),
    StableHlo.unary main_arg9 main_v15 (broadcastInDim S1x384 ![1] bcast_S384_S1x384_1 : (⟨S384, .f32⟩ : BufTy).Contents (Elt F) → (⟨S1x384, .f32⟩ : BufTy).Contents (Elt F)),
    StableHlo.unary main_v3 main_v16 (broadcastInDim S128x1 ![0] bcast_S128_S128x1_0 : (⟨S128, .f32⟩ : BufTy).Contents (Elt F) → (⟨S128x1, .f32⟩ : BufTy).Contents (Elt F)),
    StableHlo.unary main_arg10 main_v17 ((transpose S128x128 [1, 0] · transposes_S128x128_S128x128_1_0) : (⟨S128x128, .f32⟩ : BufTy).Contents (Elt F) → (⟨S128x128, .f32⟩ : BufTy).Contents (Elt F)),
    StableHlo.unary main_v16 main_v18 (broadcastInDim S128x128 ![0, 1] bcast_S128x1_S128x128_0_1 : (⟨S128x1, .f32⟩ : BufTy).Contents (Elt F) → (⟨S128x128, .f32⟩ : BufTy).Contents (Elt F)),
    StableHlo.binary main_v18 main_v17 main_v19 (mulf : (⟨S128x128, .f32⟩ : BufTy).Contents (Elt F) → (⟨S128x128, .f32⟩ : BufTy).Contents (Elt F) → (⟨S128x128, .f32⟩ : BufTy).Contents (Elt F)),
    StableHlo.unary main_arg10 main_v20 ((transpose S128x128 [1, 0] · transposes_S128x128_S128x128_1_0) : (⟨S128x128, .f32⟩ : BufTy).Contents (Elt F) → (⟨S128x128, .f32⟩ : BufTy).Contents (Elt F)),
    StableHlo.binary main_v5 main_v20 main_v21 ((fun l r => Host.dotGeneral dot_S128_S128x128_S128_0_0_n_1_n_n none l r) : (⟨S128, .f32⟩ : BufTy).Contents (Elt F) → (⟨S128x128, .f32⟩ : BufTy).Contents (Elt F) → (⟨S128, .f32⟩ : BufTy).Contents (Elt F)),
    StableHlo.unary main_v21 main_v22 (broadcastInDim S1x128 ![1] bcast_S128_S1x128_1 : (⟨S128, .f32⟩ : BufTy).Contents (Elt F) → (⟨S1x128, .f32⟩ : BufTy).Contents (Elt F)),
    StableHlo.unary main_arg11 main_v23 ((transpose S128x128 [1, 0] · transposes_S128x128_S128x128_1_0) : (⟨S128x128, .f32⟩ : BufTy).Contents (Elt F) → (⟨S128x128, .f32⟩ : BufTy).Contents (Elt F)),
    StableHlo.unary main_arg1 main_v24 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v24 main_v25 rfl shapeCasts_S1x160000_S160000,
    StableHlo.reshape main_v25 main_v26 rfl shapeCasts_S160000_S10000x16,
    StableHlo.unary main_v26 main_v27 ((transpose S16x10000 [1, 0] · transposes_S10000x16_S16x10000_1_0) : (⟨S10000x16, .i32⟩ : BufTy).Contents (Elt F) → (⟨S16x10000, .i32⟩ : BufTy).Contents (Elt F)),
    StableHlo.nullary main_c (constantI S_ 32 0#32),
    StableHlo.TRef.unary (.of main_c : StableHlo.TRef sig ⟨S_, .i32⟩) main_call0.v0 id,
    StableHlo.TRef.binary (.of main_v27 : StableHlo.TRef sig ⟨S16x10000, .i32⟩) main_call0.v0 main_call0.v1 (fun x v => pad S16x10240 ![0, 0] ![0, 240] ![0, 0] x v pads_S16x10000_S16x10240_000_02400 h_S_),
    StableHlo.reshape main_v28 main_v29 rfl shapeCasts_S16x10240_S1280x128,
    StableHlo.nullary main_c_0 (constantI S_ 32 0#32),
    StableHlo.TRef.unary (.of main_c_0 : StableHlo.TRef sig ⟨S_, .i32⟩) main_call1.v0 id,
    StableHlo.TRef.binary (.of main_v29 : StableHlo.TRef sig ⟨S1280x128, .i32⟩) main_call1.v0 main_call1.v1 (fun x v => pad S1320x128 ![0, 0] ![40, 0] ![0, 0] x v pads_S1280x128_S1320x128_0400_000 h_S_) ]

abbrev hostOpsB : List (HloOp τ sig (Elt F)) :=
  [ StableHlo.reshape main_v31 main_v32 rfl shapeCasts_S163840x128_S16x10240x128 ]

set_option maxRecDepth 2048 in

theorem main_eq (d : Dev nD) :
    main (F := F) d = (StableHlo.seq hostOpsA >>= fun _ => sc.run d 0 >>= fun _ => StableHlo.seq hostOpsB >>= fun _ =>
      Prog.lift (.customCall (SparseCore.inner (Pipeline.entry 0)) ()) >>= fun _ => pure ⟨⟩) := by
  simp only [main, fn_pad.body, fn_pad_0.body, StableHlo.seq, bind_assoc, pure_bind]

theorem hostOpsA_sub : (hostOpsA : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.reshape_bufs_sub .., StableHlo.reshape_bufs_sub .., StableHlo.unary_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub ..⟩

theorem hostOpsB_sub : (hostOpsB : List (HloOp τ sig (Elt F))).Forall fun op => op.bufs ⊆ StableHlo.tcRefs τ sig :=
  StableHlo.reshape_bufs_sub ..

theorem hostOpsA_fresh : (hostOpsA : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem hostOpsB_fresh : (hostOpsB : List (HloOp τ sig (Elt F))).Forall fun op => op.fresh = ∅ := by
  simp only [List.Forall]; rfl

end Cert.Kernel.Hand

end
-- ==== Proof.Bits.Vals.lean ====
import proofs.«207044_g16655883174581_fold_wed_m_811_16_alg».proof.Proof.Bits.HostOps
import proofs.«207044_g16655883174581_fold_wed_m_811_16_alg».proof.Proof.Bits.ScDefs

noncomputable section

namespace Cert.Kernel.Hand

open Cert.Kernel Cert.Kernel.Gen
open Idealize.ShloMosaic Idealize.ShloMosaic.TcCoe Idealize.SL.Sem

variable {F : FTy → Type} [FloatOps F] (m : (ℓ : Loc nD τ sig) → Buf (Elt F) ℓ)

def V0 (d : Dev nD) : Valuation τ sig (Elt F) := fun b => m (d, b)

def VA (d : Dev nD) : Valuation τ sig (Elt F) := StableHlo.after hostOpsA (V0 m d)

def tblOf (d : Dev nD) : Buf (Elt F) (idxLoc d) := VA m d (Proc.devRef .tc main_v30)

def VB (d : Dev nD) : Valuation τ sig (Elt F) := Function.update (VA m d) (Proc.devRef .tc main_v31) (gathered m (tblOf m) d)

def VC (d : Dev nD) : Valuation τ sig (Elt F) := StableHlo.after hostOpsB (VB m d)

def Vreg (d : Dev nD) (b : Ref sig .tc) : Buf (Elt F) ((d : Thread nD τ).loc b) := VC m d (Proc.devRef .tc b)

end Cert.Kernel.Hand

end
-- ==== Proof.Bits.HostVals.lean ====
import proofs.«207044_g16655883174581_fold_wed_m_811_16_alg».proof.Proof.Bits.HostOps
import proofs.«207044_g16655883174581_fold_wed_m_811_16_alg».proof.Proof.Args
import Idealize.ShloMosaic.Lib.ValueLayout
import Idealize.ShloMosaic.Lib.KernelVsHost

noncomputable section

namespace Cert.Kernel.Hand

open Cert.Kernel Cert.Kernel.Gen Idealize.ShloMosaic Idealize.ShloMosaic.TcCoe Idealize.SL.Sem

variable {F : FTy → Type} [FloatOps F]

def srcT (edge : IVec S2x160000 32) : IVec S16x10000 32 :=
  transpose S16x10000 [1, 0]
    (shapeCast S10000x16 (shapeCast S160000 (extractStridedSlice S1x160000 ![0, 0] edge slices_S2x160000_S1x160000_0_0)
      shapeCasts_S1x160000_S160000) shapeCasts_S160000_S10000x16)
    transposes_S10000x16_S16x10000_1_0

def tableT (edge : IVec S2x160000 32) : IVec S1320x128 32 :=
  pad S1320x128 ![0, 0] ![40, 0] ![0, 0]
    (shapeCast S1280x128 (pad S16x10240 ![0, 0] ![0, 240] ![0, 0] (srcT edge) (constantI S_ 32 0#32)
      pads_S16x10000_S16x10240_000_02400 h_S_) shapeCasts_S16x10240_S1280x128)
    (constantI S_ 32 0#32) pads_S1280x128_S1320x128_0400_000 h_S_

section After
open StableHlo

theorem after_v30 (V : Valuation τ sig (Elt F)) : after hostOpsA V (Proc.devRef .tc main_v30) = tableT (V (Proc.devRef .tc main_arg1)) := by
  after_results_simp; rfl

def writtenA : List (Ref sig .tc) :=
  [main_cst, main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_c, main_call0_v0, main_v28, main_v29, main_c_0, main_call1_v0, main_v30]

private theorem single_sub_written {y : Ref sig .tc} (hy : y ∈ writtenA) :
    ({Proc.devRef (τ := τ) .tc y} : Finset (DevRef τ sig)) ⊆ (writtenA.map (Proc.devRef (τ := τ) .tc)).toFinset :=
  Finset.singleton_subset_iff.2 (List.mem_toFinset.2 (List.mem_map.2 ⟨y, hy, rfl⟩))

theorem hostOpsA_writes : (hostOpsA : List (HloOp τ sig (Elt F))).Forall fun op =>
    op.writes ⊆ (writtenA.map (Proc.devRef (τ := τ) .tc)).toFinset := by
  simp only [List.Forall]
  repeat' apply And.intro
  all_goals exact single_sub_written (by decide)

theorem after_of_not_written (V : Valuation τ sig (Elt F)) {r : Ref sig .tc} (hr : r ∉ writtenA) :
    after hostOpsA V (Proc.devRef .tc r) = V (Proc.devRef .tc r) :=
  after_of_writes_sub hostOpsA V hostOpsA_writes hr

theorem after_arg0 (V : Valuation τ sig (Elt F)) : after hostOpsA V (Proc.devRef .tc main_arg0) = V (Proc.devRef .tc main_arg0) :=
  after_of_not_written V (by decide)

end After

section TableAtIndex
open ValueIdx

theorem srcT_apply (e : IVec S2x160000 32) (t : Fin 16) (n : Fin 10000) :
    srcT e (ix2 t n) = e (ix2 (0 : Fin 2) (⟨16 * n.val + t.val, by omega⟩ : Fin 160000)) := by
  unfold srcT
  refine (transpose_ix2_apply _ _ t n).trans ?_
  refine (shapeCast_apply _ _ _ (ix1 (⟨16 * n.val + t.val, by omega⟩ : Fin 160000)) ?_).trans ?_
  · rw [Shape.rowMajor_val_one, Shape.rowMajor_val_two]
    show 16 * n.val + t.val = n.val * 16 + t.val
    omega
  refine (shapeCast_apply _ _ _ (ix2 (0 : Fin 1) (⟨16 * n.val + t.val, by omega⟩ : Fin 160000)) ?_).trans ?_
  · rw [Shape.rowMajor_val_two, Shape.rowMajor_val_one]
    show 0 * 160000 + (16 * n.val + t.val) = 16 * n.val + t.val
    omega
  exact extractStridedSlice_apply _ _ _ _ (ix2 (0 : Fin 2) (⟨16 * n.val + t.val, by omega⟩ : Fin 160000)) fun a =>
    match a with
    | ⟨0, _⟩ => rfl
    | ⟨1, _⟩ => by show 16 * n.val + t.val = 0 + (16 * n.val + t.val); omega

theorem tableT_apply_node (e : IVec S2x160000 32) (ch : Fin 1320) (l : Fin 128) (t : Fin 16) (n : Fin 10000)
    (h : 128 * ch.val + l.val = 10240 * t.val + n.val) :
    tableT e (ix2 ch l) = e (ix2 (0 : Fin 2) (⟨16 * n.val + t.val, by omega⟩ : Fin 160000)) := by
  unfold tableT
  refine (pad_apply_of_inside _ _ _ _ _ _ _ _ (ix2 (⟨ch.val, by omega⟩ : Fin 1280) l) ?_).trans ?_
  · intro a
    match a with
    | ⟨0, _⟩ => show ch.val = 0 + ch.val * (0 + 1); omega
    | ⟨1, _⟩ => show l.val = 0 + l.val * (0 + 1); omega
  refine (shapeCast_apply _ _ _ (ix2 t (⟨n.val, by omega⟩ : Fin 10240)) ?_).trans ?_
  · rw [Shape.rowMajor_val_two, Shape.rowMajor_val_two]
    show t.val * 10240 + n.val = ch.val * 128 + l.val
    omega
  refine (pad_apply_of_inside _ _ _ _ _ _ _ _ (ix2 t n) ?_).trans (srcT_apply e t n)
  intro a
  match a with
  | ⟨0, _⟩ => show t.val = 0 + t.val * (0 + 1); omega
  | ⟨1, _⟩ => show n.val = 0 + n.val * (0 + 1); omega

theorem tableT_apply_gap (e : IVec S2x160000 32) (ch : Fin 1320) (l : Fin 128) (t : Fin 16) (n : Nat) (hn : 10000 ≤ n)
    (hn' : n < 10240) (h : 128 * ch.val + l.val = 10240 * t.val + n) : tableT e (ix2 ch l) = 0#32 := by
  unfold tableT
  refine (pad_apply_of_inside _ _ _ _ _ _ _ _ (ix2 (⟨ch.val, by omega⟩ : Fin 1280) l) ?_).trans ?_
  · intro a
    match a with
    | ⟨0, _⟩ => show ch.val = 0 + ch.val * (0 + 1); omega
    | ⟨1, _⟩ => show l.val = 0 + l.val * (0 + 1); omega
  refine (shapeCast_apply _ _ _ (ix2 t (⟨n, hn'⟩ : Fin 10240)) ?_).trans ?_
  · rw [Shape.rowMajor_val_two, Shape.rowMajor_val_two]
    show t.val * 10240 + n = ch.val * 128 + l.val
    omega
  refine (pad_apply_of_not_inside _ _ _ _ _ _ _ _ (1 : Fin 2) ?_).trans rfl
  show ¬(0 ≤ n ∧ (n - 0) % (0 + 1) = 0 ∧ (n - 0) / (0 + 1) < 10000)
  omega

theorem tableT_apply_tail (e : IVec S2x160000 32) (ch : Fin 1320) (l : Fin 128) (hch : 1280 ≤ ch.val) :
    tableT e (ix2 ch l) = 0#32 := by
  unfold tableT
  refine (pad_apply_of_not_inside _ _ _ _ _ _ _ _ (0 : Fin 2) ?_).trans rfl
  show ¬(0 ≤ ch.val ∧ (ch.val - 0) % (0 + 1) = 0 ∧ (ch.val - 0) / (0 + 1) < 1280)
  omega

theorem tableT_apply (e : IVec S2x160000 32) (ch : Fin 1320) (l : Fin 128) (hch : ch.val < 1280) :
    tableT e (ix2 ch l)
      = if h : (128 * ch.val + l.val) % 10240 < 10000 then
          e (ix2 (0 : Fin 2) (⟨16 * ((128 * ch.val + l.val) % 10240) + (128 * ch.val + l.val) / 10240, by omega⟩ : Fin 160000))
        else 0#32 := by
  split
  · rename_i h
    exact tableT_apply_node e ch l (⟨(128 * ch.val + l.val) / 10240, by omega⟩ : Fin 16)
      (⟨(128 * ch.val + l.val) % 10240, h⟩ : Fin 10000) (by show _ = 10240 * ((128 * ch.val + l.val) / 10240) + (128 * ch.val + l.val) % 10240; omega)
  · rename_i h
    exact tableT_apply_gap e ch l (⟨(128 * ch.val + l.val) / 10240, by omega⟩ : Fin 16) ((128 * ch.val + l.val) % 10240)
      (by omega) (by omega) (by show _ = 10240 * ((128 * ch.val + l.val) / 10240) + (128 * ch.val + l.val) % 10240; omega)

theorem tableT_lt (e : IVec S2x160000 32) (he : Cert.Args.SrcInRange e) (i : S1320x128.Idx) : (tableT e i).toNat < 10000 := by
  obtain ⟨ch, l, rfl⟩ : ∃ (ch : Fin 1320) (l : Fin 128), i = ix2 ch l := ⟨i 0, i 1, eq_ix2 i⟩
  by_cases hch : ch.val < 1280
  · rw [tableT_apply e ch l hch]
    split
    · exact he _
    · decide
  · rw [tableT_apply_tail e ch l (by omega)]
    decide

end TableAtIndex

open StableHlo in
theorem after_v30_lt (V : Valuation τ sig (Elt F)) (he : Cert.Args.SrcInRange (V (Proc.devRef .tc main_arg1)))
    (i : S1320x128.Idx) : ((after hostOpsA V (Proc.devRef .tc main_v30) : IVec S1320x128 32) i).toNat < 10000 := by
  rw [after_v30]
  exact tableT_lt _ he i

end Cert.Kernel.Hand

end
-- ==== Proof.Bits.TcDefs.lean ====
import proofs.«207044_g16655883174581_fold_wed_m_811_16_alg».proof.Proof.Gen.Kernel.Skeleton

noncomputable section

namespace Cert.Kernel.Hand

open Idealize.ShloMosaic Cert.Kernel Cert.Kernel.Gen

variable {F : FTy → Type} [FloatOps F]

def hidden16 (xs : Vec F S16x400x128 .f32) (wih whh : Vec F S128x384 .f32) (bih bhh : Vec F S1x384 .f32) : FVec F S400x128 .f32 :=
  let v3 := k1_pay2 whh
  let v7 := k1_pay3 bhh
  let v13 := k1_pay4 wih bih xs
  let v99 := k1_pay10 v3 v7 v13 (k1_pay5 wih bih bhh xs) (k1_pay6 wih bih xs) (k1_pay7 wih whh bih bhh xs)
    (k1_pay8 wih whh bih bhh xs) (k1_pay9 wih whh bih bhh xs)
  let v209 := k1_pay16 v3 v7 v13 (k1_pay11 v3 v7 v13 v99) (k1_pay12 v13) (k1_pay13 v3 v7 v13 v99) (k1_pay14 v3 v7 v13 v99) (k1_pay15 v3 v7 v13 v99)
  let v319 := k1_pay22 v3 v7 v13 (k1_pay17 v3 v7 v13 v209) (k1_pay18 v13) (k1_pay19 v3 v7 v13 v209) (k1_pay20 v3 v7 v13 v209) (k1_pay21 v3 v7 v13 v209)
  k1_pay23 v3 v7 v13 v319

def bodyOut (xs : Vec F S16x400x128 .f32) (ft : Vec F S400x128 .f32) (wih whh : Vec F S128x384 .f32) (bih bhh : Vec F S1x384 .f32)
    (wself wneigh : Vec F S128x128 .f32) (bself : Vec F S1x128 .f32) : FVec F S400x128 .f32 :=
  k1_pay1 (hidden16 xs wih whh bih bhh) (k1_pay24 ft wself) bself wneigh

end Cert.Kernel.Hand

end
-- ==== Proof.Bits.TcBody.lean ====
import proofs.«207044_g16655883174581_fold_wed_m_811_16_alg».proof.Proof.Bits.Common
import proofs.«207044_g16655883174581_fold_wed_m_811_16_alg».proof.Proof.Bits.TcDefs
import proofs.«207044_g16655883174581_fold_wed_m_811_16_alg».proof.Proof.Gen.Kernel.Points
import proofs.«207044_g16655883174581_fold_wed_m_811_16_alg».proof.Proof.Gen.Kernel.Skeleton
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : (c : Dev nD) → (b : Ref sig .tc) → Buf (Elt F) ((c : Thread nD τ).loc b))

abbrev rXs : Rect S16x400x128 := Rect.unit (s := S16x400x128) ![0, 0, 0] S16x400x128.size inb_S16x400x128_S16x400x128_0_0_0
abbrev rRows : Rect S400x128 := Rect.unit (s := S400x128) ![0, 0] S400x128.size inb_S400x128_S400x128_0_0
abbrev rGate : Rect S128x384 := Rect.unit (s := S128x384) ![0, 0] S128x384.size inb_S128x384_S128x384_0_0
abbrev rGateB : Rect S1x384 := Rect.unit (s := S1x384) ![0, 0] S1x384.size inb_S1x384_S1x384_0_0
abbrev rSq : Rect S128x128 := Rect.unit (s := S128x128) ![0, 0] S128x128.size inb_S128x128_S128x128_0_0
abbrev rSqB : Rect S1x128 := Rect.unit (s := S1x128) ![0, 0] S1x128.size inb_S1x128_S1x128_0_0

/-- A rectangle of the full size at offset zero is the identity on indices. -/
theorem out_eq (x0 : Vec F S16x400x128 .f32) (x1 : Vec F S400x128 .f32) (x2 x3 : Vec F S128x384 .f32) (x4 x5 : Vec F S1x384 .f32)
    (x6 x7 : Vec F S128x128 .f32) (x8 : Vec F S1x128 .f32) :
    (View.canon [⟨rRows, bodyOut (View.ld x0 rXs) (View.ld x1 rRows) (View.ld x2 rGate) (View.ld x3 rGate) (View.ld x4 rGateB) (View.ld x5 rGateB)
      (View.ld x6 rSq) (View.ld x7 rSq) (View.ld x8 rSqB)⟩] : Vec F S400x128 .f32) = bodyOut x0 x1 x2 x3 x4 x5 x6 x7 x8 := by
  simp (disch := exact funext (by decide)) only [View.canon_unit_zero, View.ld_unit_zero]

set_option maxHeartbeats 4000000 in
theorem sound_kernel (c : Dev nD) {E : Set ℕ} {i : grid1.Coords}
    {arg1 : Memref sig .tc .vmem S16x400x128 .f32} {harg1 : arg1.IsWhole} {arg2 : Memref sig .tc .vmem S400x128 .f32} {harg2 : arg2.IsWhole}
    {arg3 : Memref sig .tc .vmem S128x384 .f32} {harg3 : arg3.IsWhole} {arg4 : Memref sig .tc .vmem S128x384 .f32} {harg4 : arg4.IsWhole}
    {arg5 : Memref sig .tc .vmem S1x384 .f32} {harg5 : arg5.IsWhole} {arg6 : Memref sig .tc .vmem S1x384 .f32} {harg6 : arg6.IsWhole}
    {arg7 : Memref sig .tc .vmem S128x128 .f32} {harg7 : arg7.IsWhole} {arg8 : Memref sig .tc .vmem S128x128 .f32} {harg8 : arg8.IsWhole}
    {arg9 : Memref sig .tc .vmem S1x128 .f32} {harg9 : arg9.IsWhole} {arg10 : Memref sig .tc .vmem S400x128 .f32} {harg10 : arg10.IsWhole}
    {x0 : Vec F S16x400x128 .f32} {x1 : Vec F S400x128 .f32} {x2 x3 : Vec F S128x384 .f32} {x4 x5 : Vec F S1x384 .f32}
    {x6 x7 : Vec F S128x128 .f32} {x8 : Vec F S1x128 .f32} {K : PUnit → sProp 𝕄} {I : sProp 𝕄}
    (hI : I = iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8)) :
    iprop(I ∗ (∃ d, owns (c : Thread nD τ) arg10 fullShare d)
        ∗ (iprop(I ∗ owns (c : Thread nD τ) arg10 fullShare (bodyOut x0 x1 x2 x3 x4 x5 x6 x7 x8)) -∗ K ⟨⟩))
      ⊢ wp frame (wpE (defs₀ (F := F)) Variants.none c none) E
          (cc1__gru_body i arg1 harg1 arg2 harg2 arg3 harg3 arg4 harg4 arg5 harg5 arg6 harg6 arg7 harg7 arg8 harg8 arg9 harg9 arg10 harg10) K := by
  subst hI
  simp only [cc1__gru_body_eq_skeleton]; unfold cc1__gru_body_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, Hk⟩
  subst hf0 hf1 hf2 hf3 hf4 hf5 hf6 hf7 hf8
  sl_exec
  sl_step
  iapply Hk
  isplitr [H9]
  swap
  · iexists _; isplitr
    swap; · iexact H9
    ipureintro
    exact (View.read_writes_eq_canon _ _ _ (View.cover_of_tiled _ S400x128.size (by rfl))).trans (out_eq _ _ _ _ _ _ _ _ _)
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists f8; isplitr; · ipureintro; rfl
  iexact H8

def ΦTc (c : Dev nD) : sProp 𝕄 :=
  iprop(Pipeline.scopedRest (Ix := HIx 1) (Name := ℕ) (U := UU) (Lvl := ℕ) (Val := Elt F) spec1 c ∗ ∃ r, prngReg c r)

def xsAt (c : Dev nD) (i : Fin 25) : Vec F S16x400x128 .f32 := fun y =>
  (V c main_v32 : S16x10240x128.Idx → Elt F .f32) (ix3 (y 0) ⟨400 * i.val + (y 1).val, by have h : (y 1).val < 400 := (y 1).isLt; have := i.isLt; show _ < 10240; omega⟩ (y 2))

def ftAt (c : Dev nD) (i : Fin 25) : Vec F S400x128 .f32 := fun y =>
  (V c main_arg0 : S10000x128.Idx → Elt F .f32) (ix2 ⟨400 * i.val + (y 0).val, by have h : (y 0).val < 400 := (y 0).isLt; have := i.isLt; show _ < 10000; omega⟩ (y 1))

def outAt (c : Dev nD) (i : Fin 25) : Vec F S400x128 .f32 :=
  bodyOut (xsAt V c i) (ftAt V c i) (V c main_v9 : S128x384.Idx → Elt F .f32) (V c main_v14 : S128x384.Idx → Elt F .f32)
    (V c main_v13 : S1x384.Idx → Elt F .f32) (V c main_v15 : S1x384.Idx → Elt F .f32) (V c main_v19 : S128x128.Idx → Elt F .f32)
    (V c main_v23 : S128x128.Idx → Elt F .f32) (V c main_v22 : S1x128.Idx → Elt F .f32)

def rowBlk (k : S10000x128.Idx) : Fin 25 :=
  ⟨(k 0).val / 400, by have h : (k 0).val < 10000 := (k 0).isLt; omega⟩

abbrev blkNo (t : Fin cfg1.N) : Fin 25 := ⟨t.val, N_1 ▸ t.isLt⟩

def dats (p : Fin 1) (c : Dev nD) : Pipeline.Dat τ (Elt F) (HIx 1) ℕ UU ℕ (cfgs p) c where
  A w := V c (Pipeline.arrRef spec1 w)
  after w t := match w with
    | ⟨0, _⟩ => xsAt V c (blkNo t)
    | ⟨1, _⟩ => ftAt V c (blkNo t)
    | ⟨2, _⟩ => V c main_v9
    | ⟨3, _⟩ => V c main_v14
    | ⟨4, _⟩ => V c main_v13
    | ⟨5, _⟩ => V c main_v15
    | ⟨6, _⟩ => V c main_v19
    | ⟨7, _⟩ => V c main_v23
    | ⟨8, _⟩ => V c main_v22
    | ⟨9, _⟩ => outAt V c (blkNo t)
  Φ _ := ΦTc c
  q _ := fullShare
  owed _ := 0

theorem A_eq (c : Dev nD) (w : Fin cfg1.W) : (dats V 0 c).A w = V c (Pipeline.arrRef spec1 w) := rfl

theorem clip_none : ∀ (w : Fin cfg1.W) (t : Fin cfg1.N) a, (cfg1.win w).clip (cfg1.grid.coords t) a = none := by decide +kernel

theorem idx_facts : ∀ t : Fin cfg1.N,
    (win1_0.index t (0 : Fin 3) = 0 ∧ win1_0.index t (1 : Fin 3) = t.val ∧ win1_0.index t (2 : Fin 3) = 0)
    ∧ (win1_1.index t (0 : Fin 2) = t.val ∧ win1_1.index t (1 : Fin 2) = 0)
    ∧ (win1_9.index t (0 : Fin 2) = t.val ∧ win1_9.index t (1 : Fin 2) = 0) :=
  (by decide +kernel : ∀ t : Fin grid1.N, _)

theorem off0 : ∀ w : Fin cfg1.W, (2 ≤ w.val && w.val ≤ 8) = true → ∀ (t : Fin cfg1.N) a, (cfg1.win w).index t a * (cfg1.win w).size a = 0 := by
  decide +kernel

/-- Block `t` of a tiling by 400 rows starts at row `400 t`; a block of the full size at offset zero is the whole array. -/
theorem keep (c : Dev nD) (t : Fin cfg1.N) : ∀ w : Fin cfg1.W, (cfg1.win w).isOut = false →
    (cfg1.win w).cut (cfg1.grid.coords t) ((dats V 0 c).after w t) = (dats V 0 c).blockOf w t
  | ⟨0, _⟩, _ => by
    obtain ⟨⟨e0, e1, e2⟩, -⟩ := idx_facts t
    funext y
    show V c main_v32 _ = V c main_v32 _
    congr 1; funext a; apply Fin.ext
    match a with
    | ⟨0, _⟩ => show (y 0).val = win1_0.index t (0 : Fin 3) * 16 + 1 * (y 0).val; rw [e0]; omega
    | ⟨1, _⟩ => show 400 * t.val + (y 1).val = win1_0.index t (1 : Fin 3) * 400 + 1 * (y 1).val; rw [e1]; omega
    | ⟨2, _⟩ => show (y 2).val = win1_0.index t (2 : Fin 3) * 128 + 1 * (y 2).val; rw [e2]; omega
  | ⟨1, _⟩, _ => by
    obtain ⟨-, ⟨e0, e1⟩, -⟩ := idx_facts t
    funext y
    show V c main_arg0 _ = V c main_arg0 _
    congr 1; funext a; apply Fin.ext
    match a with
    | ⟨0, _⟩ => show 400 * t.val + (y 0).val = win1_1.index t (0 : Fin 2) * 400 + 1 * (y 0).val; rw [e0]; omega
    | ⟨1, _⟩ => show (y 1).val = win1_1.index t (1 : Fin 2) * 128 + 1 * (y 1).val; rw [e1]; omega
  | ⟨2, _⟩, _ | ⟨3, _⟩, _ | ⟨4, _⟩, _ | ⟨5, _⟩, _ | ⟨6, _⟩, _ | ⟨7, _⟩, _ | ⟨8, _⟩, _ =>
    (View.ld_unit_zero (funext (off0 _ rfl t)) _ _).symm
  | ⟨9, _⟩, h => Bool.noConfusion h

theorem before_eq (c : Dev nD) (w : Fin cfg1.W) (hw : (cfg1.win w).isOut = false) (t : Fin cfg1.N) (d) :
    (dats V 0 c).before w t d = (dats V 0 c).after w t := by
  rw [(dats V 0 c).before_in_eq_fetched w hw (fun _ => rfl) (fun t t' _ => funext fun a => (clip_none w t a).trans (clip_none w t' a).symm)
      (fun t => keep V c t w hw),
    (dats V 0 c).fetched_of_clip_none w t (clip_none w t) d ((dats V 0 c).after w t)]
  unfold Dat.fetched
  rw [← keep V c t w hw, Window.fill_cut]

theorem body_obligation (c : Dev nD) (ι : HIx 1) : BodyObligation (dats (F := F) V 0 c) (defs₀ (F := F)) 𝒱₀ ι Set.univ := fun t => by
  rw [bigSep_W1, bigSep_W1]
  simp only [before_eq V c 0 rfl, before_eq V c 1 rfl, before_eq V c 2 rfl, before_eq V c 3 rfl, before_eq V c 4 rfl, before_eq V c 5 rfl,
    before_eq V c 6 rfl, before_eq V c 7 rfl, before_eq V c 8 rfl]
  rw [show (dats V 0 c).Φ t.succ = (dats V 0 c).Φ t.castSucc from rfl, show (dats V 0 c).owesAt ι t.succ = (dats V 0 c).owesAt ι t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply sound_kernel c rfl
  iframe H0 H1 H2 H3 H4 H5 H6 H7 H8
  isplitl [H9]; · iexists _; iexact H9
  iintro ⟨⟨H0, H1, H2, H3, H4, H5, H6, H7, H8⟩, H9⟩
  isplitl [HΦ]; · iexact HΦ
  isplitl [Ho]; · iexact Ho
  iframe H0 H1 H2 H3 H4 H5 H6 H7 H8
  iexact H9

def rowIn (k : S10000x128.Idx) : S400x128.Idx := ix2 ⟨(k 0).val % 400, Nat.mod_lt _ (by decide)⟩ (k 1)

def G9 (c : Dev nD) : S10000x128.Idx → Elt F .f32 := fun k => outAt V c (rowBlk k) (rowIn k)

theorem flushed9_eq (c : Dev nD) (t : Fin cfg1.N) :
    (dats V 0 c).flushed 9 t = ((cfg1.win 9).blk t).view.read (Elt F) (G9 V c) := by
  obtain ⟨-, -, ⟨e0, e1⟩⟩ := idx_facts t
  funext j
  rw [View.read_apply]
  show outAt V c (blkNo t) ((cfg1.win 9).xinj (grid1.coords t) j) = G9 V c (((cfg1.win 9).blk t).view.emb j)
  have hj0 : (j 0).val < 400 := (j 0).isLt
  have hk0 : ((((cfg1.win 9).blk t).view.emb j) 0).val = t.val * 400 + (j 0).val := by
    show win1_9.index t (0 : Fin 2) * 400 + 1 * (j 0).val = _; rw [e0]; omega
  have hk1 : ((((cfg1.win 9).blk t).view.emb j) 1).val = (j 1).val := by
    show win1_9.index t (1 : Fin 2) * 128 + 1 * (j 1).val = _; rw [e1]; omega
  have h1 : rowBlk (((cfg1.win 9).blk t).view.emb j) = blkNo t := Fin.ext (by show _ / 400 = t.val; rw [hk0]; omega)
  have h2 : rowIn (((cfg1.win 9).blk t).view.emb j) = (cfg1.win 9).xinj (grid1.coords t) j := funext fun a => Fin.ext (by
    match a with
    | ⟨0, _⟩ => show _ % 400 = (j 0).val; rw [hk0]; omega
    | ⟨1, _⟩ => exact hk1)
  unfold G9
  rw [h1, h2]

theorem cover9 (k : S10000x128.Idx) : ∃ t : Fin cfg1.N, (cfg1.win 9).flush t = true ∧ k ∈ ((cfg1.win 9).blk t).view.set := by
  have hk0 : (k 0).val < 10000 := (k 0).isLt
  have hk1 : (k 1).val < 128 := (k 1).isLt
  let t : Fin cfg1.N := ⟨(k 0).val / 400, by rw [show cfg1.N = 25 from N_1]; omega⟩
  obtain ⟨-, -, ⟨e0, e1⟩⟩ := idx_facts t
  have ht : t.val = (k 0).val / 400 := rfl
  refine ⟨t, flush1_9 t, ?_⟩
  show k ∈ ((View.whole main_v33).slice (win1_9.rect t)).set
  rw [View.set_slice_whole, Rect.mem_set_unit]
  intro a
  match a with
  | ⟨0, _⟩ => show win1_9.index t (0 : Fin 2) * 400 ≤ (k 0).val ∧ (k 0).val < win1_9.index t (0 : Fin 2) * 400 + 400; rw [e0, ht]; omega
  | ⟨1, _⟩ => show win1_9.index t (1 : Fin 2) * 128 ≤ (k 1).val ∧ (k 1).val < win1_9.index t (1 : Fin 2) * 128 + 128; rw [e1]; omega

theorem final9_apply (c : Dev nD) (k : S10000x128.Idx) :
    ((dats V 0 c).arrAt 9 cfg1.N : S10000x128.Idx → Elt F .f32) k
      = bodyOut (xsAt V c (rowBlk k)) (ftAt V c (rowBlk k)) (V c main_v9 : S128x384.Idx → Elt F .f32) (V c main_v14 : S128x384.Idx → Elt F .f32)
          (V c main_v13 : S1x384.Idx → Elt F .f32) (V c main_v15 : S1x384.Idx → Elt F .f32) (V c main_v19 : S128x128.Idx → Elt F .f32)
          (V c main_v23 : S128x128.Idx → Elt F .f32) (V c main_v22 : S1x128.Idx → Elt F .f32) (ix2 ⟨(k 0).val % 400, Nat.mod_lt _ (by decide)⟩ (k 1)) :=
  congrFun ((dats V 0 c).arrAt_eq_of_cover 9 (G9 V c) (fun t _ => flushed9_eq V c t) cover9) k

end Cert.Kernel.Hand

end
-- ==== Proof.Bits.ScGhost.lean ====
import proofs.«207044_g16655883174581_fold_wed_m_811_16_alg».proof.Proof.Bits.ScDefs
import Idealize.ShloMosaic.Lib.SparseCore.Launch
import Idealize.ShloMosaic.Lib.Pipeline.Kit
import Idealize.ShloMosaic.Lib.Pipeline.Sound

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

variable (m : (ℓ : Loc nD τ sig) → Buf (Elt F) ℓ) (tbl : (d : Dev nD) → Buf (Elt F) (idxLoc d))

def u₀ : UU :=
  (initOf (K (F := F)).hsCells (K (F := F)).hsToks,
    (initOf (Pipeline.cells (nD := nD) (τ := τ) cfgs cellOf_inj) (Pipeline.launchToks (nD := nD) (τ := τ) cfgs cellOf_inj), 1))

variable [FloatOps F]

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks))
        ∗ (bigSep Finset.univ fun d : Dev nD => iprop(Pipeline.cellsGhost cfgs (EP (F := F)) 0 d ∗ Pipeline.toksInit cfgs (EP (F := F)) 0 d))
        ∗ bigSep Finset.univ fun thr : Thread nD τ => bigSep Finset.univ fun q : Fin 1 => (P m tbl).x q thr) := by
  unfold u₀
  have hfund := Pipeline.fund_ghost (nD := nD) (τ := τ) cfgs (EP (F := F)) cellOf_inj
  rw [bigSep_congr fun c _ => bigSep_univ_of_subsingleton (0 : Fin 1), bigSep_congr fun c _ => bigSep_univ_of_subsingleton (0 : Fin 1),
    ← bigSep_sep'] at hfund
  have hR : ∀ (b : UP) (c : Counters), (BI.own (embR (A := UH) (b, c)) : sProp 𝕄)
      ⊢ iprop(BI.own (EP (F := F) b) ∗ BI.own (((Emb.inr : Emb Counters (UP × Counters)).trans embR) c)) :=
    fun b c => own_pair_emb _ b c
  iintro Hu
  ihave H := (ownU_pair _ _) $$ Hu
  icases H with ⟨HH, HR⟩
  ihave H := (hR _ _) $$ HR
  icases H with ⟨HP, -⟩
  imod hfund $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

variable (res : (d : Dev nD) → Buf (Elt F) ((SparseCore.T d).loc main_v33))

def FIN (d : Dev nD) : sProp 𝕄 :=
  iprop(((SparseCore.T d).loc main_v33 ↦{fullShare} res d)
    ∗ ((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare} m ((SparseCore.T d).loc main_arg3))
    ∗ ((SparseCore.T d).loc main_arg4 ↦{fullShare} m ((SparseCore.T d).loc main_arg4))
    ∗ ((SparseCore.T d).loc main_arg5 ↦{fullShare} m ((SparseCore.T d).loc main_arg5))
    ∗ ((SparseCore.T d).loc main_arg6 ↦{fullShare} m ((SparseCore.T d).loc main_arg6))
    ∗ ((SparseCore.T d).loc main_arg7 ↦{fullShare} m ((SparseCore.T d).loc main_arg7))
    ∗ ((SparseCore.T d).loc main_arg8 ↦{fullShare} m ((SparseCore.T d).loc main_arg8))
    ∗ ((SparseCore.T d).loc main_arg9 ↦{fullShare} m ((SparseCore.T d).loc main_arg9))
    ∗ ((SparseCore.T d).loc main_arg10 ↦{fullShare} m ((SparseCore.T d).loc main_arg10))
    ∗ ((SparseCore.T d).loc main_arg11 ↦{fullShare} m ((SparseCore.T d).loc main_arg11)))

def fq (d : Dev nD) (s' : Phys nD τ sig (Elt F)) : Prop :=
  s'.mem.mem ((SparseCore.T d).loc main_v33) = res d
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)
    ∧ s'.mem.mem ((SparseCore.T d).loc main_arg5) = m ((SparseCore.T d).loc main_arg5)
    ∧ s'.mem.mem ((SparseCore.T d).loc main_arg6) = m ((SparseCore.T d).loc main_arg6)
    ∧ s'.mem.mem ((SparseCore.T d).loc main_arg7) = m ((SparseCore.T d).loc main_arg7)
    ∧ s'.mem.mem ((SparseCore.T d).loc main_arg8) = m ((SparseCore.T d).loc main_arg8)
    ∧ s'.mem.mem ((SparseCore.T d).loc main_arg9) = m ((SparseCore.T d).loc main_arg9)
    ∧ s'.mem.mem ((SparseCore.T d).loc main_arg10) = m ((SparseCore.T d).loc main_arg10)
    ∧ s'.mem.mem ((SparseCore.T d).loc main_arg11) = m ((SparseCore.T d).loc main_arg11)

theorem SI_whole_agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

-- One more buffer held whole fixes one more equation of the final memory.
theorem fin_step {s' : Phys nD τ sig (Elt F)} {ℓ : Loc nD τ sig} {f : Buf (Elt F) ℓ} {R : sProp 𝕄} {Q : Prop}
    (h : iprop(R ∗ SI s') ⊢ (⌜Q⌝ : sProp 𝕄)) :
    iprop(((ℓ ↦{fullShare} f) ∗ R) ∗ SI s') ⊢ (⌜s'.mem.mem ℓ = f ∧ Q⌝ : sProp 𝕄) := by
  iintro ⟨⟨Hp, HR⟩, HSI⟩
  ihave H := (SI_whole_agree s' _ _) $$ [HSI Hp]
  · isplitl [HSI] <;> iassumption
  icases H with ⟨%hr, HSI⟩
  ihave H := h $$ [HR HSI]
  · isplitl [HR] <;> iassumption
  icases H with %hq
  ipureintro; exact ⟨hr, hq⟩

theorem fin_base {s' : Phys nD τ sig (Elt F)} {ℓ : Loc nD τ sig} {f : Buf (Elt F) ℓ} :
    iprop((ℓ ↦{fullShare} f) ∗ SI s') ⊢ (⌜s'.mem.mem ℓ = f⌝ : sProp 𝕄) := by
  iintro ⟨Hp, HSI⟩
  ihave H := (SI_whole_agree s' _ _) $$ [HSI Hp]
  · isplitl [HSI] <;> iassumption
  icases H with ⟨%hr, -⟩
  ipureintro; exact hr

theorem hfin (d : Dev nD) (s' : Phys nD τ sig (Elt F)) : iprop(FIN m res d ∗ SI s') ⊢ (⌜fq m res d s'⌝ : sProp 𝕄) :=
  fin_step <| fin_step <| fin_step <| fin_step <| fin_step <| fin_step <| fin_step <| fin_step <| fin_step <| fin_step <| fin_step <|
    fin_step fin_base

end Cert.Kernel.Hand

end
-- ==== Proof.Bits.ScMain.lean ====
import proofs.«207044_g16655883174581_fold_wed_m_811_16_alg».proof.Proof.Bits.Common
import proofs.«207044_g16655883174581_fold_wed_m_811_16_alg».proof.Proof.Bits.ScDefs
import proofs.«207044_g16655883174581_fold_wed_m_811_16_alg».proof.Proof.Bits.ScSplit
import proofs.«207044_g16655883174581_fold_wed_m_811_16_alg».proof.Proof.Bits.ScGhost
import proofs.«207044_g16655883174581_fold_wed_m_811_16_alg».proof.Proof.Bits.HostOps
import proofs.«207044_g16655883174581_fold_wed_m_811_16_alg».proof.Proof.Bits.HostVals
import proofs.«207044_g16655883174581_fold_wed_m_811_16_alg».proof.Proof.Bits.Vals
import proofs.«207044_g16655883174581_fold_wed_m_811_16_alg».proof.Proof.Bits.TcBody
import Idealize.ShloMosaic.Lib.SparseCore.Launch
import Idealize.ShloMosaic.Lib.StableHlo.Run
import Idealize.ShloMosaic.Lib.Pipeline.Frame
import Idealize.ShloMosaic.Lib.Pipeline.Regions
import Idealize.ShloMosaic.Lib.Pipeline.Kit

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)

variable {F : FTy → Type}

local notation "𝕄" => MM F

variable (m : (ℓ : Loc nD τ sig) → Buf (Elt F) ℓ) (ρ : Dev nD → PrngReg)

variable [FloatOps F]

abbrev SU : Finset (DevRef τ sig) := Pipeline.ucRefs τ sig

abbrev feat' : DevRef τ sig := Proc.devRef .tc (main_arg0 : Ref sig .tc)
abbrev idx' : DevRef τ sig := Proc.devRef .tc (main_v30 : Ref sig .tc)
abbrev out' : DevRef τ sig := Proc.devRef .tc (main_v31 : Ref sig .tc)

abbrev resLoc (d : Dev nD) : Loc nD τ sig := (SparseCore.T d).loc main_v33

def resOf (d : Dev nD) : Buf (Elt F) (resLoc d) := (dats (Vreg m) 0 d).arrAt 9 cfg1.N

theorem unscoped_held (d : Dev nD) :
    (unscopedBufs d (fun b => m ((SparseCore.T d).loc b)) : sProp 𝕄) = held (T d) SU (V0 m d) :=
  Pipeline.unscopedBufs_held d (V0 m d)

abbrev S3 : Finset (DevRef τ sig) := {feat', idx', out'}

theorem S3_sub : (S3 : Finset (DevRef τ sig)) ⊆ SU := by decide

omit [FloatOps F] in
theorem held_S3 (d : Dev nD) (W : Valuation τ sig (Elt F)) :
    (held (T d) S3 W : sProp 𝕄) = iprop((featLoc d ↦{fullShare} W feat') ∗ (idxLoc d ↦{fullShare} W idx') ∗ outLoc d ↦{fullShare} W out') := by
  unfold held S3
  rw [SparseCore.bigSep_insert' (by decide), SparseCore.bigSep_insert' (by decide), bigSep_singleton]

theorem VA_feat (d : Dev nD) : VA m d feat' = m (featLoc d) := after_arg0 (V0 m d)

-- A valuation equal to `VA` off the output: the whole set is the call's three arrays, the output at `o`, and the rest.
theorem held_call (d : Dev nD) (W : Valuation τ sig (Elt F)) (o : Buf (Elt F) (outLoc d)) (ho : W out' = o)
    (hW : ∀ b, b ≠ out' → W b = VA m d b) :
    (held (T d) SU W : sProp 𝕄)
      = iprop(((featLoc d ↦{fullShare} m (featLoc d)) ∗ (idxLoc d ↦{fullShare} tblOf m d) ∗ outLoc d ↦{fullShare} o) ∗ held (T d) (SU \ S3) (VA m d)) := by
  rw [held_sub_split (T d) S3_sub W, held_S3, ho, hW feat' (by decide), hW idx' (by decide), VA_feat,
    held_congr (T d) fun b hb => hW b fun e => (Finset.mem_sdiff.mp hb).2 (by rw [e]; simp [S3])]
  rfl

theorem st0_eq (tbl : (d : Dev nD) → Buf (Elt F) (idxLoc d)) (d : Dev nD) :
    (bigSep Finset.univ fun c : Fin ((K (F := F)).nCore 0) => (P m tbl).st 0 d c) = (bigSep Finset.univ fun c : Fin 2 => coreIn m tbl d c : sProp 𝕄) := rfl
theorem dn0_eq (tbl : (d : Dev nD) → Buf (Elt F) (idxLoc d)) (d : Dev nD) :
    (bigSep Finset.univ fun c : Fin ((K (F := F)).nCore 0) => (P m tbl).dn 0 d c) = (bigSep Finset.univ fun c : Fin 2 => coreOut m tbl d c : sProp 𝕄) := rfl

def mainOut (d : Dev nD) : sProp 𝕄 :=
  iprop((dats (Vreg m) 0 d).arrays ((dats (Vreg m) 0 d).arrAt · cfg1.N) ∗ Pipeline.unscopedRest spec1 d (Vreg m d))

abbrev adm : (p : Fin 1) → (pcfgs (F := F) p).Adm := fun p => (cfgs p).toPCfg_adm

omit [FloatOps F] in

theorem wbelow_any (thr : Thread nD τ) (W : Waits sig (HIx 1)) : (K (F := F)).WBelow thr W 8 := fun p _ => by
  rcases p with ⟨s, _ | q⟩
  · exact Nat.zero_le _
  · show (K (F := F)).lev (thr, s) (some q) ≤ 8
    have h := (K (F := F)).lev_some_le (thr, s) q
    have hq : q.val = 0 := by omega
    omega

abbrev R (c : Dev nD) : sProp 𝕄 := iprop(∃ W, owes (c : Thread nD τ) (0 : CellTallies nD τ sig (HIx 1)) W)
abbrev Rg (c : Dev nD) : sProp 𝕄 := iprop(∃ r, prngReg c r)

set_option backward.isDefEq.respectTransparency.types false in

def reg : Pipeline.RegionSeg (pcfgs (F := F)) adm (dats (Vreg m)) (none : HIx 1) defs₀ 𝒱₀ (K (F := F)).L (K (F := F)).lev 0 where
  win := launch1.win.to₀
  block_pos := launch1.block_pos
  stage_whole := launch1.stage_whole
  K := Fin 0
  osem := Fin.elim0
  ho := ⟨fun k => k.elim0, fun k => k.elim0, fun k => k.elim0⟩
  hbody c := (body_obligation (Vreg m) c none).loose
  hwaits := Pipeline.hwaits_of_owed_zero _ _ _ _ _ _ 0 fun _ _ => rfl
  pre c := iprop(held (c : Thread nD τ) SU (VC m c) ∗ R c ∗ Rg c)
  post c := iprop(mainOut m c ∗ R c ∗ Rg c)
  X c := Rg c
  Y c := Rg c
  Z c := Pipeline.unscopedRest spec1 c (Vreg m c)
  hentry c := by
    rw [show held (c : Thread nD τ) SU (VC m c) = unscopedBufs c (Vreg m c) from (Pipeline.unscopedBufs_held c (VC m c)).symm]
    have hsplit := Pipeline.arrays_of_unscopedBufs (pcfgs (F := F)) adm (dats (Vreg m)) launch1.win launch1.arr_whole c
      ((dats (Vreg m) 0 c).share_full fun _ => rfl) (Vreg m c) fun w => A_eq (Vreg m) c w
    iintro ⟨⟨Hub, HO, Hg⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    rw [show (dats (Vreg m) 0 c).Φ 0 = ΦTc c from rfl]; unfold ΦTc
    iintro ⟨Hg, -, Hr⟩
    isplitl [Hr] <;> iassumption
  hout c := by
    rw [show (dats (Vreg m) 0 c).Φ (Fin.last cfg1.N) = ΦTc c from rfl]; unfold ΦTc Pipeline.ownSems0
    rw [show (Finset.univ : Finset (Fin 0)) = ∅ from rfl, BI.bigSep_empty]
    iintro ⟨Hr, Hg⟩
    isplitl [Hg]; · iexact Hg
    isplitr; · iempintro
    iexact Hr
  hexit c := by
    unfold mainOut
    iintro ⟨Ha, HO, HY, HZ⟩
    imodintro
    isplitl [Ha HZ]
    · isplitl [Ha] <;> iassumption
    isplitl [HO]
    · unfold Pipeline.Dat.owesAt Pipeline.owesWithin
      icases HO with ⟨%W, -, HO⟩; iexists W; iexact HO
    iexact HY

omit [FloatOps F] in

theorem tcSt_split (d : Dev nD) :
    ((K (F := F)).tcSt EH d 1 : sProp 𝕄) ⊢ iprop(R d ∗ (R d -∗ (K (F := F)).tcSt EH d 1)) := by
  unfold SparseCore.Cfg.tcSt
  rw [(K (F := F)).Otc_end d le_rfl]
  iintro ⟨⟨%W, -, HO⟩, Hrest⟩
  isplitl [HO]; · iexists W; iexact HO
  iintro ⟨%W', HO⟩
  isplitl [HO]
  · iexists W'; isplitr; · ipureintro; exact wbelow_any _ _
    iexact HO
  iexact Hrest

set_option backward.isDefEq.respectTransparency.types false in
theorem hmain_out (κ : GSem nD τ sig → ℕ) (d : Dev nD) :
    iprop((K (F := F)).ctx EH (P m (tblOf m)) κ ∗ (K (F := F)).tcSt EH d 0 ∗ (K (F := F)).tcRes m ρ d
        ∗ iprop(Pipeline.cellsGhost cfgs (EP (F := F)) 0 d ∗ Pipeline.toksInit cfgs (EP (F := F)) 0 d))
      ⊢ wp frame (wpE ((K (F := F)).defs (D (F := F))) 𝒱 (SparseCore.T d) none) Set.univ (main d)
          fun _ => iprop((K (F := F)).tcSt EH d 1 ∗ mainOut m d) := by
  unfold SparseCore.Cfg.tcRes
  rw [unscoped_held, main_eq]
  iintro ⟨#Hctx, Hst, ⟨Hb, Hheld, -, Hprng⟩, Hg⟩

  iapply (StableHlo.wp_seq 𝒱 none Set.univ d SU _ hostOpsA (fun op h => Pipeline.sub_ucRefs op (List.forall_iff_forall_mem.mp hostOpsA_sub op h)) (List.forall_iff_forall_mem.mp hostOpsA_fresh) (V0 m d)) $$ [Hb Hheld]
  · isplitl [Hb] <;> iassumption
  iintro ⟨Hb, Hheld⟩

  ihave Hh := (Entails.of_eq (held_call m d (StableHlo.after hostOpsA (V0 m d)) (VA m d out') rfl fun _ _ => rfl)) $$ Hheld
  icases Hh with ⟨⟨Hf, Hi, Ho⟩, Hrest⟩
  rw [wp_bind]
  iapply ((K (F := F)).wp_run (D (F := F)) 𝒱 (EH := EH) (P := P m (tblOf m)) κ d 0) $$ [Hst Hf Hi Ho Hb Hrest Hprng Hg]
  isplitr; · iexact Hctx
  isplitl [Hst]; · iexact Hst
  isplitl [Hf Hi Ho]
  · rw [st0_eq]
    iapply (cores_in m (tblOf m) d (VA m d out'))
    isplitl [Hf]; · iexact Hf
    isplitl [Hi] <;> iassumption
  iintro ⟨Hst, Hdn⟩
  ihave Hdn' := (Entails.of_eq ((dn0_eq m (tblOf m) d).trans (cores_out m (tblOf m) d))) $$ Hdn
  icases Hdn' with ⟨Hf, Hi, Ho⟩

  iapply (StableHlo.wp_seq 𝒱 none Set.univ d SU _ hostOpsB (fun op h => Pipeline.sub_ucRefs op (List.forall_iff_forall_mem.mp hostOpsB_sub op h)) (List.forall_iff_forall_mem.mp hostOpsB_fresh) (VB m d)) $$ [Hb Hf Hi Ho Hrest]
  · isplitl [Hb]; · iexact Hb
    iapply (Entails.of_eq (held_call m d (VB m d) _ (Function.update_self _ _ _) fun _ h => Function.update_of_ne h _ _).symm)
    isplitr [Hrest]
    · isplitl [Hf]; · iexact Hf
      isplitl [Hi] <;> iassumption
    · iexact Hrest
  iintro ⟨Hb, Hheld⟩

  ihave Hs := (show ((K (F := F)).tcSt EH d ((0 : Fin 1).val + 1) : sProp 𝕄) ⊢ iprop(R d ∗ (R d -∗ (K (F := F)).tcSt EH d 1)) from tcSt_split (F := F) d) $$ Hst
  icases Hs with ⟨HO, Hback⟩
  ihave Hlev := (SparseCore.Cfg.ctx_levAts κ) $$ Hctx
  rw [show (Prog.lift (.customCall (SparseCore.inner (Pipeline.entry 0)) ()) >>= fun _ => pure ⟨⟩ :
        Prog (TpuEff nD τ sig (Elt F) (SparseCore.Sig (ΛP (F := F)) 1) .tc) PUnit)
      = SparseCore.liftProg (.op (.customCall (Pipeline.entry 0) ()) fun _ => .ret ⟨⟩) from rfl]
  iapply ((K (F := F)).wp_liftProg (D (F := F)) 𝒱 (SparseCore.T d) Set.univ none _ _)
  iapply (Pipeline.RegionSeg.wp (pcfgs (F := F)) adm (dats (Vreg m)) (none : HIx 1) cellOf_inj EP defs₀ 𝒱₀ (K (F := F)).L (K (F := F)).lev
      (reg m) d none (fun _ h => nomatch h) (fun _ => .ret ⟨⟩) _)
  isplitr [Hb Hheld HO Hprng Hlev Hg]
  · iintro ⟨Hb, Hpost⟩
    rw [wp_ret]
    imodintro
    ihave Hp := (show (reg m).post d ⊢ iprop(mainOut m d ∗ R d ∗ Rg d) from .rfl) $$ Hpost
    icases Hp with ⟨Hout, HO, -⟩
    isplitl [HO Hback]; · iapply Hback; iexact HO
    iexact Hout
  isplitl [Hb]; · iexact Hb
  isplitl [Hheld HO Hprng]
  · iapply (show iprop(held (SparseCore.T d) SU (VC m d) ∗ R d ∗ Rg d) ⊢ (reg m).pre d from .rfl)
    isplitl [Hheld]; · iexact Hheld
    isplitl [HO]; · iexact HO
    iexists _; iexact Hprng
  isplitl [Hlev]; · iexact Hlev
  iexact Hg

theorem VC_of_ne (d : Dev nD) {r : Ref sig .tc} (h : r ≠ main_v32) : VC m d (Proc.devRef .tc r) = VB m d (Proc.devRef .tc r) :=
  StableHlo.reshape_result_ne main_v31 main_v32 rfl shapeCasts_S163840x128_S16x10240x128 _ _ (VB m d) h
theorem VB_of_ne (d : Dev nD) {r : Ref sig .tc} (h : r ≠ main_v31) : VB m d (Proc.devRef .tc r) = VA m d (Proc.devRef .tc r) :=
  Function.update_of_ne (StableHlo.devRef_ne_of_ne h) _ _

theorem Vreg_of_untouched (d : Dev nD) {r : Ref sig .tc} (h32 : r ≠ main_v32) (h31 : r ≠ main_v31) (hw : r ∉ writtenA) :
    Vreg m d r = m ((SparseCore.T d).loc r) := by
  show VC m d (Proc.devRef .tc r) = _
  rw [VC_of_ne m d h32, VB_of_ne m d h31]
  exact after_of_not_written (V0 m d) hw

abbrev args11 : Finset (Ref sig .tc) :=
  {main_arg1, main_arg2, main_arg3, main_arg4, main_arg5, main_arg6, main_arg7, main_arg8, main_arg9, main_arg10, main_arg11}

theorem args11_sub : args11 ⊆ (Finset.univ.filter fun b : Ref sig .tc => ¬ b.isScoped) \ Finset.univ.image (Pipeline.arrRef spec1) := by
  decide

theorem args11_untouched : ∀ b ∈ args11, b ≠ main_v32 ∧ b ≠ main_v31 ∧ b ∉ writtenA := by decide

-- None of the eleven is written before the region and none is one of its windows' arrays, so each still holds its launch contents.
theorem rest_args (d : Dev nD) :
    (Pipeline.unscopedRest spec1 d (Vreg m d) : sProp 𝕄)
      ⊢ bigSep args11 fun b : Ref sig .tc => ((SparseCore.T d).loc b ↦{fullShare} m ((SparseCore.T d).loc b)) := by
  refine (bigSep_subset args11_sub).trans (Entails.of_eq (bigSep_congr fun b hb => ?_))
  obtain ⟨h32, h31, hw⟩ := args11_untouched b hb
  rw [Vreg_of_untouched m d h32 h31 hw]

theorem arrays_out (d : Dev nD) :
    ((dats (Vreg m) 0 d).arrays ((dats (Vreg m) 0 d).arrAt · cfg1.N) : sProp 𝕄)
      ⊢ iprop((resLoc d ↦{fullShare} resOf m d) ∗ (featLoc d ↦{fullShare} m (featLoc d))) := by
  have e : (dats (Vreg m) 0 d).arrAt 1 cfg1.N = m (featLoc d) :=
    ((dats (Vreg m) 0 d).arrAt_in 1 rfl _).trans ((A_eq (Vreg m) d 1).trans (Vreg_of_untouched m d (r := main_arg0) (by decide) (by decide) (by decide)))
  rw [Pipeline.arrays_eq cfgs (dats (Vreg m)) 0 d launch1.arr_whole ((dats (Vreg m) 0 d).share_full fun _ => rfl), bigSep_W1]
  iintro ⟨-, H1, -, -, -, -, -, -, -, H9⟩
  isplitl [H9]; · iexact H9
  ihave H1' := (Entails.of_eq (congrArg (fun f => (featLoc d ↦{fullShare} f : sProp 𝕄)) e)) $$ H1
  iexact H1'

theorem mainOut_fin (d : Dev nD) : (mainOut m d : sProp 𝕄) ⊢ FIN m (resOf m) d := by
  unfold mainOut FIN
  refine (BIClass.sep_mono (arrays_out m d) (rest_args m d)).trans ?_
  repeat rw [SparseCore.bigSep_insert' (by decide)]
  rw [bigSep_singleton]
  iintro ⟨⟨H9, H0⟩, Hr⟩
  isplitl [H9]; · iexact H9
  isplitl [H0]; · iexact H0
  iexact Hr

theorem hmain (κ : GSem nD τ sig → ℕ) (d : Dev nD) :
    iprop((K (F := F)).ctx EH (P m (tblOf m)) κ ∗ (K (F := F)).tcSt EH d 0 ∗ (K (F := F)).tcRes m ρ d
        ∗ iprop(Pipeline.cellsGhost cfgs (EP (F := F)) 0 d ∗ Pipeline.toksInit cfgs (EP (F := F)) 0 d))
      ⊢ wp frame (wpE ((K (F := F)).defs (D (F := F))) 𝒱 (SparseCore.T d) none) Set.univ (main d)
          fun _ => iprop((K (F := F)).tcSt EH d 1 ∗ FIN m (resOf m) d) :=
  (hmain_out m ρ κ d).trans (wp_mono frame _ Set.univ fun _ => sep_mono .rfl (mainOut_fin m d))

end Cert.Kernel.Hand

end
-- ==== Proof.Bits.ScTileDefs.lean ====
import proofs.«207044_g16655883174581_fold_wed_m_811_16_alg».proof.Proof.Bits.ScDefs
import proofs.«207044_g16655883174581_fold_wed_m_811_16_alg».proof.Proof.Gen.Kernel.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

abbrev fW : Memref sig Kind.scVector Space.hbm S10000x128 EltTy.f32 := Memref.whole main_arg0_scv
abbrev iW : Memref sig Kind.scVector Space.hbm S1320x128 EltTy.i32 := Memref.whole main_v30_scv
abbrev oW : Memref sig Kind.scVector Space.hbm S163840x128 EltTy.f32 := Memref.whole main_v31_scv
abbrev sI : Memref sig Kind.scVector Space.vmem S40x128 EltTy.i32 := Memref.whole cc0_scratch0
abbrev b0 : Memref sig Kind.scVector Space.vmem S128x128 EltTy.f32 := Memref.whole cc0_scratch1
abbrev b1 : Memref sig Kind.scVector Space.vmem S128x128 EltTy.f32 := Memref.whole cc0_scratch2
abbrev b2 : Memref sig Kind.scVector Space.vmem S128x128 EltTy.f32 := Memref.whole cc0_scratch3
abbrev b3 : Memref sig Kind.scVector Space.vmem S128x128 EltTy.f32 := Memref.whole cc0_scratch4
abbrev b4 : Memref sig Kind.scVector Space.vmem S128x128 EltTy.f32 := Memref.whole cc0_scratch5

variable {F : FTy → Type}

local notation "𝕄" => MM F

variable (m : (ℓ : Loc nD τ sig) → Buf (Elt F) ℓ) (tbl : (d : Dev nD) → Buf (Elt F) (idxLoc d))

variable [FloatOps F]

section Task

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

abbrev thr : Thread nD τ := V d (cV L) (jV L)

abbrev chunk0 (L : grid0.Coords) : Nat := if (L 0).val = 0 then 40 * (L 1).val else 40 * (L 1).val + 640

omit [FloatOps F] in
theorem chunk0_le (L : grid0.Coords) : chunk0 L + 40 ≤ 1280 := by
  have h0 : (L 0).val < 2 := (L 0).isLt
  have h1 : (L 1).val < 16 := (L 1).isLt
  unfold chunk0; split <;> omega

omit [FloatOps F] in
theorem tileK_inb (L : grid0.Coords) : ∀ a, (![128 * chunk0 L, 0] : Fin 2 → Nat) a + (![5120, 128] : Fin 2 → Nat) a ≤ S163840x128.size a := by
  have h := chunk0_le L
  intro a; match a with
  | ⟨0, _⟩ => show 128 * chunk0 L + 5120 ≤ 163840; omega
  | ⟨1, _⟩ => show 0 + 128 ≤ 128; omega

abbrev tileK (L : grid0.Coords) : Rect S163840x128 := Rect.unit (s := S163840x128) ![128 * chunk0 L, 0] ![5120, 128] (tileK_inb L)
abbrev oTile (L : grid0.Coords) : Memref sig .scVector .hbm (⟨2, ![5120, 128]⟩ : Shape) .f32 := (oW).slice (tileK L) (fun _ => rfl)

omit [FloatOps F] in
theorem rowInb (j : Nat) (hj : j < 40) : ∀ a, (![j, 0] : Fin 2 → Nat) a + S1x128.size a ≤ S40x128.size a := by
  intro a; match a with
  | ⟨0, _⟩ => show j + 1 ≤ 40; omega
  | ⟨1, _⟩ => show 0 + 128 ≤ 128; omega

abbrev rowM (j : Nat) (hj : j < 40) : Memref sig .scVector .vmem S128 .i32 :=
  ((sI).slice (Rect.unit (s := S40x128) ![j, 0] S1x128.size (rowInb j hj)) (fun _ => rfl)).squeeze S128 squeezes_S1x128_S128

abbrev fAll : Memref sig .scVector .hbm S10000x128 .f32 :=
  (fW).slice (Rect.unit (s := S10000x128) ![0, 0] S10000x128.size inb_S10000x128_S10000x128_0_0) (fun _ => rfl)

def RowsAre (cI : Buf (Elt F) ((thr d L).loc cc0_scratch0)) (j : Nat) (hj : j < 40) (fd : S128x128.Idx → Elt F .f32) : Prop :=
  ∀ y : S128x128.Idx, fd y = m (featLoc d) (ValueIdx.ix2
    (⟨(cI (ValueIdx.ix2 (⟨j, hj⟩ : Fin 40) (⟨(y 0).val, (y 0).isLt⟩ : Fin 128))).toNat % 10000, Nat.mod_lt _ (by decide)⟩ : Fin 10000)
    (⟨(y 1).val, (y 1).isLt⟩ : Fin 128))

abbrev flightD (b : Memref sig .scVector .vmem S128x128 .f32) (fd : Buf (Elt F) (b.view.loc (thr d L)))
    (cI : Buf (Elt F) ((thr d L).loc cc0_scratch0)) (j : Nat) (hj : j < 40) (q : PosShare TreeShare) : sProp 𝕄 :=
  iprop((((b).view.loc (thr d L) ↦[(b).view.set]{fullShare} fd)
      ∗ (sI).view.loc (thr d L) ↦[(rowM j hj).view.set]{fullShare} cI)
    ∗ (fW).view.loc (thr d L) ↦[(fAll).view.set]{q} m (featLoc d))

def slot (b : Memref sig .scVector .vmem S128x128 .f32) (g : DmaSem sig) (i : Fin 5)
    (cI : Buf (Elt F) ((thr d L).loc cc0_scratch0)) (j : Nat) (hj : j < 40) : sProp 𝕄 :=
  iprop(∃ fd : Buf (Elt F) (b.view.loc (thr d L)), ⌜RowsAre m d L cI j hj (b.view.read (Elt F) fd)⌝
    ∗ Transfers.Flight countersEmb (thr d L) (.dma g) (default : HIx 1) 524288
        (flightD m d L b fd cI j hj (Transfers.shareTok (tileShare (cL L) (jL L)) 5 i))
    ∗ ((fW).view.loc (thr d L) ↦[Finset.univ \ (fAll).view.set]{Transfers.shareTok (tileShare (cL L) (jL L)) 5 i} m (featLoc d))
    ∗ ∃ f, (b).view.loc (thr d L) ↦[Finset.univ \ (b).view.set]{fullShare} f)

def DoneUpTo (tbl : (d : Dev nD) → Buf (Elt F) (idxLoc d)) (n : Nat) (fo : Buf (Elt F) (outLoc d)) : Prop :=
  ∀ y : S163840x128.Idx, 128 * chunk0 L ≤ (y 0).val → (y 0).val < 128 * (chunk0 L + n) → fo y = gathered m tbl d y

omit [FloatOps F] in
theorem row_lt (k r : Nat) (hk : k ≤ 7) (hr : r < 5) : 5 * k + r < 40 := by omega

abbrev rowSet (j : Nat) (hj : j < 40) : Finset (Idx ((sI).view.loc (thr d L))) := (rowM j hj).view.set

abbrev restRows (k : Nat) (hk : k ≤ 7) : Finset (Idx ((sI).view.loc (thr d L))) :=
  ((((Finset.univ \ rowSet d L (5 * k) (row_lt k 0 hk (by decide))) \ rowSet d L (5 * k + 1) (row_lt k 1 hk (by decide)))
      \ rowSet d L (5 * k + 2) (row_lt k 2 hk (by decide))) \ rowSet d L (5 * k + 3) (row_lt k 3 hk (by decide)))
    \ rowSet d L (5 * k + 4) (row_lt k 4 hk (by decide))

def InvOK (tbl : (d : Dev nD) → Buf (Elt F) (idxLoc d)) (O : CellTallies nD τ sig (HIx 1)) (W : Waits sig (HIx 1))
    (cI : Buf (Elt F) ((thr d L).loc cc0_scratch0)) (k : Nat) (hk : k ≤ 7) : sProp 𝕄 :=
  iprop(Transfers.MayWaits (thr d L) (default : HIx 1) O
    ∗ slot m d L b0 cc0_scratch6.sem 0 cI (5 * k) (row_lt k 0 hk (by decide))
    ∗ slot m d L b1 cc0_scratch7.sem 1 cI (5 * k + 1) (row_lt k 1 hk (by decide))
    ∗ slot m d L b2 cc0_scratch8.sem 2 cI (5 * k + 2) (row_lt k 2 hk (by decide))
    ∗ slot m d L b3 cc0_scratch9.sem 3 cI (5 * k + 3) (row_lt k 3 hk (by decide))
    ∗ slot m d L b4 cc0_scratch10.sem 4 cI (5 * k + 4) (row_lt k 4 hk (by decide))
    ∗ ((sI).view.loc (thr d L) ↦[restRows d L k hk]{fullShare} cI)
    ∗ (∃ fo, ((oTile L).view.loc (thr d L) ↦[(oTile L).view.set]{fullShare} fo) ∗ ⌜DoneUpTo m d L tbl (5 * k) fo⌝)
    ∗ semVal (thr d L, .dma cc0_scratch11.sem) 0 ∗ semVal (thr d L, .dma cc0_scratch12.sem) 0 ∗ semVal (thr d L, .dma cc0_scratch13.sem) 0
    ∗ semVal (thr d L, .dma cc0_scratch14.sem) 0 ∗ semVal (thr d L, .dma cc0_scratch15.sem) 0
    ∗ ∃ W', ⌜∀ p ∈ W', p ∈ W ∨ p.2 = none⌝ ∗ owes (thr d L) O W')

def Inv (tbl : (d : Dev nD) → Buf (Elt F) (idxLoc d)) (O : CellTallies nD τ sig (HIx 1)) (W : Waits sig (HIx 1))
    (cI : Buf (Elt F) ((thr d L).loc cc0_scratch0)) (k : Nat) (_ : PUnit) : sProp 𝕄 :=
  if hk : k ≤ 7 then InvOK m d L tbl O W cI k hk else iprop(False)

end Task

end Cert.Kernel.Hand

end
-- ==== Proof.Bits.ScTileSets.lean ====
import proofs.«207044_g16655883174581_fold_wed_m_811_16_alg».proof.Proof.Bits.ScTileDefs

noncomputable section

namespace Cert.Kernel.Hand

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.Sem

variable {F : FTy → Type}

local notation "𝕄" => MM F

variable (m : (ℓ : Loc nD τ sig) → Buf (Elt F) ℓ) (tbl : (d : Dev nD) → Buf (Elt F) (idxLoc d))

variable [FloatOps F]

section Sets

variable (d : Dev nD) (L : grid0.Coords)

theorem chunk0_eq (L : grid0.Coords) : chunk0 L = 40 * (tileNo (cL L) (jL L)).val := by
  have h0 : (L 0).val < 2 := (L 0).isLt
  show chunk0 L = 40 * (16 * (L 0).val + (L 1).val)
  unfold chunk0
  split <;> omega

theorem mem_oTile (y : S163840x128.Idx) :
    y ∈ (oTile L).view.set ↔ 128 * chunk0 L ≤ (y 0).val ∧ (y 0).val < 128 * (chunk0 L + 40) := by
  show y ∈ ((View.whole main_v31_scv).slice (tileK L)).set ↔ _
  rw [View.set_slice_whole, Rect.mem_set_unit]
  constructor
  · intro h
    have h0 := h 0
    change 128 * chunk0 L ≤ (y 0).val ∧ (y 0).val < 128 * chunk0 L + 5120 at h0
    omega
  · intro h a
    match a with
    | ⟨0, _⟩ => show 128 * chunk0 L ≤ (y 0).val ∧ (y 0).val < 128 * chunk0 L + 5120; omega
    | ⟨1, _⟩ => show 0 ≤ (y 1).val ∧ (y 1).val < 0 + 128; exact ⟨Nat.zero_le _, by have h1 : (y 1).val < 128 := (y 1).isLt; omega⟩

theorem mem_tileSet (c : Fin 2) (i : Fin 16) (y : S163840x128.Idx) :
    y ∈ tileSet c i ↔ 5120 * (tileNo c i).val ≤ (y 0).val ∧ (y 0).val < 5120 * (tileNo c i).val + 5120 := by
  show y ∈ (Rect.unit (s := S163840x128) _ _ _).set ↔ _
  rw [Rect.mem_set_unit]
  constructor
  · intro h
    have h0 := h 0
    change (tileNo c i).val * 5120 ≤ (y 0).val ∧ (y 0).val < (tileNo c i).val * 5120 + 5120 at h0
    omega
  · intro h a
    match a with
    | ⟨0, _⟩ => show (tileNo c i).val * 5120 ≤ (y 0).val ∧ (y 0).val < (tileNo c i).val * 5120 + 5120; omega
    | ⟨1, _⟩ => show 0 * 128 ≤ (y 1).val ∧ (y 1).val < 0 * 128 + 128; exact ⟨by omega, by have h1 : (y 1).val < 128 := (y 1).isLt; omega⟩

theorem oTile_set : (oTile L).view.set = tileSet (cL L) (jL L) := by
  ext y
  rw [mem_oTile, mem_tileSet, chunk0_eq]
  omega

theorem out_spelt_tile (fo : Buf (Elt F) (outLoc d)) :
    (outLoc d ↦[tileSet (cL L) (jL L)]{fullShare} fo : sProp 𝕄)
      = (oTile L).view.loc (thr d L) ↦[(oTile L).view.set]{fullShare} fo := by
  rw [oTile_set]

theorem done_all_tile (fo : Buf (Elt F) (outLoc d)) (h : DoneUpTo m d L tbl 40 fo) :
    ((oTile L).view.loc (thr d L) ↦[(oTile L).view.set]{fullShare} fo : sProp 𝕄)
      = (oTile L).view.loc (thr d L) ↦[(oTile L).view.set]{fullShare} gathered m tbl d :=
  pointsTo_congr fun y hy => h y ((mem_oTile L y).1 hy).1 ((mem_oTile L y).1 hy).2

theorem mem_rowSet (j : Nat) (hj : j < 40) (y : S40x128.Idx) : y ∈ rowSet d L j hj ↔ (y 0).val = j := by
  show y ∈ (((View.whole cc0_scratch0).slice (Rect.unit (s := S40x128) ![j, 0] S1x128.size (rowInb j hj))).reshape S128 squeezes_S1x128_S128.numel_eq).set ↔ _
  rw [View.set_reshape, View.set_slice_whole, Rect.mem_set_unit]
  constructor
  · intro h
    have h0 := h 0
    change j ≤ (y 0).val ∧ (y 0).val < j + 1 at h0
    omega
  · intro h a
    match a with
    | ⟨0, _⟩ => show j ≤ (y 0).val ∧ (y 0).val < j + 1; omega
    | ⟨1, _⟩ => show 0 ≤ (y 1).val ∧ (y 1).val < 0 + 128; exact ⟨Nat.zero_le _, by have h1 : (y 1).val < 128 := (y 1).isLt; omega⟩

theorem rows_disjoint {j j' : Nat} (hj : j < 40) (hj' : j' < 40) (hne : j ≠ j') :
    Disjoint (rowSet d L j hj) (rowSet d L j' hj') :=
  Finset.disjoint_left.2 fun y h1 h2 => hne (((mem_rowSet d L j hj y).1 h1).symm.trans ((mem_rowSet d L j' hj' y).1 h2))

theorem rowSet_congr {j j' : Nat} (e : j = j') (hj : j < 40) (hj' : j' < 40) : rowSet d L j hj = rowSet d L j' hj' := by
  subst e; rfl

theorem fetched_apply (j : Fin 40) (l : Fin 128) :
    ((iW).slice (Rect.unit (s := S1320x128) (k0_off1 L) S40x128.size (k0_off1_inb L)) (fun _ => rfl)).view.read (Elt F) (tbl d)
        (ValueIdx.ix2 j l)
      = tbl d (ValueIdx.ix2 (⟨chunk0 L + j.val, by have := chunk0_le L; omega⟩ : Fin 1320) l) := by
  rw [View.read_apply, cast_eq]
  refine congrArg (tbl d) (funext fun a => Fin.ext ?_)
  match a with
  | ⟨0, _⟩ =>
    show k0_off1 L 0 + 1 * j.val = chunk0 L + j.val
    rw [k0_off1_eq]
    show (if (L 0).val = 0 then 40 * (L 1).val else 40 * (L 1).val + 640) + 1 * j.val = chunk0 L + j.val
    unfold chunk0
    omega
  | ⟨1, _⟩ =>
    show k0_off1 L 1 + 1 * l.val = l.val
    rw [k0_off1_eq]
    show 0 + 1 * l.val = l.val
    omega

end Sets

end Cert.Kernel.Hand

end
-- ==== Proof.Bits.ScTileVals.lean ====
import proofs.«207044_g16655883174581_fold_wed_m_811_16_alg».proof.Proof.Bits.ScTileDefs
import Idealize.ShloMosaic.Lib.SparseCore.Stream

noncomputable section

namespace Cert.Kernel.Hand

open Cert.Kernel Cert.Kernel.Gen

open Idealize.ShloMosaic
open Idealize.ShloMosaic.SparseCore (S V T)
open Idealize.ShloMosaic.ValueIdx
open Idealize.SL Idealize.SL.Sem

variable {F : FTy → Type}

variable (m : (ℓ : Loc nD τ sig) → Buf (Elt F) ℓ)

section Vals

variable (d : Dev nD) (L : grid0.Coords)

theorem S128_numel : S128.numel = 128 := Shape.numel_rank1 _

theorem rowMajor_symm_S128 (k : Fin S128.numel) :
    S128.rowMajor.symm k = ix1 (⟨k.val, lt_of_lt_of_eq k.isLt S128_numel⟩ : Fin 128) := by
  rw [Equiv.symm_apply_eq]
  refine Fin.ext ?_
  show k.val = (S128.rowMajor (ix1 (⟨k.val, lt_of_lt_of_eq k.isLt S128_numel⟩ : Fin 128))).val
  rw [Shape.rowMajor_val_one]

theorem rowM_read (cI : Buf (Elt F) ((thr d L).loc cc0_scratch0)) (j : Nat) (hj : j < 40) (l : Fin 128) :
    (rowM j hj).view.read (Elt F) cI (ix1 l) = cI (ix2 (⟨j, hj⟩ : Fin 40) l) := by
  rw [View.read_apply]
  refine (cast_eq _ _).trans (congrArg cI (funext fun a => Fin.ext ?_))
  have hre : Shape.reshapeEquiv (squeezes_S1x128_S128 : S1x128.Squeezes S128).numel_eq (ix1 l) = ix2 (0 : Fin 1) l :=
    Shape.reshapeEquiv_eq_of_rowMajor _ (by
      rw [Shape.rowMajor_val_two, Shape.rowMajor_val_one]
      show 0 * 128 + l.val = l.val
      omega)
  match a with
  | ⟨0, _⟩ =>
    show j + 1 * ((Shape.reshapeEquiv (squeezes_S1x128_S128 : S1x128.Squeezes S128).numel_eq (ix1 l)) 0).val = j
    rw [hre]; rfl
  | ⟨1, _⟩ =>
    show 0 + 1 * ((Shape.reshapeEquiv (squeezes_S1x128_S128 : S1x128.Squeezes S128).numel_eq (ix1 l)) 1).val = l.val
    rw [hre]; show 0 + 1 * l.val = l.val; omega

theorem fAll_read (i : S10000x128.Idx) : (fAll).view.read (Elt F) (m (featLoc d)) i = m (featLoc d) i := by
  rw [View.read_apply]
  refine (cast_eq _ _).trans (congrArg (m (featLoc d)) (funext fun a => Fin.ext ?_))
  match a with
  | ⟨0, _⟩ => show 0 + 1 * (i 0).val = (i 0).val; omega
  | ⟨1, _⟩ => show 0 + 1 * (i 1).val = (i 1).val; omega

theorem rowsAre_writes (b : Memref sig .scVector .vmem S128x128 .f32) (fprev : Buf (Elt F) (b.view.loc (thr d L)))
    (cI : Buf (Elt F) ((thr d L).loc cc0_scratch0)) (j : Nat) (hj : j < 40)
    (hin' : ∀ x, ((rowM j hj).view.read (Elt F) cI x).toNat < S10000x128.size gathers_S10000x128_S128x128.axis) :
    RowsAre m d L cI j hj (b.view.read (Elt F) (b.view.writes (Elt F) fprev
      [⟨Rect.whole S128x128, SparseCore.gatherPayload gathers_S10000x128_S128x128 ((fAll).view.read (Elt F) (m (featLoc d)))
        (SparseCore.rows ((rowM j hj).view.read (Elt F) cI) rfl hin')⟩])) := by
  intro y
  refine ((congrArg _ (Rect.emb_whole_apply S128x128 y).symm).trans
    (View.read_writes_cons_emb b.view fprev (Rect.whole S128x128) _ [] y)).trans ?_
  unfold SparseCore.gatherPayload
  rw [fAll_read]
  refine congrArg (m (featLoc d)) (funext fun a => Fin.ext ?_)
  match a with
  | ⟨0, _⟩ =>
    show ((rowM j hj).view.read (Elt F) cI (S128.rowMajor.symm (Fin.cast _ (y gathers_S10000x128_S128x128.axis')))).toNat
      = (cI (ix2 (⟨j, hj⟩ : Fin 40) (⟨(y 0).val, (y 0).isLt⟩ : Fin 128))).toNat % 10000
    have hlt := hin' (ix1 (⟨(y 0).val, (y 0).isLt⟩ : Fin 128))
    rw [rowM_read] at hlt
    rw [rowMajor_symm_S128, rowM_read]
    exact (Nat.mod_eq_of_lt hlt).symm
  | ⟨1, _⟩ => rfl

end Vals

end Cert.Kernel.Hand

end
-- ==== Proof.Bits.ScTileWins.lean ====
import proofs.«207044_g16655883174581_fold_wed_m_811_16_alg».proof.Proof.Bits.ScTileSets

noncomputable section

namespace Cert.Kernel.Hand

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.Sem

variable {F : FTy → Type}

local notation "𝕄" => MM F

variable (m : (ℓ : Loc nD τ sig) → Buf (Elt F) ℓ) (tbl : (d : Dev nD) → Buf (Elt F) (idxLoc d))

variable [FloatOps F]

section Windows

variable (d : Dev nD) (L : grid0.Coords)

abbrev wP (k : Fin (k0_t1_loop L).trips) (j : BitVec 32) (h : ∀ a, k0_off3 L k j a + S128x128.size a ≤ S163840x128.size a) :
    Memref sig .scVector .hbm S128x128 .f32 :=
  (oW).slice (Rect.unit (s := S163840x128) (k0_off3 L k j) S128x128.size h) (fun _ => rfl)
abbrev wE (j : BitVec 32) (h : ∀ a, k0_off9 L j a + S128x128.size a ≤ S163840x128.size a) : Memref sig .scVector .hbm S128x128 .f32 :=
  (oW).slice (Rect.unit (s := S163840x128) (k0_off9 L j) S128x128.size h) (fun _ => rfl)
abbrev rP (k : Fin (k0_t1_loop L).trips) (j : BitVec 32) (h : ∀ a, k0_off4 L k j a + S1x128.size a ≤ S40x128.size a) :
    Memref sig .scVector .vmem S128 .i32 :=
  ((sI).slice (Rect.unit (s := S40x128) (k0_off4 L k j) S1x128.size h) (fun _ => rfl)).squeeze S128 squeezes_S1x128_S128

abbrev winP (k : Fin (k0_t1_loop L).trips) (r : Fin 5) := wP L k (BitVec.ofNat 32 r.val) (k0_off3_inb L k r)
abbrev winE (r : Fin 5) := wE L (BitVec.ofNat 32 r.val) (k0_off9_inb L r)

theorem trip_lt (k : Fin (k0_t1_loop L).trips) : k.val < 7 := by
  have h := (k0_t1_abs L).2.1
  have hk := k.isLt
  omega

theorem mem_winP (k : Fin (k0_t1_loop L).trips) (r : Fin 5) (y : S163840x128.Idx) :
    y ∈ (winP L k r).view.set
      ↔ 128 * (chunk0 L + 5 * k.val + r.val) ≤ (y 0).val ∧ (y 0).val < 128 * (chunk0 L + 5 * k.val + r.val + 1) := by
  show y ∈ ((View.whole main_v31_scv).slice (Rect.unit (s := S163840x128) (k0_off3 L k (BitVec.ofNat 32 r.val)) S128x128.size
    (k0_off3_inb L k r))).set ↔ _
  rw [View.set_slice_whole, Rect.mem_set_unit, k0_off3_eq L k r]
  constructor
  · intro h
    have h0 := h 0
    change 128 * chunk0 L + 640 * k.val + 128 * r.val ≤ (y 0).val ∧ (y 0).val < 128 * chunk0 L + 640 * k.val + 128 * r.val + 128 at h0
    omega
  · intro h a
    match a with
    | ⟨0, _⟩ =>
      show 128 * chunk0 L + 640 * k.val + 128 * r.val ≤ (y 0).val ∧ (y 0).val < 128 * chunk0 L + 640 * k.val + 128 * r.val + 128
      omega
    | ⟨1, _⟩ => show 0 ≤ (y 1).val ∧ (y 1).val < 0 + 128; exact ⟨Nat.zero_le _, by have h1 : (y 1).val < 128 := (y 1).isLt; omega⟩

theorem mem_winE (r : Fin 5) (y : S163840x128.Idx) :
    y ∈ (winE L r).view.set
      ↔ 128 * (chunk0 L + 35 + r.val) ≤ (y 0).val ∧ (y 0).val < 128 * (chunk0 L + 35 + r.val + 1) := by
  show y ∈ ((View.whole main_v31_scv).slice (Rect.unit (s := S163840x128) (k0_off9 L (BitVec.ofNat 32 r.val)) S128x128.size
    (k0_off9_inb L r))).set ↔ _
  rw [View.set_slice_whole, Rect.mem_set_unit, k0_off9_eq L r]
  have h40 : (if (L 0).val = 0 then 40 else 40) = 40 := by split <;> rfl
  constructor
  · intro h
    have h0 := h 0
    change 128 * chunk0 L + 640 * ((if (L 0).val = 0 then 40 else 40) / 5) + 128 * r.val - 640 ≤ (y 0).val
      ∧ (y 0).val < 128 * chunk0 L + 640 * ((if (L 0).val = 0 then 40 else 40) / 5) + 128 * r.val - 640 + 128 at h0
    rw [h40] at h0
    omega
  · intro h a
    match a with
    | ⟨0, _⟩ =>
      show 128 * chunk0 L + 640 * ((if (L 0).val = 0 then 40 else 40) / 5) + 128 * r.val - 640 ≤ (y 0).val
        ∧ (y 0).val < 128 * chunk0 L + 640 * ((if (L 0).val = 0 then 40 else 40) / 5) + 128 * r.val - 640 + 128
      rw [h40]
      omega
    | ⟨1, _⟩ => show 0 ≤ (y 1).val ∧ (y 1).val < 0 + 128; exact ⟨Nat.zero_le _, by have h1 : (y 1).val < 128 := (y 1).isLt; omega⟩

theorem winP_sub (k : Fin (k0_t1_loop L).trips) (r : Fin 5) (hk : k.val < 7) : (winP L k r).view.set ⊆ (oTile L).view.set := by
  intro y hy
  have h := (mem_winP L k r y).1 hy
  have hr := r.isLt
  exact (mem_oTile L y).2 (by omega)
theorem winE_sub (r : Fin 5) : (winE L r).view.set ⊆ (oTile L).view.set := by
  intro y hy
  have h := (mem_winE L r y).1 hy
  have hr := r.isLt
  exact (mem_oTile L y).2 (by omega)

theorem winP_disj (k : Fin (k0_t1_loop L).trips) {r r' : Fin 5} (hne : r ≠ r') :
    Disjoint (winP L k r).view.set (winP L k r').view.set :=
  Finset.disjoint_left.2 fun y h1 h2 => hne (Fin.ext (by
    have a := (mem_winP L k r y).1 h1
    have b := (mem_winP L k r' y).1 h2
    omega))
theorem winE_disj {r r' : Fin 5} (hne : r ≠ r') : Disjoint (winE L r).view.set (winE L r').view.set :=
  Finset.disjoint_left.2 fun y h1 h2 => hne (Fin.ext (by
    have a := (mem_winE L r y).1 h1
    have b := (mem_winE L r' y).1 h2
    omega))

section Carve

variable {ℓ : Loc nD τ sig} {S T0 T1 T2 T3 T4 : Finset (Idx ℓ)}

theorem carve5 (f : Buf (Elt F) ℓ) (h0 : T0 ⊆ S) (h1 : T1 ⊆ S \ T0) (h2 : T2 ⊆ (S \ T0) \ T1) (h3 : T3 ⊆ ((S \ T0) \ T1) \ T2)
    (h4 : T4 ⊆ (((S \ T0) \ T1) \ T2) \ T3) :
    (ℓ ↦[S]{fullShare} f : sProp 𝕄)
      ⊢ iprop((ℓ ↦[T0]{fullShare} f) ∗ (ℓ ↦[T1]{fullShare} f) ∗ (ℓ ↦[T2]{fullShare} f) ∗ (ℓ ↦[T3]{fullShare} f)
          ∗ (ℓ ↦[T4]{fullShare} f) ∗ ℓ ↦[((((S \ T0) \ T1) \ T2) \ T3) \ T4]{fullShare} f) :=
  (pointsTo_split_subset h0).1.trans (sep_mono_r ((pointsTo_split_subset h1).1.trans (sep_mono_r
    ((pointsTo_split_subset h2).1.trans (sep_mono_r ((pointsTo_split_subset h3).1.trans (sep_mono_r
      (pointsTo_split_subset h4).1)))))))

theorem join5 (h0 : T0 ⊆ S) (h1 : T1 ⊆ S \ T0) (h2 : T2 ⊆ (S \ T0) \ T1) (h3 : T3 ⊆ ((S \ T0) \ T1) \ T2)
    (h4 : T4 ⊆ (((S \ T0) \ T1) \ T2) \ T3) (g0 g1 g2 g3 g4 f h : Buf (Elt F) ℓ)
    (e0 : ∀ y ∈ T0, g0 y = h y) (e1 : ∀ y ∈ T1, g1 y = h y) (e2 : ∀ y ∈ T2, g2 y = h y) (e3 : ∀ y ∈ T3, g3 y = h y)
    (e4 : ∀ y ∈ T4, g4 y = h y) (er : ∀ y ∈ ((((S \ T0) \ T1) \ T2) \ T3) \ T4, f y = h y) :
    iprop((ℓ ↦[T0]{fullShare} g0) ∗ (ℓ ↦[T1]{fullShare} g1) ∗ (ℓ ↦[T2]{fullShare} g2) ∗ (ℓ ↦[T3]{fullShare} g3)
        ∗ (ℓ ↦[T4]{fullShare} g4) ∗ ℓ ↦[((((S \ T0) \ T1) \ T2) \ T3) \ T4]{fullShare} f)
      ⊢ (ℓ ↦[S]{fullShare} h : sProp 𝕄) := by
  rw [pointsTo_congr e0, pointsTo_congr e1, pointsTo_congr e2, pointsTo_congr e3, pointsTo_congr e4, pointsTo_congr er]
  exact (sep_mono_r (sep_mono_r (sep_mono_r (sep_mono_r (pointsTo_split_subset h4).2)))).trans
    ((sep_mono_r (sep_mono_r (sep_mono_r (pointsTo_split_subset h3).2))).trans
      ((sep_mono_r (sep_mono_r (pointsTo_split_subset h2).2)).trans
        ((sep_mono_r (pointsTo_split_subset h1).2).trans (pointsTo_split_subset h0).2)))

end Carve

theorem sub_sdiff {α : Type} [DecidableEq α] {A S T : Finset α} (h : A ⊆ S) (hd : Disjoint A T) : A ⊆ S \ T :=
  Finset.subset_sdiff.2 ⟨h, hd⟩

theorem chain5 {α : Type} [DecidableEq α] {S : Finset α} (T : Fin 5 → Finset α) (hs : ∀ r, T r ⊆ S)
    (hd : ∀ r r', r ≠ r' → Disjoint (T r) (T r')) :
    T 0 ⊆ S ∧ T 1 ⊆ S \ T 0 ∧ T 2 ⊆ (S \ T 0) \ T 1 ∧ T 3 ⊆ ((S \ T 0) \ T 1) \ T 2 ∧ T 4 ⊆ (((S \ T 0) \ T 1) \ T 2) \ T 3 :=
  ⟨hs 0, sub_sdiff (hs 1) (hd _ _ (by decide)), sub_sdiff (sub_sdiff (hs 2) (hd _ _ (by decide))) (hd _ _ (by decide)),
    sub_sdiff (sub_sdiff (sub_sdiff (hs 3) (hd _ _ (by decide))) (hd _ _ (by decide))) (hd _ _ (by decide)),
    sub_sdiff (sub_sdiff (sub_sdiff (sub_sdiff (hs 4) (hd _ _ (by decide))) (hd _ _ (by decide))) (hd _ _ (by decide))) (hd _ _ (by decide))⟩

theorem winP_chain (k : Fin (k0_t1_loop L).trips) (hk : k.val < 7) :
    (winP L k 0).view.set ⊆ (oTile L).view.set
      ∧ (winP L k 1).view.set ⊆ (oTile L).view.set \ (winP L k 0).view.set
      ∧ (winP L k 2).view.set ⊆ ((oTile L).view.set \ (winP L k 0).view.set) \ (winP L k 1).view.set
      ∧ (winP L k 3).view.set ⊆ (((oTile L).view.set \ (winP L k 0).view.set) \ (winP L k 1).view.set) \ (winP L k 2).view.set
      ∧ (winP L k 4).view.set ⊆ ((((oTile L).view.set \ (winP L k 0).view.set) \ (winP L k 1).view.set) \ (winP L k 2).view.set)
          \ (winP L k 3).view.set :=
  chain5 (α := S163840x128.Idx) (S := (oTile L).view.set) (fun r => (winP L k r).view.set) (fun r => winP_sub L k r hk) fun _ _ h => winP_disj L k h

theorem winE_chain :
    (winE L 0).view.set ⊆ (oTile L).view.set
      ∧ (winE L 1).view.set ⊆ (oTile L).view.set \ (winE L 0).view.set
      ∧ (winE L 2).view.set ⊆ ((oTile L).view.set \ (winE L 0).view.set) \ (winE L 1).view.set
      ∧ (winE L 3).view.set ⊆ (((oTile L).view.set \ (winE L 0).view.set) \ (winE L 1).view.set) \ (winE L 2).view.set
      ∧ (winE L 4).view.set ⊆ ((((oTile L).view.set \ (winE L 0).view.set) \ (winE L 1).view.set) \ (winE L 2).view.set)
          \ (winE L 3).view.set :=
  chain5 (α := S163840x128.Idx) (S := (oTile L).view.set) (fun r => (winE L r).view.set) (winE_sub L) fun _ _ h => winE_disj L h

abbrev rowP (k : Fin (k0_t1_loop L).trips) (r : Fin 5) := rP L k (BitVec.ofNat 32 r.val) (k0_off4_inb L k r)

theorem rowP_set (k : Fin (k0_t1_loop L).trips) (r : Fin 5) :
    (rowP L k r).view.set = rowSet d L (5 * k.val + r.val + 5) (by have := trip_lt L k; have := r.isLt; omega) := by
  have gen : ∀ (off : Fin 2 → Nat) (p : ∀ a, off a + S1x128.size a ≤ S40x128.size a) (j : Nat) (hj : j < 40), off = ![j, 0] →
      (((sI).slice (Rect.unit (s := S40x128) off S1x128.size p) (fun _ => rfl)).squeeze S128 squeezes_S1x128_S128).view.set
        = rowSet d L j hj := by
    intro off p j hj h
    subst h
    rfl
  exact gen _ _ _ _ (k0_off4_eq L k r)

theorem row_sub_sdiff {A : Finset (Idx ((sI).view.loc (thr d L)))} {j j' : Nat} (hj : j < 40) (hj' : j' < 40)
    (h : rowSet d L j hj ⊆ A) (hne : j ≠ j') : rowSet d L j hj ⊆ A \ rowSet d L j' hj' :=
  sub_sdiff h (rows_disjoint d L hj hj' hne)

theorem row_sub_restRows (k : Nat) (hk : k ≤ 7) (j : Nat) (hj : j < 40) (h : 5 * k + 5 ≤ j) :
    rowSet d L j hj ⊆ restRows d L k hk := by
  unfold restRows
  exact row_sub_sdiff d L hj _ (row_sub_sdiff d L hj _ (row_sub_sdiff d L hj _ (row_sub_sdiff d L hj _
    (row_sub_sdiff d L hj _ (Finset.subset_univ _) (by omega)) (by omega)) (by omega)) (by omega)) (by omega)

theorem row_sub_restRows_succ (k : Nat) (hk : k + 1 ≤ 7) (j : Nat) (hj : j < 40) (h : j < 5 * k + 5) :
    rowSet d L j hj ⊆ restRows d L (k + 1) hk := by
  unfold restRows
  exact row_sub_sdiff d L hj _ (row_sub_sdiff d L hj _ (row_sub_sdiff d L hj _ (row_sub_sdiff d L hj _
    (row_sub_sdiff d L hj _ (Finset.subset_univ _) (by omega)) (by omega)) (by omega)) (by omega)) (by omega)

theorem rowP_chain (k : Fin (k0_t1_loop L).trips) :
    (rowP L k 0).view.set ⊆ restRows d L k.val (by have := trip_lt L k; omega)
      ∧ (rowP L k 1).view.set ⊆ restRows d L k.val (by have := trip_lt L k; omega) \ (rowP L k 0).view.set
      ∧ (rowP L k 2).view.set ⊆ (restRows d L k.val (by have := trip_lt L k; omega) \ (rowP L k 0).view.set) \ (rowP L k 1).view.set
      ∧ (rowP L k 3).view.set ⊆ ((restRows d L k.val (by have := trip_lt L k; omega) \ (rowP L k 0).view.set) \ (rowP L k 1).view.set) \ (rowP L k 2).view.set
      ∧ (rowP L k 4).view.set ⊆ (((restRows d L k.val (by have := trip_lt L k; omega) \ (rowP L k 0).view.set) \ (rowP L k 1).view.set) \ (rowP L k 2).view.set) \ (rowP L k 3).view.set :=
  chain5 (α := S40x128.Idx) (S := restRows d L k.val (by have := trip_lt L k; omega)) (fun r => (rowP L k r).view.set)
    (fun r => by rw [rowP_set d L k r]; exact row_sub_restRows d L _ _ _ _ (by omega))
    fun r r' h => by rw [rowP_set d L k r, rowP_set d L k r']; exact rows_disjoint d L _ _ fun e => h (Fin.ext (by omega))

theorem mem_sdiff_row {A : Finset (Idx ((sI).view.loc (thr d L)))} {j : Nat} {hj : j < 40} {y : S40x128.Idx} :
    y ∈ A \ rowSet d L j hj ↔ y ∈ A ∧ (y 0).val ≠ j :=
  Finset.mem_sdiff.trans (and_congr_right fun _ => not_congr (mem_rowSet d L j hj y))

theorem mem_sdiff_rows5 {A : Finset (Idx ((sI).view.loc (thr d L)))} {j0 j1 j2 j3 j4 : Nat} {h0 : j0 < 40} {h1 : j1 < 40}
    {h2 : j2 < 40} {h3 : j3 < 40} {h4 : j4 < 40} {y : S40x128.Idx} :
    y ∈ ((((A \ rowSet d L j0 h0) \ rowSet d L j1 h1) \ rowSet d L j2 h2) \ rowSet d L j3 h3) \ rowSet d L j4 h4
      ↔ y ∈ A ∧ (y 0).val ≠ j0 ∧ (y 0).val ≠ j1 ∧ (y 0).val ≠ j2 ∧ (y 0).val ≠ j3 ∧ (y 0).val ≠ j4 := by
  constructor
  · intro h
    obtain ⟨h, e4⟩ := (mem_sdiff_row d L).1 h
    obtain ⟨h, e3⟩ := (mem_sdiff_row d L).1 h
    obtain ⟨h, e2⟩ := (mem_sdiff_row d L).1 h
    obtain ⟨h, e1⟩ := (mem_sdiff_row d L).1 h
    obtain ⟨h, e0⟩ := (mem_sdiff_row d L).1 h
    exact ⟨h, e0, e1, e2, e3, e4⟩
  · rintro ⟨h, e0, e1, e2, e3, e4⟩
    exact (mem_sdiff_row d L).2 ⟨(mem_sdiff_row d L).2 ⟨(mem_sdiff_row d L).2 ⟨(mem_sdiff_row d L).2
      ⟨(mem_sdiff_row d L).2 ⟨h, e0⟩, e1⟩, e2⟩, e3⟩, e4⟩

theorem mem_restRows (k : Nat) (hk : k ≤ 7) (y : S40x128.Idx) :
    y ∈ restRows d L k hk ↔ ((y 0).val < 5 * k ∨ 5 * k + 5 ≤ (y 0).val) := by
  unfold restRows
  rw [mem_sdiff_rows5 d L]
  constructor
  · rintro ⟨-, e0, e1, e2, e3, e4⟩
    omega
  · intro h
    exact ⟨Finset.mem_univ _, by omega, by omega, by omega, by omega, by omega⟩

theorem rest_after_trip (k : Fin (k0_t1_loop L).trips) :
    ((((restRows d L k.val (by have := trip_lt L k; omega) \ (rowP L k 0).view.set) \ (rowP L k 1).view.set) \ (rowP L k 2).view.set) \ (rowP L k 3).view.set) \ (rowP L k 4).view.set
      = ((((restRows d L (k.val + 1) (by have := trip_lt L k; omega) \ rowSet d L (5 * k.val) (by have := trip_lt L k; omega)) \ rowSet d L (5 * k.val + 1) (by have := trip_lt L k; omega)) \ rowSet d L (5 * k.val + 2) (by have := trip_lt L k; omega))
          \ rowSet d L (5 * k.val + 3) (by have := trip_lt L k; omega)) \ rowSet d L (5 * k.val + 4) (by have := trip_lt L k; omega) := by
  rw [rowP_set d L k 0, rowP_set d L k 1, rowP_set d L k 2, rowP_set d L k 3, rowP_set d L k 4]
  ext y
  refine (mem_sdiff_rows5 d L).trans (Iff.trans ?_ (mem_sdiff_rows5 d L).symm)
  refine Iff.trans (and_congr_left' (mem_restRows d L _ _ y)) (Iff.trans ?_ (and_congr_left' (mem_restRows d L _ _ y)).symm)
  show ((y 0).val < 5 * k.val ∨ 5 * k.val + 5 ≤ (y 0).val) ∧ (y 0).val ≠ 5 * k.val + 0 + 5 ∧ (y 0).val ≠ 5 * k.val + 1 + 5
      ∧ (y 0).val ≠ 5 * k.val + 2 + 5 ∧ (y 0).val ≠ 5 * k.val + 3 + 5 ∧ (y 0).val ≠ 5 * k.val + 4 + 5
    ↔ ((y 0).val < 5 * (k.val + 1) ∨ 5 * (k.val + 1) + 5 ≤ (y 0).val) ∧ (y 0).val ≠ 5 * k.val ∧ (y 0).val ≠ 5 * k.val + 1
      ∧ (y 0).val ≠ 5 * k.val + 2 ∧ (y 0).val ≠ 5 * k.val + 3 ∧ (y 0).val ≠ 5 * k.val + 4
  omega

theorem rowRet_chain (k : Fin (k0_t1_loop L).trips) :
    rowSet d L (5 * k.val) (by have := trip_lt L k; omega) ⊆ restRows d L (k.val + 1) (by have := trip_lt L k; omega)
      ∧ rowSet d L (5 * k.val + 1) (by have := trip_lt L k; omega) ⊆ restRows d L (k.val + 1) (by have := trip_lt L k; omega) \ rowSet d L (5 * k.val) (by have := trip_lt L k; omega)
      ∧ rowSet d L (5 * k.val + 2) (by have := trip_lt L k; omega) ⊆ (restRows d L (k.val + 1) (by have := trip_lt L k; omega) \ rowSet d L (5 * k.val) (by have := trip_lt L k; omega)) \ rowSet d L (5 * k.val + 1) (by have := trip_lt L k; omega)
      ∧ rowSet d L (5 * k.val + 3) (by have := trip_lt L k; omega) ⊆ ((restRows d L (k.val + 1) (by have := trip_lt L k; omega) \ rowSet d L (5 * k.val) (by have := trip_lt L k; omega)) \ rowSet d L (5 * k.val + 1) (by have := trip_lt L k; omega)) \ rowSet d L (5 * k.val + 2) (by have := trip_lt L k; omega)
      ∧ rowSet d L (5 * k.val + 4) (by have := trip_lt L k; omega) ⊆ (((restRows d L (k.val + 1) (by have := trip_lt L k; omega) \ rowSet d L (5 * k.val) (by have := trip_lt L k; omega)) \ rowSet d L (5 * k.val + 1) (by have := trip_lt L k; omega)) \ rowSet d L (5 * k.val + 2) (by have := trip_lt L k; omega))
          \ rowSet d L (5 * k.val + 3) (by have := trip_lt L k; omega) := by
  have hk := trip_lt L k
  refine ⟨row_sub_restRows_succ d L _ _ _ _ (by omega), ?_, ?_, ?_, ?_⟩
  · exact row_sub_sdiff d L _ _ (row_sub_restRows_succ d L _ _ _ _ (by omega)) (by omega)
  · exact row_sub_sdiff d L _ _ (row_sub_sdiff d L _ _ (row_sub_restRows_succ d L _ _ _ _ (by omega)) (by omega)) (by omega)
  · exact row_sub_sdiff d L _ _ (row_sub_sdiff d L _ _ (row_sub_sdiff d L _ _ (row_sub_restRows_succ d L _ _ _ _ (by omega)) (by omega))
      (by omega)) (by omega)
  · exact row_sub_sdiff d L _ _ (row_sub_sdiff d L _ _ (row_sub_sdiff d L _ _ (row_sub_sdiff d L _ _
      (row_sub_restRows_succ d L _ _ _ _ (by omega)) (by omega)) (by omega)) (by omega)) (by omega)

end Windows

end Cert.Kernel.Hand

end
-- ==== Proof.Bits.ScTileClose.lean ====
import proofs.«207044_g16655883174581_fold_wed_m_811_16_alg».proof.Proof.Bits.ScTileVals
import proofs.«207044_g16655883174581_fold_wed_m_811_16_alg».proof.Proof.Bits.ScTileWins

noncomputable section

namespace Cert.Kernel.Hand

open Cert.Kernel Cert.Kernel.Gen

open Idealize.ShloMosaic
open Idealize.ShloMosaic.SparseCore (S V T)
open Idealize.ShloMosaic.ValueIdx
open Idealize.SL Idealize.SL.Sem

variable {F : FTy → Type}

variable (m : (ℓ : Loc nD τ sig) → Buf (Elt F) ℓ) (tbl : (d : Dev nD) → Buf (Elt F) (idxLoc d))

section Close

variable (d : Dev nD) (L : grid0.Coords)

abbrev oWinAt (o : Fin 2 → Nat) (ho : ∀ a, o a + S128x128.size a ≤ S163840x128.size a) :
    Memref sig .scVector .hbm S128x128 .f32 :=
  (oW).slice (Rect.unit (s := S163840x128) o S128x128.size ho) (fun _ => rfl)

theorem mem_oWinAt (o : Fin 2 → Nat) (ho : ∀ a, o a + S128x128.size a ≤ S163840x128.size a) (c : Nat)
    (h0 : o 0 = 128 * c) (h1 : o 1 = 0) (y : S163840x128.Idx) :
    y ∈ (oWinAt o ho).view.set ↔ 128 * c ≤ (y 0).val ∧ (y 0).val < 128 * (c + 1) := by
  show y ∈ ((View.whole main_v31_scv).slice (Rect.unit (s := S163840x128) o S128x128.size ho)).set ↔ _
  rw [View.set_slice_whole, Rect.mem_set_unit]
  constructor
  · intro h
    have h0' := h 0
    change o 0 ≤ (y 0).val ∧ (y 0).val < o 0 + 128 at h0'
    omega
  · intro h a
    match a with
    | ⟨0, _⟩ => show o 0 ≤ (y 0).val ∧ (y 0).val < o 0 + 128; omega
    | ⟨1, _⟩ =>
      show o 1 ≤ (y 1).val ∧ (y 1).val < o 1 + 128
      have hy1 : (y 1).val < 128 := (y 1).isLt
      omega

-- The gathered rows on the five chunks after the tile's first `c0`, the old contents elsewhere.
def closed (c0 : Nat) (fo' : Buf (Elt F) (outLoc d)) : Buf (Elt F) (outLoc d) := fun y =>
  if 128 * (chunk0 L + c0) ≤ (y 0).val ∧ (y 0).val < 128 * (chunk0 L + c0 + 5) then gathered m tbl d y else fo' y

theorem closed_win (cI : Buf (Elt F) ((thr d L).loc cc0_scratch0))
    (hcI : ∀ (j : Fin 40) (l : Fin 128), cI (ix2 j l)
      = tbl d (ix2 (⟨chunk0 L + j.val, by have := chunk0_le L; have := j.isLt; omega⟩ : Fin 1320) l))
    {c0 : Nat} {o : Fin 5 → Fin 2 → Nat} {ho : ∀ r a, o r a + S128x128.size a ≤ S163840x128.size a}
    (h0 : ∀ r : Fin 5, o r 0 = 128 * (chunk0 L + c0 + r.val)) (h1 : ∀ r : Fin 5, o r 1 = 0) (fo' : Buf (Elt F) (outLoc d))
    (r : Fin 5) {hn : c0 + r.val < 40} (pd : S128x128.Idx → Elt F .f32) (hpd : RowsAre m d L cI (c0 + r.val) hn pd) :
    ∀ y ∈ (oWinAt (o r) (ho r)).view.set,
      (oWinAt (o r) (ho r)).view.writes (Elt F) fo' [⟨Rect.whole S128x128, pd⟩] y = closed m tbl d L c0 fo' y := by
  intro y hy
  have hr := r.isLt
  have h0r := h0 r
  have h1r := h1 r
  have hm := (mem_oWinAt (o r) (ho r) _ h0r h1r y).1 hy
  refine Eq.trans ?_ (if_pos ⟨by omega, by omega⟩).symm
  obtain ⟨x, -, rfl⟩ := Finset.mem_map.mp hy
  have he : ((oWinAt (o r) (ho r)).view.slice (Rect.whole S128x128)).emb x = (oWinAt (o r) (ho r)).view.emb x :=
    congrArg (oWinAt (o r) (ho r)).view.emb (Rect.emb_whole_apply S128x128 x)
  show ((oWinAt (o r) (ho r)).view.slice (Rect.whole S128x128)).write (Elt F) fo' pd Finset.univ ((oWinAt (o r) (ho r)).view.emb x) = _
  rw [← he, View.write_emb_of_mem _ _ (Finset.mem_univ x), he]
  refine (cast_eq _ _).trans ?_
  rw [hpd x]
  unfold gathered
  have hx0 : (x 0).val < 128 := (x 0).isLt
  have hc := chunk0_le L
  refine congrArg (m (featLoc d)) (congrArg₂ (fun (r : Fin 10000) (k : Fin 128) => ix2 r k) (Fin.ext ?_) (Fin.ext ?_))
  · show (cI (ix2 (⟨c0 + r.val, hn⟩ : Fin 40) (⟨(x 0).val, (x 0).isLt⟩ : Fin 128))).toNat % 10000 = _
    rw [hcI (⟨c0 + r.val, hn⟩ : Fin 40) (⟨(x 0).val, (x 0).isLt⟩ : Fin 128)]
    refine congrArg (fun i => (tbl d i).toNat % 10000)
      (congrArg₂ (fun (a : Fin 1320) (b : Fin 128) => ix2 a b) (Fin.ext ?_) (Fin.ext ?_))
    · show chunk0 L + (c0 + r.val) = (o r 0 + 1 * (x 0).val) / 128
      omega
    · show (x 0).val = (o r 0 + 1 * (x 0).val) % 128
      omega
  · show (x 1).val = o r 1 + 1 * (x 1).val
    omega

theorem closed_rest (c0 : Nat) (o : Fin 5 → Fin 2 → Nat) (ho : ∀ r a, o r a + S128x128.size a ≤ S163840x128.size a)
    (h0 : ∀ r : Fin 5, o r 0 = 128 * (chunk0 L + c0 + r.val)) (h1 : ∀ r : Fin 5, o r 1 = 0) (fo' : Buf (Elt F) (outLoc d)) :
    ∀ y ∈ (((((oTile L).view.set \ (oWinAt (o 0) (ho 0)).view.set) \ (oWinAt (o 1) (ho 1)).view.set) \ (oWinAt (o 2) (ho 2)).view.set) \ (oWinAt (o 3) (ho 3)).view.set) \ (oWinAt (o 4) (ho 4)).view.set,
      fo' y = closed m tbl d L c0 fo' y := by
  intro y hy
  simp only [Finset.mem_sdiff] at hy
  obtain ⟨⟨⟨⟨⟨-, n0⟩, n1⟩, n2⟩, n3⟩, n4⟩ := hy
  refine (if_neg fun hin => ?_).symm
  have key : ∀ r : Fin 5, ¬ (128 * (chunk0 L + c0 + r.val) ≤ (y 0).val ∧ (y 0).val < 128 * (chunk0 L + c0 + r.val + 1)) :=
    fun r => (mem_oWinAt (o r) (ho r) _ (h0 r) (h1 r) y).not.1 (by fin_cases r <;> assumption)
  have h5 : (y 0).val / 128 - (chunk0 L + c0) < 5 := by omega
  exact key ⟨_, h5⟩ ⟨by show 128 * (chunk0 L + c0 + ((y 0).val / 128 - (chunk0 L + c0))) ≤ _; omega,
    by show _ < 128 * (chunk0 L + c0 + ((y 0).val / 128 - (chunk0 L + c0)) + 1); omega⟩

theorem closed_done (c0 : Nat) (fo' : Buf (Elt F) (outLoc d)) (hfo : DoneUpTo m d L tbl c0 fo') :
    DoneUpTo m d L tbl (c0 + 5) (closed m tbl d L c0 fo') := by
  intro y hlo hhi
  by_cases hin : 128 * (chunk0 L + c0) ≤ (y 0).val ∧ (y 0).val < 128 * (chunk0 L + c0 + 5)
  · exact if_pos hin
  · exact (if_neg hin).trans (hfo y hlo (by omega))

theorem out_close (cI : Buf (Elt F) ((thr d L).loc cc0_scratch0))
    (hcI : ∀ (j : Fin 40) (l : Fin 128), cI (ix2 j l)
      = tbl d (ix2 (⟨chunk0 L + j.val, by have := chunk0_le L; have := j.isLt; omega⟩ : Fin 1320) l))
    (k : Fin (k0_t1_loop L).trips) (hk : k.val < 7)
    (fo' : Buf (Elt F) (outLoc d)) (hfo : DoneUpTo m d L tbl (5 * k.val) fo')
    (pd0 pd1 pd2 pd3 pd4 : S128x128.Idx → Elt F .f32)
    (hp0 : RowsAre m d L cI (5 * k.val) (by omega) pd0) (hp1 : RowsAre m d L cI (5 * k.val + 1) (by omega) pd1)
    (hp2 : RowsAre m d L cI (5 * k.val + 2) (by omega) pd2) (hp3 : RowsAre m d L cI (5 * k.val + 3) (by omega) pd3)
    (hp4 : RowsAre m d L cI (5 * k.val + 4) (by omega) pd4) :
    ∃ h : Buf (Elt F) (outLoc d),
      (∀ y ∈ (winP L k 0).view.set,
        (winP L k 0).view.writes (Elt F) fo' [⟨Rect.whole S128x128, pd0⟩] y = h y)
      ∧ (∀ y ∈ (winP L k 1).view.set,
        (winP L k 1).view.writes (Elt F) fo' [⟨Rect.whole S128x128, pd1⟩] y = h y)
      ∧ (∀ y ∈ (winP L k 2).view.set,
        (winP L k 2).view.writes (Elt F) fo' [⟨Rect.whole S128x128, pd2⟩] y = h y)
      ∧ (∀ y ∈ (winP L k 3).view.set,
        (winP L k 3).view.writes (Elt F) fo' [⟨Rect.whole S128x128, pd3⟩] y = h y)
      ∧ (∀ y ∈ (winP L k 4).view.set,
        (winP L k 4).view.writes (Elt F) fo' [⟨Rect.whole S128x128, pd4⟩] y = h y)
      ∧ (∀ y ∈ (((((oTile L).view.set
              \ (winP L k 0).view.set)
              \ (winP L k 1).view.set)
              \ (winP L k 2).view.set)
              \ (winP L k 3).view.set)
              \ (winP L k 4).view.set, fo' y = h y)
      ∧ DoneUpTo m d L tbl (5 * k.val + 5) h := by
  have h0 : ∀ r : Fin 5, k0_off3 L k (BitVec.ofNat 32 r.val) 0 = 128 * (chunk0 L + 5 * k.val + r.val) := fun r => by
    rw [k0_off3_eq]
    show 128 * chunk0 L + 640 * k.val + 128 * r.val = 128 * (chunk0 L + 5 * k.val + r.val)
    omega
  have h1 : ∀ r : Fin 5, k0_off3 L k (BitVec.ofNat 32 r.val) 1 = 0 := fun r => by rw [k0_off3_eq]; rfl
  have W := closed_win m tbl d L cI hcI (ho := k0_off3_inb L k) h0 h1 fo'
  exact ⟨closed m tbl d L (5 * k.val) fo',
    W 0 pd0 hp0, W 1 pd1 hp1, W 2 pd2 hp2, W 3 pd3 hp3, W 4 pd4 hp4,
    closed_rest m tbl d L _ (fun r => k0_off3 L k (BitVec.ofNat 32 r.val)) (k0_off3_inb L k) h0 h1 fo',
    closed_done m tbl d L _ fo' hfo⟩

theorem out_close_E (cI : Buf (Elt F) ((thr d L).loc cc0_scratch0))
    (hcI : ∀ (j : Fin 40) (l : Fin 128), cI (ix2 j l)
      = tbl d (ix2 (⟨chunk0 L + j.val, by have := chunk0_le L; have := j.isLt; omega⟩ : Fin 1320) l))
    (fo' : Buf (Elt F) (outLoc d)) (hfo : DoneUpTo m d L tbl 35 fo')
    (pd0 pd1 pd2 pd3 pd4 : S128x128.Idx → Elt F .f32)
    (hp0 : RowsAre m d L cI 35 (by omega) pd0) (hp1 : RowsAre m d L cI (35 + 1) (by omega) pd1)
    (hp2 : RowsAre m d L cI (35 + 2) (by omega) pd2) (hp3 : RowsAre m d L cI (35 + 3) (by omega) pd3)
    (hp4 : RowsAre m d L cI (35 + 4) (by omega) pd4) :
    ∃ h : Buf (Elt F) (outLoc d),
      (∀ y ∈ (winE L 0).view.set,
        (winE L 0).view.writes (Elt F) fo' [⟨Rect.whole S128x128, pd0⟩] y = h y)
      ∧ (∀ y ∈ (winE L 1).view.set,
        (winE L 1).view.writes (Elt F) fo' [⟨Rect.whole S128x128, pd1⟩] y = h y)
      ∧ (∀ y ∈ (winE L 2).view.set,
        (winE L 2).view.writes (Elt F) fo' [⟨Rect.whole S128x128, pd2⟩] y = h y)
      ∧ (∀ y ∈ (winE L 3).view.set,
        (winE L 3).view.writes (Elt F) fo' [⟨Rect.whole S128x128, pd3⟩] y = h y)
      ∧ (∀ y ∈ (winE L 4).view.set,
        (winE L 4).view.writes (Elt F) fo' [⟨Rect.whole S128x128, pd4⟩] y = h y)
      ∧ (∀ y ∈ (((((oTile L).view.set
              \ (winE L 0).view.set)
              \ (winE L 1).view.set)
              \ (winE L 2).view.set)
              \ (winE L 3).view.set)
              \ (winE L 4).view.set, fo' y = h y)
      ∧ DoneUpTo m d L tbl 40 h := by
  have h0 : ∀ r : Fin 5, k0_off9 L (BitVec.ofNat 32 r.val) 0 = 128 * (chunk0 L + 35 + r.val) := fun r => by
    rw [k0_off9_eq]
    have h40 : (if (L 0).val = 0 then 40 else 40) = 40 := by split <;> rfl
    show 128 * chunk0 L + 640 * ((if (L 0).val = 0 then 40 else 40) / 5) + 128 * r.val - 640 = 128 * (chunk0 L + 35 + r.val)
    rw [h40]
    omega
  have h1 : ∀ r : Fin 5, k0_off9 L (BitVec.ofNat 32 r.val) 1 = 0 := fun r => by rw [k0_off9_eq]; rfl
  have W := closed_win m tbl d L cI hcI (ho := k0_off9_inb L) h0 h1 fo'
  exact ⟨closed m tbl d L 35 fo',
    W 0 pd0 hp0, W 1 pd1 hp1, W 2 pd2 hp2, W 3 pd3 hp3, W 4 pd4 hp4,
    closed_rest m tbl d L _ (fun r => k0_off9 L (BitVec.ofNat 32 r.val)) (k0_off9_inb L) h0 h1 fo',
    closed_done m tbl d L _ fo' hfo⟩

theorem rowsAre_writes_at (b : Memref sig .scVector .vmem S128x128 .f32) (fprev : Buf (Elt F) (b.view.loc (thr d L)))
    (cI : Buf (Elt F) ((thr d L).loc cc0_scratch0)) (j : Nat) (hj : j < 40)
    (o : Fin 2 → Nat) (ho : ∀ a, o a + S1x128.size a ≤ S40x128.size a) (hoj : o = ![j, 0])
    (hin' : ∀ x, ((((sI).slice (Rect.unit (s := S40x128) o S1x128.size ho) (fun _ => rfl)).squeeze S128 squeezes_S1x128_S128).view.read
      (Elt F) cI x).toNat < S10000x128.size gathers_S10000x128_S128x128.axis) :
    RowsAre m d L cI j hj (b.view.read (Elt F) (b.view.writes (Elt F) fprev
      [⟨Rect.whole S128x128, SparseCore.gatherPayload gathers_S10000x128_S128x128 ((fAll).view.read (Elt F) (m (featLoc d)))
        (SparseCore.rows ((((sI).slice (Rect.unit (s := S40x128) o S1x128.size ho) (fun _ => rfl)).squeeze S128 squeezes_S1x128_S128).view.read
          (Elt F) cI) rfl hin')⟩])) := by
  subst hoj
  exact rowsAre_writes m d L b fprev cI j hj hin'

theorem rowsAre_writes_P (b : Memref sig .scVector .vmem S128x128 .f32) (fprev : Buf (Elt F) (b.view.loc (thr d L)))
    (cI : Buf (Elt F) ((thr d L).loc cc0_scratch0)) (k : Fin (k0_t1_loop L).trips) (r : Fin 5)
    (hin' : ∀ x, ((rowP L k r).view.read (Elt F) cI x).toNat < S10000x128.size gathers_S10000x128_S128x128.axis) :
    RowsAre m d L cI (5 * (k.val + 1) + r.val) (by have := trip_lt L k; have := r.isLt; omega)
      (b.view.read (Elt F) (b.view.writes (Elt F) fprev
        [⟨Rect.whole S128x128, SparseCore.gatherPayload gathers_S10000x128_S128x128 ((fAll).view.read (Elt F) (m (featLoc d)))
          (SparseCore.rows ((rowP L k r).view.read (Elt F) cI) rfl hin')⟩])) :=
  rowsAre_writes_at m d L b fprev cI _ _ (k0_off4 L k (BitVec.ofNat 32 r.val)) (k0_off4_inb L k r)
    ((k0_off4_eq L k r).trans (congrArg (fun j => ![j, 0]) (by omega))) hin'

end Close

end Cert.Kernel.Hand

end
-- ==== Proof.Bits.ScTileSlot.lean ====
import proofs.«207044_g16655883174581_fold_wed_m_811_16_alg».proof.Proof.Bits.ScTileDefs
import proofs.«207044_g16655883174581_fold_wed_m_811_16_alg».proof.Proof.Bits.ScTileWins
import Idealize.ShloMosaic.Lib.Transfers

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

variable (m : (ℓ : Loc nD τ sig) → Buf (Elt F) ℓ) (tbl : (d : Dev nD) → Buf (Elt F) (idxLoc d))

variable [FloatOps F]

section Slot

variable (d : Dev nD) (L : grid0.Coords)

theorem slot_close (b : Memref sig .scVector .vmem S128x128 .f32) (g : DmaSem sig) (i : Fin 5) (cI : Buf (Elt F) ((thr d L).loc cc0_scratch0))
    (k : Fin (k0_t1_loop L).trips) (r : Fin 5) (hk : k.val + 1 ≤ 7)
    (fd : Buf (Elt F) (b.view.loc (thr d L))) (x : Buf (Elt F) (b.view.loc (thr d L)))
    (hrows : RowsAre m d L cI (5 * (k.val + 1) + r.val) (by omega) (b.view.read (Elt F) fd)) :
    iprop(Transfers.Flight countersEmb (thr d L) (.dma g) (default : HIx 1) 524288
          iprop(((b.view.loc (thr d L) ↦[b.view.set]{fullShare} fd) ∗ (rowP L k r).view.loc (thr d L) ↦[(rowP L k r).view.set]{fullShare} cI)
            ∗ (fW).view.loc (thr d L) ↦[(fAll).view.set]{Transfers.shareTok (tileShare (cL L) (jL L)) 5 i} m (featLoc d))
        ∗ ((fW).view.loc (thr d L) ↦[Finset.univ \ (fAll).view.set]{Transfers.shareTok (tileShare (cL L) (jL L)) 5 i} m (featLoc d))
        ∗ (b.view.loc (thr d L) ↦[Finset.univ \ b.view.set]{fullShare} x))
      ⊢ slot m d L b g i cI (5 * (k.val + 1) + r.val) (by omega) := by
  have hlt : 5 * k.val + r.val + 5 < 40 := by omega
  have hj : 5 * (k.val + 1) + r.val < 40 := by omega

  have hpt : ((rowP L k r).view.loc (thr d L) ↦[(rowP L k r).view.set]{fullShare} cI : sProp 𝕄)
      = ((sI).view.loc (thr d L) ↦[(rowM (5 * (k.val + 1) + r.val) hj).view.set]{fullShare} cI) :=
    congrArg (fun s : Finset (Idx ((sI).view.loc (thr d L))) => ((sI).view.loc (thr d L) ↦[s]{fullShare} cI : sProp 𝕄))
      ((rowP_set d L k r).trans (rowSet_congr d L (by omega) hlt hj))
  unfold slot
  iintro ⟨HF, Hrest, Hx⟩
  iexists fd
  isplitr
  · ipureintro; exact hrows
  isplitl [HF]
  · iapply (Transfers.Flight_mono countersEmb (thr d L) ?_) $$ HF
    rw [hpt]
  isplitl [Hrest]; · iexact Hrest
  iexists x; iexact Hx

end Slot

end Cert.Kernel.Hand

end
-- ==== Proof.Bits.ScTile.lean ====
import proofs.«207044_g16655883174581_fold_wed_m_811_16_alg».proof.Proof.Bits.ScDefs
import proofs.«207044_g16655883174581_fold_wed_m_811_16_alg».proof.Proof.Bits.ScTileDefs
import proofs.«207044_g16655883174581_fold_wed_m_811_16_alg».proof.Proof.Bits.ScTileSets
import proofs.«207044_g16655883174581_fold_wed_m_811_16_alg».proof.Proof.Bits.ScTileVals
import proofs.«207044_g16655883174581_fold_wed_m_811_16_alg».proof.Proof.Bits.ScTileWins
import proofs.«207044_g16655883174581_fold_wed_m_811_16_alg».proof.Proof.Bits.ScTileClose
import proofs.«207044_g16655883174581_fold_wed_m_811_16_alg».proof.Proof.Bits.ScTileSlot
import proofs.«207044_g16655883174581_fold_wed_m_811_16_alg».proof.Proof.Gen.Kernel.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable (m : (ℓ : Loc nD τ sig) → Buf (Elt F) ℓ) (tbl : (d : Dev nD) → Buf (Elt F) (idxLoc d))

variable [FloatOps F]

section Task

variable (d : Dev nD) (L : grid0.Coords)

abbrev semList : List (SemLoc sig) :=
  [.dma cc0_scratch6.sem, .dma cc0_scratch7.sem, .dma cc0_scratch8.sem, .dma cc0_scratch9.sem, .dma cc0_scratch10.sem,
   .dma cc0_scratch11.sem, .dma cc0_scratch12.sem, .dma cc0_scratch13.sem, .dma cc0_scratch14.sem, .dma cc0_scratch15.sem,
   .dma cc0_scoped0.sem]
abbrev cellList : List (GSem nD τ sig) := (semList).map fun s => (thr d L, s)

omit [FloatOps F] in
theorem cellList_nodup : (cellList d L).Nodup :=
  List.Nodup.map (fun _ _ e => (Prod.mk.inj e).2) (by decide)

omit [FloatOps F] in
theorem cellList_sub : (cellList d L).toFinset ⊆ ownCells (thr d L) := by
  intro g hg
  obtain ⟨s, hs, rfl⟩ := List.mem_map.mp (List.mem_toFinset.mp hg)
  have hsc : ∀ s ∈ (semList : List (SemLoc sig)), s.isScoped .scVector = true := by decide
  exact mem_ownCells.mpr ⟨rfl, hsc s hs⟩

omit [FloatOps F] in
theorem ownSems0_V :
    (ownSems0 (thr d L) : sProp 𝕄)
      = iprop((semVal (thr d L, .dma cc0_scratch6.sem) 0 ∗ semVal (thr d L, .dma cc0_scratch7.sem) 0 ∗ semVal (thr d L, .dma cc0_scratch8.sem) 0
            ∗ semVal (thr d L, .dma cc0_scratch9.sem) 0 ∗ semVal (thr d L, .dma cc0_scratch10.sem) 0
            ∗ semVal (thr d L, .dma cc0_scratch11.sem) 0 ∗ semVal (thr d L, .dma cc0_scratch12.sem) 0 ∗ semVal (thr d L, .dma cc0_scratch13.sem) 0
            ∗ semVal (thr d L, .dma cc0_scratch14.sem) 0 ∗ semVal (thr d L, .dma cc0_scratch15.sem) 0 ∗ semVal (thr d L, .dma cc0_scoped0.sem) 0)
          ∗ bigSep (ownCells (thr d L) \ (cellList d L).toFinset) fun g => semVal g 0) := by
  unfold SparseCore.Cfg.ownSems0
  rw [SparseCore.bigSep_sdiff_split' (cellList_sub d L), bigSep_eq_bigSepL _ (cellList_nodup d L)]
  rfl

abbrev bufList : List (Ref sig .scVector) := [cc0_scratch0, cc0_scratch1, cc0_scratch2, cc0_scratch3, cc0_scratch4, cc0_scratch5]
abbrev refList : List (DevRef τ sig) := (bufList).map fun b => (Proc.scVector (cV L) (jV L)).devRef b

omit [FloatOps F] in
theorem refList_nodup : (refList L).Nodup :=
  List.Nodup.map (fun _ _ e => Proc.devRef_injective _ e) (by decide +revert)

omit [FloatOps F] in
theorem refList_sub : (refList L).toFinset ⊆ ownRefs (τ := τ) (.scVector (cV L) (jV L)) := by
  intro b hb
  obtain ⟨r, hr, rfl⟩ := List.mem_map.mp (List.mem_toFinset.mp hb)
  simp only [bufList, List.mem_cons, List.not_mem_nil, or_false] at hr
  rcases hr with rfl | rfl | rfl | rfl | rfl | rfl <;>
    exact SparseCore.Cfg.mem_ownRefs_of_owner (p := Proc.scVector (cV L) (jV L)) rfl

omit [FloatOps F] in
theorem ownBufs_V :
    (ownBufs (thr d L) : sProp 𝕄)
      = iprop(((∃ f, (thr d L).loc cc0_scratch0 ↦{fullShare} f) ∗ (∃ f, (thr d L).loc cc0_scratch1 ↦{fullShare} f) ∗ (∃ f, (thr d L).loc cc0_scratch2 ↦{fullShare} f)
            ∗ (∃ f, (thr d L).loc cc0_scratch3 ↦{fullShare} f) ∗ (∃ f, (thr d L).loc cc0_scratch4 ↦{fullShare} f) ∗ (∃ f, (thr d L).loc cc0_scratch5 ↦{fullShare} f))
          ∗ bigSep (ownRefs (τ := τ) (.scVector (cV L) (jV L)) \ (refList L).toFinset) fun b => iprop(∃ f, ((d, b) : Loc nD τ sig) ↦{fullShare} f)) := by
  unfold SparseCore.Cfg.ownBufs
  rw [SparseCore.bigSep_sdiff_split' (refList_sub L), bigSep_eq_bigSepL _ (refList_nodup L)]
  rfl

omit [FloatOps F] in

theorem rows_lt (pay : S40x128.Idx → Elt F .i32) (hpay : ∀ i, (pay i).toNat < 10000)
    (fs : Buf (Elt F) ((thr d L).loc cc0_scratch0))
    (off : Fin 2 → Nat) (h : ∀ a, off a + S1x128.size a ≤ S40x128.size a) (x : S128.Idx) :
    (View.read (Elt F) (((sI).slice (Rect.unit (s := S40x128) off S1x128.size h) (fun _ => rfl)).squeeze S128 squeezes_S1x128_S128).view
      (View.write (Elt F) (sI).view fs pay Finset.univ) x).toNat < 10000 := by
  rw [show View.write (Elt F) (sI).view fs pay Finset.univ = pay from View.write_whole_univ _ _ _]
  rw [show ∀ j, View.read (Elt F) (((sI).slice (Rect.unit (s := S40x128) off S1x128.size h) (fun _ => rfl)).squeeze S128 squeezes_S1x128_S128).view pay j
      = pay ((((sI).slice (Rect.unit (s := S40x128) off S1x128.size h) (fun _ => rfl)).squeeze S128 squeezes_S1x128_S128).view.emb j)
    from fun j => (View.read_apply _ _).trans (cast_eq _ _)]
  exact hpay _

omit [FloatOps F] in

theorem trips1 : ∀ L : grid0.Coords, (k0_t1_loop L).trips = 7 := by decide +kernel
omit [FloatOps F] in

theorem trips2 : ∀ L : grid0.Coords, (k0_t2_loop L).trips = 0 := by decide +kernel

set_option maxHeartbeats 4000000 in
theorem tile_body (hF : (K (F := F)).Facts) (hT : ∀ d' i, (tbl d' i).toNat < 10000)
    (O : CellTallies nD τ sig (HIx 1)) (W : Waits sig (HIx 1)) (hO : ∀ g, O g none = 0) :
    iprop(levAts (K (F := F)).L (K (F := F)).lev ∗ emp
        ∗ tileIn m tbl d (cL L) (jL L)
        ∗ scopedBufs (thr d L) ∗ scopedSems0 (thr d L) ∗ owes (thr d L) O W)
      ⊢ wp frame (wpE (defs₀ (F := F)) 𝒱₀ (thr d L) none) Set.univ
          (cc0_gather_k L fW (Memref.isWhole_whole _) iW (Memref.isWhole_whole _) oW (Memref.isWhole_whole _)
            sI (Memref.isWhole_whole _) b0 (Memref.isWhole_whole _) b1 (Memref.isWhole_whole _) b2 (Memref.isWhole_whole _)
            b3 (Memref.isWhole_whole _) b4 (Memref.isWhole_whole _)
            cc0_scratch6 cc0_scratch7 cc0_scratch8 cc0_scratch9 cc0_scratch10 cc0_scratch11 cc0_scratch12 cc0_scratch13 cc0_scratch14 cc0_scratch15 cc0_scoped0)
          fun _ => iprop(tileOut m tbl d (cL L) (jL L)
            ∗ scopedBufs (thr d L) ∗ scopedSems0 (thr d L)
            ∗ ∃ W', ⌜∀ p ∈ W', p ∈ W ∨ p.2 = none⌝ ∗ owes (thr d L) O W') := by
  simp only [cc0_gather_k_eq_skeleton]; unfold cc0_gather_k_skel
  rw [(K (F := F)).scopedBufs_V hF d (cV L) (jV L), SparseCore.Cfg.scopedSems0_V (Val := Elt F) d (cV L) (jV L), ownSems0_V, ownBufs_V]
  unfold tileIn featAt idxAt outRows
  iintro ⟨#Hlv, -, ⟨Hf, Hi, ⟨%fo, Ho⟩⟩, ⟨⟨⟨%fsI, HsI⟩, ⟨%f0, Hb0⟩, ⟨%f1, Hb1⟩, ⟨%f2, Hb2⟩, ⟨%f3, Hb3⟩, ⟨%f4, Hb4⟩⟩, Hbufs⟩,
    ⟨⟨Hg0, Hg1, Hg2, Hg3, Hg4, Hs0, Hs1, Hs2, Hs3, Hs4, Hc⟩, Hsems⟩, HO⟩
  ihave Hmw := (show levAts (K (F := F)).L (K (F := F)).lev ⊢ Transfers.MayWaits (thr d L) (default : HIx 1) O from
    (K (F := F)).mayWaits_none (thr := thr d L) hO) $$ Hlv

  ihave Hf' := (Transfers.pointsTo_toks_split (q := tileShare (cL L) (jL L)) 5) $$ Hf
  icases Hf' with ⟨Hfr, Hft⟩
  have e5 : (bigSep Finset.univ fun i : Fin 5 => (featLoc d ↦{Transfers.shareTok (tileShare (cL L) (jL L)) 5 i} m (featLoc d) : sProp 𝕄))
      = iprop((featLoc d ↦{Transfers.shareTok (tileShare (cL L) (jL L)) 5 0} m (featLoc d)) ∗ (featLoc d ↦{Transfers.shareTok (tileShare (cL L) (jL L)) 5 1} m (featLoc d))
          ∗ (featLoc d ↦{Transfers.shareTok (tileShare (cL L) (jL L)) 5 2} m (featLoc d)) ∗ (featLoc d ↦{Transfers.shareTok (tileShare (cL L) (jL L)) 5 3} m (featLoc d))
          ∗ (featLoc d ↦{Transfers.shareTok (tileShare (cL L) (jL L)) 5 4} m (featLoc d))) :=
    bigSep_univ_eq_bigSepL [(0 : Fin 5), 1, 2, 3, 4] (by decide) (by decide) _
  ihave Hft' := (Entails.of_eq e5) $$ Hft
  icases Hft' with ⟨Hf0, Hf1, Hf2, Hf3, Hf4⟩

  ihave Hi' := (Entails.of_eq (show (idxLoc d ↦{tileShare (cL L) (jL L)} tbl d : sProp 𝕄) = (iW).view.loc (thr d L) ↦{tileShare (cL L) (jL L)} tbl d from rfl)) $$ Hi
  ihave HsI' := (Entails.of_eq (show ((thr d L).loc cc0_scratch0 ↦{fullShare} fsI : sProp 𝕄) = (sI).view.loc (thr d L) ↦{fullShare} fsI from rfl)) $$ HsI
  ihave Hb0' := (Entails.of_eq (show ((thr d L).loc cc0_scratch1 ↦{fullShare} f0 : sProp 𝕄) = (b0).view.loc (thr d L) ↦{fullShare} f0 from rfl)) $$ Hb0
  ihave Hb1' := (Entails.of_eq (show ((thr d L).loc cc0_scratch2 ↦{fullShare} f1 : sProp 𝕄) = (b1).view.loc (thr d L) ↦{fullShare} f1 from rfl)) $$ Hb1
  ihave Hb2' := (Entails.of_eq (show ((thr d L).loc cc0_scratch3 ↦{fullShare} f2 : sProp 𝕄) = (b2).view.loc (thr d L) ↦{fullShare} f2 from rfl)) $$ Hb2
  ihave Hb3' := (Entails.of_eq (show ((thr d L).loc cc0_scratch4 ↦{fullShare} f3 : sProp 𝕄) = (b3).view.loc (thr d L) ↦{fullShare} f3 from rfl)) $$ Hb3
  ihave Hb4' := (Entails.of_eq (show ((thr d L).loc cc0_scratch5 ↦{fullShare} f4 : sProp 𝕄) = (b4).view.loc (thr d L) ↦{fullShare} f4 from rfl)) $$ Hb4
  ihave Hf0' := (Entails.of_eq (show (featLoc d ↦{Transfers.shareTok (tileShare (cL L) (jL L)) 5 0} m (featLoc d) : sProp 𝕄) = (fW).view.loc (thr d L) ↦{Transfers.shareTok (tileShare (cL L) (jL L)) 5 0} m (featLoc d) from rfl)) $$ Hf0
  ihave Hf1' := (Entails.of_eq (show (featLoc d ↦{Transfers.shareTok (tileShare (cL L) (jL L)) 5 1} m (featLoc d) : sProp 𝕄) = (fW).view.loc (thr d L) ↦{Transfers.shareTok (tileShare (cL L) (jL L)) 5 1} m (featLoc d) from rfl)) $$ Hf1
  ihave Hf2' := (Entails.of_eq (show (featLoc d ↦{Transfers.shareTok (tileShare (cL L) (jL L)) 5 2} m (featLoc d) : sProp 𝕄) = (fW).view.loc (thr d L) ↦{Transfers.shareTok (tileShare (cL L) (jL L)) 5 2} m (featLoc d) from rfl)) $$ Hf2
  ihave Hf3' := (Entails.of_eq (show (featLoc d ↦{Transfers.shareTok (tileShare (cL L) (jL L)) 5 3} m (featLoc d) : sProp 𝕄) = (fW).view.loc (thr d L) ↦{Transfers.shareTok (tileShare (cL L) (jL L)) 5 3} m (featLoc d) from rfl)) $$ Hf3
  ihave Hf4' := (Entails.of_eq (show (featLoc d ↦{Transfers.shareTok (tileShare (cL L) (jL L)) 5 4} m (featLoc d) : sProp 𝕄) = (fW).view.loc (thr d L) ↦{Transfers.shareTok (tileShare (cL L) (jL L)) 5 4} m (featLoc d) from rfl)) $$ Hf4
  sl_exec

  have hpay : ∀ i, (tile_body.sl.dma0 tbl d L i).toNat < 10000 := fun i => by
    unfold tile_body.sl.dma0
    show BitVec.toNat (View.read (Elt F) ((iW).slice (Rect.unit (s := S1320x128) (k0_off1 L) S40x128.size (k0_off1_inb L)) (fun _ => rfl)).view (tbl d) i) < 10000
    rw [show ∀ j, View.read (Elt F) ((iW).slice (Rect.unit (s := S1320x128) (k0_off1 L) S40x128.size (k0_off1_inb L)) (fun _ => rfl)).view (tbl d) j
        = tbl d (((iW).slice (Rect.unit (s := S1320x128) (k0_off1 L) S40x128.size (k0_off1_inb L)) (fun _ => rfl)).view.emb j)
      from fun j => (View.read_apply _ _).trans (cast_eq _ _)]
    exact hT d _
  have hin : ∀ (off : Fin 2 → Nat) (h : ∀ a, off a + S1x128.size a ≤ S40x128.size a) (x : S128.Idx),
      (View.read (Elt F) (((sI).slice (Rect.unit (s := S40x128) off S1x128.size h) (fun _ => rfl)).squeeze S128 squeezes_S1x128_S128).view
        (View.write (Elt F) (sI).view fsI (tile_body.sl.dma0 tbl d L) Finset.univ) x).toNat < 10000 :=
    fun off h x => rows_lt d L _ hpay fsI off h x

  have hcI : ∀ (j : Fin 40) (l : Fin 128),
      (View.write (Elt F) (sI).view fsI (tile_body.sl.dma0 tbl d L) Finset.univ) (ValueIdx.ix2 j l)
        = tbl d (ValueIdx.ix2 (⟨chunk0 L + j.val, by have := chunk0_le L; have := j.isLt; omega⟩ : Fin 1320) l) := fun j l => by
    rw [show View.write (Elt F) (sI).view fsI (tile_body.sl.dma0 tbl d L) Finset.univ = tile_body.sl.dma0 tbl d L from View.write_whole_univ _ _ _]
    exact fetched_apply tbl d L j l
  sl_exec

  have htr1 : (k0_t1_loop L).trips = 7 := trips1 L
  have htr2 : (k0_t2_loop L).trips = 0 := trips2 L
  sl_for (Inv m d L tbl O W (View.write (Elt F) (sI).view fsI (tile_body.sl.dma0 tbl d L) Finset.univ)) $$ [Hmw Hg0 Hf0' Hb0' Hg1 Hf1' Hb1' Hg2 Hf2' Hb2' Hg3 Hf3' Hb3' Hg4 Hf4' Hb4' HsI' Ho Hs0 Hs1 Hs2 Hs3 Hs4 HO]
  case region =>
    intro k _
    have hk7 : k.val < 7 := lt_of_lt_of_eq k.isLt htr1
    unfold Inv
    rw [dif_pos (show k.val ≤ 7 by omega), dif_pos (show k.val + 1 ≤ 7 by omega)]
    unfold InvOK slot flightD
    iintro ⟨Hmw, ⟨%fd0, %hr0, Hg0, Hf0, %x0, Hb0⟩, ⟨%fd1, %hr1, Hg1, Hf1, %x1, Hb1⟩, ⟨%fd2, %hr2, Hg2, Hf2, %x2, Hb2⟩,
      ⟨%fd3, %hr3, Hg3, Hf3, %x3, Hb3⟩, ⟨%fd4, %hr4, Hg4, Hf4, %x4, Hb4⟩, HsI, ⟨%fo', Ho, %hdone⟩, Hs0, Hs1, Hs2, Hs3, Hs4, %W', %hW', HO⟩

    obtain ⟨hw0, hw1, hw2, hw3, hw4⟩ := winP_chain L k hk7
    obtain ⟨hq0, hq1, hq2, hq3, hq4⟩ := rowP_chain d L k
    ihave Ho5 := (carve5 (F := F) fo' hw0 hw1 hw2 hw3 hw4) $$ Ho
    icases Ho5 with ⟨Hw0, Hw1, Hw2, Hw3, Hw4, Hor4⟩
    ihave Hw0' := (Entails.of_eq (show ((oTile L).view.loc (thr d L) ↦[(winP L k 0).view.set]{fullShare} fo' : sProp 𝕄)
      = (wP L k 0#32 (k0_off3_inb L k 0)).view.loc (thr d L) ↦[(wP L k 0#32 (k0_off3_inb L k 0)).view.set]{fullShare} fo' from rfl)) $$ Hw0
    ihave Hw1' := (Entails.of_eq (show ((oTile L).view.loc (thr d L) ↦[(winP L k 1).view.set]{fullShare} fo' : sProp 𝕄)
      = (wP L k 1#32 (k0_off3_inb L k 1)).view.loc (thr d L) ↦[(wP L k 1#32 (k0_off3_inb L k 1)).view.set]{fullShare} fo' from rfl)) $$ Hw1
    ihave Hw2' := (Entails.of_eq (show ((oTile L).view.loc (thr d L) ↦[(winP L k 2).view.set]{fullShare} fo' : sProp 𝕄)
      = (wP L k 2#32 (k0_off3_inb L k 2)).view.loc (thr d L) ↦[(wP L k 2#32 (k0_off3_inb L k 2)).view.set]{fullShare} fo' from rfl)) $$ Hw2
    ihave Hw3' := (Entails.of_eq (show ((oTile L).view.loc (thr d L) ↦[(winP L k 3).view.set]{fullShare} fo' : sProp 𝕄)
      = (wP L k 3#32 (k0_off3_inb L k 3)).view.loc (thr d L) ↦[(wP L k 3#32 (k0_off3_inb L k 3)).view.set]{fullShare} fo' from rfl)) $$ Hw3
    ihave Hw4' := (Entails.of_eq (show ((oTile L).view.loc (thr d L) ↦[(winP L k 4).view.set]{fullShare} fo' : sProp 𝕄)
      = (wP L k 4#32 (k0_off3_inb L k 4)).view.loc (thr d L) ↦[(wP L k 4#32 (k0_off3_inb L k 4)).view.set]{fullShare} fo' from rfl)) $$ Hw4
    ihave Hs5 := (carve5 (F := F) (ℓ := (sI).view.loc (thr d L)) (View.write (Elt F) (sI).view fsI (tile_body.sl.dma0 tbl d L) Finset.univ) hq0 hq1 hq2 hq3 hq4) $$ HsI
    icases Hs5 with ⟨Hq0, Hq1, Hq2, Hq3, Hq4, Hir4⟩
    ihave Hq0' := (Entails.of_eq (show ((sI).view.loc (thr d L) ↦[(rowP L k 0).view.set]{fullShare} (View.write (Elt F) (sI).view fsI (tile_body.sl.dma0 tbl d L) Finset.univ) : sProp 𝕄)
      = (rP L k 0#32 (k0_off4_inb L k 0)).view.loc (thr d L) ↦[(rP L k 0#32 (k0_off4_inb L k 0)).view.set]{fullShare} (View.write (Elt F) (sI).view fsI (tile_body.sl.dma0 tbl d L) Finset.univ) from rfl)) $$ Hq0
    ihave Hq1' := (Entails.of_eq (show ((sI).view.loc (thr d L) ↦[(rowP L k 1).view.set]{fullShare} (View.write (Elt F) (sI).view fsI (tile_body.sl.dma0 tbl d L) Finset.univ) : sProp 𝕄)
      = (rP L k 1#32 (k0_off4_inb L k 1)).view.loc (thr d L) ↦[(rP L k 1#32 (k0_off4_inb L k 1)).view.set]{fullShare} (View.write (Elt F) (sI).view fsI (tile_body.sl.dma0 tbl d L) Finset.univ) from rfl)) $$ Hq1
    ihave Hq2' := (Entails.of_eq (show ((sI).view.loc (thr d L) ↦[(rowP L k 2).view.set]{fullShare} (View.write (Elt F) (sI).view fsI (tile_body.sl.dma0 tbl d L) Finset.univ) : sProp 𝕄)
      = (rP L k 2#32 (k0_off4_inb L k 2)).view.loc (thr d L) ↦[(rP L k 2#32 (k0_off4_inb L k 2)).view.set]{fullShare} (View.write (Elt F) (sI).view fsI (tile_body.sl.dma0 tbl d L) Finset.univ) from rfl)) $$ Hq2
    ihave Hq3' := (Entails.of_eq (show ((sI).view.loc (thr d L) ↦[(rowP L k 3).view.set]{fullShare} (View.write (Elt F) (sI).view fsI (tile_body.sl.dma0 tbl d L) Finset.univ) : sProp 𝕄)
      = (rP L k 3#32 (k0_off4_inb L k 3)).view.loc (thr d L) ↦[(rP L k 3#32 (k0_off4_inb L k 3)).view.set]{fullShare} (View.write (Elt F) (sI).view fsI (tile_body.sl.dma0 tbl d L) Finset.univ) from rfl)) $$ Hq3
    ihave Hq4' := (Entails.of_eq (show ((sI).view.loc (thr d L) ↦[(rowP L k 4).view.set]{fullShare} (View.write (Elt F) (sI).view fsI (tile_body.sl.dma0 tbl d L) Finset.univ) : sProp 𝕄)
      = (rP L k 4#32 (k0_off4_inb L k 4)).view.loc (thr d L) ↦[(rP L k 4#32 (k0_off4_inb L k 4)).view.set]{fullShare} (View.write (Elt F) (sI).view fsI (tile_body.sl.dma0 tbl d L) Finset.univ) from rfl)) $$ Hq4
    sl_exec
    sl_step
    have hk8 : k.val + 1 ≤ 7 := by omega
    isplitl [Hmw]; · iexact Hmw
    isplitl [Hg0 Hf0 Hb0]
    · iapply ((slot_close m d L b0 cc0_scratch6.sem 0 _ k 0 hk8 _ x0
          (rowsAre_writes_P m d L b0 fd0 _ k 0 (hin _ _))).trans (Entails.of_eq (by unfold slot flightD; rfl))) $$ [Hg0 Hf0 Hb0]
      isplitl [Hg0]; · iexact Hg0
      isplitl [Hf0]; · iexact Hf0
      iexact Hb0
    isplitl [Hg1 Hf1 Hb1]
    · iapply ((slot_close m d L b1 cc0_scratch7.sem 1 _ k 1 hk8 _ x1
          (rowsAre_writes_P m d L b1 fd1 _ k 1 (hin _ _))).trans (Entails.of_eq (by unfold slot flightD; rfl))) $$ [Hg1 Hf1 Hb1]
      isplitl [Hg1]; · iexact Hg1
      isplitl [Hf1]; · iexact Hf1
      iexact Hb1
    isplitl [Hg2 Hf2 Hb2]
    · iapply ((slot_close m d L b2 cc0_scratch8.sem 2 _ k 2 hk8 _ x2
          (rowsAre_writes_P m d L b2 fd2 _ k 2 (hin _ _))).trans (Entails.of_eq (by unfold slot flightD; rfl))) $$ [Hg2 Hf2 Hb2]
      isplitl [Hg2]; · iexact Hg2
      isplitl [Hf2]; · iexact Hf2
      iexact Hb2
    isplitl [Hg3 Hf3 Hb3]
    · iapply ((slot_close m d L b3 cc0_scratch9.sem 3 _ k 3 hk8 _ x3
          (rowsAre_writes_P m d L b3 fd3 _ k 3 (hin _ _))).trans (Entails.of_eq (by unfold slot flightD; rfl))) $$ [Hg3 Hf3 Hb3]
      isplitl [Hg3]; · iexact Hg3
      isplitl [Hf3]; · iexact Hf3
      iexact Hb3
    isplitl [Hg4 Hf4 Hb4]
    · iapply ((slot_close m d L b4 cc0_scratch10.sem 4 _ k 4 hk8 _ x4
          (rowsAre_writes_P m d L b4 fd4 _ k 4 (hin _ _))).trans (Entails.of_eq (by unfold slot flightD; rfl))) $$ [Hg4 Hf4 Hb4]
      isplitl [Hg4]; · iexact Hg4
      isplitl [Hf4]; · iexact Hf4
      iexact Hb4
    isplitl [Hir4 Hg0_dst_and Hg1_dst_and Hg2_dst_and Hg3_dst_and Hg4_dst_and]
    · obtain ⟨j0, j1, j2, j3, j4⟩ := rowRet_chain d L k
      ihave Hr := (Entails.of_eq (congrArg (fun S => ((sI).view.loc (thr d L) ↦[S]{fullShare} (View.write (Elt F) (sI).view fsI (tile_body.sl.dma0 tbl d L) Finset.univ) : sProp 𝕄)) (rest_after_trip d L k))) $$ Hir4
      iapply (join5 j0 j1 j2 j3 j4 _ _ _ _ _ _ (View.write (Elt F) (sI).view fsI (tile_body.sl.dma0 tbl d L) Finset.univ) (fun _ _ => rfl) (fun _ _ => rfl) (fun _ _ => rfl) (fun _ _ => rfl) (fun _ _ => rfl) (fun _ _ => rfl)) $$ [Hg0_dst_and Hg1_dst_and Hg2_dst_and Hg3_dst_and Hg4_dst_and Hr]
      isplitl [Hg0_dst_and]; · iexact Hg0_dst_and
      isplitl [Hg1_dst_and]; · iexact Hg1_dst_and
      isplitl [Hg2_dst_and]; · iexact Hg2_dst_and
      isplitl [Hg3_dst_and]; · iexact Hg3_dst_and
      isplitl [Hg4_dst_and]; · iexact Hg4_dst_and
      iexact Hr
    isplitl [Hw0' Hw1' Hw2' Hw3' Hw4' Hor4]
    · obtain ⟨h, e0, e1, e2, e3, e4, er, hd⟩ := out_close m tbl d L _ hcI k hk7 fo' hdone _ _ _ _ _ hr0 hr1 hr2 hr3 hr4
      iexists h; isplitl [Hw0' Hw1' Hw2' Hw3' Hw4' Hor4]
      swap; · ipureintro; exact (show 5 * k.val + 5 = 5 * (k.val + 1) by omega) ▸ hd
      iapply (join5 (F := F) hw0 hw1 hw2 hw3 hw4 _ _ _ _ _ fo' h e0 e1 e2 e3 e4 er) $$ [Hw0' Hw1' Hw2' Hw3' Hw4' Hor4]
      isplitl [Hw0']; · iexact Hw0'
      isplitl [Hw1']; · iexact Hw1'
      isplitl [Hw2']; · iexact Hw2'
      isplitl [Hw3']; · iexact Hw3'
      isplitl [Hw4']; · iexact Hw4'
      iexact Hor4
    isplitl [Hs0]; · iexact Hs0
    isplitl [Hs1]; · iexact Hs1
    isplitl [Hs2]; · iexact Hs2
    isplitl [Hs3]; · iexact Hs3
    isplitl [Hs4]; · iexact Hs4
    iexists _; isplitr
    swap; · iexact HO
    ipureintro; intro p hp
    repeat (first | exact hW' p hp | (rcases Finset.mem_insert.mp hp with hq | hp; · exact .inr (hq ▸ rfl)))
  · unfold Inv
    rw [dif_pos (show (0 : Nat) ≤ 7 by omega)]
    unfold InvOK slot flightD
    isplitl [Hmw]; · iexact Hmw
    isplitl [Hg0 Hf0' Hb0']
    · iexists _; isplitr
      · ipureintro; exact rowsAre_writes m d L b0 f0 _ (5 * 0 + 0) (row_lt 0 0 (by omega) (by decide)) (hin _ _)
      isplitl [Hg0]; · iexact Hg0
      isplitl [Hf0']; · iexact Hf0'
      iexists _; iexact Hb0'
    isplitl [Hg1 Hf1' Hb1']
    · iexists _; isplitr
      · ipureintro; exact rowsAre_writes m d L b1 f1 _ (5 * 0 + 1) (row_lt 0 1 (by omega) (by decide)) (hin _ _)
      isplitl [Hg1]; · iexact Hg1
      isplitl [Hf1']; · iexact Hf1'
      iexists _; iexact Hb1'
    isplitl [Hg2 Hf2' Hb2']
    · iexists _; isplitr
      · ipureintro; exact rowsAre_writes m d L b2 f2 _ (5 * 0 + 2) (row_lt 0 2 (by omega) (by decide)) (hin _ _)
      isplitl [Hg2]; · iexact Hg2
      isplitl [Hf2']; · iexact Hf2'
      iexists _; iexact Hb2'
    isplitl [Hg3 Hf3' Hb3']
    · iexists _; isplitr
      · ipureintro; exact rowsAre_writes m d L b3 f3 _ (5 * 0 + 3) (row_lt 0 3 (by omega) (by decide)) (hin _ _)
      isplitl [Hg3]; · iexact Hg3
      isplitl [Hf3']; · iexact Hf3'
      iexists _; iexact Hb3'
    isplitl [Hg4 Hf4' Hb4']
    · iexists _; isplitr
      · ipureintro; exact rowsAre_writes m d L b4 f4 _ (5 * 0 + 4) (row_lt 0 4 (by omega) (by decide)) (hin _ _)
      isplitl [Hg4]; · iexact Hg4
      isplitl [Hf4']; · iexact Hf4'
      iexists _; iexact Hb4'
    isplitl [HsI']; · iexact HsI'
    isplitl [Ho]
    · iexists fo; isplitl [Ho]
      · iapply (Entails.of_eq (out_spelt_tile d L fo)); iexact Ho
      · ipureintro; intro y h1 h2; omega
    isplitl [Hs0]; · iexact Hs0
    isplitl [Hs1]; · iexact Hs1
    isplitl [Hs2]; · iexact Hs2
    isplitl [Hs3]; · iexact Hs3
    isplitl [Hs4]; · iexact Hs4
    iexists _; isplitr
    swap; · iexact HO
    ipureintro; intro p hp
    rcases Finset.mem_insert.mp hp with hp | hp
    · exact .inr (hp ▸ rfl)
    · exact .inl hp
  iintro %xacc HI

  ihave HI2 := (show Inv m d L tbl O W (View.write (Elt F) (sI).view fsI (tile_body.sl.dma0 tbl d L) Finset.univ)
      (Scf.trips (k0_t1_loop L).lb (k0_t1_loop L).ub (k0_t1_loop L).st) xacc
      ⊢ InvOK m d L tbl O W (View.write (Elt F) (sI).view fsI (tile_body.sl.dma0 tbl d L) Finset.univ) 7 (le_refl 7) from by
    rw [show Scf.trips (k0_t1_loop L).lb (k0_t1_loop L).ub (k0_t1_loop L).st = 7 from htr1]
    unfold Inv
    exact Entails.of_eq (dif_pos (le_refl 7))) $$ HI
  ihave HI3 := (show InvOK m d L tbl O W (View.write (Elt F) (sI).view fsI (tile_body.sl.dma0 tbl d L) Finset.univ) 7 (le_refl 7) ⊢ _ from by
    unfold InvOK slot flightD
    exact BI.Entails.refl _) $$ HI2
  icases HI3 with ⟨Hmw2, ⟨%fd0, %hr0, Hg0, Hf0, %x0, Hb0⟩, ⟨%fd1, %hr1, Hg1, Hf1, %x1, Hb1⟩, ⟨%fd2, %hr2, Hg2, Hf2, %x2, Hb2⟩,
    ⟨%fd3, %hr3, Hg3, Hf3, %x3, Hb3⟩, ⟨%fd4, %hr4, Hg4, Hf4, %x4, Hb4⟩, HsI, ⟨%fo', Ho, %hdone⟩, Hs0, Hs1, Hs2, Hs3, Hs4, %W', %hW', HO⟩

  obtain ⟨hw0, hw1, hw2, hw3, hw4⟩ := winE_chain L
  ihave Ho5 := (carve5 (F := F) fo' hw0 hw1 hw2 hw3 hw4) $$ Ho
  icases Ho5 with ⟨Hw0, Hw1, Hw2, Hw3, Hw4, Hor⟩
  ihave Hw0' := (Entails.of_eq (show ((oTile L).view.loc (thr d L) ↦[(winE L 0).view.set]{fullShare} fo' : sProp 𝕄)
      = (wE L 0#32 (k0_off9_inb L 0)).view.loc (thr d L) ↦[(wE L 0#32 (k0_off9_inb L 0)).view.set]{fullShare} fo' from rfl)) $$ Hw0
  ihave Hw1' := (Entails.of_eq (show ((oTile L).view.loc (thr d L) ↦[(winE L 1).view.set]{fullShare} fo' : sProp 𝕄)
      = (wE L 1#32 (k0_off9_inb L 1)).view.loc (thr d L) ↦[(wE L 1#32 (k0_off9_inb L 1)).view.set]{fullShare} fo' from rfl)) $$ Hw1
  ihave Hw2' := (Entails.of_eq (show ((oTile L).view.loc (thr d L) ↦[(winE L 2).view.set]{fullShare} fo' : sProp 𝕄)
      = (wE L 2#32 (k0_off9_inb L 2)).view.loc (thr d L) ↦[(wE L 2#32 (k0_off9_inb L 2)).view.set]{fullShare} fo' from rfl)) $$ Hw2
  ihave Hw3' := (Entails.of_eq (show ((oTile L).view.loc (thr d L) ↦[(winE L 3).view.set]{fullShare} fo' : sProp 𝕄)
      = (wE L 3#32 (k0_off9_inb L 3)).view.loc (thr d L) ↦[(wE L 3#32 (k0_off9_inb L 3)).view.set]{fullShare} fo' from rfl)) $$ Hw3
  ihave Hw4' := (Entails.of_eq (show ((oTile L).view.loc (thr d L) ↦[(winE L 4).view.set]{fullShare} fo' : sProp 𝕄)
      = (wE L 4#32 (k0_off9_inb L 4)).view.loc (thr d L) ↦[(wE L 4#32 (k0_off9_inb L 4)).view.set]{fullShare} fo' from rfl)) $$ Hw4
  sl_exec
  sl_step

  obtain ⟨ho, e0, e1, e2, e3, e4, er, hho⟩ := out_close_E m tbl d L _ hcI fo' hdone _ _ _ _ _ hr0 hr1 hr2 hr3 hr4
  ihave Ho6 := (join5 (F := F) hw0 hw1 hw2 hw3 hw4 _ _ _ _ _ fo' ho e0 e1 e2 e3 e4 er) $$ [Hw0' Hw1' Hw2' Hw3' Hw4' Hor]
  · isplitl [Hw0']; · iexact Hw0'
    isplitl [Hw1']; · iexact Hw1'
    isplitl [Hw2']; · iexact Hw2'
    isplitl [Hw3']; · iexact Hw3'
    isplitl [Hw4']; · iexact Hw4'
    iexact Hor
  ihave Ho7 := (Entails.of_eq ((done_all_tile m tbl d L ho hho).trans (out_spelt_tile d L (gathered m tbl d)).symm)) $$ Ho6

  ihave Hft := (Entails.of_eq e5.symm) $$ [Hf0 Hf1 Hf2 Hf3 Hf4]
  · isplitl [Hf0]; · iexact Hf0
    isplitl [Hf1]; · iexact Hf1
    isplitl [Hf2]; · iexact Hf2
    isplitl [Hf3]; · iexact Hf3
    iexact Hf4
  ihave Hf := (Transfers.pointsTo_toks_join (q := tileShare (cL L) (jL L)) 5) $$ [Hfr Hft]
  · isplitl [Hfr]; · iexact Hfr
    iexact Hft
  ihave Ht := (show iprop((featLoc d ↦{tileShare (cL L) (jL L)} m (featLoc d)) ∗ (idxLoc d ↦{tileShare (cL L) (jL L)} tbl d)
        ∗ (outLoc d ↦[tileSet (cL L) (jL L)]{fullShare} gathered m tbl d)) ⊢ (tileOut m tbl d (cL L) (jL L) : sProp 𝕄) from Entails.of_eq rfl) $$ [Hf Hi' Ho7]
  · isplitl [Hf]; · iexact Hf
    isplitl [Hi']; · iexact Hi'
    iexact Ho7

  obtain ⟨hq0, hq1, hq2, hq3, hq4⟩ := chain5 (α := Idx ((sI).view.loc (thr d L))) (S := Finset.univ) (fun r : Fin 5 => rowSet d L (5 * 7 + r.val) (by have := r.isLt; omega))
    (fun _ => Finset.subset_univ _) fun _ _ h => rows_disjoint d L _ _ fun e => h (Fin.ext (by omega))
  ihave HsIw := (join5 (F := F) (ℓ := (sI).view.loc (thr d L)) hq0 hq1 hq2 hq3 hq4 _ _ _ _ _ _ (View.write (Elt F) (sI).view fsI (tile_body.sl.dma0 tbl d L) Finset.univ)
      (fun _ _ => rfl) (fun _ _ => rfl) (fun _ _ => rfl) (fun _ _ => rfl) (fun _ _ => rfl) (fun _ _ => rfl)) $$ [Hg0_dst_and Hg1_dst_and Hg2_dst_and Hg3_dst_and Hg4_dst_and HsI]
  · isplitl [Hg0_dst_and]; · iexact Hg0_dst_and
    isplitl [Hg1_dst_and]; · iexact Hg1_dst_and
    isplitl [Hg2_dst_and]; · iexact Hg2_dst_and
    isplitl [Hg3_dst_and]; · iexact Hg3_dst_and
    isplitl [Hg4_dst_and]; · iexact Hg4_dst_and
    iexact HsI

  ihave Hb0w := (Entails.of_eq (show ((b0).view.loc (thr d L) ↦[(b0).view.set]{fullShare} fd0 : sProp 𝕄)
      = (thr d L).loc cc0_scratch1 ↦{fullShare} fd0 by rw [show (b0).view.set = Finset.univ from View.set_whole _])) $$ Hg0_dst
  ihave Hb1w := (Entails.of_eq (show ((b1).view.loc (thr d L) ↦[(b1).view.set]{fullShare} fd1 : sProp 𝕄)
      = (thr d L).loc cc0_scratch2 ↦{fullShare} fd1 by rw [show (b1).view.set = Finset.univ from View.set_whole _])) $$ Hg1_dst
  ihave Hb2w := (Entails.of_eq (show ((b2).view.loc (thr d L) ↦[(b2).view.set]{fullShare} fd2 : sProp 𝕄)
      = (thr d L).loc cc0_scratch3 ↦{fullShare} fd2 by rw [show (b2).view.set = Finset.univ from View.set_whole _])) $$ Hg2_dst
  ihave Hb3w := (Entails.of_eq (show ((b3).view.loc (thr d L) ↦[(b3).view.set]{fullShare} fd3 : sProp 𝕄)
      = (thr d L).loc cc0_scratch4 ↦{fullShare} fd3 by rw [show (b3).view.set = Finset.univ from View.set_whole _])) $$ Hg3_dst
  ihave Hb4w := (Entails.of_eq (show ((b4).view.loc (thr d L) ↦[(b4).view.set]{fullShare} fd4 : sProp 𝕄)
      = (thr d L).loc cc0_scratch5 ↦{fullShare} fd4 by rw [show (b4).view.set = Finset.univ from View.set_whole _])) $$ Hg4_dst
  isplitl [Ht]; · iexact Ht
  isplitl [HsIw Hb0w Hb1w Hb2w Hb3w Hb4w Hbufs]
  · isplitl [HsIw Hb0w Hb1w Hb2w Hb3w Hb4w]
    · isplitl [HsIw]; · iexists _; iexact HsIw
      isplitl [Hb0w]; · iexists _; iexact Hb0w
      isplitl [Hb1w]; · iexists _; iexact Hb1w
      isplitl [Hb2w]; · iexists _; iexact Hb2w
      isplitl [Hb3w]; · iexists _; iexact Hb3w
      iexists _; iexact Hb4w
    iexact Hbufs
  isplitl [Hg0 Hg1 Hg2 Hg3 Hg4 Hs0 Hs1 Hs2 Hs3 Hs4 Hc Hsems]
  · isplitl [Hg0 Hg1 Hg2 Hg3 Hg4 Hs0 Hs1 Hs2 Hs3 Hs4 Hc]
    · isplitl [Hg0]; · iexact Hg0
      isplitl [Hg1]; · iexact Hg1
      isplitl [Hg2]; · iexact Hg2
      isplitl [Hg3]; · iexact Hg3
      isplitl [Hg4]; · iexact Hg4
      isplitl [Hs0]; · iexact Hs0
      isplitl [Hs1]; · iexact Hs1
      isplitl [Hs2]; · iexact Hs2
      isplitl [Hs3]; · iexact Hs3
      isplitl [Hs4]; · iexact Hs4
      iexact Hc
    iexact Hsems

  iexists _; isplitr
  swap; · iexact HO
  ipureintro; intro p hp
  repeat (first | exact hW' p hp | (rcases Finset.mem_insert.mp hp with hq | hp; · exact .inr (hq ▸ rfl)))

end Task

end Cert.Kernel.Hand

end
-- ==== Proof.Bits.ScTileObl.lean ====
import proofs.«207044_g16655883174581_fold_wed_m_811_16_alg».proof.Proof.Bits.ScDefs
import proofs.«207044_g16655883174581_fold_wed_m_811_16_alg».proof.Proof.Bits.ScSplit
import proofs.«207044_g16655883174581_fold_wed_m_811_16_alg».proof.Proof.Bits.ScTileDefs
import proofs.«207044_g16655883174581_fold_wed_m_811_16_alg».proof.Proof.Bits.ScTile
import proofs.«207044_g16655883174581_fold_wed_m_811_16_alg».proof.Proof.Gen.Kernel.Skeleton
import Idealize.ShloMosaic.Lib.SparseCore.Launch
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable (m : (ℓ : Loc nD τ sig) → Buf (Elt F) ℓ) (tbl : (d : Dev nD) → Buf (Elt F) (idxLoc d))

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (coordsV c s)
          fW (Memref.isWhole_whole _) iW (Memref.isWhole_whole _) oW (Memref.isWhole_whole _) sI (Memref.isWhole_whole _)
          b0 (Memref.isWhole_whole _) b1 (Memref.isWhole_whole _) b2 (Memref.isWhole_whole _) b3 (Memref.isWhole_whole _) b4 (Memref.isWhole_whole _)
          cc0_scratch6 cc0_scratch7 cc0_scratch8 cc0_scratch9 cc0_scratch10 cc0_scratch11 cc0_scratch12 cc0_scratch13 cc0_scratch14 cc0_scratch15 cc0_scoped0) ⟨⟩ c s := rfl

omit [FloatOps F] in

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hT : ∀ d' i, (tbl d' i).toNat < 10000) : (K (F := F)).TileObl (D (F := F)) 𝒱 (P m tbl) v₀ 0 := by
  intro d c i O W hO _ _

  simp only [show (P m tbl).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m tbl d (coordsV ⟨_, hc.1⟩ ⟨_, hc.2⟩) hF hT O W hO).trans (wp_mono frame _ _ fun _ => obl_post)

end Cert.Kernel.Hand

end
-- ==== Proof.Bits.ScRun.lean ====
import proofs.«207044_g16655883174581_fold_wed_m_811_16_alg».proof.Proof.Bits.ScSplit
import proofs.«207044_g16655883174581_fold_wed_m_811_16_alg».proof.Proof.Bits.Vals
import proofs.«207044_g16655883174581_fold_wed_m_811_16_alg».proof.Proof.Bits.HostVals
import proofs.«207044_g16655883174581_fold_wed_m_811_16_alg».proof.Proof.Bits.TcBody
import proofs.«207044_g16655883174581_fold_wed_m_811_16_alg».proof.Proof.Bits.ScGhost
import proofs.«207044_g16655883174581_fold_wed_m_811_16_alg».proof.Proof.Bits.ScMain
import proofs.«207044_g16655883174581_fold_wed_m_811_16_alg».proof.Proof.Bits.ScTileObl
import Idealize.ShloMosaic.Lib.SparseCore.Launch

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

variable (m : (ℓ : Loc nD τ sig) → Buf (Elt F) ℓ) (ρ : Dev nD → PrngReg)

variable [FloatOps F]

theorem tbl_lt (hsrc : ∀ d : Dev nD, Cert.Args.SrcInRange (m ((SparseCore.T d).loc main_arg1))) (d : Dev nD)
    (i : Idx (idxLoc d)) : (tblOf m d i).toNat < 10000 :=
  after_v30_lt (V0 m d) (hsrc d) i

def QC : PUnit × MemSt nD τ sig (Elt F) → Prop := fun r => ∀ c : Dev nD,
  r.2.mem ((SparseCore.T c).loc main_v33) = resOf m c
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_arg3) = m ((SparseCore.T c).loc main_arg3)
    ∧ r.2.mem ((SparseCore.T c).loc main_arg4) = m ((SparseCore.T c).loc main_arg4)
    ∧ r.2.mem ((SparseCore.T c).loc main_arg5) = m ((SparseCore.T c).loc main_arg5)
    ∧ r.2.mem ((SparseCore.T c).loc main_arg6) = m ((SparseCore.T c).loc main_arg6)
    ∧ r.2.mem ((SparseCore.T c).loc main_arg7) = m ((SparseCore.T c).loc main_arg7)
    ∧ r.2.mem ((SparseCore.T c).loc main_arg8) = m ((SparseCore.T c).loc main_arg8)
    ∧ r.2.mem ((SparseCore.T c).loc main_arg9) = m ((SparseCore.T c).loc main_arg9)
    ∧ r.2.mem ((SparseCore.T c).loc main_arg10) = m ((SparseCore.T c).loc main_arg10)
    ∧ r.2.mem ((SparseCore.T c).loc main_arg11) = m ((SparseCore.T c).loc main_arg11)

theorem run_main [∀ e, Nonempty (Elt F e)]
    (hsrc : ∀ d : Dev nD, Cert.Args.SrcInRange (m ((SparseCore.T d).loc main_arg1))) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (tblOf m)) facts v₀
    (fun q hq => match q with | 0 => nomatch hq)
    (fun q _ => match q with | 0 => tileObl m (tblOf m) facts (tbl_lt m hsrc))
    (fun q _ => match q with | 0 => SparseCore.Cfg.VecSplit.of_plain (vecSplit m (tblOf m)))
    m ρ main (fun d => iprop(Pipeline.cellsGhost cfgs (EP (F := F)) 0 d ∗ Pipeline.toksInit cfgs (EP (F := F)) 0 d))
    (FIN m (resOf m)) (u₀ (F := F)) (sep_elim_left.trans (hu₀ m (tblOf m))) (hmain m ρ) (fq m (resOf m)) (hfin m (resOf m))
    (QC m) (fun _ h c => h c)

end Cert.Kernel.Hand

end
-- ==== Proof.lean ====
import proofs.«207044_g16655883174581_fold_wed_m_811_16_alg».proof.Defs
import proofs.«207044_g16655883174581_fold_wed_m_811_16_alg».proof.Proof.Gen.Kernel
import proofs.«207044_g16655883174581_fold_wed_m_811_16_alg».proof.Proof.Gen.Kernel.Skeleton
import proofs.«207044_g16655883174581_fold_wed_m_811_16_alg».proof.Proof.Gen.Kernel.Launch
import proofs.«207044_g16655883174581_fold_wed_m_811_16_alg».proof.Proof.Gen.Kernel.Points
import proofs.«207044_g16655883174581_fold_wed_m_811_16_alg».proof.Proof.Gen.KernelIdeal
import proofs.«207044_g16655883174581_fold_wed_m_811_16_alg».proof.Proof.Gen.KernelIdeal.Skeleton
import proofs.«207044_g16655883174581_fold_wed_m_811_16_alg».proof.Proof.Gen.KernelIdeal.Launch
import proofs.«207044_g16655883174581_fold_wed_m_811_16_alg».proof.Proof.Gen.KernelIdeal.Points
import proofs.«207044_g16655883174581_fold_wed_m_811_16_alg».proof.Proof.Gen.ReferenceIdeal
import proofs.«207044_g16655883174581_fold_wed_m_811_16_alg».proof.Proof.Gen.Pre_input_domain
import proofs.«207044_g16655883174581_fold_wed_m_811_16_alg».proof.Proof.Bridge
import proofs.«207044_g16655883174581_fold_wed_m_811_16_alg».proof.Proof.PreDecode
import proofs.«207044_g16655883174581_fold_wed_m_811_16_alg».proof.Proof.RefRun
import proofs.«207044_g16655883174581_fold_wed_m_811_16_alg».proof.Proof.KerValue
import proofs.«207044_g16655883174581_fold_wed_m_811_16_alg».proof.Proof.ScRun
import proofs.«207044_g16655883174581_fold_wed_m_811_16_alg».proof.Proof.Bits.ScRun
import Idealize.ShloMosaic.Adequacy
import Idealize.ShloMosaic.Init

noncomputable section

namespace Cert.Proof

open Idealize.ShloMosaic Idealize.SL.Sem

theorem frame_K : Cert.frame_Kernel (hKernel := Cert.Kernel.Gen.facts) (hPre_input_domain := Cert.Pre_input_domain.Gen.facts) :=
  fun m ρ hpre =>
    (θ_run Cert.Kernel.defs _ _).mono (fun _ h c => (h c).2)
      (Cert.Kernel.Hand.run_main (F := Bits) m ρ fun d => Cert.PreDecode.src_of_pre _ _ _ _ _ _ _ _ _ _ _ _ (hpre d))

theorem frame_KI : Cert.frame_KernelIdeal (hKernelIdeal := Cert.KernelIdeal.Gen.facts) (hPre_input_domain := Cert.Pre_input_domain.Gen.facts) :=
  fun m ρ hpre =>
    (θ_run Cert.KernelIdeal.defs _ _).mono (fun _ h c => (h c).2)
      (Cert.KernelIdeal.Hand.run_main (F := Ideal) m ρ fun d => Cert.PreDecode.src_of_pre _ _ _ _ _ _ _ _ _ _ _ _ (hpre d))

theorem frame_R : Cert.frame_ReferenceIdeal (hReferenceIdeal := Cert.ReferenceIdeal.Gen.facts) (hPre_input_domain := Cert.Pre_input_domain.Gen.facts) :=
  fun m ρ hpre =>
    (θ_run Cert.ReferenceIdeal.defs _ _).mono (fun _ h c => (h c).2)
      (Cert.RefRun.run m ρ fun c => Cert.PreDecode.src_of_pre _ _ _ _ _ _ _ _ _ _ _ _ (hpre c))

open Cert.KernelIdeal.Hand in
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  have ae : ∀ c, Cert.RefRun.arrays m' c = arraysOf (V0 m c) := fun c => by
    obtain ⟨h0, h1, h2, h3, h4, h5, h6, h7, h8, h9, h10, h11⟩ := hagree c
    unfold Cert.RefRun.arrays
    rw [h0, h1, h2, h3, h4, h5, h6, h7, h8, h9, h10, h11]
    rfl
  exact ⟨fun c => Cert.Args.ofMat (Cert.Spec.outKer (Cert.Args.params (arraysOf (V0 m c)))),
    (θ_run Cert.KernelIdeal.defs _ _).mono (fun _ h c => ⟨(h c).1.trans (kerValue m c), (h c).2⟩)
      (run_main (F := Ideal) m ρ fun d => Cert.PreDecode.src_of_pre _ _ _ _ _ _ _ _ _ _ _ _ (hpre d)),
    (θ_run Cert.ReferenceIdeal.defs _ _).mono
      (fun _ h c => ⟨(h c).1.trans (congrArg Cert.Args.ofMat
          ((congrArg (fun A => Cert.Spec.outRef (Cert.Args.params A)) (ae c)).trans
            (Cert.Spec.outKer_eq_outRef _ (Cert.PreDecode.real_of_pre (arraysOf (V0 m c)) (hpre c))).symm)), (h c).2⟩)
      (Cert.RefRun.run m' ρ' fun c => by
        rw [ae c]
        exact Cert.PreDecode.src_of_pre _ _ _ _ _ _ _ _ _ _ _ _ (hpre c))⟩

theorem claim : Cert.Claim := ⟨Cert.Kernel.Gen.facts, Cert.KernelIdeal.Gen.facts, Cert.ReferenceIdeal.Gen.facts, Cert.Pre_input_domain.Gen.facts,
  frame_K, frame_KI, frame_R, trivial, algebraic⟩

end Cert.Proof

end
